-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v93)) (v1 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_v89) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x384 : Shape := ⟨2, ![20000, 384]⟩
abbrev S8000x384 : Shape := ⟨2, ![8000, 384]⟩
abbrev S20000 : Shape := ⟨1, ![20000]⟩
abbrev S8000 : Shape := ⟨1, ![8000]⟩
abbrev S200000 : Shape := ⟨1, ![200000]⟩
abbrev S384x512 : Shape := ⟨2, ![384, 512]⟩
abbrev S512 : Shape := ⟨1, ![512]⟩
abbrev S20000x512 : Shape := ⟨2, ![20000, 512]⟩
abbrev S8000x512 : Shape := ⟨2, ![8000, 512]⟩
abbrev S512x512 : Shape := ⟨2, ![512, 512]⟩
abbrev S512x256 : Shape := ⟨2, ![512, 256]⟩
abbrev S256 : Shape := ⟨1, ![256]⟩
abbrev S_ : Shape := ⟨0, ![]⟩

class Facts : Prop where
  bcast_S_S20000x384 : S_.BroadcastsInDim S20000x384 (![] : Fin 0 → Fin S20000x384.rank)
  reducesTo_S20000x384_S_d0_1 : S20000x384.ReducesTo [0, 1] S_
  h_S_ : 0 < S_.numel
  bcast_S_S8000x384 : S_.BroadcastsInDim S8000x384 (![] : Fin 0 → Fin S8000x384.rank)
  reducesTo_S8000x384_S_d0_1 : S8000x384.ReducesTo [0, 1] S_
  bcast_S_S384x512 : S_.BroadcastsInDim S384x512 (![] : Fin 0 → Fin S384x512.rank)
  reducesTo_S384x512_S_d0_1 : S384x512.ReducesTo [0, 1] S_
  bcast_S_S512 : S_.BroadcastsInDim S512 (![] : Fin 0 → Fin S512.rank)
  reducesTo_S512_S_d0 : S512.ReducesTo [0] S_
  bcast_S_S20000x512 : S_.BroadcastsInDim S20000x512 (![] : Fin 0 → Fin S20000x512.rank)
  reducesTo_S20000x512_S_d0_1 : S20000x512.ReducesTo [0, 1] S_
  bcast_S_S8000x512 : S_.BroadcastsInDim S8000x512 (![] : Fin 0 → Fin S8000x512.rank)
  reducesTo_S8000x512_S_d0_1 : S8000x512.ReducesTo [0, 1] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S200000 : S_.BroadcastsInDim S200000 (![] : Fin 0 → Fin S200000.rank)
  reducesTo_S200000_S_d0 : S200000.ReducesTo [0] S_

variable [Facts]

def fn_part6 {F : FTy → Type} [FloatOps F] (main_arg4 : IVec S200000 32) (main_arg5 : IVec S200000 32) (main_v98 : IVec S_ 1) (main_v100 : IVec S200000 1) (main_v101 : IVec S200000 32) : IVec S_ 1 :=
  let main_v102 : IVec S200000 1 := cmpi .slt main_arg4 main_v101
  let main_v103 : IVec S200000 1 := andi main_v100 main_v102
  let main_c_40 : IVec S_ 1 := constantI S_ 1 1#1
  let main_v104 : IVec S_ 1 := (fun x v => Host.reduce IntOp.andi x v reducesTo_S200000_S_d0 h_S_) main_v103 main_c_40
  let main_v105 : IVec S_ 1 := andi main_v98 main_v104
  let main_c_41 : IVec S_ 32 := constantI S_ 32 0#32
  let main_v106 : IVec S200000 32 := broadcastInDim S200000 ![] bcast_S_S200000 main_c_41
  let main_v107 : IVec S200000 1 := cmpi .sge main_arg5 main_v106
  let main_c_42 : IVec S_ 32 := constantI S_ 32 8000#32
  let main_v108 : IVec S200000 32 := broadcastInDim S200000 ![] bcast_S_S200000 main_c_42
  let main_v109 : IVec S200000 1 := cmpi .slt main_arg5 main_v108
  let main_v110 : IVec S200000 1 := andi main_v107 main_v109
  let main_c_43 : IVec S_ 1 := constantI S_ 1 1#1
  let main_v111 : IVec S_ 1 := (fun x v => Host.reduce IntOp.andi x v reducesTo_S200000_S_d0 h_S_) main_v110 main_c_43
  let main_v112 : IVec S_ 1 := andi main_v105 main_v111
  main_v112

def fn_part5 {F : FTy → Type} [FloatOps F] (main_arg4 : IVec S200000 32) (main_arg5 : IVec S200000 32) (main_arg22 : FVec F S256 .f32) (main_arg23 : FVec F S512x256 .f32) (main_v83 : IVec S_ 1) (main_v84 : FVec F S512x256 .f32) (main_cst_32 : FVec F S_ .f32) : IVec S_ 1 :=
  let main_v85 : FVec F S512x256 .f32 := broadcastInDim S512x256 ![] bcast_S_S512x256 main_cst_32
  let main_v86 : IVec S512x256 1 := cmpf .olt main_v84 main_v85
  let main_c_33 : IVec S_ 1 := constantI S_ 1 1#1
  let main_v87 : IVec S_ 1 := (fun x v => Host.reduce IntOp.andi x v reducesTo_S512x256_S_d0_1 h_S_) main_v86 main_c_33
  let main_v88 : IVec S_ 1 := andi main_v83 main_v87
  let main_v89 : FVec F S256 .f32 := Host.absf main_arg22
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S512x256 .f32 := Host.absf main_arg23
  let main_cst_36 : FVec F S_ .f32 := constant S_ .f32 0x7F800000#32
  let main_v95 : FVec F S512x256 .f32 := broadcastInDim S512x256 ![] bcast_S_S512x256 main_cst_36
  let main_v96 : IVec S512x256 1 := cmpf .olt main_v94 main_v95
  let main_c_37 : IVec S_ 1 := constantI S_ 1 1#1
  let main_v97 : IVec S_ 1 := (fun x v => Host.reduce IntOp.andi x v reducesTo_S512x256_S_d0_1 h_S_) main_v96 main_c_37
  let main_v98 : IVec S_ 1 := andi main_v93 main_v97
  let main_c_38 : IVec S_ 32 := constantI S_ 32 0#32
  let main_v99 : IVec S200000 32 := broadcastInDim S200000 ![] bcast_S_S200000 main_c_38
  let main_v100 : IVec S200000 1 := cmpi .sge main_arg4 main_v99
  let main_c_39 : IVec S_ 32 := constantI S_ 32 20000#32
  let main_v101 : IVec S200000 32 := broadcastInDim S200000 ![] bcast_S_S200000 main_c_39
  fn_part6 (F := F) main_arg4 main_arg5 main_v98 main_v100 main_v101

def fn_part4 {F : FTy → Type} [FloatOps F] (main_arg4 : IVec S200000 32) (main_arg5 : IVec S200000 32) (main_arg18 : FVec F S512x256 .f32) (main_arg19 : FVec F S256 .f32) (main_arg20 : FVec F S512x256 .f32) (main_arg21 : FVec F S512x256 .f32) (main_arg22 : FVec F S256 .f32) (main_arg23 : FVec F S512x256 .f32) (main_v63 : IVec S_ 1) (main_v67 : IVec S_ 1) : IVec S_ 1 :=
  let main_v68 : IVec S_ 1 := andi main_v63 main_v67
  let main_v69 : FVec F S512x256 .f32 := Host.absf main_arg18
  let main_cst_26 : FVec F S_ .f32 := constant S_ .f32 0x7F800000#32
  let main_v70 : FVec F S512x256 .f32 := broadcastInDim S512x256 ![] bcast_S_S512x256 main_cst_26
  let main_v71 : IVec S512x256 1 := cmpf .olt main_v69 main_v70
  let main_c_27 : IVec S_ 1 := constantI S_ 1 1#1
  let main_v72 : IVec S_ 1 := (fun x v => Host.reduce IntOp.andi x v reducesTo_S512x256_S_d0_1 h_S_) main_v71 main_c_27
  let main_v73 : IVec S_ 1 := andi main_v68 main_v72
  let main_v74 : FVec F S256 .f32 := Host.absf main_arg19
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S512x256 .f32 := Host.absf main_arg20
  let main_cst_30 : FVec F S_ .f32 := constant S_ .f32 0x7F800000#32
  let main_v80 : FVec F S512x256 .f32 := broadcastInDim S512x256 ![] bcast_S_S512x256 main_cst_30
  let main_v81 : IVec S512x256 1 := cmpf .olt main_v79 main_v80
  let main_c_31 : IVec S_ 1 := constantI S_ 1 1#1
  let main_v82 : IVec S_ 1 := (fun x v => Host.reduce IntOp.andi x v reducesTo_S512x256_S_d0_1 h_S_) main_v81 main_c_31
  let main_v83 : IVec S_ 1 := andi main_v78 main_v82
  let main_v84 : FVec F S512x256 .f32 := Host.absf main_arg21
  let main_cst_32 : FVec F S_ .f32 := constant S_ .f32 0x7F800000#32
  fn_part5 (F := F) main_arg4 main_arg5 main_arg22 main_arg23 main_v83 main_v84 main_cst_32

def fn_part3 {F : FTy → Type} [FloatOps F] (main_arg4 : IVec S200000 32) (main_arg5 : IVec S200000 32) (main_arg15 : FVec F S512x512 .f32) (main_arg16 : FVec F S512 .f32) (main_arg17 : FVec F S512x512 .f32) (main_arg18 : FVec F S512x256 .f32) (main_arg19 : FVec F S256 .f32) (main_arg20 : FVec F S512x256 .f32) (main_arg21 : FVec F S512x256 .f32) (main_arg22 : FVec F S256 .f32) (main_arg23 : FVec F S512x256 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512x512 .f32 := Host.absf main_arg15
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg16
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x512 .f32 := Host.absf main_arg17
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg4 main_arg5 main_arg18 main_arg19 main_arg20 main_arg21 main_arg22 main_arg23 main_v63 main_v67

def fn_part2 {F : FTy → Type} [FloatOps F] (main_arg4 : IVec S200000 32) (main_arg5 : IVec S200000 32) (main_arg11 : FVec F S8000x512 .f32) (main_arg12 : FVec F S512x512 .f32) (main_arg13 : FVec F S512 .f32) (main_arg14 : FVec F S512x512 .f32) (main_arg15 : FVec F S512x512 .f32) (main_arg16 : FVec F S512 .f32) (main_arg17 : FVec F S512x512 .f32) (main_arg18 : FVec F S512x256 .f32) (main_arg19 : FVec F S256 .f32) (main_arg20 : FVec F S512x256 .f32) (main_arg21 : FVec F S512x256 .f32) (main_arg22 : FVec F S256 .f32) (main_arg23 : FVec F S512x256 .f32) (main_v33 : IVec S_ 1) : IVec S_ 1 :=
  let main_v34 : FVec F S8000x512 .f32 := Host.absf main_arg11
  let main_cst_12 : FVec F S_ .f32 := constant S_ .f32 0x7F800000#32
  let main_v35 : FVec F S8000x512 .f32 := broadcastInDim S8000x512 ![] bcast_S_S8000x512 main_cst_12
  let main_v36 : IVec S8000x512 1 := cmpf .olt main_v34 main_v35
  let main_c_13 : IVec S_ 1 := constantI S_ 1 1#1
  let main_v37 : IVec S_ 1 := (fun x v => Host.reduce IntOp.andi x v reducesTo_S8000x512_S_d0_1 h_S_) main_v36 main_c_13
  let main_v38 : IVec S_ 1 := andi main_v33 main_v37
  let main_v39 : FVec F S512x512 .f32 := Host.absf main_arg12
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg13
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg14
  let main_cst_18 : FVec F S_ .f32 := constant S_ .f32 0x7F800000#32
  let main_v50 : FVec F S512x512 .f32 := broadcastInDim S512x512 ![] bcast_S_S512x512 main_cst_18
  fn_part3 (F := F) main_arg4 main_arg5 main_arg15 main_arg16 main_arg17 main_arg18 main_arg19 main_arg20 main_arg21 main_arg22 main_arg23 main_v48 main_v49 main_v50

def fn_part1 {F : FTy → Type} [FloatOps F] (main_arg4 : IVec S200000 32) (main_arg5 : IVec S200000 32) (main_arg8 : FVec F S384x512 .f32) (main_arg9 : FVec F S512 .f32) (main_arg10 : FVec F S20000x512 .f32) (main_arg11 : FVec F S8000x512 .f32) (main_arg12 : FVec F S512x512 .f32) (main_arg13 : FVec F S512 .f32) (main_arg14 : FVec F S512x512 .f32) (main_arg15 : FVec F S512x512 .f32) (main_arg16 : FVec F S512 .f32) (main_arg17 : FVec F S512x512 .f32) (main_arg18 : FVec F S512x256 .f32) (main_arg19 : FVec F S256 .f32) (main_arg20 : FVec F S512x256 .f32) (main_arg21 : FVec F S512x256 .f32) (main_arg22 : FVec F S256 .f32) (main_arg23 : FVec F S512x256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S384x512 .f32 := Host.absf main_arg8
  let main_cst_6 : FVec F S_ .f32 := constant S_ .f32 0x7F800000#32
  let main_v20 : FVec F S384x512 .f32 := broadcastInDim S384x512 ![] bcast_S_S384x512 main_cst_6
  let main_v21 : IVec S384x512 1 := cmpf .olt main_v19 main_v20
  let main_c_7 : IVec S_ 1 := constantI S_ 1 1#1
  let main_v22 : IVec S_ 1 := (fun x v => Host.reduce IntOp.andi x v reducesTo_S384x512_S_d0_1 h_S_) main_v21 main_c_7
  let main_v23 : IVec S_ 1 := andi main_v18 main_v22
  let main_v24 : FVec F S512 .f32 := Host.absf main_arg9
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S20000x512 .f32 := Host.absf main_arg10
  let main_cst_10 : FVec F S_ .f32 := constant S_ .f32 0x7F800000#32
  let main_v30 : FVec F S20000x512 .f32 := broadcastInDim S20000x512 ![] bcast_S_S20000x512 main_cst_10
  let main_v31 : IVec S20000x512 1 := cmpf .olt main_v29 main_v30
  let main_c_11 : IVec S_ 1 := constantI S_ 1 1#1
  let main_v32 : IVec S_ 1 := (fun x v => Host.reduce IntOp.andi x v reducesTo_S20000x512_S_d0_1 h_S_) main_v31 main_c_11
  let main_v33 : IVec S_ 1 := andi main_v28 main_v32
  fn_part2 (F := F) main_arg4 main_arg5 main_arg11 main_arg12 main_arg13 main_arg14 main_arg15 main_arg16 main_arg17 main_arg18 main_arg19 main_arg20 main_arg21 main_arg22 main_arg23 main_v33

def fn {F : FTy → Type} [FloatOps F] (main_arg0 : FVec F S20000x384 .f32) (main_arg1 : FVec F S8000x384 .f32) (main_arg2 : IVec S20000 32) (main_arg3 : IVec S8000 32) (main_arg4 : IVec S200000 32) (main_arg5 : IVec S200000 32) (main_arg6 : FVec F S384x512 .f32) (main_arg7 : FVec F S512 .f32) (main_arg8 : FVec F S384x512 .f32) (main_arg9 : FVec F S512 .f32) (main_arg10 : FVec F S20000x512 .f32) (main_arg11 : FVec F S8000x512 .f32) (main_arg12 : FVec F S512x512 .f32) (main_arg13 : FVec F S512 .f32) (main_arg14 : FVec F S512x512 .f32) (main_arg15 : FVec F S512x512 .f32) (main_arg16 : FVec F S512 .f32) (main_arg17 : FVec F S512x512 .f32) (main_arg18 : FVec F S512x256 .f32) (main_arg19 : FVec F S256 .f32) (main_arg20 : FVec F S512x256 .f32) (main_arg21 : FVec F S512x256 .f32) (main_arg22 : FVec F S256 .f32) (main_arg23 : FVec F S512x256 .f32) : IVec S_ 1 :=
  let main_v0 : FVec F S20000x384 .f32 := Host.absf main_arg0
  let main_cst : FVec F S_ .f32 := constant S_ .f32 0x7F800000#32
  let main_v1 : FVec F S20000x384 .f32 := broadcastInDim S20000x384 ![] bcast_S_S20000x384 main_cst
  let main_v2 : IVec S20000x384 1 := cmpf .olt main_v0 main_v1
  let main_c : IVec S_ 1 := constantI S_ 1 1#1
  let main_v3 : IVec S_ 1 := (fun x v => Host.reduce IntOp.andi x v reducesTo_S20000x384_S_d0_1 h_S_) main_v2 main_c
  let main_v4 : FVec F S8000x384 .f32 := Host.absf main_arg1
  let main_cst_0 : FVec F S_ .f32 := constant S_ .f32 0x7F800000#32
  let main_v5 : FVec F S8000x384 .f32 := broadcastInDim S8000x384 ![] bcast_S_S8000x384 main_cst_0
  let main_v6 : IVec S8000x384 1 := cmpf .olt main_v4 main_v5
  let main_c_1 : IVec S_ 1 := constantI S_ 1 1#1
  let main_v7 : IVec S_ 1 := (fun x v => Host.reduce IntOp.andi x v reducesTo_S8000x384_S_d0_1 h_S_) main_v6 main_c_1
  let main_v8 : IVec S_ 1 := andi main_v3 main_v7
  let main_v9 : FVec F S384x512 .f32 := Host.absf main_arg6
  let main_cst_2 : FVec F S_ .f32 := constant S_ .f32 0x7F800000#32
  let main_v10 : FVec F S384x512 .f32 := broadcastInDim S384x512 ![] bcast_S_S384x512 main_cst_2
  let main_v11 : IVec S384x512 1 := cmpf .olt main_v9 main_v10
  let main_c_3 : IVec S_ 1 := constantI S_ 1 1#1
  let main_v12 : IVec S_ 1 := (fun x v => Host.reduce IntOp.andi x v reducesTo_S384x512_S_d0_1 h_S_) main_v11 main_c_3
  let main_v13 : IVec S_ 1 := andi main_v8 main_v12
  let main_v14 : FVec F S512 .f32 := Host.absf main_arg7
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S20000x384 : Shape := ⟨2, ![20000, 384]⟩
abbrev S8000x384 : Shape := ⟨2, ![8000, 384]⟩
abbrev S20000 : Shape := ⟨1, ![20000]⟩
abbrev S8000 : Shape := ⟨1, ![8000]⟩
abbrev S200000 : Shape := ⟨1, ![200000]⟩
abbrev S384x512 : Shape := ⟨2, ![384, 512]⟩
abbrev S512 : Shape := ⟨1, ![512]⟩
abbrev S20000x512 : Shape := ⟨2, ![20000, 512]⟩
abbrev S8000x512 : Shape := ⟨2, ![8000, 512]⟩
abbrev S512x512 : Shape := ⟨2, ![512, 512]⟩
abbrev S512x256 : Shape := ⟨2, ![512, 256]⟩
abbrev S256 : Shape := ⟨1, ![256]⟩
abbrev S_ : Shape := ⟨0, ![]⟩
abbrev S20000x1 : Shape := ⟨2, ![20000, 1]⟩
abbrev S1 : Shape := ⟨1, ![1]⟩
abbrev S1x1 : Shape := ⟨2, ![1, 1]⟩
abbrev S8000x1 : Shape := ⟨2, ![8000, 1]⟩
abbrev S1x512 : Shape := ⟨2, ![1, 512]⟩
abbrev S2000x384 : Shape := ⟨2, ![2000, 384]⟩
abbrev S2000x512 : Shape := ⟨2, ![2000, 512]⟩
abbrev S200000x1 : Shape := ⟨2, ![200000, 1]⟩
abbrev S8000x20480 : Shape := ⟨2, ![8000, 20480]⟩
abbrev S200000x2 : Shape := ⟨2, ![200000, 2]⟩
abbrev S20000x8192 : Shape := ⟨2, ![20000, 8192]⟩
abbrev S20480x512 : Shape := ⟨2, ![20480, 512]⟩
abbrev S8192x512 : Shape := ⟨2, ![8192, 512]⟩
abbrev S400x2048 : Shape := ⟨2, ![400, 2048]⟩
abbrev S2048x512 : Shape := ⟨2, ![2048, 512]⟩
abbrev S400x512 : Shape := ⟨2, ![400, 512]⟩
abbrev S1x256 : Shape := ⟨2, ![1, 256]⟩
abbrev S8000x256 : Shape := ⟨2, ![8000, 256]⟩
abbrev S400x256 : Shape := ⟨2, ![400, 256]⟩
abbrev S20000x256 : Shape := ⟨2, ![20000, 256]⟩

abbrev nBuf : Space → Nat
  | .hbm => 192
  | .vmem => 64
  | .smem => 0
  | _ => 0

abbrev hbmTy0_0 (i : Nat) : BufTy := match i % 128 with
  | 0 => ⟨S20000x384, .f32⟩
  | 1 => ⟨S8000x384, .f32⟩
  | 2 => ⟨S20000, .i32⟩
  | 3 => ⟨S8000, .i32⟩
  | 4 => ⟨S200000, .i32⟩
  | 5 => ⟨S200000, .i32⟩
  | 6 => ⟨S384x512, .f32⟩
  | 7 => ⟨S512, .f32⟩
  | 8 => ⟨S384x512, .f32⟩
  | 9 => ⟨S512, .f32⟩
  | 10 => ⟨S20000x512, .f32⟩
  | 11 => ⟨S8000x512, .f32⟩
  | 12 => ⟨S512x512, .f32⟩
  | 13 => ⟨S512, .f32⟩
  | 14 => ⟨S512x512, .f32⟩
  | 15 => ⟨S512x512, .f32⟩
  | 16 => ⟨S512, .f32⟩
  | 17 => ⟨S512x512, .f32⟩
  | 18 => ⟨S512x256, .f32⟩
  | 19 => ⟨S256, .f32⟩
  | 20 => ⟨S512x256, .f32⟩
  | 21 => ⟨S512x256, .f32⟩
  | 22 => ⟨S256, .f32⟩
  | 23 => ⟨S512x256, .f32⟩
  | 24 => ⟨S_, .i32⟩
  | 25 => ⟨S20000, .i32⟩
  | 26 => ⟨S20000, .i1⟩
  | 27 => ⟨S_, .i32⟩
  | 28 => ⟨S20000, .i32⟩
  | 29 => ⟨S20000, .i32⟩
  | 30 => ⟨S20000, .i32⟩
  | 31 => ⟨S20000x1, .i32⟩
  | 32 => ⟨S1, .i32⟩
  | 33 => ⟨S_, .i32⟩
  | 34 => ⟨S20000x1, .i32⟩
  | 35 => ⟨S20000x1, .i1⟩
  | 36 => ⟨S1x1, .i32⟩
  | 37 => ⟨S20000x1, .i32⟩
  | 38 => ⟨S20000x1, .i1⟩
  | 39 => ⟨S20000x1, .i1⟩
  | 40 => ⟨S_, .i1⟩
  | 41 => ⟨S20000, .i1⟩
  | 42 => ⟨S20000x512, .f32⟩
  | 43 => ⟨S20000x512, .i1⟩
  | 44 => ⟨S_, .f32⟩
  | 45 => ⟨S20000x512, .f32⟩
  | 46 => ⟨S20000x512, .f32⟩
  | 47 => ⟨S_, .i32⟩
  | 48 => ⟨S8000, .i32⟩
  | 49 => ⟨S8000, .i1⟩
  | 50 => ⟨S_, .i32⟩
  | 51 => ⟨S8000, .i32⟩
  | 52 => ⟨S8000, .i32⟩
  | 53 => ⟨S8000, .i32⟩
  | 54 => ⟨S8000x1, .i32⟩
  | 55 => ⟨S1, .i32⟩
  | 56 => ⟨S_, .i32⟩
  | 57 => ⟨S8000x1, .i32⟩
  | 58 => ⟨S8000x1, .i1⟩
  | 59 => ⟨S1x1, .i32⟩
  | 60 => ⟨S8000x1, .i32⟩
  | 61 => ⟨S8000x1, .i1⟩
  | 62 => ⟨S8000x1, .i1⟩
  | 63 => ⟨S_, .i1⟩
  | 64 => ⟨S8000, .i1⟩
  | 65 => ⟨S8000x512, .f32⟩
  | 66 => ⟨S8000x512, .i1⟩
  | 67 => ⟨S_, .f32⟩
  | 68 => ⟨S8000x512, .f32⟩
  | 69 => ⟨S8000x512, .f32⟩
  | 70 => ⟨S20000x384, .bf16⟩
  | 71 => ⟨S384x512, .bf16⟩
  | 72 => ⟨S20000x512, .bf16⟩
  | 73 => ⟨S1x512, .f32⟩
  | 74 => ⟨S20000x512, .bf16⟩
  | 75 => ⟨S8000x384, .bf16⟩
  | 76 => ⟨S384x512, .bf16⟩
  | 77 => ⟨S8000x512, .bf16⟩
  | 78 => ⟨S1x512, .f32⟩
  | 79 => ⟨S8000x512, .bf16⟩
  | 80 => ⟨S_, .f32⟩
  | 81 => ⟨S200000, .f32⟩
  | 82 => ⟨S_, .f32⟩
  | 83 => ⟨S8000, .f32⟩
  | 84 => ⟨S200000x1, .i32⟩
  | 85 => ⟨S8000, .f32⟩
  | 86 => ⟨S_, .f32⟩
  | 87 => ⟨S8000, .f32⟩
  | 88 => ⟨S8000, .f32⟩
  | 89 => ⟨S_, .i32⟩
  | 90 => ⟨S200000, .i32⟩
  | 91 => ⟨S200000, .i1⟩
  | 92 => ⟨S_, .i32⟩
  | 93 => ⟨S200000, .i32⟩
  | 94 => ⟨S200000, .i32⟩
  | 95 => ⟨S200000, .i32⟩
  | 96 => ⟨S200000x1, .i32⟩
  | 97 => ⟨S200000, .f32⟩
  | 98 => ⟨S_, .f32⟩
  | 99 => ⟨S200000, .f32⟩
  | 100 => ⟨S200000, .f32⟩
  | 101 => ⟨S_, .f32⟩
  | 102 => ⟨S8000x20480, .f32⟩
  | 103 => ⟨S_, .i32⟩
  | 104 => ⟨S200000, .i32⟩
  | 105 => ⟨S200000, .i1⟩
  | 106 => ⟨S_, .i32⟩
  | 107 => ⟨S200000, .i32⟩
  | 108 => ⟨S200000, .i32⟩
  | 109 => ⟨S200000, .i32⟩
  | 110 => ⟨S_, .i32⟩
  | 111 => ⟨S200000, .i32⟩
  | 112 => ⟨S200000, .i1⟩
  | 113 => ⟨S_, .i32⟩
  | 114 => ⟨S200000, .i32⟩
  | 115 => ⟨S200000, .i32⟩
  | 116 => ⟨S200000, .i32⟩
  | 117 => ⟨S200000x1, .i32⟩
  | 118 => ⟨S200000x1, .i32⟩
  | 119 => ⟨S200000x2, .i32⟩
  | 120 => ⟨S8000x20480, .f32⟩
  | 121 => ⟨S8000x20480, .bf16⟩
  | 122 => ⟨S_, .f32⟩
  | 123 => ⟨S200000, .f32⟩
  | 124 => ⟨S_, .f32⟩
  | 125 => ⟨S20000, .f32⟩
  | 126 => ⟨S200000x1, .i32⟩
  | 127 => ⟨S20000, .f32⟩
  | _ => ⟨S20000x384, .f32⟩

abbrev hbmTy0_1 (i : Nat) : BufTy := match i % 128 with
  | 0 => ⟨S_, .f32⟩
  | 1 => ⟨S20000, .f32⟩
  | 2 => ⟨S20000, .f32⟩
  | 3 => ⟨S_, .i32⟩
  | 4 => ⟨S200000, .i32⟩
  | 5 => ⟨S200000, .i1⟩
  | 6 => ⟨S_, .i32⟩
  | 7 => ⟨S200000, .i32⟩
  | 8 => ⟨S200000, .i32⟩
  | 9 => ⟨S200000, .i32⟩
  | 10 => ⟨S200000x1, .i32⟩
  | 11 => ⟨S200000, .f32⟩
  | 12 => ⟨S_, .f32⟩
  | 13 => ⟨S200000, .f32⟩
  | 14 => ⟨S200000, .f32⟩
  | 15 => ⟨S_, .f32⟩
  | 16 => ⟨S20000x8192, .f32⟩
  | 17 => ⟨S_, .i32⟩
  | 18 => ⟨S200000, .i32⟩
  | 19 => ⟨S200000, .i1⟩
  | 20 => ⟨S_, .i32⟩
  | 21 => ⟨S200000, .i32⟩
  | 22 => ⟨S200000, .i32⟩
  | 23 => ⟨S200000, .i32⟩
  | 24 => ⟨S_, .i32⟩
  | 25 => ⟨S200000, .i32⟩
  | 26 => ⟨S200000, .i1⟩
  | 27 => ⟨S_, .i32⟩
  | 28 => ⟨S200000, .i32⟩
  | 29 => ⟨S200000, .i32⟩
  | 30 => ⟨S200000, .i32⟩
  | 31 => ⟨S200000x1, .i32⟩
  | 32 => ⟨S200000x1, .i32⟩
  | 33 => ⟨S200000x2, .i32⟩
  | 34 => ⟨S20000x8192, .f32⟩
  | 35 => ⟨S20000x8192, .bf16⟩
  | 36 => ⟨S_, .i32⟩
  | 37 => ⟨S_, .bf16⟩
  | 38 => ⟨S20480x512, .bf16⟩
  | 39 => ⟨S_, .i32⟩
  | 40 => ⟨S_, .bf16⟩
  | 41 => ⟨S8192x512, .bf16⟩
  | 42 => ⟨S512x512, .bf16⟩
  | 43 => ⟨S512x512, .bf16⟩
  | 44 => ⟨S1x512, .f32⟩
  | 45 => ⟨S8000x512, .bf16⟩
  | 46 => ⟨S512x512, .bf16⟩
  | 47 => ⟨S512x512, .bf16⟩
  | 48 => ⟨S1x512, .f32⟩
  | 49 => ⟨S20000x512, .bf16⟩
  | 50 => ⟨S_, .i32⟩
  | 51 => ⟨S_, .bf16⟩
  | 52 => ⟨S20480x512, .bf16⟩
  | 53 => ⟨S_, .i32⟩
  | 54 => ⟨S_, .bf16⟩
  | 55 => ⟨S8192x512, .bf16⟩
  | 56 => ⟨S512x256, .bf16⟩
  | 57 => ⟨S512x256, .bf16⟩
  | 58 => ⟨S1x256, .f32⟩
  | 59 => ⟨S8000x256, .f32⟩
  | 60 => ⟨S512x256, .bf16⟩
  | 61 => ⟨S512x256, .bf16⟩
  | 62 => ⟨S1x256, .f32⟩
  | 63 => ⟨S20000x256, .f32⟩
  | _ => ⟨S20000x384, .f32⟩

abbrev hbmTy (i : Nat) : BufTy := match i / 128 with
  | 0 => hbmTy0_0 i
  | 1 => hbmTy0_1 i
  | _ => ⟨S20000x384, .f32⟩

abbrev bufTy : (tb : Table) → Fin (tcTables nBuf tb) → BufTy
  | .hbm, ⟨i, _⟩ => hbmTy i
  | .local _ .vmem, ⟨0, _⟩ => ⟨S2000x384, .bf16⟩
  | .local _ .vmem, ⟨1, _⟩ => ⟨S2000x384, .bf16⟩
  | .local _ .vmem, ⟨2, _⟩ => ⟨S384x512, .bf16⟩
  | .local _ .vmem, ⟨3, _⟩ => ⟨S2000x512, .bf16⟩
  | .local _ .vmem, ⟨4, _⟩ => ⟨S2000x512, .bf16⟩
  | .local _ .vmem, ⟨5, _⟩ => ⟨S1x512, .f32⟩
  | .local _ .vmem, ⟨6, _⟩ => ⟨S2000x512, .bf16⟩
  | .local _ .vmem, ⟨7, _⟩ => ⟨S2000x512, .bf16⟩
  | .local _ .vmem, ⟨8, _⟩ => ⟨S2000x384, .bf16⟩
  | .local _ .vmem, ⟨9, _⟩ => ⟨S2000x384, .bf16⟩
  | .local _ .vmem, ⟨10, _⟩ => ⟨S384x512, .bf16⟩
  | .local _ .vmem, ⟨11, _⟩ => ⟨S2000x512, .bf16⟩
  | .local _ .vmem, ⟨12, _⟩ => ⟨S2000x512, .bf16⟩
  | .local _ .vmem, ⟨13, _⟩ => ⟨S1x512, .f32⟩
  | .local _ .vmem, ⟨14, _⟩ => ⟨S2000x512, .bf16⟩
  | .local _ .vmem, ⟨15, _⟩ => ⟨S2000x512, .bf16⟩
  | .local _ .vmem, ⟨16, _⟩ => ⟨S400x2048, .bf16⟩
  | .local _ .vmem, ⟨17, _⟩ => ⟨S400x2048, .bf16⟩
  | .local _ .vmem, ⟨18, _⟩ => ⟨S2048x512, .bf16⟩
  | .local _ .vmem, ⟨19, _⟩ => ⟨S2048x512, .bf16⟩
  | .local _ .vmem, ⟨20, _⟩ => ⟨S400x512, .bf16⟩
  | .local _ .vmem, ⟨21, _⟩ => ⟨S400x512, .bf16⟩
  | .local _ .vmem, ⟨22, _⟩ => ⟨S512x512, .bf16⟩
  | .local _ .vmem, ⟨23, _⟩ => ⟨S512x512, .bf16⟩
  | .local _ .vmem, ⟨24, _⟩ => ⟨S1x512, .f32⟩
  | .local _ .vmem, ⟨25, _⟩ => ⟨S400x512, .bf16⟩
  | .local _ .vmem, ⟨26, _⟩ => ⟨S400x512, .bf16⟩
  | .local _ .vmem, ⟨27, _⟩ => ⟨S400x512, .f32⟩
  | .local _ .vmem, ⟨28, _⟩ => ⟨S400x2048, .bf16⟩
  | .local _ .vmem, ⟨29, _⟩ => ⟨S400x2048, .bf16⟩
  | .local _ .vmem, ⟨30, _⟩ => ⟨S2048x512, .bf16⟩
  | .local _ .vmem, ⟨31, _⟩ => ⟨S2048x512, .bf16⟩
  | .local _ .vmem, ⟨32, _⟩ => ⟨S400x512, .bf16⟩
  | .local _ .vmem, ⟨33, _⟩ => ⟨S400x512, .bf16⟩
  | .local _ .vmem, ⟨34, _⟩ => ⟨S512x512, .bf16⟩
  | .local _ .vmem, ⟨35, _⟩ => ⟨S512x512, .bf16⟩
  | .local _ .vmem, ⟨36, _⟩ => ⟨S1x512, .f32⟩
  | .local _ .vmem, ⟨37, _⟩ => ⟨S400x512, .bf16⟩
  | .local _ .vmem, ⟨38, _⟩ => ⟨S400x512, .bf16⟩
  | .local _ .vmem, ⟨39, _⟩ => ⟨S400x512, .f32⟩
  | .local _ .vmem, ⟨40, _⟩ => ⟨S400x2048, .bf16⟩
  | .local _ .vmem, ⟨41, _⟩ => ⟨S400x2048, .bf16⟩
  | .local _ .vmem, ⟨42, _⟩ => ⟨S2048x512, .bf16⟩
  | .local _ .vmem, ⟨43, _⟩ => ⟨S2048x512, .bf16⟩
  | .local _ .vmem, ⟨44, _⟩ => ⟨S400x512, .bf16⟩
  | .local _ .vmem, ⟨45, _⟩ => ⟨S400x512, .bf16⟩
  | .local _ .vmem, ⟨46, _⟩ => ⟨S512x256, .bf16⟩
  | .local _ .vmem, ⟨47, _⟩ => ⟨S512x256, .bf16⟩
  | .local _ .vmem, ⟨48, _⟩ => ⟨S1x256, .f32⟩
  | .local _ .vmem, ⟨49, _⟩ => ⟨S400x256, .f32⟩
  | .local _ .vmem, ⟨50, _⟩ => ⟨S400x256, .f32⟩
  | .local _ .vmem, ⟨51, _⟩ => ⟨S400x512, .f32⟩
  | .local _ .vmem, ⟨52, _⟩ => ⟨S400x2048, .bf16⟩
  | .local _ .vmem, ⟨53, _⟩ => ⟨S400x2048, .bf16⟩
  | .local _ .vmem, ⟨54, _⟩ => ⟨S2048x512, .bf16⟩
  | .local _ .vmem, ⟨55, _⟩ => ⟨S2048x512, .bf16⟩
  | .local _ .vmem, ⟨56, _⟩ => ⟨S400x512, .bf16⟩
  | .local _ .vmem, ⟨57, _⟩ => ⟨S400x512, .bf16⟩
  | .local _ .vmem, ⟨58, _⟩ => ⟨S512x256, .bf16⟩
  | .local _ .vmem, ⟨59, _⟩ => ⟨S512x256, .bf16⟩
  | .local _ .vmem, ⟨60, _⟩ => ⟨S1x256, .f32⟩
  | .local _ .vmem, ⟨61, _⟩ => ⟨S400x256, .f32⟩
  | .local _ .vmem, ⟨62, _⟩ => ⟨S400x256, .f32⟩
  | .local _ .vmem, ⟨63, _⟩ => ⟨S400x512, .f32⟩
  | _, _ => ⟨S20000x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v0 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v1 : Ref sig .tc := ⟨.hbm, 69, rfl⟩
abbrev main_v2 : Ref sig .tc := ⟨.hbm, 70, rfl⟩
abbrev main_v3 : Ref sig .tc := ⟨.hbm, 71, rfl⟩
abbrev main_v4 : Ref sig .tc := ⟨.hbm, 72, rfl⟩
abbrev main_v5 : Ref sig .tc := ⟨.hbm, 73, rfl⟩
abbrev main_v6 : Ref sig .tc := ⟨.hbm, 74, rfl⟩
abbrev main_v7 : Ref sig .tc := ⟨.hbm, 75, rfl⟩
abbrev main_v8 : Ref sig .tc := ⟨.hbm, 76, rfl⟩
abbrev main_v9 : Ref sig .tc := ⟨.hbm, 77, rfl⟩
abbrev main_v10 : Ref sig .tc := ⟨.hbm, 78, rfl⟩
abbrev main_v11 : Ref sig .tc := ⟨.hbm, 79, rfl⟩
abbrev main_cst : Ref sig .tc := ⟨.hbm, 80, rfl⟩
abbrev main_v12 : Ref sig .tc := ⟨.hbm, 81, rfl⟩
abbrev main_cst_0 : Ref sig .tc := ⟨.hbm, 82, rfl⟩
abbrev main_v13 : Ref sig .tc := ⟨.hbm, 83, rfl⟩
abbrev main_v14 : Ref sig .tc := ⟨.hbm, 84, rfl⟩
abbrev main_v15 : Ref sig .tc := ⟨.hbm, 85, rfl⟩
abbrev main_cst_1 : Ref sig .tc := ⟨.hbm, 86, rfl⟩
abbrev main_v16 : Ref sig .tc := ⟨.hbm, 87, rfl⟩
abbrev main_v17 : Ref sig .tc := ⟨.hbm, 88, rfl⟩
abbrev main_c : Ref sig .tc := ⟨.hbm, 89, rfl⟩
abbrev main_v18 : Ref sig .tc := ⟨.hbm, 90, rfl⟩
abbrev main_v19 : Ref sig .tc := ⟨.hbm, 91, rfl⟩
abbrev main_c_2 : Ref sig .tc := ⟨.hbm, 92, rfl⟩
abbrev main_v20 : Ref sig .tc := ⟨.hbm, 93, rfl⟩
abbrev main_v21 : Ref sig .tc := ⟨.hbm, 94, rfl⟩
abbrev main_v22 : Ref sig .tc := ⟨.hbm, 95, rfl⟩
abbrev main_v23 : Ref sig .tc := ⟨.hbm, 96, rfl⟩
abbrev main_v24 : Ref sig .tc := ⟨.hbm, 97, rfl⟩
abbrev main_cst_3 : Ref sig .tc := ⟨.hbm, 98, rfl⟩
abbrev main_v25 : Ref sig .tc := ⟨.hbm, 99, rfl⟩
abbrev main_v26 : Ref sig .tc := ⟨.hbm, 100, rfl⟩
abbrev main_cst_4 : Ref sig .tc := ⟨.hbm, 101, rfl⟩
abbrev main_v27 : Ref sig .tc := ⟨.hbm, 102, rfl⟩
abbrev main_c_5 : Ref sig .tc := ⟨.hbm, 103, rfl⟩
abbrev main_v28 : Ref sig .tc := ⟨.hbm, 104, rfl⟩
abbrev main_v29 : Ref sig .tc := ⟨.hbm, 105, rfl⟩
abbrev main_c_6 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_c_7 : Ref sig .tc := ⟨.hbm, 110, rfl⟩
abbrev main_v33 : Ref sig .tc := ⟨.hbm, 111, rfl⟩
abbrev main_v34 : Ref sig .tc := ⟨.hbm, 112, rfl⟩
abbrev main_c_8 : Ref sig .tc := ⟨.hbm, 113, rfl⟩
abbrev main_v35 : Ref sig .tc := ⟨.hbm, 114, rfl⟩
abbrev main_v36 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_v42 : Ref sig .tc := ⟨.hbm, 121, rfl⟩
abbrev main_cst_9 : Ref sig .tc := ⟨.hbm, 122, rfl⟩
abbrev main_v43 : Ref sig .tc := ⟨.hbm, 123, rfl⟩
abbrev main_cst_10 : Ref sig .tc := ⟨.hbm, 124, rfl⟩
abbrev main_v44 : Ref sig .tc := ⟨.hbm, 125, rfl⟩
abbrev main_v45 : Ref sig .tc := ⟨.hbm, 126, rfl⟩
abbrev main_v46 : Ref sig .tc := ⟨.hbm, 127, rfl⟩
abbrev main_cst_11 : Ref sig .tc := ⟨.hbm, 128, rfl⟩
abbrev main_v47 : Ref sig .tc := ⟨.hbm, 129, rfl⟩
abbrev main_v48 : Ref sig .tc := ⟨.hbm, 130, rfl⟩
abbrev main_c_12 : Ref sig .tc := ⟨.hbm, 131, rfl⟩
abbrev main_v49 : Ref sig .tc := ⟨.hbm, 132, rfl⟩
abbrev main_v50 : Ref sig .tc := ⟨.hbm, 133, rfl⟩
abbrev main_c_13 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_cst_14 : Ref sig .tc := ⟨.hbm, 140, rfl⟩
abbrev main_v56 : Ref sig .tc := ⟨.hbm, 141, rfl⟩
abbrev main_v57 : Ref sig .tc := ⟨.hbm, 142, rfl⟩
abbrev main_cst_15 : Ref sig .tc := ⟨.hbm, 143, rfl⟩
abbrev main_v58 : Ref sig .tc := ⟨.hbm, 144, rfl⟩
abbrev main_c_16 : Ref sig .tc := ⟨.hbm, 145, rfl⟩
abbrev main_v59 : Ref sig .tc := ⟨.hbm, 146, rfl⟩
abbrev main_v60 : Ref sig .tc := ⟨.hbm, 147, rfl⟩
abbrev main_c_17 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_c_18 : Ref sig .tc := ⟨.hbm, 152, rfl⟩
abbrev main_v64 : Ref sig .tc := ⟨.hbm, 153, rfl⟩
abbrev main_v65 : Ref sig .tc := ⟨.hbm, 154, rfl⟩
abbrev main_c_19 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_v70 : Ref sig .tc := ⟨.hbm, 160, rfl⟩
abbrev main_v71 : Ref sig .tc := ⟨.hbm, 161, rfl⟩
abbrev main_v72 : Ref sig .tc := ⟨.hbm, 162, rfl⟩
abbrev main_v73 : Ref sig .tc := ⟨.hbm, 163, rfl⟩
abbrev main_c_20 : Ref sig .tc := ⟨.hbm, 164, rfl⟩
abbrev main_call2_v0 : Ref sig .tc := ⟨.hbm, 165, rfl⟩
abbrev main_v74 : Ref sig .tc := ⟨.hbm, 166, rfl⟩
abbrev main_c_21 : Ref sig .tc := ⟨.hbm, 167, rfl⟩
abbrev main_call3_v0 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_c_22 : Ref sig .tc := ⟨.hbm, 178, rfl⟩
abbrev main_call4_v0 : Ref sig .tc := ⟨.hbm, 179, rfl⟩
abbrev main_v84 : Ref sig .tc := ⟨.hbm, 180, rfl⟩
abbrev main_c_23 : Ref sig .tc := ⟨.hbm, 181, rfl⟩
abbrev main_call5_v0 : Ref sig .tc := ⟨.hbm, 182, rfl⟩
abbrev main_v85 : Ref sig .tc := ⟨.hbm, 183, rfl⟩
abbrev main_v86 : Ref sig .tc := ⟨.hbm, 184, rfl⟩
abbrev main_v87 : Ref sig .tc := ⟨.hbm, 185, rfl⟩
abbrev main_v88 : Ref sig .tc := ⟨.hbm, 186, rfl⟩
abbrev main_v89 : Ref sig .tc := ⟨.hbm, 187, rfl⟩
abbrev main_v90 : Ref sig .tc := ⟨.hbm, 188, rfl⟩
abbrev main_v91 : Ref sig .tc := ⟨.hbm, 189, rfl⟩
abbrev main_v92 : Ref sig .tc := ⟨.hbm, 190, rfl⟩
abbrev main_v93 : Ref sig .tc := ⟨.hbm, 191, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc2_scratch0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg6_1 : Ref sig .tc := ⟨.vmem, 38, rfl⟩
abbrev cc3_scratch0 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg6_0 : Ref sig .tc := ⟨.vmem, 49, rfl⟩
abbrev cc4_stg6_1 : Ref sig .tc := ⟨.vmem, 50, rfl⟩
abbrev cc4_scratch0 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg2_1 : Ref sig .tc := ⟨.vmem, 57, rfl⟩
abbrev cc5_stg3_0 : Ref sig .tc := ⟨.vmem, 58, rfl⟩
abbrev cc5_stg4_0 : Ref sig .tc := ⟨.vmem, 59, rfl⟩
abbrev cc5_stg5_0 : Ref sig .tc := ⟨.vmem, 60, rfl⟩
abbrev cc5_stg6_0 : Ref sig .tc := ⟨.vmem, 61, rfl⟩
abbrev cc5_stg6_1 : Ref sig .tc := ⟨.vmem, 62, rfl⟩
abbrev cc5_scratch0 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem6_1 : DmaSem sig := 48
abbrev cc5_sem0_0 : DmaSem sig := 49
abbrev cc5_sem0_1 : DmaSem sig := 50
abbrev cc5_sem1_0 : DmaSem sig := 51
abbrev cc5_sem1_1 : DmaSem sig := 52
abbrev cc5_sem2_0 : DmaSem sig := 53
abbrev cc5_sem2_1 : DmaSem sig := 54
abbrev cc5_sem3_0 : DmaSem sig := 55
abbrev cc5_sem4_0 : DmaSem sig := 56
abbrev cc5_sem5_0 : DmaSem sig := 57
abbrev cc5_sem6_0 : DmaSem sig := 58
abbrev cc5_sem6_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![20, 10], ![false, false]⟩

def k2_cond2 (i : grid2.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S400x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S400x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S512x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S512x512 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S400x512 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev grid3 : Pipeline.Grid := ⟨2, ![50, 4], ![false, false]⟩

def k3_cond2 (i : grid3.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S400x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S400x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S512x512 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S512x512 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 2 → Memref sig .tc .vmem S400x512 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev grid4 : Pipeline.Grid := ⟨2, ![20, 10], ![false, false]⟩

def k4_cond2 (i : grid4.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S400x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S2048x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S400x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 1 → Memref sig .tc .vmem S512x256 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S512x256 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 2 → Memref sig .tc .vmem S400x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, false]

abbrev grid5 : Pipeline.Grid := ⟨2, ![50, 4], ![false, false]⟩

def k5_cond2 (i : grid5.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S400x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S2048x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S400x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 1 → Memref sig .tc .vmem S512x256 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S512x256 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 2 → Memref sig .tc .vmem S400x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, false]

class Facts₀ : Prop where
  bcast_S_S20000 : S_.BroadcastsInDim S20000 (![] : Fin 0 → Fin S20000.rank)
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  reducesTo_S20000x1_S20000_d1 : S20000x1.ReducesTo [1] S20000
  h_S_ : 0 < S_.numel
  bcast_S20000_S20000x512_0 : S20000.BroadcastsInDim S20000x512 (![0] : Fin 1 → Fin S20000x512.rank)
  bcast_S_S20000x512 : S_.BroadcastsInDim S20000x512 (![] : Fin 0 → Fin S20000x512.rank)
  bcast_S_S8000 : S_.BroadcastsInDim S8000 (![] : Fin 0 → Fin S8000.rank)
  bcast_S8000_S8000x1_0 : S8000.BroadcastsInDim S8000x1 (![0] : Fin 1 → Fin S8000x1.rank)
  bcast_S_S8000x1 : S_.BroadcastsInDim S8000x1 (![] : Fin 0 → Fin S8000x1.rank)
  bcast_S1x1_S8000x1_0_1 : S1x1.BroadcastsInDim S8000x1 (![0, 1] : Fin 2 → Fin S8000x1.rank)
  reducesTo_S8000x1_S8000_d1 : S8000x1.ReducesTo [1] S8000
  bcast_S8000_S8000x512_0 : S8000.BroadcastsInDim S8000x512 (![0] : Fin 1 → Fin S8000x512.rank)
  bcast_S_S8000x512 : S_.BroadcastsInDim S8000x512 (![] : Fin 0 → Fin S8000x512.rank)
  bitsLt_bf16_f32 : FTy.bits .bf16 < FTy.bits .f32
  shapeCasts_S512_S1x512 : S512.ShapeCasts S1x512
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  inb_S384x512_S384x512_0_0 : ∀ a, (![0, 0] : Fin 2 → Nat) a + S384x512.size a ≤ S384x512.size a
  h_S384x512 : 0 < S384x512.numel
  shapeCasts_S384x512_S384x512 : S384x512.ShapeCasts S384x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  packedbf16_S2000x512_S2000x512_0_0 : (Rect.unit (s := S2000x512) ![0, 0] S2000x512.size inb_S2000x512_S2000x512_0_0).PackedRows (EltTy.packing .bf16)
  bcast_S_S200000 : S_.BroadcastsInDim S200000 (![] : Fin 0 → Fin S200000.rank)
  bcast_S200000_S200000x1_0 : S200000.BroadcastsInDim S200000x1 (![0] : Fin 1 → Fin S200000x1.rank)
  bcast_S_S8000x20480 : S_.BroadcastsInDim S8000x20480 (![] : Fin 0 → Fin S8000x20480.rank)
  concatenates_S200000x1_S200000x1_S200000x2_d1 : Shape.Concatenates [S200000x1, S200000x1] S200000x2 1
  bcast_S_S20000x8192 : S_.BroadcastsInDim S20000x8192 (![] : Fin 0 → Fin S20000x8192.rank)
  pads_S20000x512_S20480x512_04800_000 : S20000x512.Pads (![0, 0] : Fin 2 → Nat) ![480, 0] ![0, 0] S20480x512
  pads_S8000x512_S8192x512_01920_000 : S8000x512.Pads (![0, 0] : Fin 2 → Nat) ![192, 0] ![0, 0] S8192x512
  inb_S400x512_S400x512_0_0 : ∀ a, (![0, 0] : Fin 2 → Nat) a + S400x512.size a ≤ S400x512.size a
  h_S400x512 : 0 < S400x512.numel
  shapeCasts_S400x512_S400x512 : S400x512.ShapeCasts S400x512
  inb_S400x2048_S400x2048_0_0 : ∀ a, (![0, 0] : Fin 2 → Nat) a + S400x2048.size a ≤ S400x2048.size a
  h_S400x2048 : 0 < S400x2048.numel
  shapeCasts_S400x2048_S400x2048 : S400x2048.ShapeCasts S400x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1x512_S400x512 : S1x512.Broadcasts S400x512
  packedbf16_S400x512_S400x512_0_0 : (Rect.unit (s := S400x512) ![0, 0] S400x512.size inb_S400x512_S400x512_0_0).PackedRows (EltTy.packing .bf16)
  shapeCasts_S256_S1x256 : S256.ShapeCasts S1x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S400x256_S400x256_0_0 : ∀ a, (![0, 0] : Fin 2 → Nat) a + S400x256.size a ≤ S400x256.size a
  h_S400x256 : 0 < S400x256.numel
  gather_S20000x512_S20000x1_S20000x512_1_0_n_n_0_1_1512_wf : GatherDims.WF S20000x512 S20000x1 S20000x512 [1] [0] [] [0] [] 1 ![1, 512]
  gather_S8000x512_S8000x1_S8000x512_1_0_n_n_0_1_1512_wf : GatherDims.WF S8000x512 S8000x1 S8000x512 [1] [0] [] [0] [] 1 ![1, 512]
  dot_S2000x384_S384x512_S2000x512_1_0_0_1_n_n_wf : DotDims.WF S2000x384 S384x512 S2000x512 [1] [0] [0] [1] [] []
  scatter_S8000_S200000x1_S200000_n_0_0_1_wf : ScatterDims.WF S8000 S200000x1 S200000 [] [0] [0] 1
  gather_S8000_S200000x1_S200000_n_0_n_n_0_1_1_wf : GatherDims.WF S8000 S200000x1 S200000 [] [0] [] [0] [] 1 ![1]
  scatter_S8000x20480_S200000x2_S200000_n_01_01_1_wf : ScatterDims.WF S8000x20480 S200000x2 S200000 [] [0, 1] [0, 1] 1
  scatter_S20000_S200000x1_S200000_n_0_0_1_wf : ScatterDims.WF S20000 S200000x1 S200000 [] [0] [0] 1
  gather_S20000_S200000x1_S200000_n_0_n_n_0_1_1_wf : GatherDims.WF S20000 S200000x1 S200000 [] [0] [] [0] [] 1 ![1]
  scatter_S20000x8192_S200000x2_S200000_n_01_01_1_wf : ScatterDims.WF S20000x8192 S200000x2 S200000 [] [0, 1] [0, 1] 1
  dot_S400x2048_S2048x512_S400x512_1_0_0_1_n_n_wf : DotDims.WF S400x2048 S2048x512 S400x512 [1] [0] [0] [1] [] []
  dot_S400x512_S512x512_S400x512_1_0_0_1_n_n_wf : DotDims.WF S400x512 S512x512 S400x512 [1] [0] [0] [1] [] []
  dot_S400x512_S512x256_S400x256_1_0_0_1_n_n_wf : DotDims.WF S400x512 S512x256 S400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x384.size a ≤ S20000x384.size a
  hwx0_0 : ∀ i : grid0.Coords, EltTy.bits .bf16 = 32 ∨ (Rect.block (s := S20000x384) S2000x384.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x512.size a ≤ S384x512.size a
  hwx0_1 : ∀ i : grid0.Coords, EltTy.bits .bf16 = 32 ∨ (Rect.block (s := S384x512) S384x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S20000x512.size a
  hwx0_2 : ∀ i : grid0.Coords, EltTy.bits .bf16 = 32 ∨ (Rect.block (s := S20000x512) S2000x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x512.size a ≤ S20000x512.size a
  hwx0_4 : ∀ i : grid0.Coords, EltTy.bits .bf16 = 32 ∨ (Rect.block (s := S20000x512) S2000x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x384.size a ≤ S8000x384.size a
  hwx1_0 : ∀ i : grid1.Coords, EltTy.bits .bf16 = 32 ∨ (Rect.block (s := S8000x384) S2000x384.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x512.size a ≤ S384x512.size a
  hwx1_1 : ∀ i : grid1.Coords, EltTy.bits .bf16 = 32 ∨ (Rect.block (s := S384x512) S384x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S8000x512.size a
  hwx1_2 : ∀ i : grid1.Coords, EltTy.bits .bf16 = 32 ∨ (Rect.block (s := S8000x512) S2000x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x512.size a ≤ S8000x512.size a
  hwx1_4 : ∀ i : grid1.Coords, EltTy.bits .bf16 = 32 ∨ (Rect.block (s := S8000x512) S2000x512.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x2048.size a ≤ S8000x20480.size a
  hwx2_0 : ∀ i : grid2.Coords, EltTy.bits .bf16 = 32 ∨ (Rect.block (s := S8000x20480) S400x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x512.size a ≤ S20480x512.size a
  hwx2_1 : ∀ i : grid2.Coords, EltTy.bits .bf16 = 32 ∨ (Rect.block (s := S20480x512) S2048x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x512.size a ≤ S8000x512.size a
  hwx2_2 : ∀ i : grid2.Coords, EltTy.bits .bf16 = 32 ∨ (Rect.block (s := S8000x512) S400x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .bf16 = 32 ∨ (Rect.block (s := S512x512) S512x512.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x512.size a ≤ S512x512.size a
  hwx2_4 : ∀ i : grid2.Coords, EltTy.bits .bf16 = 32 ∨ (Rect.block (s := S512x512) S512x512.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .f32 = 32 ∨ (Rect.block (s := S1x512) S1x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S400x512.size a ≤ S8000x512.size a
  hwx2_6 : ∀ i : grid2.Coords, EltTy.bits .bf16 = 32 ∨ (Rect.block (s := S8000x512) S400x512.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x2048.size a ≤ S20000x8192.size a
  hwx3_0 : ∀ i : grid3.Coords, EltTy.bits .bf16 = 32 ∨ (Rect.block (s := S20000x8192) S400x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x512.size a ≤ S8192x512.size a
  hwx3_1 : ∀ i : grid3.Coords, EltTy.bits .bf16 = 32 ∨ (Rect.block (s := S8192x512) S2048x512.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x512.size a ≤ S20000x512.size a
  hwx3_2 : ∀ i : grid3.Coords, EltTy.bits .bf16 = 32 ∨ (Rect.block (s := S20000x512) S400x512.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S512x512.size a
  hwx3_3 : ∀ i : grid3.Coords, EltTy.bits .bf16 = 32 ∨ (Rect.block (s := S512x512) S512x512.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x512.size a ≤ S512x512.size a
  hwx3_4 : ∀ i : grid3.Coords, EltTy.bits .bf16 = 32 ∨ (Rect.block (s := S512x512) S512x512.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x512.size a ≤ S1x512.size a
  hwx3_5 : ∀ i : grid3.Coords, EltTy.bits .f32 = 32 ∨ (Rect.block (s := S1x512) S1x512.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S400x512.size a ≤ S20000x512.size a
  hwx3_6 : ∀ i : grid3.Coords, EltTy.bits .bf16 = 32 ∨ (Rect.block (s := S20000x512) S400x512.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x2048.size a ≤ S8000x20480.size a
  hwx4_0 : ∀ i : grid4.Coords, EltTy.bits .bf16 = 32 ∨ (Rect.block (s := S8000x20480) S400x2048.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x512.size a ≤ S20480x512.size a
  hwx4_1 : ∀ i : grid4.Coords, EltTy.bits .bf16 = 32 ∨ (Rect.block (s := S20480x512) S2048x512.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x512.size a ≤ S8000x512.size a
  hwx4_2 : ∀ i : grid4.Coords, EltTy.bits .bf16 = 32 ∨ (Rect.block (s := S8000x512) S400x512.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x256.size a ≤ S512x256.size a
  hwx4_3 : ∀ i : grid4.Coords, EltTy.bits .bf16 = 32 ∨ (Rect.block (s := S512x256) S512x256.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S512x256.size a ≤ S512x256.size a
  hwx4_4 : ∀ i : grid4.Coords, EltTy.bits .bf16 = 32 ∨ (Rect.block (s := S512x256) S512x256.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S400x256.size a ≤ S8000x256.size a
  hwx4_6 : ∀ i : grid4.Coords, EltTy.bits .f32 = 32 ∨ (Rect.block (s := S8000x256) S400x256.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x2048.size a ≤ S20000x8192.size a
  hwx5_0 : ∀ i : grid5.Coords, EltTy.bits .bf16 = 32 ∨ (Rect.block (s := S20000x8192) S400x2048.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x512.size a ≤ S8192x512.size a
  hwx5_1 : ∀ i : grid5.Coords, EltTy.bits .bf16 = 32 ∨ (Rect.block (s := S8192x512) S2048x512.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S400x512.size a ≤ S20000x512.size a
  hwx5_2 : ∀ i : grid5.Coords, EltTy.bits .bf16 = 32 ∨ (Rect.block (s := S20000x512) S400x512.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S512x256.size a ≤ S512x256.size a
  hwx5_3 : ∀ i : grid5.Coords, EltTy.bits .bf16 = 32 ∨ (Rect.block (s := S512x256) S512x256.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S512x256.size a ≤ S512x256.size a
  hwx5_4 : ∀ i : grid5.Coords, EltTy.bits .bf16 = 32 ∨ (Rect.block (s := S512x256) S512x256.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S400x256.size a ≤ S20000x256.size a
  hwx5_6 : ∀ i : grid5.Coords, EltTy.bits .f32 = 32 ∨ (Rect.block (s := S20000x256) S400x256.size (cc5_transform_6 i) (hinb5_6 i)).WholeWords (EltTy.packing .f32)

variable [Facts₀]

def gather_S20000x512_S20000x1_S20000x512_1_0_n_n_0_1_1512 : GatherDims S20000x512 S20000x1 S20000x512 where
  offsetDims := [1]
  collapsedSliceDims := [0]
  operandBatchingDims := []
  startIndicesBatchingDims := []
  startIndexMap := [0]
  indexVectorDim := 1
  sliceSizes := ![1, 512]
  wf := gather_S20000x512_S20000x1_S20000x512_1_0_n_n_0_1_1512_wf
def gather_S8000x512_S8000x1_S8000x512_1_0_n_n_0_1_1512 : GatherDims S8000x512 S8000x1 S8000x512 where
  offsetDims := [1]
  collapsedSliceDims := [0]
  operandBatchingDims := []
  startIndicesBatchingDims := []
  startIndexMap := [0]
  indexVectorDim := 1
  sliceSizes := ![1, 512]
  wf := gather_S8000x512_S8000x1_S8000x512_1_0_n_n_0_1_1512_wf
def dot_S2000x384_S384x512_S2000x512_1_0_0_1_n_n : DotDims S2000x384 S384x512 S2000x512 where
  lhsContracting := [1]
  rhsContracting := [0]
  lhsNonContracting := [0]
  rhsNonContracting := [1]
  lhsBatch := []
  rhsBatch := []
  wf := dot_S2000x384_S384x512_S2000x512_1_0_0_1_n_n_wf
def scatter_S8000_S200000x1_S200000_n_0_0_1 : ScatterDims S8000 S200000x1 S200000 where
  updateWindowDims := []
  insertedWindowDims := [0]
  scatterDimsToOperandDims := [0]
  indexVectorDim := 1
  wf := scatter_S8000_S200000x1_S200000_n_0_0_1_wf
def gather_S8000_S200000x1_S200000_n_0_n_n_0_1_1 : GatherDims S8000 S200000x1 S200000 where
  offsetDims := []
  collapsedSliceDims := [0]
  operandBatchingDims := []
  startIndicesBatchingDims := []
  startIndexMap := [0]
  indexVectorDim := 1
  sliceSizes := ![1]
  wf := gather_S8000_S200000x1_S200000_n_0_n_n_0_1_1_wf
def scatter_S8000x20480_S200000x2_S200000_n_01_01_1 : ScatterDims S8000x20480 S200000x2 S200000 where
  updateWindowDims := []
  insertedWindowDims := [0, 1]
  scatterDimsToOperandDims := [0, 1]
  indexVectorDim := 1
  wf := scatter_S8000x20480_S200000x2_S200000_n_01_01_1_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def gather_S20000_S200000x1_S200000_n_0_n_n_0_1_1 : GatherDims S20000 S200000x1 S200000 where
  offsetDims := []
  collapsedSliceDims := [0]
  operandBatchingDims := []
  startIndicesBatchingDims := []
  startIndexMap := [0]
  indexVectorDim := 1
  sliceSizes := ![1]
  wf := gather_S20000_S200000x1_S200000_n_0_n_n_0_1_1_wf
def scatter_S20000x8192_S200000x2_S200000_n_01_01_1 : ScatterDims S20000x8192 S200000x2 S200000 where
  updateWindowDims := []
  insertedWindowDims := [0, 1]
  scatterDimsToOperandDims := [0, 1]
  indexVectorDim := 1
  wf := scatter_S20000x8192_S200000x2_S200000_n_01_01_1_wf
def dot_S400x2048_S2048x512_S400x512_1_0_0_1_n_n : DotDims S400x2048 S2048x512 S400x512 where
  lhsContracting := [1]
  rhsContracting := [0]
  lhsNonContracting := [0]
  rhsNonContracting := [1]
  lhsBatch := []
  rhsBatch := []
  wf := dot_S400x2048_S2048x512_S400x512_1_0_0_1_n_n_wf
def dot_S400x512_S512x512_S400x512_1_0_0_1_n_n : DotDims S400x512 S512x512 S400x512 where
  lhsContracting := [1]
  rhsContracting := [0]
  lhsNonContracting := [0]
  rhsNonContracting := [1]
  lhsBatch := []
  rhsBatch := []
  wf := dot_S400x512_S512x512_S400x512_1_0_0_1_n_n_wf
def dot_S400x512_S512x256_S400x256_1_0_0_1_n_n : DotDims S400x512 S512x256 S400x256 where
  lhsContracting := [1]
  rhsContracting := [0]
  lhsNonContracting := [0]
  rhsNonContracting := [1]
  lhsBatch := []
  rhsBatch := []
  wf := dot_S400x512_S512x256_S400x256_1_0_0_1_n_n_wf

abbrev win0_0 : Pipeline.Window sig grid0 :=
  Pipeline.Window.ofSpec (Memref.whole main_v2) S2000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S384x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v7) S2000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S384x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S2000x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S2000x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S400x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S2048x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S400x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v76) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v77) S512x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v78) S1x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v79) S400x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v73) S400x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S2048x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S400x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v80) S512x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v81) S512x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v82) S1x512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v83) S400x512.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

abbrev win4_0 : Pipeline.Window sig grid4 :=
  Pipeline.Window.ofSpec (Memref.whole main_v42) S400x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v84) S2048x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v79) S400x512.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v86) S512x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v87) S512x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v88) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v89) S400x256.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun _ => false | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v73) S400x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v85) S2048x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v83) S400x512.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v90) S512x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v91) S512x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v92) S1x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v93) S400x256.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev idle5 : Fin 7 → grid5.Coords → Bool := fun | 0 => fun _ => false | 1 => fun _ => false | 2 => fun _ => false | 3 => fun _ => false | 4 => fun _ => false | 5 => fun _ => false | 6 => fun i => !(k5_cond2 i == 1#1) | ⟨_ + 7, h⟩ => absurd h (Nat.not_lt.2 (Nat.le_add_left _ _))

class Facts : Prop extends Facts₀ where

variable [Facts]
-- ==== ReferenceIdeal.lean ====
abbrev S20000x384 : Shape := ⟨2, ![20000, 384]⟩
abbrev S8000x384 : Shape := ⟨2, ![8000, 384]⟩
abbrev S20000 : Shape := ⟨1, ![20000]⟩
abbrev S8000 : Shape := ⟨1, ![8000]⟩
abbrev S200000 : Shape := ⟨1, ![200000]⟩
abbrev S384x512 : Shape := ⟨2, ![384, 512]⟩
abbrev S512 : Shape := ⟨1, ![512]⟩
abbrev S20000x512 : Shape := ⟨2, ![20000, 512]⟩
abbrev S8000x512 : Shape := ⟨2, ![8000, 512]⟩
abbrev S512x512 : Shape := ⟨2, ![512, 512]⟩
abbrev S512x256 : Shape := ⟨2, ![512, 256]⟩
abbrev S256 : Shape := ⟨1, ![256]⟩
abbrev S1x512 : Shape := ⟨2, ![1, 512]⟩
abbrev S_ : Shape := ⟨0, ![]⟩
abbrev S20000x1 : Shape := ⟨2, ![20000, 1]⟩
abbrev S1 : Shape := ⟨1, ![1]⟩
abbrev S1x1 : Shape := ⟨2, ![1, 1]⟩
abbrev S8000x1 : Shape := ⟨2, ![8000, 1]⟩
abbrev S200000x1 : Shape := ⟨2, ![200000, 1]⟩
abbrev S200000x512 : Shape := ⟨2, ![200000, 512]⟩
abbrev S8000x256 : Shape := ⟨2, ![8000, 256]⟩
abbrev S1x256 : Shape := ⟨2, ![1, 256]⟩
abbrev S20000x256 : Shape := ⟨2, ![20000, 256]⟩

abbrev nBuf : Space → Nat
  | .hbm => 266
  | .vmem => 0
  | .smem => 0
  | _ => 0

abbrev hbmTy0_0 (i : Nat) : BufTy := match i % 128 with
  | 0 => ⟨S20000x384, .f32⟩
  | 1 => ⟨S8000x384, .f32⟩
  | 2 => ⟨S20000, .i32⟩
  | 3 => ⟨S8000, .i32⟩
  | 4 => ⟨S200000, .i32⟩
  | 5 => ⟨S200000, .i32⟩
  | 6 => ⟨S384x512, .f32⟩
  | 7 => ⟨S512, .f32⟩
  | 8 => ⟨S384x512, .f32⟩
  | 9 => ⟨S512, .f32⟩
  | 10 => ⟨S20000x512, .f32⟩
  | 11 => ⟨S8000x512, .f32⟩
  | 12 => ⟨S512x512, .f32⟩
  | 13 => ⟨S512, .f32⟩
  | 14 => ⟨S512x512, .f32⟩
  | 15 => ⟨S512x512, .f32⟩
  | 16 => ⟨S512, .f32⟩
  | 17 => ⟨S512x512, .f32⟩
  | 18 => ⟨S512x256, .f32⟩
  | 19 => ⟨S256, .f32⟩
  | 20 => ⟨S512x256, .f32⟩
  | 21 => ⟨S512x256, .f32⟩
  | 22 => ⟨S256, .f32⟩
  | 23 => ⟨S512x256, .f32⟩
  | 24 => ⟨S20000x512, .f32⟩
  | 25 => ⟨S1x512, .f32⟩
  | 26 => ⟨S20000x512, .f32⟩
  | 27 => ⟨S20000x512, .f32⟩
  | 28 => ⟨S_, .i32⟩
  | 29 => ⟨S20000, .i32⟩
  | 30 => ⟨S20000, .i1⟩
  | 31 => ⟨S_, .i32⟩
  | 32 => ⟨S20000, .i32⟩
  | 33 => ⟨S20000, .i32⟩
  | 34 => ⟨S20000, .i32⟩
  | 35 => ⟨S20000x1, .i32⟩
  | 36 => ⟨S1, .i32⟩
  | 37 => ⟨S_, .i32⟩
  | 38 => ⟨S20000x1, .i32⟩
  | 39 => ⟨S20000x1, .i1⟩
  | 40 => ⟨S1x1, .i32⟩
  | 41 => ⟨S20000x1, .i32⟩
  | 42 => ⟨S20000x1, .i1⟩
  | 43 => ⟨S20000x1, .i1⟩
  | 44 => ⟨S_, .i1⟩
  | 45 => ⟨S20000, .i1⟩
  | 46 => ⟨S20000x512, .f32⟩
  | 47 => ⟨S20000x512, .i1⟩
  | 48 => ⟨S_, .f32⟩
  | 49 => ⟨S20000x512, .f32⟩
  | 50 => ⟨S20000x512, .f32⟩
  | 51 => ⟨S20000x512, .f32⟩
  | 52 => ⟨S8000x512, .f32⟩
  | 53 => ⟨S1x512, .f32⟩
  | 54 => ⟨S8000x512, .f32⟩
  | 55 => ⟨S8000x512, .f32⟩
  | 56 => ⟨S_, .i32⟩
  | 57 => ⟨S8000, .i32⟩
  | 58 => ⟨S8000, .i1⟩
  | 59 => ⟨S_, .i32⟩
  | 60 => ⟨S8000, .i32⟩
  | 61 => ⟨S8000, .i32⟩
  | 62 => ⟨S8000, .i32⟩
  | 63 => ⟨S8000x1, .i32⟩
  | 64 => ⟨S1, .i32⟩
  | 65 => ⟨S_, .i32⟩
  | 66 => ⟨S8000x1, .i32⟩
  | 67 => ⟨S8000x1, .i1⟩
  | 68 => ⟨S1x1, .i32⟩
  | 69 => ⟨S8000x1, .i32⟩
  | 70 => ⟨S8000x1, .i1⟩
  | 71 => ⟨S8000x1, .i1⟩
  | 72 => ⟨S_, .i1⟩
  | 73 => ⟨S8000, .i1⟩
  | 74 => ⟨S8000x512, .f32⟩
  | 75 => ⟨S8000x512, .i1⟩
  | 76 => ⟨S_, .f32⟩
  | 77 => ⟨S8000x512, .f32⟩
  | 78 => ⟨S8000x512, .f32⟩
  | 79 => ⟨S8000x512, .f32⟩
  | 80 => ⟨S_, .i32⟩
  | 81 => ⟨S200000, .i32⟩
  | 82 => ⟨S200000, .i1⟩
  | 83 => ⟨S_, .i32⟩
  | 84 => ⟨S200000, .i32⟩
  | 85 => ⟨S200000, .i32⟩
  | 86 => ⟨S200000, .i32⟩
  | 87 => ⟨S200000x1, .i32⟩
  | 88 => ⟨S1, .i32⟩
  | 89 => ⟨S_, .i32⟩
  | 90 => ⟨S200000x1, .i32⟩
  | 91 => ⟨S200000x1, .i1⟩
  | 92 => ⟨S1x1, .i32⟩
  | 93 => ⟨S200000x1, .i32⟩
  | 94 => ⟨S200000x1, .i1⟩
  | 95 => ⟨S200000x1, .i1⟩
  | 96 => ⟨S_, .i1⟩
  | 97 => ⟨S200000, .i1⟩
  | 98 => ⟨S200000x512, .f32⟩
  | 99 => ⟨S200000x512, .i1⟩
  | 100 => ⟨S_, .f32⟩
  | 101 => ⟨S200000x512, .f32⟩
  | 102 => ⟨S200000x512, .f32⟩
  | 103 => ⟨S_, .f32⟩
  | 104 => ⟨S8000x512, .f32⟩
  | 105 => ⟨S200000x1, .i32⟩
  | 106 => ⟨S8000x512, .f32⟩
  | 107 => ⟨S_, .f32⟩
  | 108 => ⟨S200000, .f32⟩
  | 109 => ⟨S_, .f32⟩
  | 110 => ⟨S8000, .f32⟩
  | 111 => ⟨S200000x1, .i32⟩
  | 112 => ⟨S8000, .f32⟩
  | 113 => ⟨S_, .f32⟩
  | 114 => ⟨S8000, .f32⟩
  | 115 => ⟨S8000, .f32⟩
  | 116 => ⟨S8000x1, .f32⟩
  | 117 => ⟨S8000x512, .f32⟩
  | 118 => ⟨S8000x512, .f32⟩
  | 119 => ⟨S8000x512, .f32⟩
  | 120 => ⟨S1x512, .f32⟩
  | 121 => ⟨S8000x512, .f32⟩
  | 122 => ⟨S8000x512, .f32⟩
  | 123 => ⟨S8000x512, .f32⟩
  | 124 => ⟨S8000x512, .f32⟩
  | 125 => ⟨S_, .i32⟩
  | 126 => ⟨S200000, .i32⟩
  | 127 => ⟨S200000, .i1⟩
  | _ => ⟨S20000x384, .f32⟩

abbrev hbmTy0_1 (i : Nat) : BufTy := match i % 128 with
  | 0 => ⟨S_, .i32⟩
  | 1 => ⟨S200000, .i32⟩
  | 2 => ⟨S200000, .i32⟩
  | 3 => ⟨S200000, .i32⟩
  | 4 => ⟨S200000x1, .i32⟩
  | 5 => ⟨S1, .i32⟩
  | 6 => ⟨S_, .i32⟩
  | 7 => ⟨S200000x1, .i32⟩
  | 8 => ⟨S200000x1, .i1⟩
  | 9 => ⟨S1x1, .i32⟩
  | 10 => ⟨S200000x1, .i32⟩
  | 11 => ⟨S200000x1, .i1⟩
  | 12 => ⟨S200000x1, .i1⟩
  | 13 => ⟨S_, .i1⟩
  | 14 => ⟨S200000, .i1⟩
  | 15 => ⟨S200000x512, .f32⟩
  | 16 => ⟨S200000x512, .i1⟩
  | 17 => ⟨S_, .f32⟩
  | 18 => ⟨S200000x512, .f32⟩
  | 19 => ⟨S200000x512, .f32⟩
  | 20 => ⟨S_, .f32⟩
  | 21 => ⟨S20000x512, .f32⟩
  | 22 => ⟨S200000x1, .i32⟩
  | 23 => ⟨S20000x512, .f32⟩
  | 24 => ⟨S_, .f32⟩
  | 25 => ⟨S200000, .f32⟩
  | 26 => ⟨S_, .f32⟩
  | 27 => ⟨S20000, .f32⟩
  | 28 => ⟨S200000x1, .i32⟩
  | 29 => ⟨S20000, .f32⟩
  | 30 => ⟨S_, .f32⟩
  | 31 => ⟨S20000, .f32⟩
  | 32 => ⟨S20000, .f32⟩
  | 33 => ⟨S20000x1, .f32⟩
  | 34 => ⟨S20000x512, .f32⟩
  | 35 => ⟨S20000x512, .f32⟩
  | 36 => ⟨S20000x512, .f32⟩
  | 37 => ⟨S1x512, .f32⟩
  | 38 => ⟨S20000x512, .f32⟩
  | 39 => ⟨S20000x512, .f32⟩
  | 40 => ⟨S20000x512, .f32⟩
  | 41 => ⟨S20000x512, .f32⟩
  | 42 => ⟨S_, .f32⟩
  | 43 => ⟨S20000x512, .f32⟩
  | 44 => ⟨S20000x512, .f32⟩
  | 45 => ⟨S_, .f32⟩
  | 46 => ⟨S8000x512, .f32⟩
  | 47 => ⟨S8000x512, .f32⟩
  | 48 => ⟨S_, .i32⟩
  | 49 => ⟨S200000, .i32⟩
  | 50 => ⟨S200000, .i1⟩
  | 51 => ⟨S_, .i32⟩
  | 52 => ⟨S200000, .i32⟩
  | 53 => ⟨S200000, .i32⟩
  | 54 => ⟨S200000, .i32⟩
  | 55 => ⟨S200000x1, .i32⟩
  | 56 => ⟨S1, .i32⟩
  | 57 => ⟨S_, .i32⟩
  | 58 => ⟨S200000x1, .i32⟩
  | 59 => ⟨S200000x1, .i1⟩
  | 60 => ⟨S1x1, .i32⟩
  | 61 => ⟨S200000x1, .i32⟩
  | 62 => ⟨S200000x1, .i1⟩
  | 63 => ⟨S200000x1, .i1⟩
  | 64 => ⟨S_, .i1⟩
  | 65 => ⟨S200000, .i1⟩
  | 66 => ⟨S200000x512, .f32⟩
  | 67 => ⟨S200000x512, .i1⟩
  | 68 => ⟨S_, .f32⟩
  | 69 => ⟨S200000x512, .f32⟩
  | 70 => ⟨S200000x512, .f32⟩
  | 71 => ⟨S_, .f32⟩
  | 72 => ⟨S8000x512, .f32⟩
  | 73 => ⟨S200000x1, .i32⟩
  | 74 => ⟨S8000x512, .f32⟩
  | 75 => ⟨S_, .f32⟩
  | 76 => ⟨S200000, .f32⟩
  | 77 => ⟨S_, .f32⟩
  | 78 => ⟨S8000, .f32⟩
  | 79 => ⟨S200000x1, .i32⟩
  | 80 => ⟨S8000, .f32⟩
  | 81 => ⟨S_, .f32⟩
  | 82 => ⟨S8000, .f32⟩
  | 83 => ⟨S8000, .f32⟩
  | 84 => ⟨S8000x1, .f32⟩
  | 85 => ⟨S8000x512, .f32⟩
  | 86 => ⟨S8000x512, .f32⟩
  | 87 => ⟨S8000x256, .f32⟩
  | 88 => ⟨S1x256, .f32⟩
  | 89 => ⟨S8000x256, .f32⟩
  | 90 => ⟨S8000x256, .f32⟩
  | 91 => ⟨S8000x256, .f32⟩
  | 92 => ⟨S8000x256, .f32⟩
  | 93 => ⟨S_, .i32⟩
  | 94 => ⟨S200000, .i32⟩
  | 95 => ⟨S200000, .i1⟩
  | 96 => ⟨S_, .i32⟩
  | 97 => ⟨S200000, .i32⟩
  | 98 => ⟨S200000, .i32⟩
  | 99 => ⟨S200000, .i32⟩
  | 100 => ⟨S200000x1, .i32⟩
  | 101 => ⟨S1, .i32⟩
  | 102 => ⟨S_, .i32⟩
  | 103 => ⟨S200000x1, .i32⟩
  | 104 => ⟨S200000x1, .i1⟩
  | 105 => ⟨S1x1, .i32⟩
  | 106 => ⟨S200000x1, .i32⟩
  | 107 => ⟨S200000x1, .i1⟩
  | 108 => ⟨S200000x1, .i1⟩
  | 109 => ⟨S_, .i1⟩
  | 110 => ⟨S200000, .i1⟩
  | 111 => ⟨S200000x512, .f32⟩
  | 112 => ⟨S200000x512, .i1⟩
  | 113 => ⟨S_, .f32⟩
  | 114 => ⟨S200000x512, .f32⟩
  | 115 => ⟨S200000x512, .f32⟩
  | 116 => ⟨S_, .f32⟩
  | 117 => ⟨S20000x512, .f32⟩
  | 118 => ⟨S200000x1, .i32⟩
  | 119 => ⟨S20000x512, .f32⟩
  | 120 => ⟨S_, .f32⟩
  | 121 => ⟨S200000, .f32⟩
  | 122 => ⟨S_, .f32⟩
  | 123 => ⟨S20000, .f32⟩
  | 124 => ⟨S200000x1, .i32⟩
  | 125 => ⟨S20000, .f32⟩
  | 126 => ⟨S_, .f32⟩
  | 127 => ⟨S20000, .f32⟩
  | _ => ⟨S20000x384, .f32⟩

abbrev hbmTy0_2 (i : Nat) : BufTy := match i % 128 with
  | 0 => ⟨S20000, .f32⟩
  | 1 => ⟨S20000x1, .f32⟩
  | 2 => ⟨S20000x512, .f32⟩
  | 3 => ⟨S20000x512, .f32⟩
  | 4 => ⟨S20000x256, .f32⟩
  | 5 => ⟨S1x256, .f32⟩
  | 6 => ⟨S20000x256, .f32⟩
  | 7 => ⟨S20000x256, .f32⟩
  | 8 => ⟨S20000x256, .f32⟩
  | 9 => ⟨S20000x256, .f32⟩
  | _ => ⟨S20000x384, .f32⟩

abbrev hbmTy (i : Nat) : BufTy := match i / 128 with
  | 0 => hbmTy0_0 i
  | 1 => hbmTy0_1 i
  | 2 => hbmTy0_2 i
  | _ => ⟨S20000x384, .f32⟩

abbrev bufTy : (tb : Table) → Fin (tcTables nBuf tb) → BufTy
  | .hbm, ⟨i, _⟩ => hbmTy i
  | _, _ => ⟨S20000x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v10 : Ref sig .tc := ⟨.hbm, 78, rfl⟩
abbrev main_v11 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_cst : Ref sig .tc := ⟨.hbm, 100, rfl⟩
abbrev main_call2_v15 : Ref sig .tc := ⟨.hbm, 101, rfl⟩
abbrev main_v12 : Ref sig .tc := ⟨.hbm, 102, rfl⟩
abbrev main_cst : Ref sig .tc := ⟨.hbm, 103, rfl⟩
abbrev main_v13 : Ref sig .tc := ⟨.hbm, 104, rfl⟩
abbrev main_v14 : Ref sig .tc := ⟨.hbm, 105, rfl⟩
abbrev main_v15 : Ref sig .tc := ⟨.hbm, 106, rfl⟩
abbrev main_cst_0 : Ref sig .tc := ⟨.hbm, 107, rfl⟩
abbrev main_v16 : Ref sig .tc := ⟨.hbm, 108, rfl⟩
abbrev main_cst_1 : Ref sig .tc := ⟨.hbm, 109, rfl⟩
abbrev main_v17 : Ref sig .tc := ⟨.hbm, 110, rfl⟩
abbrev main_v18 : Ref sig .tc := ⟨.hbm, 111, rfl⟩
abbrev main_v19 : Ref sig .tc := ⟨.hbm, 112, rfl⟩
abbrev main_cst_2 : Ref sig .tc := ⟨.hbm, 113, rfl⟩
abbrev main_v20 : Ref sig .tc := ⟨.hbm, 114, rfl⟩
abbrev main_v21 : Ref sig .tc := ⟨.hbm, 115, rfl⟩
abbrev main_v22 : Ref sig .tc := ⟨.hbm, 116, rfl⟩
abbrev main_v23 : Ref sig .tc := ⟨.hbm, 117, rfl⟩
abbrev main_v24 : Ref sig .tc := ⟨.hbm, 118, rfl⟩
abbrev main_v25 : Ref sig .tc := ⟨.hbm, 119, rfl⟩
abbrev main_v26 : Ref sig .tc := ⟨.hbm, 120, rfl⟩
abbrev main_v27 : Ref sig .tc := ⟨.hbm, 121, rfl⟩
abbrev main_v28 : Ref sig .tc := ⟨.hbm, 122, rfl⟩
abbrev main_v29 : Ref sig .tc := ⟨.hbm, 123, rfl⟩
abbrev main_v30 : Ref sig .tc := ⟨.hbm, 124, rfl⟩
abbrev main_call3_c : Ref sig .tc := ⟨.hbm, 125, rfl⟩
abbrev main_call3_v0 : Ref sig .tc := ⟨.hbm, 126, rfl⟩
abbrev main_call3_v1 : Ref sig .tc := ⟨.hbm, 127, rfl⟩
abbrev main_call3_c_0 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_c_1 : Ref sig .tc := ⟨.hbm, 133, rfl⟩
abbrev main_call3_c_2 : Ref sig .tc := ⟨.hbm, 134, rfl⟩
abbrev main_call3_v6 : Ref sig .tc := ⟨.hbm, 135, rfl⟩
abbrev main_call3_v7 : Ref sig .tc := ⟨.hbm, 136, rfl⟩
abbrev main_call3_v8 : Ref sig .tc := ⟨.hbm, 137, rfl⟩
abbrev main_call3_v9 : Ref sig .tc := ⟨.hbm, 138, rfl⟩
abbrev main_call3_v10 : Ref sig .tc := ⟨.hbm, 139, rfl⟩
abbrev main_call3_v11 : Ref sig .tc := ⟨.hbm, 140, rfl⟩
abbrev main_call3_c_3 : Ref sig .tc := ⟨.hbm, 141, rfl⟩
abbrev main_call3_v12 : Ref sig .tc := ⟨.hbm, 142, rfl⟩
abbrev main_call3_v13 : Ref sig .tc := ⟨.hbm, 143, rfl⟩
abbrev main_call3_v14 : Ref sig .tc := ⟨.hbm, 144, rfl⟩
abbrev main_call3_cst : Ref sig .tc := ⟨.hbm, 145, rfl⟩
abbrev main_call3_v15 : Ref sig .tc := ⟨.hbm, 146, rfl⟩
abbrev main_v31 : Ref sig .tc := ⟨.hbm, 147, rfl⟩
abbrev main_cst_3 : Ref sig .tc := ⟨.hbm, 148, rfl⟩
abbrev main_v32 : Ref sig .tc := ⟨.hbm, 149, rfl⟩
abbrev main_v33 : Ref sig .tc := ⟨.hbm, 150, rfl⟩
abbrev main_v34 : Ref sig .tc := ⟨.hbm, 151, rfl⟩
abbrev main_cst_4 : Ref sig .tc := ⟨.hbm, 152, rfl⟩
abbrev main_v35 : Ref sig .tc := ⟨.hbm, 153, rfl⟩
abbrev main_cst_5 : Ref sig .tc := ⟨.hbm, 154, rfl⟩
abbrev main_v36 : Ref sig .tc := ⟨.hbm, 155, rfl⟩
abbrev main_v37 : Ref sig .tc := ⟨.hbm, 156, rfl⟩
abbrev main_v38 : Ref sig .tc := ⟨.hbm, 157, rfl⟩
abbrev main_cst_6 : Ref sig .tc := ⟨.hbm, 158, rfl⟩
abbrev main_v39 : Ref sig .tc := ⟨.hbm, 159, rfl⟩
abbrev main_v40 : Ref sig .tc := ⟨.hbm, 160, rfl⟩
abbrev main_v41 : Ref sig .tc := ⟨.hbm, 161, rfl⟩
abbrev main_v42 : Ref sig .tc := ⟨.hbm, 162, rfl⟩
abbrev main_v43 : Ref sig .tc := ⟨.hbm, 163, rfl⟩
abbrev main_v44 : Ref sig .tc := ⟨.hbm, 164, rfl⟩
abbrev main_v45 : Ref sig .tc := ⟨.hbm, 165, rfl⟩
abbrev main_v46 : Ref sig .tc := ⟨.hbm, 166, rfl⟩
abbrev main_v47 : Ref sig .tc := ⟨.hbm, 167, rfl⟩
abbrev main_v48 : Ref sig .tc := ⟨.hbm, 168, rfl⟩
abbrev main_v49 : Ref sig .tc := ⟨.hbm, 169, rfl⟩
abbrev main_call4_cst : Ref sig .tc := ⟨.hbm, 170, rfl⟩
abbrev main_call4_v0 : Ref sig .tc := ⟨.hbm, 171, rfl⟩
abbrev main_v50 : Ref sig .tc := ⟨.hbm, 172, rfl⟩
abbrev main_call5_cst : Ref sig .tc := ⟨.hbm, 173, rfl⟩
abbrev main_call5_v0 : Ref sig .tc := ⟨.hbm, 174, rfl⟩
abbrev main_v51 : Ref sig .tc := ⟨.hbm, 175, rfl⟩
abbrev main_call6_c : Ref sig .tc := ⟨.hbm, 176, rfl⟩
abbrev main_call6_v0 : Ref sig .tc := ⟨.hbm, 177, rfl⟩
abbrev main_call6_v1 : Ref sig .tc := ⟨.hbm, 178, rfl⟩
abbrev main_call6_c_0 : Ref sig .tc := ⟨.hbm, 179, rfl⟩
abbrev main_call6_v2 : Ref sig .tc := ⟨.hbm, 180, rfl⟩
abbrev main_call6_v3 : Ref sig .tc := ⟨.hbm, 181, rfl⟩
abbrev main_call6_v4 : Ref sig .tc := ⟨.hbm, 182, rfl⟩
abbrev main_call6_v5 : Ref sig .tc := ⟨.hbm, 183, rfl⟩
abbrev main_call6_c_1 : Ref sig .tc := ⟨.hbm, 184, rfl⟩
abbrev main_call6_c_2 : Ref sig .tc := ⟨.hbm, 185, rfl⟩
abbrev main_call6_v6 : Ref sig .tc := ⟨.hbm, 186, rfl⟩
abbrev main_call6_v7 : Ref sig .tc := ⟨.hbm, 187, rfl⟩
abbrev main_call6_v8 : Ref sig .tc := ⟨.hbm, 188, rfl⟩
abbrev main_call6_v9 : Ref sig .tc := ⟨.hbm, 189, rfl⟩
abbrev main_call6_v10 : Ref sig .tc := ⟨.hbm, 190, rfl⟩
abbrev main_call6_v11 : Ref sig .tc := ⟨.hbm, 191, rfl⟩
abbrev main_call6_c_3 : Ref sig .tc := ⟨.hbm, 192, rfl⟩
abbrev main_call6_v12 : Ref sig .tc := ⟨.hbm, 193, rfl⟩
abbrev main_call6_v13 : Ref sig .tc := ⟨.hbm, 194, rfl⟩
abbrev main_call6_v14 : Ref sig .tc := ⟨.hbm, 195, rfl⟩
abbrev main_call6_cst : Ref sig .tc := ⟨.hbm, 196, rfl⟩
abbrev main_call6_v15 : Ref sig .tc := ⟨.hbm, 197, rfl⟩
abbrev main_v52 : Ref sig .tc := ⟨.hbm, 198, rfl⟩
abbrev main_cst_7 : Ref sig .tc := ⟨.hbm, 199, rfl⟩
abbrev main_v53 : Ref sig .tc := ⟨.hbm, 200, rfl⟩
abbrev main_v54 : Ref sig .tc := ⟨.hbm, 201, rfl⟩
abbrev main_v55 : Ref sig .tc := ⟨.hbm, 202, rfl⟩
abbrev main_cst_8 : Ref sig .tc := ⟨.hbm, 203, rfl⟩
abbrev main_v56 : Ref sig .tc := ⟨.hbm, 204, rfl⟩
abbrev main_cst_9 : Ref sig .tc := ⟨.hbm, 205, rfl⟩
abbrev main_v57 : Ref sig .tc := ⟨.hbm, 206, rfl⟩
abbrev main_v58 : Ref sig .tc := ⟨.hbm, 207, rfl⟩
abbrev main_v59 : Ref sig .tc := ⟨.hbm, 208, rfl⟩
abbrev main_cst_10 : Ref sig .tc := ⟨.hbm, 209, rfl⟩
abbrev main_v60 : Ref sig .tc := ⟨.hbm, 210, rfl⟩
abbrev main_v61 : Ref sig .tc := ⟨.hbm, 211, rfl⟩
abbrev main_v62 : Ref sig .tc := ⟨.hbm, 212, rfl⟩
abbrev main_v63 : Ref sig .tc := ⟨.hbm, 213, rfl⟩
abbrev main_v64 : Ref sig .tc := ⟨.hbm, 214, rfl⟩
abbrev main_v65 : Ref sig .tc := ⟨.hbm, 215, rfl⟩
abbrev main_v66 : Ref sig .tc := ⟨.hbm, 216, rfl⟩
abbrev main_v67 : Ref sig .tc := ⟨.hbm, 217, rfl⟩
abbrev main_v68 : Ref sig .tc := ⟨.hbm, 218, rfl⟩
abbrev main_v69 : Ref sig .tc := ⟨.hbm, 219, rfl⟩
abbrev main_v70 : Ref sig .tc := ⟨.hbm, 220, rfl⟩
abbrev main_call7_c : Ref sig .tc := ⟨.hbm, 221, rfl⟩
abbrev main_call7_v0 : Ref sig .tc := ⟨.hbm, 222, rfl⟩
abbrev main_call7_v1 : Ref sig .tc := ⟨.hbm, 223, rfl⟩
abbrev main_call7_c_0 : Ref sig .tc := ⟨.hbm, 224, rfl⟩
abbrev main_call7_v2 : Ref sig .tc := ⟨.hbm, 225, rfl⟩
abbrev main_call7_v3 : Ref sig .tc := ⟨.hbm, 226, rfl⟩
abbrev main_call7_v4 : Ref sig .tc := ⟨.hbm, 227, rfl⟩
abbrev main_call7_v5 : Ref sig .tc := ⟨.hbm, 228, rfl⟩
abbrev main_call7_c_1 : Ref sig .tc := ⟨.hbm, 229, rfl⟩
abbrev main_call7_c_2 : Ref sig .tc := ⟨.hbm, 230, rfl⟩
abbrev main_call7_v6 : Ref sig .tc := ⟨.hbm, 231, rfl⟩
abbrev main_call7_v7 : Ref sig .tc := ⟨.hbm, 232, rfl⟩
abbrev main_call7_v8 : Ref sig .tc := ⟨.hbm, 233, rfl⟩
abbrev main_call7_v9 : Ref sig .tc := ⟨.hbm, 234, rfl⟩
abbrev main_call7_v10 : Ref sig .tc := ⟨.hbm, 235, rfl⟩
abbrev main_call7_v11 : Ref sig .tc := ⟨.hbm, 236, rfl⟩
abbrev main_call7_c_3 : Ref sig .tc := ⟨.hbm, 237, rfl⟩
abbrev main_call7_v12 : Ref sig .tc := ⟨.hbm, 238, rfl⟩
abbrev main_call7_v13 : Ref sig .tc := ⟨.hbm, 239, rfl⟩
abbrev main_call7_v14 : Ref sig .tc := ⟨.hbm, 240, rfl⟩
abbrev main_call7_cst : Ref sig .tc := ⟨.hbm, 241, rfl⟩
abbrev main_call7_v15 : Ref sig .tc := ⟨.hbm, 242, rfl⟩
abbrev main_v71 : Ref sig .tc := ⟨.hbm, 243, rfl⟩
abbrev main_cst_11 : Ref sig .tc := ⟨.hbm, 244, rfl⟩
abbrev main_v72 : Ref sig .tc := ⟨.hbm, 245, rfl⟩
abbrev main_v73 : Ref sig .tc := ⟨.hbm, 246, rfl⟩
abbrev main_v74 : Ref sig .tc := ⟨.hbm, 247, rfl⟩
abbrev main_cst_12 : Ref sig .tc := ⟨.hbm, 248, rfl⟩
abbrev main_v75 : Ref sig .tc := ⟨.hbm, 249, rfl⟩
abbrev main_cst_13 : Ref sig .tc := ⟨.hbm, 250, rfl⟩
abbrev main_v76 : Ref sig .tc := ⟨.hbm, 251, rfl⟩
abbrev main_v77 : Ref sig .tc := ⟨.hbm, 252, rfl⟩
abbrev main_v78 : Ref sig .tc := ⟨.hbm, 253, rfl⟩
abbrev main_cst_14 : Ref sig .tc := ⟨.hbm, 254, rfl⟩
abbrev main_v79 : Ref sig .tc := ⟨.hbm, 255, rfl⟩
abbrev main_v80 : Ref sig .tc := ⟨.hbm, 256, rfl⟩
abbrev main_v81 : Ref sig .tc := ⟨.hbm, 257, rfl⟩
abbrev main_v82 : Ref sig .tc := ⟨.hbm, 258, rfl⟩
abbrev main_v83 : Ref sig .tc := ⟨.hbm, 259, rfl⟩
abbrev main_v84 : Ref sig .tc := ⟨.hbm, 260, rfl⟩
abbrev main_v85 : Ref sig .tc := ⟨.hbm, 261, rfl⟩
abbrev main_v86 : Ref sig .tc := ⟨.hbm, 262, rfl⟩
abbrev main_v87 : Ref sig .tc := ⟨.hbm, 263, rfl⟩
abbrev main_v88 : Ref sig .tc := ⟨.hbm, 264, rfl⟩
abbrev main_v89 : Ref sig .tc := ⟨.hbm, 265, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S_S20000 : S_.BroadcastsInDim S20000 (![] : Fin 0 → Fin S20000.rank)
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  reducesTo_S20000x1_S20000_d1 : S20000x1.ReducesTo [1] S20000
  h_S_ : 0 < S_.numel
  bcast_S20000_S20000x512_0 : S20000.BroadcastsInDim S20000x512 (![0] : Fin 1 → Fin S20000x512.rank)
  bcast_S_S20000x512 : S_.BroadcastsInDim S20000x512 (![] : Fin 0 → Fin S20000x512.rank)
  bcast_S1x512_S8000x512_0_1 : S1x512.BroadcastsInDim S8000x512 (![0, 1] : Fin 2 → Fin S8000x512.rank)
  bcast_S_S8000 : S_.BroadcastsInDim S8000 (![] : Fin 0 → Fin S8000.rank)
  bcast_S8000_S8000x1_0 : S8000.BroadcastsInDim S8000x1 (![0] : Fin 1 → Fin S8000x1.rank)
  bcast_S_S8000x1 : S_.BroadcastsInDim S8000x1 (![] : Fin 0 → Fin S8000x1.rank)
  bcast_S1x1_S8000x1_0_1 : S1x1.BroadcastsInDim S8000x1 (![0, 1] : Fin 2 → Fin S8000x1.rank)
  reducesTo_S8000x1_S8000_d1 : S8000x1.ReducesTo [1] S8000
  bcast_S8000_S8000x512_0 : S8000.BroadcastsInDim S8000x512 (![0] : Fin 1 → Fin S8000x512.rank)
  bcast_S_S8000x512 : S_.BroadcastsInDim S8000x512 (![] : Fin 0 → Fin S8000x512.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1x1_S200000x1_0_1 : S1x1.BroadcastsInDim S200000x1 (![0, 1] : Fin 2 → Fin S200000x1.rank)
  reducesTo_S200000x1_S200000_d1 : S200000x1.ReducesTo [1] S200000
  bcast_S200000_S200000x512_0 : S200000.BroadcastsInDim S200000x512 (![0] : Fin 1 → Fin S200000x512.rank)
  bcast_S_S200000x512 : S_.BroadcastsInDim S200000x512 (![] : Fin 0 → Fin S200000x512.rank)
  bcast_S8000x1_S8000x512_0_1 : S8000x1.BroadcastsInDim S8000x512 (![0, 1] : Fin 2 → Fin S8000x512.rank)
  bcast_S20000x1_S20000x512_0_1 : S20000x1.BroadcastsInDim S20000x512 (![0, 1] : Fin 2 → Fin S20000x512.rank)
  bcast_S256_S1x256_1 : S256.BroadcastsInDim S1x256 (![1] : Fin 1 → Fin S1x256.rank)
  bcast_S1x256_S8000x256_0_1 : S1x256.BroadcastsInDim S8000x256 (![0, 1] : Fin 2 → Fin S8000x256.rank)
  bcast_S1x256_S20000x256_0_1 : S1x256.BroadcastsInDim S20000x256 (![0, 1] : Fin 2 → Fin S20000x256.rank)
  dot_S20000x384_S384x512_S20000x512_1_0_0_1_n_n_wf : DotDims.WF S20000x384 S384x512 S20000x512 [1] [0] [0] [1] [] []
  gather_S20000x512_S20000x1_S20000x512_1_0_n_n_0_1_1512_wf : GatherDims.WF S20000x512 S20000x1 S20000x512 [1] [0] [] [0] [] 1 ![1, 512]
  dot_S8000x384_S384x512_S8000x512_1_0_0_1_n_n_wf : DotDims.WF S8000x384 S384x512 S8000x512 [1] [0] [0] [1] [] []
  gather_S8000x512_S8000x1_S8000x512_1_0_n_n_0_1_1512_wf : GatherDims.WF S8000x512 S8000x1 S8000x512 [1] [0] [] [0] [] 1 ![1, 512]
  gather_S20000x512_S200000x1_S200000x512_1_0_n_n_0_1_1512_wf : GatherDims.WF S20000x512 S200000x1 S200000x512 [1] [0] [] [0] [] 1 ![1, 512]
  scatter_S8000x512_S200000x1_S200000x512_1_0_0_1_wf : ScatterDims.WF S8000x512 S200000x1 S200000x512 [1] [0] [0] 1
  scatter_S8000_S200000x1_S200000_n_0_0_1_wf : ScatterDims.WF S8000 S200000x1 S200000 [] [0] [0] 1
  dot_S8000x512_S512x512_S8000x512_1_0_0_1_n_n_wf : DotDims.WF S8000x512 S512x512 S8000x512 [1] [0] [0] [1] [] []
  gather_S8000x512_S200000x1_S200000x512_1_0_n_n_0_1_1512_wf : GatherDims.WF S8000x512 S200000x1 S200000x512 [1] [0] [] [0] [] 1 ![1, 512]
  scatter_S20000x512_S200000x1_S200000x512_1_0_0_1_wf : ScatterDims.WF S20000x512 S200000x1 S200000x512 [1] [0] [0] 1
  scatter_S20000_S200000x1_S200000_n_0_0_1_wf : ScatterDims.WF S20000 S200000x1 S200000 [] [0] [0] 1
  dot_S20000x512_S512x512_S20000x512_1_0_0_1_n_n_wf : DotDims.WF S20000x512 S512x512 S20000x512 [1] [0] [0] [1] [] []
  dot_S8000x512_S512x256_S8000x256_1_0_0_1_n_n_wf : DotDims.WF S8000x512 S512x256 S8000x256 [1] [0] [0] [1] [] []
  dot_S20000x512_S512x256_S20000x256_1_0_0_1_n_n_wf : DotDims.WF S20000x512 S512x256 S20000x256 [1] [0] [0] [1] [] []

variable [Facts₀]

def dot_S20000x384_S384x512_S20000x512_1_0_0_1_n_n : DotDims S20000x384 S384x512 S20000x512 where
  lhsContracting := [1]
  rhsContracting := [0]
  lhsNonContracting := [0]
  rhsNonContracting := [1]
  lhsBatch := []
  rhsBatch := []
  wf := dot_S20000x384_S384x512_S20000x512_1_0_0_1_n_n_wf
def gather_S20000x512_S20000x1_S20000x512_1_0_n_n_0_1_1512 : GatherDims S20000x512 S20000x1 S20000x512 where
  offsetDims := [1]
  collapsedSliceDims := [0]
  operandBatchingDims := []
  startIndicesBatchingDims := []
  startIndexMap := [0]
  indexVectorDim := 1
  sliceSizes := ![1, 512]
  wf := gather_S20000x512_S20000x1_S20000x512_1_0_n_n_0_1_1512_wf
def dot_S8000x384_S384x512_S8000x512_1_0_0_1_n_n : DotDims S8000x384 S384x512 S8000x512 where
  lhsContracting := [1]
  rhsContracting := [0]
  lhsNonContracting := [0]
  rhsNonContracting := [1]
  lhsBatch := []
  rhsBatch := []
  wf := dot_S8000x384_S384x512_S8000x512_1_0_0_1_n_n_wf
def gather_S8000x512_S8000x1_S8000x512_1_0_n_n_0_1_1512 : GatherDims S8000x512 S8000x1 S8000x512 where
  offsetDims := [1]
  collapsedSliceDims := [0]
  operandBatchingDims := []
  startIndicesBatchingDims := []
  startIndexMap := [0]
  indexVectorDim := 1
  sliceSizes := ![1, 512]
  wf := gather_S8000x512_S8000x1_S8000x512_1_0_n_n_0_1_1512_wf
def gather_S20000x512_S200000x1_S200000x512_1_0_n_n_0_1_1512 : GatherDims S20000x512 S200000x1 S200000x512 where
  offsetDims := [1]
  collapsedSliceDims := [0]
  operandBatchingDims := []
  startIndicesBatchingDims := []
  startIndexMap := [0]
  indexVectorDim := 1
  sliceSizes := ![1, 512]
  wf := gather_S20000x512_S200000x1_S200000x512_1_0_n_n_0_1_1512_wf
def scatter_S8000x512_S200000x1_S200000x512_1_0_0_1 : ScatterDims S8000x512 S200000x1 S200000x512 where
  updateWindowDims := [1]
  insertedWindowDims := [0]
  scatterDimsToOperandDims := [0]
  indexVectorDim := 1
  wf := scatter_S8000x512_S200000x1_S200000x512_1_0_0_1_wf
def scatter_S8000_S200000x1_S200000_n_0_0_1 : ScatterDims S8000 S200000x1 S200000 where
  updateWindowDims := []
  insertedWindowDims := [0]
  scatterDimsToOperandDims := [0]
  indexVectorDim := 1
  wf := scatter_S8000_S200000x1_S200000_n_0_0_1_wf
def dot_S8000x512_S512x512_S8000x512_1_0_0_1_n_n : DotDims S8000x512 S512x512 S8000x512 where
  lhsContracting := [1]
  rhsContracting := [0]
  lhsNonContracting := [0]
  rhsNonContracting := [1]
  lhsBatch := []
  rhsBatch := []
  wf := dot_S8000x512_S512x512_S8000x512_1_0_0_1_n_n_wf
def gather_S8000x512_S200000x1_S200000x512_1_0_n_n_0_1_1512 : GatherDims S8000x512 S200000x1 S200000x512 where
  offsetDims := [1]
  collapsedSliceDims := [0]
  operandBatchingDims := []
  startIndicesBatchingDims := []
  startIndexMap := [0]
  indexVectorDim := 1
  sliceSizes := ![1, 512]
  wf := gather_S8000x512_S200000x1_S200000x512_1_0_n_n_0_1_1512_wf
def scatter_S20000x512_S200000x1_S200000x512_1_0_0_1 : ScatterDims S20000x512 S200000x1 S200000x512 where
  updateWindowDims := [1]
  insertedWindowDims := [0]
  scatterDimsToOperandDims := [0]
  indexVectorDim := 1
  wf := scatter_S20000x512_S200000x1_S200000x512_1_0_0_1_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def dot_S8000x512_S512x256_S8000x256_1_0_0_1_n_n : DotDims S8000x512 S512x256 S8000x256 where
  lhsContracting := [1]
  rhsContracting := [0]
  lhsNonContracting := [0]
  rhsNonContracting := [1]
  lhsBatch := []
  rhsBatch := []
  wf := dot_S8000x512_S512x256_S8000x256_1_0_0_1_n_n_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf

class Facts : Prop extends Facts₀ where

variable [Facts]
-- ==== Proof.Spec.lean ====
import Mathlib.Data.EReal.Basic
import Mathlib.Algebra.BigOperators.Group.Finset.Basic
import Mathlib.Data.Fintype.BigOperators

noncomputable section

namespace Cert.Spec

open scoped BigOperators

variable {n K M E ns nsp nd : ℕ}

def mm (A : Fin n → Fin K → EReal) (B : Fin K → Fin M → EReal) : Fin n → Fin M → EReal :=
  fun i j => ∑ k : Fin K, A i k * B k j

def encK (X : Fin n → Fin K → EReal) (W : Fin K → Fin M → EReal) (add : Fin n → Fin M → EReal) (b : Fin M → EReal) :
    Fin n → Fin M → EReal := fun i j => mm X W i j + add i j + b j

def encR (X : Fin n → Fin K → EReal) (W : Fin K → Fin M → EReal) (b : Fin M → EReal) (add : Fin n → Fin M → EReal) :
    Fin n → Fin M → EReal := fun i j => mm X W i j + b j + add i j

def indeg (dst : Fin E → Fin nd) (d : Fin nd) : ℕ := (Finset.univ.filter fun e => dst e = d).card

def wt (dst : Fin E → Fin nd) (d : Fin nd) : EReal := ((1 / max (indeg dst d : ℝ) 1 : ℝ) : EReal)

def meanR (x : Fin ns → Fin K → EReal) (src : Fin E → Fin ns) (dst : Fin E → Fin nd) : Fin nd → Fin K → EReal :=
  fun d f => (∑ e ∈ Finset.univ.filter (fun e => dst e = d), x (src e) f) * wt dst d

def route (src : Fin E → Fin ns) (dst : Fin E → Fin nd) : Fin nd → Fin nsp → EReal :=
  fun d s => ∑ _e ∈ Finset.univ.filter (fun e => dst e = d ∧ (src e).val = s.val), wt dst d

def padRows (x : Fin ns → Fin K → EReal) : Fin nsp → Fin K → EReal :=
  fun s f => if h : s.val < ns then x ⟨s.val, h⟩ f else 0

def meanK (R : Fin nd → Fin nsp → EReal) (xp : Fin nsp → Fin K → EReal) : Fin nd → Fin K → EReal := mm R xp

def sageK (mean : Fin nd → Fin K → EReal) (xd : Fin nd → Fin K → EReal) (Wl Wr : Fin K → Fin M → EReal) (b : Fin M → EReal) :
    Fin nd → Fin M → EReal := fun d j => mm mean Wl d j + mm xd Wr d j + b j

def sageR (mean : Fin nd → Fin K → EReal) (xd : Fin nd → Fin K → EReal) (Wl : Fin K → Fin M → EReal) (b : Fin M → EReal) (Wr : Fin K → Fin M → EReal) :
    Fin nd → Fin M → EReal := fun d j => mm mean Wl d j + b j + mm xd Wr d j

def relu (x : Fin n → Fin M → EReal) : Fin n → Fin M → EReal := fun i j => max (x i j) 0

structure Args where
  mf : Fin 20000 → Fin 384 → EReal
  df : Fin 8000 → Fin 384 → EReal
  embm : Fin 20000 → Fin 512 → EReal
  embd : Fin 8000 → Fin 512 → EReal
  src : Fin 200000 → Fin 20000
  dst : Fin 200000 → Fin 8000
  Wm : Fin 384 → Fin 512 → EReal
  bm : Fin 512 → EReal
  Wd : Fin 384 → Fin 512 → EReal
  bd : Fin 512 → EReal
  W1mdl : Fin 512 → Fin 512 → EReal
  b1md : Fin 512 → EReal
  W1mdr : Fin 512 → Fin 512 → EReal
  W1dml : Fin 512 → Fin 512 → EReal
  b1dm : Fin 512 → EReal
  W1dmr : Fin 512 → Fin 512 → EReal
  W2mdl : Fin 512 → Fin 256 → EReal
  b2md : Fin 256 → EReal
  W2mdr : Fin 512 → Fin 256 → EReal
  W2dml : Fin 512 → Fin 256 → EReal
  b2dm : Fin 256 → EReal
  W2dmr : Fin 512 → Fin 256 → EReal

variable (a : Args)

def kXm : Fin 20000 → Fin 512 → EReal := encK a.mf a.Wm a.embm a.bm
def kXd : Fin 8000 → Fin 512 → EReal := encK a.df a.Wd a.embd a.bd

def kRmd : Fin 8000 → Fin 20480 → EReal := route a.src a.dst
def kRdm : Fin 20000 → Fin 8192 → EReal := route a.dst a.src
def kHd : Fin 8000 → Fin 512 → EReal :=
  relu (sageK (meanK (kRmd a) (padRows (nsp := 20480) (kXm a))) (kXd a) a.W1mdl a.W1mdr a.b1md)
def kHm : Fin 20000 → Fin 512 → EReal :=
  relu (sageK (meanK (kRdm a) (padRows (nsp := 8192) (kXd a))) (kXm a) a.W1dml a.W1dmr a.b1dm)
def kOd : Fin 8000 → Fin 256 → EReal :=
  sageK (meanK (kRmd a) (padRows (nsp := 20480) (kHm a))) (kHd a) a.W2mdl a.W2mdr a.b2md
def kOm : Fin 20000 → Fin 256 → EReal :=
  sageK (meanK (kRdm a) (padRows (nsp := 8192) (kHd a))) (kHm a) a.W2dml a.W2dmr a.b2dm

def rXm : Fin 20000 → Fin 512 → EReal := encR a.mf a.Wm a.bm a.embm
def rXd : Fin 8000 → Fin 512 → EReal := encR a.df a.Wd a.bd a.embd
def rHd : Fin 8000 → Fin 512 → EReal := relu (sageR (meanR (rXm a) a.src a.dst) (rXd a) a.W1mdl a.b1md a.W1mdr)
def rHm : Fin 20000 → Fin 512 → EReal := relu (sageR (meanR (rXd a) a.dst a.src) (rXm a) a.W1dml a.b1dm a.W1dmr)
def rOd : Fin 8000 → Fin 256 → EReal := sageR (meanR (rHm a) a.src a.dst) (rHd a) a.W2mdl a.b2md a.W2mdr
def rOm : Fin 20000 → Fin 256 → EReal := sageR (meanR (rHd a) a.dst a.src) (rHm a) a.W2dml a.b2dm a.W2dmr

end Cert.Spec

end
-- ==== Proof.Cur.lean ====
import Idealize.ShloMosaic.Lib.ValueIdx

noncomputable section

namespace Cert.Cur

open Idealize.ShloMosaic Idealize.ShloMosaic.ValueIdx

def cur2 {α : Type} {a b : ℕ} (x : (⟨2, ![a, b]⟩ : Shape).Idx → α) : Fin a → Fin b → α := fun i j => x (ix2 i j)

def cur1 {α : Type} {a : ℕ} (x : (⟨1, ![a]⟩ : Shape).Idx → α) : Fin a → α := fun i => x (ix1 i)

def row {α : Type} {b : ℕ} (x : (⟨2, ![1, b]⟩ : Shape).Idx → α) : Fin b → α := fun j => x (ix2 (0 : Fin 1) j)

theorem cur2_apply {α : Type} {a b : ℕ} (x : (⟨2, ![a, b]⟩ : Shape).Idx → α) (y : (⟨2, ![a, b]⟩ : Shape).Idx) :
    x y = cur2 x (y 0) (y 1) :=
  congrArg x (eq_ix2 y)

theorem cur1_apply {α : Type} {a : ℕ} (x : (⟨1, ![a]⟩ : Shape).Idx → α) (y : (⟨1, ![a]⟩ : Shape).Idx) :
    x y = cur1 x (y 0) :=
  congrArg x (eq_ix1 y)

end Cert.Cur

end
-- ==== Proof.PreFacts.lean ====
import proofs.«401578_j53953379173285_3_alg».proof.Defs
import Idealize.ShloMosaic.Lib.Affine
import Idealize.ShloMosaic.Lib.ReduceAll
import Idealize.ShloMosaic.Lib.StableHlo.Predicate

noncomputable section

namespace Cert.PreFacts

open Idealize.ShloMosaic Idealize.SL.Sem
open Cert.Pre_finite_inputs (S_ S200000 fn fn_part6)
open Cert.Pre_finite_inputs.Facts

variable [Cert.Pre_finite_inputs.Facts]

instance : Subsingleton S_.Idx := ⟨fun a b => funext fun d => d.elim0⟩

abbrev j0 : S_.Idx := fun a => a.elim0

theorem toNat_lt_of_toInt {w : BitVec 32} {n : Nat} (h0 : 0 ≤ w.toInt) (hn : w.toInt < (n : Int)) : w.toNat < n := by
  have h32 := w.isLt
  rw [BitVec.toInt_eq_toNat_cond] at h0 hn
  split at h0 <;> omega

theorem part6_decode {F : FTy → Type} [FloatOps F] (a4 a5 : IVec S200000 32) (v98 : IVec S_ 1) (v100 : IVec S200000 1)
    (v101 : IVec S200000 32) (h : fn_part6 (F := F) a4 a5 v98 v100 v101 = fun _ => 1#1) (e : S200000.Idx) :
    (v100 e = 1#1 ∧ (a4 e).toInt < (v101 e).toInt) ∧ (0 ≤ (a5 e).toInt ∧ (a5 e).toInt < 8000) := by
  have h0 : IntOp.andi
      (IntOp.andi (v98 j0)
        (Host.reduce IntOp.andi (andi v100 (cmpi .slt a4 v101)) (constantI S_ 1 1#1) reducesTo_S200000_S_d0 h_S_ j0))
      (Host.reduce IntOp.andi
        (andi (cmpi .sge a5 (broadcastInDim S200000 ![] bcast_S_S200000 (constantI S_ 32 0#32)))
          (cmpi .slt a5 (broadcastInDim S200000 ![] bcast_S_S200000 (constantI S_ 32 8000#32))))
        (constantI S_ 1 1#1) reducesTo_S200000_S_d0 h_S_ j0) = 1#1 := congrFun h j0
  obtain ⟨h1, h5⟩ := IntOp.andi_eq_one.1 h0
  obtain ⟨-, h4⟩ := IntOp.andi_eq_one.1 h1
  have h4e : IntOp.andi (v100 e) (IntOp.cmpi .slt (a4 e) (v101 e)) = 1#1 :=
    Host.reduce_andi_all _ _ _ _ _ h4 e
  have h5e : IntOp.andi (IntOp.cmpi .sge (a5 e) 0#32) (IntOp.cmpi .slt (a5 e) 8000#32) = 1#1 :=
    Host.reduce_andi_all _ _ _ _ _ h5 e
  obtain ⟨h4a, h4b⟩ := IntOp.andi_eq_one.1 h4e
  obtain ⟨h5a, h5b⟩ := IntOp.andi_eq_one.1 h5e
  exact ⟨⟨h4a, IntOp.cmpi_slt.1 h4b⟩, IntOp.cmpi_sge.1 h5a, IntOp.cmpi_slt.1 h5b⟩

theorem fn_decode {F : FTy → Type} [FloatOps F] (a4 a5 : IVec S200000 32) (v98 : IVec S_ 1)
    (h : fn_part6 (F := F) a4 a5 v98
      (cmpi .sge a4 (broadcastInDim S200000 ![] bcast_S_S200000 (constantI S_ 32 0#32)))
      (broadcastInDim S200000 ![] bcast_S_S200000 (constantI S_ 32 20000#32)) = fun _ => 1#1) (e : S200000.Idx) :
    (0 ≤ (a4 e).toInt ∧ (a4 e).toInt < 20000) ∧ (0 ≤ (a5 e).toInt ∧ (a5 e).toInt < 8000) := by
  obtain ⟨⟨h0, h1⟩, h5⟩ := part6_decode a4 a5 v98 _ _ h e
  have h0' : IntOp.cmpi .sge (a4 e) 0#32 = 1#1 := h0
  have h1' : (a4 e).toInt < (20000#32 : BitVec 32).toInt := h1
  exact ⟨⟨IntOp.cmpi_sge.1 h0', h1'⟩, h5⟩

theorem src_range (m : (ℓ : Loc Cert.KernelIdeal.nD Cert.KernelIdeal.τ Cert.KernelIdeal.sig) → Buf (Elt Ideal) ℓ)
    (h : Cert.Pre_KernelIdeal m) (c : Dev Cert.KernelIdeal.nD) (e : Cert.KernelIdeal.S200000.Idx) :
    0 ≤ (m ((c.tc : Thread Cert.KernelIdeal.nD Cert.KernelIdeal.τ).loc Cert.KernelIdeal.main_arg4) e).toInt
      ∧ (m ((c.tc : Thread Cert.KernelIdeal.nD Cert.KernelIdeal.τ).loc Cert.KernelIdeal.main_arg4) e).toInt < 20000 :=
  (fn_decode (F := Ideal) _ _ _ (h c) e).1

theorem dst_range (m : (ℓ : Loc Cert.KernelIdeal.nD Cert.KernelIdeal.τ Cert.KernelIdeal.sig) → Buf (Elt Ideal) ℓ)
    (h : Cert.Pre_KernelIdeal m) (c : Dev Cert.KernelIdeal.nD) (e : Cert.KernelIdeal.S200000.Idx) :
    0 ≤ (m ((c.tc : Thread Cert.KernelIdeal.nD Cert.KernelIdeal.τ).loc Cert.KernelIdeal.main_arg5) e).toInt
      ∧ (m ((c.tc : Thread Cert.KernelIdeal.nD Cert.KernelIdeal.τ).loc Cert.KernelIdeal.main_arg5) e).toInt < 8000 :=
  (fn_decode (F := Ideal) _ _ _ (h c) e).2

theorem src_toNat_lt (m : (ℓ : Loc Cert.KernelIdeal.nD Cert.KernelIdeal.τ Cert.KernelIdeal.sig) → Buf (Elt Ideal) ℓ)
    (h : Cert.Pre_KernelIdeal m) (c : Dev Cert.KernelIdeal.nD) (e : Cert.KernelIdeal.S200000.Idx) :
    (m ((c.tc : Thread Cert.KernelIdeal.nD Cert.KernelIdeal.τ).loc Cert.KernelIdeal.main_arg4) e).toNat < 20000 :=
  toNat_lt_of_toInt (src_range m h c e).1 (src_range m h c e).2

theorem dst_toNat_lt (m : (ℓ : Loc Cert.KernelIdeal.nD Cert.KernelIdeal.τ Cert.KernelIdeal.sig) → Buf (Elt Ideal) ℓ)
    (h : Cert.Pre_KernelIdeal m) (c : Dev Cert.KernelIdeal.nD) (e : Cert.KernelIdeal.S200000.Idx) :
    (m ((c.tc : Thread Cert.KernelIdeal.nD Cert.KernelIdeal.τ).loc Cert.KernelIdeal.main_arg5) e).toNat < 8000 :=
  toNat_lt_of_toInt (dst_range m h c e).1 (dst_range m h c e).2

theorem src_range_bits (m : (ℓ : Loc Cert.Kernel.nD Cert.Kernel.τ Cert.Kernel.sig) → Buf (Elt Bits) ℓ)
    (h : Cert.Pre_Kernel m) (c : Dev Cert.Kernel.nD) (e : Cert.Kernel.S200000.Idx) :
    0 ≤ (m ((c.tc : Thread Cert.Kernel.nD Cert.Kernel.τ).loc Cert.Kernel.main_arg4) e).toInt
      ∧ (m ((c.tc : Thread Cert.Kernel.nD Cert.Kernel.τ).loc Cert.Kernel.main_arg4) e).toInt < 20000 :=
  (fn_decode (F := Bits) _ _ _ (h c) e).1

theorem dst_range_bits (m : (ℓ : Loc Cert.Kernel.nD Cert.Kernel.τ Cert.Kernel.sig) → Buf (Elt Bits) ℓ)
    (h : Cert.Pre_Kernel m) (c : Dev Cert.Kernel.nD) (e : Cert.Kernel.S200000.Idx) :
    0 ≤ (m ((c.tc : Thread Cert.Kernel.nD Cert.Kernel.τ).loc Cert.Kernel.main_arg5) e).toInt
      ∧ (m ((c.tc : Thread Cert.Kernel.nD Cert.Kernel.τ).loc Cert.Kernel.main_arg5) e).toInt < 8000 :=
  (fn_decode (F := Bits) _ _ _ (h c) e).2

theorem src_toNat_lt_bits (m : (ℓ : Loc Cert.Kernel.nD Cert.Kernel.τ Cert.Kernel.sig) → Buf (Elt Bits) ℓ)
    (h : Cert.Pre_Kernel m) (c : Dev Cert.Kernel.nD) (e : Cert.Kernel.S200000.Idx) :
    (m ((c.tc : Thread Cert.Kernel.nD Cert.Kernel.τ).loc Cert.Kernel.main_arg4) e).toNat < 20000 :=
  toNat_lt_of_toInt (src_range_bits m h c e).1 (src_range_bits m h c e).2

theorem dst_toNat_lt_bits (m : (ℓ : Loc Cert.Kernel.nD Cert.Kernel.τ Cert.Kernel.sig) → Buf (Elt Bits) ℓ)
    (h : Cert.Pre_Kernel m) (c : Dev Cert.Kernel.nD) (e : Cert.Kernel.S200000.Idx) :
    (m ((c.tc : Thread Cert.Kernel.nD Cert.Kernel.τ).loc Cert.Kernel.main_arg5) e).toNat < 8000 :=
  toNat_lt_of_toInt (dst_range_bits m h c e).1 (dst_range_bits m h c e).2

end Cert.PreFacts

end
-- ==== Proof.EdgeMaps.lean ====
import proofs.«401578_j53953379173285_3_alg».proof.Proof.PreFacts
import Idealize.ShloMosaic.Lib.ValueIdx
import Idealize.ShloMosaic.Lib.StableHlo.Predicate

noncomputable section

namespace Cert.EdgeMaps

open Idealize.ShloMosaic Idealize.SL.Sem

variable [Cert.Pre_finite_inputs.Facts]

def srcOf (m : (ℓ : Loc Cert.KernelIdeal.nD Cert.KernelIdeal.τ Cert.KernelIdeal.sig) → Buf (Elt Ideal) ℓ)
    (h : Cert.Pre_KernelIdeal m) (c : Dev Cert.KernelIdeal.nD) (e : Fin 200000) : Fin 20000 :=
  ⟨((m ((c.tc : Thread Cert.KernelIdeal.nD Cert.KernelIdeal.τ).loc Cert.KernelIdeal.main_arg4)) (ValueIdx.ix1 e)).toNat, Cert.PreFacts.src_toNat_lt m h c (ValueIdx.ix1 e)⟩

def dstOf (m : (ℓ : Loc Cert.KernelIdeal.nD Cert.KernelIdeal.τ Cert.KernelIdeal.sig) → Buf (Elt Ideal) ℓ)
    (h : Cert.Pre_KernelIdeal m) (c : Dev Cert.KernelIdeal.nD) (e : Fin 200000) : Fin 8000 :=
  ⟨((m ((c.tc : Thread Cert.KernelIdeal.nD Cert.KernelIdeal.τ).loc Cert.KernelIdeal.main_arg5)) (ValueIdx.ix1 e)).toNat, Cert.PreFacts.dst_toNat_lt m h c (ValueIdx.ix1 e)⟩

theorem srcOf_val (m : (ℓ : Loc Cert.KernelIdeal.nD Cert.KernelIdeal.τ Cert.KernelIdeal.sig) → Buf (Elt Ideal) ℓ)
    (h : Cert.Pre_KernelIdeal m) (c : Dev Cert.KernelIdeal.nD) (e : Fin 200000) :
    (srcOf m h c e).val = ((m ((c.tc : Thread Cert.KernelIdeal.nD Cert.KernelIdeal.τ).loc Cert.KernelIdeal.main_arg4)) (ValueIdx.ix1 e)).toNat := rfl

theorem dstOf_val (m : (ℓ : Loc Cert.KernelIdeal.nD Cert.KernelIdeal.τ Cert.KernelIdeal.sig) → Buf (Elt Ideal) ℓ)
    (h : Cert.Pre_KernelIdeal m) (c : Dev Cert.KernelIdeal.nD) (e : Fin 200000) :
    (dstOf m h c e).val = ((m ((c.tc : Thread Cert.KernelIdeal.nD Cert.KernelIdeal.τ).loc Cert.KernelIdeal.main_arg5)) (ValueIdx.ix1 e)).toNat := rfl

theorem srcOf_spec (m : (ℓ : Loc Cert.KernelIdeal.nD Cert.KernelIdeal.τ Cert.KernelIdeal.sig) → Buf (Elt Ideal) ℓ)
    (h : Cert.Pre_KernelIdeal m) (c : Dev Cert.KernelIdeal.nD) :
    ∀ e : Fin 200000, ((m ((c.tc : Thread Cert.KernelIdeal.nD Cert.KernelIdeal.τ).loc Cert.KernelIdeal.main_arg4)) (ValueIdx.ix1 e)).toInt = (((srcOf m h c e).val : ℕ) : ℤ) := fun e =>
  StableHlo.Predicate.toInt_eq_toNat_of_lt
    (Nat.lt_trans (Cert.PreFacts.src_toNat_lt m h c (ValueIdx.ix1 e)) (by norm_num))

theorem dstOf_spec (m : (ℓ : Loc Cert.KernelIdeal.nD Cert.KernelIdeal.τ Cert.KernelIdeal.sig) → Buf (Elt Ideal) ℓ)
    (h : Cert.Pre_KernelIdeal m) (c : Dev Cert.KernelIdeal.nD) :
    ∀ e : Fin 200000, ((m ((c.tc : Thread Cert.KernelIdeal.nD Cert.KernelIdeal.τ).loc Cert.KernelIdeal.main_arg5)) (ValueIdx.ix1 e)).toInt = (((dstOf m h c e).val : ℕ) : ℤ) := fun e =>
  StableHlo.Predicate.toInt_eq_toNat_of_lt
    (Nat.lt_trans (Cert.PreFacts.dst_toNat_lt m h c (ValueIdx.ix1 e)) (by norm_num))

theorem srcOf_spec_ref (m : (ℓ : Loc Cert.KernelIdeal.nD Cert.KernelIdeal.τ Cert.KernelIdeal.sig) → Buf (Elt Ideal) ℓ)
    (h : Cert.Pre_KernelIdeal m) (c : Dev Cert.KernelIdeal.nD)
    (m' : (ℓ : Loc Cert.ReferenceIdeal.nD Cert.ReferenceIdeal.τ Cert.ReferenceIdeal.sig) → Buf (Elt Ideal) ℓ)
    (hag : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))) :
    ∀ e : Fin 200000, ((m' ((c.tc : Thread Cert.ReferenceIdeal.nD Cert.ReferenceIdeal.τ).loc Cert.ReferenceIdeal.main_arg4)) (ValueIdx.ix1 e)).toInt = (((srcOf m h c e).val : ℕ) : ℤ) := fun e =>
  (congrArg BitVec.toInt (congrFun hag (ValueIdx.ix1 e))).trans (srcOf_spec m h c e)

theorem dstOf_spec_ref (m : (ℓ : Loc Cert.KernelIdeal.nD Cert.KernelIdeal.τ Cert.KernelIdeal.sig) → Buf (Elt Ideal) ℓ)
    (h : Cert.Pre_KernelIdeal m) (c : Dev Cert.KernelIdeal.nD)
    (m' : (ℓ : Loc Cert.ReferenceIdeal.nD Cert.ReferenceIdeal.τ Cert.ReferenceIdeal.sig) → Buf (Elt Ideal) ℓ)
    (hag : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))) :
    ∀ e : Fin 200000, ((m' ((c.tc : Thread Cert.ReferenceIdeal.nD Cert.ReferenceIdeal.τ).loc Cert.ReferenceIdeal.main_arg5)) (ValueIdx.ix1 e)).toInt = (((dstOf m h c e).val : ℕ) : ℤ) := fun e =>
  (congrArg BitVec.toInt (congrFun hag (ValueIdx.ix1 e))).trans (dstOf_spec m h c e)

end Cert.EdgeMaps

end
-- ==== Proof.Algebra.lean ====
import proofs.«401578_j53953379173285_3_alg».proof.Proof.Spec
import Mathlib.Data.EReal.Basic
import Mathlib.Data.EReal.Operations
import Mathlib.Algebra.BigOperators.Group.Finset.Basic
import Mathlib.Algebra.Order.BigOperators.Group.Finset
import Mathlib.Data.Fintype.BigOperators

noncomputable section

namespace Cert.Spec

open scoped BigOperators

variable {n K M E ns nsp nd : ℕ}

theorem sum_const_mul_of_nonneg {ι : Type*} (S : Finset ι) {w : EReal} (hw : 0 ≤ w) (y : EReal) :
    (∑ _e ∈ S, w) * y = ∑ _e ∈ S, w * y := by
  classical
  induction S using Finset.induction_on with
  | empty => simp
  | insert i S hi ih =>
    rw [Finset.sum_insert hi, Finset.sum_insert hi,
      EReal.right_distrib_of_nonneg hw (Finset.sum_nonneg fun _ _ => hw), ih]

theorem sum_mul_of_nonneg_of_ne_top {ι : Type*} (S : Finset ι) (y : ι → EReal) {w : EReal} (hw : 0 ≤ w)
    (hw' : w ≠ ⊤) : (∑ e ∈ S, y e) * w = ∑ e ∈ S, y e * w := by
  classical
  induction S using Finset.induction_on with
  | empty => simp
  | insert i S hi ih =>
    rw [Finset.sum_insert hi, Finset.sum_insert hi, EReal.right_distrib_of_nonneg_of_ne_top hw hw', ih]

theorem wt_nonneg (dst : Fin E → Fin nd) (d : Fin nd) : 0 ≤ wt dst d := by
  unfold wt
  have h : (0 : ℝ) ≤ 1 / max (indeg dst d : ℝ) 1 := by positivity
  exact_mod_cast h

theorem wt_ne_top (dst : Fin E → Fin nd) (d : Fin nd) : wt dst d ≠ ⊤ := EReal.coe_ne_top _

theorem meanK_route_padRows (x : Fin ns → Fin K → EReal) (src : Fin E → Fin ns) (dst : Fin E → Fin nd)
    (h : ns ≤ nsp) : meanK (route (nsp := nsp) src dst) (padRows x) = meanR x src dst := by
  funext d f
  have hw := wt_nonneg dst d
  have hw' := wt_ne_top dst d
  unfold meanK mm route meanR
  rw [sum_mul_of_nonneg_of_ne_top _ _ hw hw']
  rw [← Finset.sum_fiberwise_of_maps_to (s := Finset.univ.filter (fun e => dst e = d)) (t := Finset.univ)
    (g := fun e => (⟨(src e).val, lt_of_lt_of_le (src e).isLt h⟩ : Fin nsp)) (fun _ _ => Finset.mem_univ _)]
  refine Finset.sum_congr rfl fun s _ => ?_
  rw [sum_const_mul_of_nonneg _ hw, Finset.filter_filter]
  refine Finset.sum_congr ?_ ?_
  · ext e
    simp [Fin.ext_iff]
  · intro e he
    have hes : (src e).val = s.val := by
      have := (Finset.mem_filter.1 he).2.2
      simpa [Fin.ext_iff] using this
    have hs : s.val < ns := hes ▸ (src e).isLt
    have hx : padRows x s f = x (src e) f := by
      unfold padRows
      rw [dif_pos hs]
      congr 1
      exact Fin.ext hes.symm
    rw [hx, EReal.mul_comm]

theorem encK_eq_encR (X : Fin n → Fin K → EReal) (W : Fin K → Fin M → EReal) (add : Fin n → Fin M → EReal)
    (b : Fin M → EReal) : encK X W add b = encR X W b add := by
  funext i j
  unfold encK encR
  exact add_right_comm _ _ _

theorem sageK_eq_sageR (mean xd : Fin nd → Fin K → EReal) (Wl Wr : Fin K → Fin M → EReal) (b : Fin M → EReal) :
    sageK mean xd Wl Wr b = sageR mean xd Wl b Wr := by
  funext d j
  unfold sageK sageR
  exact add_right_comm _ _ _

variable (a : Args)

theorem kXm_eq_rXm : kXm a = rXm a := encK_eq_encR _ _ _ _

theorem kXd_eq_rXd : kXd a = rXd a := encK_eq_encR _ _ _ _

theorem kHd_eq_rHd : kHd a = rHd a := by
  unfold kHd rHd kRmd
  rw [meanK_route_padRows _ _ _ (by norm_num), sageK_eq_sageR, kXm_eq_rXm, kXd_eq_rXd]

theorem kHm_eq_rHm : kHm a = rHm a := by
  unfold kHm rHm kRdm
  rw [meanK_route_padRows _ _ _ (by norm_num), sageK_eq_sageR, kXm_eq_rXm, kXd_eq_rXd]

theorem kOd_eq_rOd : kOd a = rOd a := by
  unfold kOd rOd kRmd
  rw [meanK_route_padRows _ _ _ (by norm_num), sageK_eq_sageR, kHm_eq_rHm, kHd_eq_rHd]

theorem kOm_eq_rOm : kOm a = rOm a := by
  unfold kOm rOm kRdm
  rw [meanK_route_padRows _ _ _ (by norm_num), sageK_eq_sageR, kHm_eq_rHm, kHd_eq_rHd]

end Cert.Spec

end
-- ==== Proof.Ref.Run.lean ====
import proofs.«401578_j53953379173285_3_alg».proof.ReferenceIdeal
import proofs.«401578_j53953379173285_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

section Ssa

variable {τ : Topo} {sig : RefSig} {Val : EltTy → Type}

-- a straight line in which the operation at each place writes exactly the reference at that place of the list
inductive WritesEach : List (HloOp τ sig Val) → List (Ref sig .tc) → Prop
  | nil : WritesEach [] []
  | cons {op : HloOp τ sig Val} {y : Ref sig .tc} {ops : List (HloOp τ sig Val)} {W : List (Ref sig .tc)} :
      op.writes = {Proc.devRef .tc y} → WritesEach ops W → WritesEach (op :: ops) (y :: W)

theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

variable {ops : List (HloOp τ sig Val)} {W : List (Ref sig .tc)}

theorem WritesEach.append {l₂ : List (HloOp τ sig Val)} {W₂ : List (Ref sig .tc)}
    (h₁ : WritesEach ops W) (h₂ : WritesEach l₂ W₂) : WritesEach (ops ++ l₂) (W ++ W₂) := by
  induction h₁ with
  | nil => exact h₂
  | cons hw _ ih => exact .cons hw ih

theorem WritesEach.drop (h : WritesEach ops W) : ∀ k : Nat, WritesEach (ops.drop k) (W.drop k) := by
  induction h with
  | nil => intro k; cases k <;> exact .nil
  | cons hw h' ih =>
    intro k
    cases k with
    | zero => exact .cons hw h'
    | succ k => exact ih k

-- a buffer no operation of the line writes keeps its contents
theorem WritesEach.keep (h : WritesEach ops W) (V : Valuation τ sig Val) {r : Ref sig .tc} (hr : r ∉ W) :
    after ops V (Proc.devRef .tc r) = V (Proc.devRef .tc r) := by
  induction h generalizing V with
  | nil => rfl
  | @cons op y ops W hw _ ih =>
    rw [after_cons, ih _ (fun hm => hr (List.mem_cons_of_mem _ hm))]
    exact op.result_of_not_mem V (by
      rw [hw, Finset.mem_singleton]
      exact devRef_ne_of_ne (fun e => hr (e ▸ List.mem_cons_self)))

-- a buffer nothing from place k on writes ends at what it held before place k
theorem WritesEach.before (h : WritesEach ops W) (V : Valuation τ sig Val) (k : Nat) {r : Ref sig .tc}
    (hr : r ∉ W.drop k) : after ops V (Proc.devRef .tc r) = after (ops.take k) V (Proc.devRef .tc r) := by
  conv_lhs => rw [← List.take_append_drop k ops, after_app]
  exact (h.drop k).keep _ hr

-- the buffer written at place k ends at that operation's result over the contents before it
theorem WritesEach.at (h : WritesEach ops W) (V : Valuation τ sig Val) (k : Nat) {op : HloOp τ sig Val}
    {y : Ref sig .tc} (hop : ops[k]? = some op) (hy : y ∉ W.drop (k + 1)) :
    after ops V (Proc.devRef .tc y) = op.result (after (ops.take k) V) (Proc.devRef .tc y) := by
  rw [h.before V (k + 1) hy, List.take_succ, hop, Option.toList_some, after_app, after_cons, after_nil]

-- so each operation's equation holds of the END contents, its operands being written before it or never
theorem WritesEach.nullary (h : WritesEach ops W) (V : Valuation τ sig Val) (k : Nat) {y : Ref sig .tc}
    {v : y.ty.Contents Val} {hy} (hop : ops[k]? = some (nullary y v hy))
    (hyW : y ∉ W.drop (k + 1) := by decide) : after ops V (Proc.devRef .tc y) = v := by
  rw [h.at V k hop hyW, nullary_result]

theorem WritesEach.unary (h : WritesEach ops W) (V : Valuation τ sig Val) (k : Nat) {x y : Ref sig .tc}
    {f : x.ty.Contents Val → y.ty.Contents Val} {hx hy} (hop : ops[k]? = some (unary x y f hx hy))
    (hyW : y ∉ W.drop (k + 1) := by decide) (hxW : x ∉ W.drop k := by decide) :
    after ops V (Proc.devRef .tc y) = f (after ops V (Proc.devRef .tc x)) := by
  rw [h.at V k hop hyW, unary_result, h.before V k hxW]

theorem WritesEach.binary (h : WritesEach ops W) (V : Valuation τ sig Val) (k : Nat) {a b y : Ref sig .tc}
    {f : a.ty.Contents Val → b.ty.Contents Val → y.ty.Contents Val} {ha hb hy}
    (hop : ops[k]? = some (binary a b y f ha hb hy)) (hyW : y ∉ W.drop (k + 1) := by decide)
    (haW : a ∉ W.drop k := by decide) (hbW : b ∉ W.drop k := by decide) :
    after ops V (Proc.devRef .tc y) = f (after ops V (Proc.devRef .tc a)) (after ops V (Proc.devRef .tc b)) := by
  rw [h.at V k hop hyW, binary_result, h.before V k haW, h.before V k hbW]

theorem WritesEach.ternary (h : WritesEach ops W) (V : Valuation τ sig Val) (k : Nat) {c a b y : Ref sig .tc}
    {f : c.ty.Contents Val → a.ty.Contents Val → b.ty.Contents Val → y.ty.Contents Val} {hc ha hb hy}
    (hop : ops[k]? = some (ternary c a b y f hc ha hb hy)) (hyW : y ∉ W.drop (k + 1) := by decide)
    (hcW : c ∉ W.drop k := by decide) (haW : a ∉ W.drop k := by decide) (hbW : b ∉ W.drop k := by decide) :
    after ops V (Proc.devRef .tc y)
      = f (after ops V (Proc.devRef .tc c)) (after ops V (Proc.devRef .tc a)) (after ops V (Proc.devRef .tc b)) := by
  rw [h.at V k hop hyW, ternary_result, h.before V k hcW, h.before V k haW, h.before V k hbW]

end Ssa

variable {F : FTy → Type} [FloatOps F]

abbrev ops_part0 : List (HloOp τ sig (Elt F)) :=
  [ StableHlo.binary main_arg0 main_arg6 main_v0 ((fun l r => Host.dotGeneral dot_S20000x384_S384x512_S20000x512_1_0_0_1_n_n none l r) : (⟨S20000x384, .f32⟩ : BufTy).Contents (Elt F) → (⟨S384x512, .f32⟩ : BufTy).Contents (Elt F) → (⟨S20000x512, .f32⟩ : BufTy).Contents (Elt F)),
    StableHlo.unary main_arg7 main_v1 (broadcastInDim S1x512 ![1] bcast_S512_S1x512_1 : (⟨S512, .f32⟩ : BufTy).Contents (Elt F) → (⟨S1x512, .f32⟩ : BufTy).Contents (Elt F)),
    StableHlo.unary main_v1 main_v2 (broadcastInDim S20000x512 ![0, 1] bcast_S1x512_S20000x512_0_1 : (⟨S1x512, .f32⟩ : BufTy).Contents (Elt F) → (⟨S20000x512, .f32⟩ : BufTy).Contents (Elt F)),
    StableHlo.binary main_v0 main_v2 main_v3 (addf : (⟨S20000x512, .f32⟩ : BufTy).Contents (Elt F) → (⟨S20000x512, .f32⟩ : BufTy).Contents (Elt F) → (⟨S20000x512, .f32⟩ : BufTy).Contents (Elt F)),
    StableHlo.TRef.nullary main_call0.c (constantI S_ 32 0#32),
    StableHlo.TRef.unary main_call0.c main_call0.v0 (broadcastInDim S20000 ![] bcast_S_S20000),
    StableHlo.TRef.binary (.of main_arg2) main_call0.v0 main_call0.v1 (cmpi .slt),
    StableHlo.TRef.nullary main_call0.c_0 (constantI S_ 32 20000#32),
    StableHlo.TRef.unary main_call0.c_0 main_call0.v2 (broadcastInDim S20000 ![] bcast_S_S20000),
    StableHlo.TRef.binary (.of main_arg2) main_call0.v2 main_call0.v3 addi,
    StableHlo.TRef.ternary main_call0.v1 main_call0.v3 (.of main_arg2) main_call0.call0.v0 select,
    StableHlo.TRef.unary main_call0.call0.v0 main_call0.v5 (broadcastInDim S20000x1 ![0] bcast_S20000_S20000x1_0),
    StableHlo.TRef.nullary main_call0.c_1 (constantI S1 32 19999#32),
    StableHlo.TRef.nullary main_call0.c_2 (constantI S_ 32 0#32),
    StableHlo.TRef.unary main_call0.c_2 main_call0.v6 (broadcastInDim S20000x1 ![] bcast_S_S20000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S20000x1 ![0, 1] bcast_S1x1_S20000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S20000x1_S20000_d1 h_S_),
    StableHlo.TRef.binary (.of main_arg10) main_call0.v5 main_call0.v13 (fun x i => Host.gather gather_S20000x512_S20000x1_S20000x512_1_0_n_n_0_1_1512 x i),
    StableHlo.TRef.unary main_call0.v12 main_call0.v14 (broadcastInDim S20000x512 ![0] bcast_S20000_S20000x512_0),
    StableHlo.TRef.nullary main_call0.cst (constant S_ .f32 0x7FC00000#32),
    StableHlo.TRef.unary main_call0.cst main_call0.v15 (broadcastInDim S20000x512 ![] bcast_S_S20000x512),
    StableHlo.TRef.ternary main_call0.v14 main_call0.v13 main_call0.v15 main_call0.v16 select,
    StableHlo.binary main_v3 main_v4 main_v5 (addf : (⟨S20000x512, .f32⟩ : BufTy).Contents (Elt F) → (⟨S20000x512, .f32⟩ : BufTy).Contents (Elt F) → (⟨S20000x512, .f32⟩ : BufTy).Contents (Elt F)),
    StableHlo.binary main_arg1 main_arg8 main_v6 ((fun l r => Host.dotGeneral dot_S8000x384_S384x512_S8000x512_1_0_0_1_n_n none l r) : (⟨S8000x384, .f32⟩ : BufTy).Contents (Elt F) → (⟨S384x512, .f32⟩ : BufTy).Contents (Elt F) → (⟨S8000x512, .f32⟩ : BufTy).Contents (Elt F)),
    StableHlo.unary main_arg9 main_v7 (broadcastInDim S1x512 ![1] bcast_S512_S1x512_1 : (⟨S512, .f32⟩ : BufTy).Contents (Elt F) → (⟨S1x512, .f32⟩ : BufTy).Contents (Elt F)),
    StableHlo.unary main_v7 main_v8 (broadcastInDim S8000x512 ![0, 1] bcast_S1x512_S8000x512_0_1 : (⟨S1x512, .f32⟩ : BufTy).Contents (Elt F) → (⟨S8000x512, .f32⟩ : BufTy).Contents (Elt F)),
    StableHlo.binary main_v6 main_v8 main_v9 (addf : (⟨S8000x512, .f32⟩ : BufTy).Contents (Elt F) → (⟨S8000x512, .f32⟩ : BufTy).Contents (Elt F) → (⟨S8000x512, .f32⟩ : BufTy).Contents (Elt F)),
    StableHlo.TRef.nullary main_call1.c (constantI S_ 32 0#32),
    StableHlo.TRef.unary main_call1.c main_call1.v0 (broadcastInDim S8000 ![] bcast_S_S8000),
    StableHlo.TRef.binary (.of main_arg3) main_call1.v0 main_call1.v1 (cmpi .slt),
    StableHlo.TRef.nullary main_call1.c_0 (constantI S_ 32 8000#32),
    StableHlo.TRef.unary main_call1.c_0 main_call1.v2 (broadcastInDim S8000 ![] bcast_S_S8000),
    StableHlo.TRef.binary (.of main_arg3) main_call1.v2 main_call1.v3 addi,
    StableHlo.TRef.ternary main_call1.v1 main_call1.v3 (.of main_arg3) main_call1.call0.v0 select,
    StableHlo.TRef.unary main_call1.call0.v0 main_call1.v5 (broadcastInDim S8000x1 ![0] bcast_S8000_S8000x1_0),
    StableHlo.TRef.nullary main_call1.c_1 (constantI S1 32 7999#32),
    StableHlo.TRef.nullary main_call1.c_2 (constantI S_ 32 0#32),
    StableHlo.TRef.unary main_call1.c_2 main_call1.v6 (broadcastInDim S8000x1 ![] bcast_S_S8000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S8000x1 ![0, 1] bcast_S1x1_S8000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S8000x1_S8000_d1 h_S_),
    StableHlo.TRef.binary (.of main_arg11) main_call1.v5 main_call1.v13 (fun x i => Host.gather gather_S8000x512_S8000x1_S8000x512_1_0_n_n_0_1_1512 x i),
    StableHlo.TRef.unary main_call1.v12 main_call1.v14 (broadcastInDim S8000x512 ![0] bcast_S8000_S8000x512_0),
    StableHlo.TRef.nullary main_call1.cst (constant S_ .f32 0x7FC00000#32),
    StableHlo.TRef.unary main_call1.cst main_call1.v15 (broadcastInDim S8000x512 ![] bcast_S_S8000x512),
    StableHlo.TRef.ternary main_call1.v14 main_call1.v13 main_call1.v15 main_call1.v16 select,
    StableHlo.binary main_v9 main_v10 main_v11 (addf : (⟨S8000x512, .f32⟩ : BufTy).Contents (Elt F) → (⟨S8000x512, .f32⟩ : BufTy).Contents (Elt F) → (⟨S8000x512, .f32⟩ : BufTy).Contents (Elt F)),
    StableHlo.TRef.nullary main_call2.c (constantI S_ 32 0#32),
    StableHlo.TRef.unary main_call2.c main_call2.v0 (broadcastInDim S200000 ![] bcast_S_S200000),
    StableHlo.TRef.binary (.of main_arg4) main_call2.v0 main_call2.v1 (cmpi .slt),
    StableHlo.TRef.nullary main_call2.c_0 (constantI S_ 32 20000#32),
    StableHlo.TRef.unary main_call2.c_0 main_call2.v2 (broadcastInDim S200000 ![] bcast_S_S200000),
    StableHlo.TRef.binary (.of main_arg4) main_call2.v2 main_call2.v3 addi,
    StableHlo.TRef.ternary main_call2.v1 main_call2.v3 (.of main_arg4) main_call2.call0.v0 select,
    StableHlo.TRef.unary main_call2.call0.v0 main_call2.v5 (broadcastInDim S200000x1 ![0] bcast_S200000_S200000x1_0),
    StableHlo.TRef.nullary main_call2.c_1 (constantI S1 32 19999#32),
    StableHlo.TRef.nullary main_call2.c_2 (constantI S_ 32 0#32),
    StableHlo.TRef.unary main_call2.c_2 main_call2.v6 (broadcastInDim S200000x1 ![] bcast_S_S200000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S200000x1 ![0, 1] bcast_S1x1_S200000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S200000x1_S200000_d1 h_S_),
    StableHlo.TRef.binary (.of main_v5) main_call2.v5 main_call2.v13 (fun x i => Host.gather gather_S20000x512_S200000x1_S200000x512_1_0_n_n_0_1_1512 x i),
    StableHlo.TRef.unary main_call2.v12 main_call2.v14 (broadcastInDim S200000x512 ![0] bcast_S200000_S200000x512_0),
    StableHlo.TRef.nullary main_call2.cst (constant S_ .f32 0x7FC00000#32),
    StableHlo.TRef.unary main_call2.cst main_call2.v15 (broadcastInDim S200000x512 ![] bcast_S_S200000x512),
    StableHlo.TRef.ternary main_call2.v14 main_call2.v13 main_call2.v15 main_call2.v16 select,
    StableHlo.nullary main_cst (constant S_ .f32 0x00000000#32),
    StableHlo.unary main_cst main_v13 (broadcastInDim S8000x512 ![] bcast_S_S8000x512 : (⟨S_, .f32⟩ : BufTy).Contents (Elt F) → (⟨S8000x512, .f32⟩ : BufTy).Contents (Elt F)),
    StableHlo.unary main_arg5 main_v14 (broadcastInDim S200000x1 ![0] bcast_S200000_S200000x1_0 : (⟨S200000, .i32⟩ : BufTy).Contents (Elt F) → (⟨S200000x1, .i32⟩ : BufTy).Contents (Elt F)),
    StableHlo.ternary main_v13 main_v14 main_v12 main_v15 ((fun x i u => Host.scatterAdd scatter_S8000x512_S200000x1_S200000x512_1_0_0_1 x i u) : (⟨S8000x512, .f32⟩ : BufTy).Contents (Elt F) → (⟨S200000x1, .i32⟩ : BufTy).Contents (Elt F) → (⟨S200000x512, .f32⟩ : BufTy).Contents (Elt F) → (⟨S8000x512, .f32⟩ : BufTy).Contents (Elt F)),
    StableHlo.nullary main_cst_0 (constant S_ .f32 0x3F800000#32),
    StableHlo.unary main_cst_0 main_v16 (broadcastInDim S200000 ![] bcast_S_S200000 : (⟨S_, .f32⟩ : BufTy).Contents (Elt F) → (⟨S200000, .f32⟩ : BufTy).Contents (Elt F)),
    StableHlo.nullary main_cst_1 (constant S_ .f32 0x00000000#32),
    StableHlo.unary main_cst_1 main_v17 (broadcastInDim S8000 ![] bcast_S_S8000 : (⟨S_, .f32⟩ : BufTy).Contents (Elt F) → (⟨S8000, .f32⟩ : BufTy).Contents (Elt F)),
    StableHlo.unary main_arg5 main_v18 (broadcastInDim S200000x1 ![0] bcast_S200000_S200000x1_0 : (⟨S200000, .i32⟩ : BufTy).Contents (Elt F) → (⟨S200000x1, .i32⟩ : BufTy).Contents (Elt F)),
    StableHlo.ternary main_v17 main_v18 main_v16 main_v19 ((fun x i u => Host.scatterAdd scatter_S8000_S200000x1_S200000_n_0_0_1 x i u) : (⟨S8000, .f32⟩ : BufTy).Contents (Elt F) → (⟨S200000x1, .i32⟩ : BufTy).Contents (Elt F) → (⟨S200000, .f32⟩ : BufTy).Contents (Elt F) → (⟨S8000, .f32⟩ : BufTy).Contents (Elt F)),
    StableHlo.nullary main_cst_2 (constant S_ .f32 0x3F800000#32),
    StableHlo.unary main_cst_2 main_v20 (broadcastInDim S8000 ![] bcast_S_S8000 : (⟨S_, .f32⟩ : BufTy).Contents (Elt F) → (⟨S8000, .f32⟩ : BufTy).Contents (Elt F)),
    StableHlo.binary main_v19 main_v20 main_v21 (maximumf : (⟨S8000, .f32⟩ : BufTy).Contents (Elt F) → (⟨S8000, .f32⟩ : BufTy).Contents (Elt F) → (⟨S8000, .f32⟩ : BufTy).Contents (Elt F)),
    StableHlo.unary main_v21 main_v22 (broadcastInDim S8000x1 ![0] bcast_S8000_S8000x1_0 : (⟨S8000, .f32⟩ : BufTy).Contents (Elt F) → (⟨S8000x1, .f32⟩ : BufTy).Contents (Elt F)),
    StableHlo.unary main_v22 main_v23 (broadcastInDim S8000x512 ![0, 1] bcast_S8000x1_S8000x512_0_1 : (⟨S8000x1, .f32⟩ : BufTy).Contents (Elt F) → (⟨S8000x512, .f32⟩ : BufTy).Contents (Elt F)),
    StableHlo.binary main_v15 main_v23 main_v24 (Host.divf : (⟨S8000x512, .f32⟩ : BufTy).Contents (Elt F) → (⟨S8000x512, .f32⟩ : BufTy).Contents (Elt F) → (⟨S8000x512, .f32⟩ : BufTy).Contents (Elt F)),
    StableHlo.binary main_v24 main_arg12 main_v25 ((fun l r => Host.dotGeneral dot_S8000x512_S512x512_S8000x512_1_0_0_1_n_n none l r) : (⟨S8000x512, .f32⟩ : BufTy).Contents (Elt F) → (⟨S512x512, .f32⟩ : BufTy).Contents (Elt F) → (⟨S8000x512, .f32⟩ : BufTy).Contents (Elt F)),
    StableHlo.unary main_arg13 main_v26 (broadcastInDim S1x512 ![1] bcast_S512_S1x512_1 : (⟨S512, .f32⟩ : BufTy).Contents (Elt F) → (⟨S1x512, .f32⟩ : BufTy).Contents (Elt F)),
    StableHlo.unary main_v26 main_v27 (broadcastInDim S8000x512 ![0, 1] bcast_S1x512_S8000x512_0_1 : (⟨S1x512, .f32⟩ : BufTy).Contents (Elt F) → (⟨S8000x512, .f32⟩ : BufTy).Contents (Elt F)),
    StableHlo.binary main_v25 main_v27 main_v28 (addf : (⟨S8000x512, .f32⟩ : BufTy).Contents (Elt F) → (⟨S8000x512, .f32⟩ : BufTy).Contents (Elt F) → (⟨S8000x512, .f32⟩ : BufTy).Contents (Elt F)),
    StableHlo.binary main_v11 main_arg14 main_v29 ((fun l r => Host.dotGeneral dot_S8000x512_S512x512_S8000x512_1_0_0_1_n_n none l r) : (⟨S8000x512, .f32⟩ : BufTy).Contents (Elt F) → (⟨S512x512, .f32⟩ : BufTy).Contents (Elt F) → (⟨S8000x512, .f32⟩ : BufTy).Contents (Elt F)),
    StableHlo.binary main_v28 main_v29 main_v30 (addf : (⟨S8000x512, .f32⟩ : BufTy).Contents (Elt F) → (⟨S8000x512, .f32⟩ : BufTy).Contents (Elt F) → (⟨S8000x512, .f32⟩ : BufTy).Contents (Elt F)),
    StableHlo.TRef.nullary main_call3.c (constantI S_ 32 0#32),
    StableHlo.TRef.unary main_call3.c main_call3.v0 (broadcastInDim S200000 ![] bcast_S_S200000),
    StableHlo.TRef.binary (.of main_arg5) main_call3.v0 main_call3.v1 (cmpi .slt),
    StableHlo.TRef.nullary main_call3.c_0 (constantI S_ 32 8000#32),
    StableHlo.TRef.unary main_call3.c_0 main_call3.v2 (broadcastInDim S200000 ![] bcast_S_S200000),
    StableHlo.TRef.binary (.of main_arg5) main_call3.v2 main_call3.v3 addi,
    StableHlo.TRef.ternary main_call3.v1 main_call3.v3 (.of main_arg5) main_call3.call0.v0 select,
    StableHlo.TRef.unary main_call3.call0.v0 main_call3.v5 (broadcastInDim S200000x1 ![0] bcast_S200000_S200000x1_0),
    StableHlo.TRef.nullary main_call3.c_1 (constantI S1 32 7999#32),
    StableHlo.TRef.nullary main_call3.c_2 (constantI S_ 32 0#32),
    StableHlo.TRef.unary main_call3.c_2 main_call3.v6 (broadcastInDim S200000x1 ![] bcast_S_S200000x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S200000x1 ![0, 1] bcast_S1x1_S200000x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S200000x1_S200000_d1 h_S_),
    StableHlo.TRef.binary (.of main_v11) main_call3.v5 main_call3.v13 (fun x i => Host.gather gather_S8000x512_S200000x1_S200000x512_1_0_n_n_0_1_1512 x i),
    StableHlo.TRef.unary main_call3.v12 main_call3.v14 (broadcastInDim S200000x512 ![0] bcast_S200000_S200000x512_0),
    StableHlo.TRef.nullary main_call3.cst (constant S_ .f32 0x7FC00000#32),
    StableHlo.TRef.unary main_call3.cst main_call3.v15 (broadcastInDim S200000x512 ![] bcast_S_S200000x512),
    StableHlo.TRef.ternary main_call3.v14 main_call3.v13 main_call3.v15 main_call3.v16 select,
    StableHlo.nullary main_cst_3 (constant S_ .f32 0x00000000#32),
    StableHlo.unary main_cst_3 main_v32 (broadcastInDim S20000x512 ![] bcast_S_S20000x512 : (⟨S_, .f32⟩ : BufTy).Contents (Elt F) → (⟨S20000x512, .f32⟩ : BufTy).Contents (Elt F)),
    StableHlo.unary main_arg4 main_v33 (broadcastInDim S200000x1 ![0] bcast_S200000_S200000x1_0 : (⟨S200000, .i32⟩ : BufTy).Contents (Elt F) → (⟨S200000x1, .i32⟩ : BufTy).Contents (Elt F)),
    StableHlo.ternary main_v32 main_v33 main_v31 main_v34 ((fun x i u => Host.scatterAdd scatter_S20000x512_S200000x1_S200000x512_1_0_0_1 x i u) : (⟨S20000x512, .f32⟩ : BufTy).Contents (Elt F) → (⟨S200000x1, .i32⟩ : BufTy).Contents (Elt F) → (⟨S200000x512, .f32⟩ : BufTy).Contents (Elt F) → (⟨S20000x512, .f32⟩ : BufTy).Contents (Elt F)),
    StableHlo.nullary main_cst_4 (constant S_ .f32 0x3F800000#32),
    StableHlo.unary main_cst_4 main_v35 (broadcastInDim S200000 ![] bcast_S_S200000 : (⟨S_, .f32⟩ : BufTy).Contents (Elt F) → (⟨S200000, .f32⟩ : BufTy).Contents (Elt F)),
    StableHlo.nullary main_cst_5 (constant S_ .f32 0x00000000#32),
    StableHlo.unary main_cst_5 main_v36 (broadcastInDim S20000 ![] bcast_S_S20000 : (⟨S_, .f32⟩ : BufTy).Contents (Elt F) → (⟨S20000, .f32⟩ : BufTy).Contents (Elt F)),
    StableHlo.unary main_arg4 main_v37 (broadcastInDim S200000x1 ![0] bcast_S200000_S200000x1_0 : (⟨S200000, .i32⟩ : BufTy).Contents (Elt F) → (⟨S200000x1, .i32⟩ : BufTy).Contents (Elt F)),
    StableHlo.ternary main_v36 main_v37 main_v35 main_v38 ((fun x i u => Host.scatterAdd scatter_S20000_S200000x1_S200000_n_0_0_1 x i u) : (⟨S20000, .f32⟩ : BufTy).Contents (Elt F) → (⟨S200000x1, .i32⟩ : BufTy).Contents (Elt F) → (⟨S200000, .f32⟩ : BufTy).Contents (Elt F) → (⟨S20000, .f32⟩ : BufTy).Contents (Elt F)),
    StableHlo.nullary main_cst_6 (constant S_ .f32 0x3F800000#32),
    StableHlo.unary main_cst_6 main_v39 (broadcastInDim S20000 ![] bcast_S_S20000 : (⟨S_, .f32⟩ : BufTy).Contents (Elt F) → (⟨S20000, .f32⟩ : BufTy).Contents (Elt F)),
    StableHlo.binary main_v38 main_v39 main_v40 (maximumf : (⟨S20000, .f32⟩ : BufTy).Contents (Elt F) → (⟨S20000, .f32⟩ : BufTy).Contents (Elt F) → (⟨S20000, .f32⟩ : BufTy).Contents (Elt F)),
    StableHlo.unary main_v40 main_v41 (broadcastInDim S20000x1 ![0] bcast_S20000_S20000x1_0 : (⟨S20000, .f32⟩ : BufTy).Contents (Elt F) → (⟨S20000x1, .f32⟩ : BufTy).Contents (Elt F)),
    StableHlo.unary main_v41 main_v42 (broadcastInDim S20000x512 ![0, 1] bcast_S20000x1_S20000x512_0_1 : (⟨S20000x1, .f32⟩ : BufTy).Contents (Elt F) → (⟨S20000x512, .f32⟩ : BufTy).Contents (Elt F)),
    StableHlo.binary main_v34 main_v42 main_v43 (Host.divf : (⟨S20000x512, .f32⟩ : BufTy).Contents (Elt F) → (⟨S20000x512, .f32⟩ : BufTy).Contents (Elt F) → (⟨S20000x512, .f32⟩ : BufTy).Contents (Elt F)),
    StableHlo.binary main_v43 main_arg15 main_v44 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    StableHlo.unary main_arg16 main_v45 (broadcastInDim S1x512 ![1] bcast_S512_S1x512_1 : (⟨S512, .f32⟩ : BufTy).Contents (Elt F) → (⟨S1x512, .f32⟩ : BufTy).Contents (Elt F)),
    StableHlo.unary main_v45 main_v46 (broadcastInDim S20000x512 ![0, 1] bcast_S1x512_S20000x512_0_1 : (⟨S1x512, .f32⟩ : BufTy).Contents (Elt F) → (⟨S20000x512, .f32⟩ : BufTy).Contents (Elt F)),
    StableHlo.binary main_v44 main_v46 main_v47 (addf : (⟨S20000x512, .f32⟩ : BufTy).Contents (Elt F) → (⟨S20000x512, .f32⟩ : BufTy).Contents (Elt F) → (⟨S20000x512, .f32⟩ : BufTy).Contents (Elt F)),
    StableHlo.binary main_v5 main_arg17 main_v48 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    StableHlo.binary main_v47 main_v48 main_v49 (addf : (⟨S20000x512, .f32⟩ : BufTy).Contents (Elt F) → (⟨S20000x512, .f32⟩ : BufTy).Contents (Elt F) → (⟨S20000x512, .f32⟩ : BufTy).Contents (Elt F)),
    StableHlo.TRef.nullary main_call4.cst (constant S_ .f32 0x00000000#32),
    StableHlo.TRef.unary main_call4.cst main_call4.v0 (broadcastInDim S20000x512 ![] bcast_S_S20000x512),
    StableHlo.TRef.binary (.of main_v49) main_call4.v0 main_call4.v1 maximumf,
    StableHlo.TRef.nullary main_call5.cst (constant S_ .f32 0x00000000#32),
    StableHlo.TRef.unary main_call5.cst main_call5.v0 (broadcastInDim S8000x512 ![] bcast_S_S8000x512),
    StableHlo.TRef.binary (.of main_v30) main_call5.v0 main_call5.v1 maximumf ]

abbrev ops_part1 : List (HloOp τ sig (Elt F)) :=
  [ StableHlo.TRef.nullary main_call6.c (constantI S_ 32 0#32),
    StableHlo.TRef.unary main_call6.c main_call6.v0 (broadcastInDim S200000 ![] bcast_S_S200000),
    StableHlo.TRef.binary (.of main_arg4) main_call6.v0 main_call6.v1 (cmpi .slt),
    StableHlo.TRef.nullary main_call6.c_0 (constantI S_ 32 20000#32),
    StableHlo.TRef.unary main_call6.c_0 main_call6.v2 (broadcastInDim S200000 ![] bcast_S_S200000),
    StableHlo.TRef.binary (.of main_arg4) main_call6.v2 main_call6.v3 addi,
    StableHlo.TRef.ternary main_call6.v1 main_call6.v3 (.of main_arg4) main_call6.call0.v0 select,
    StableHlo.TRef.unary main_call6.call0.v0 main_call6.v5 (broadcastInDim S200000x1 ![0] bcast_S200000_S200000x1_0),
    StableHlo.TRef.nullary main_call6.c_1 (constantI S1 32 19999#32),
    StableHlo.TRef.nullary main_call6.c_2 (constantI S_ 32 0#32),
    StableHlo.TRef.unary main_call6.c_2 main_call6.v6 (broadcastInDim S200000x1 ![] bcast_S_S200000x1),
    StableHlo.TRef.binary main_call6.v5 main_call6.v6 main_call6.v7 (cmpi .sge),
    StableHlo.TRef.unary main_call6.c_1 main_call6.v8 (broadcastInDim S1x1 ![1] bcast_S1_S1x1_1),
    StableHlo.TRef.unary main_call6.v8 main_call6.v9 (broadcastInDim S200000x1 ![0, 1] bcast_S1x1_S200000x1_0_1),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S200000x1_S200000_d1 h_S_),
    StableHlo.TRef.binary (.of main_v50) main_call6.v5 main_call6.v13 (fun x i => Host.gather gather_S20000x512_S200000x1_S200000x512_1_0_n_n_0_1_1512 x i),
    StableHlo.TRef.unary main_call6.v12 main_call6.v14 (broadcastInDim S200000x512 ![0] bcast_S200000_S200000x512_0),
    StableHlo.TRef.nullary main_call6.cst (constant S_ .f32 0x7FC00000#32),
    StableHlo.TRef.unary main_call6.cst main_call6.v15 (broadcastInDim S200000x512 ![] bcast_S_S200000x512),
    StableHlo.TRef.ternary main_call6.v14 main_call6.v13 main_call6.v15 main_call6.v16 select,
    StableHlo.nullary main_cst_7 (constant S_ .f32 0x00000000#32),
    StableHlo.unary main_cst_7 main_v53 (broadcastInDim S8000x512 ![] bcast_S_S8000x512 : (⟨S_, .f32⟩ : BufTy).Contents (Elt F) → (⟨S8000x512, .f32⟩ : BufTy).Contents (Elt F)),
    StableHlo.unary main_arg5 main_v54 (broadcastInDim S200000x1 ![0] bcast_S200000_S200000x1_0 : (⟨S200000, .i32⟩ : BufTy).Contents (Elt F) → (⟨S200000x1, .i32⟩ : BufTy).Contents (Elt F)),
    StableHlo.ternary main_v53 main_v54 main_v52 main_v55 ((fun x i u => Host.scatterAdd scatter_S8000x512_S200000x1_S200000x512_1_0_0_1 x i u) : (⟨S8000x512, .f32⟩ : BufTy).Contents (Elt F) → (⟨S200000x1, .i32⟩ : BufTy).Contents (Elt F) → (⟨S200000x512, .f32⟩ : BufTy).Contents (Elt F) → (⟨S8000x512, .f32⟩ : BufTy).Contents (Elt F)),
    StableHlo.nullary main_cst_8 (constant S_ .f32 0x3F800000#32),
    StableHlo.unary main_cst_8 main_v56 (broadcastInDim S200000 ![] bcast_S_S200000 : (⟨S_, .f32⟩ : BufTy).Contents (Elt F) → (⟨S200000, .f32⟩ : BufTy).Contents (Elt F)),
    StableHlo.nullary main_cst_9 (constant S_ .f32 0x00000000#32),
    StableHlo.unary main_cst_9 main_v57 (broadcastInDim S8000 ![] bcast_S_S8000 : (⟨S_, .f32⟩ : BufTy).Contents (Elt F) → (⟨S8000, .f32⟩ : BufTy).Contents (Elt F)),
    StableHlo.unary main_arg5 main_v58 (broadcastInDim S200000x1 ![0] bcast_S200000_S200000x1_0 : (⟨S200000, .i32⟩ : BufTy).Contents (Elt F) → (⟨S200000x1, .i32⟩ : BufTy).Contents (Elt F)),
    StableHlo.ternary main_v57 main_v58 main_v56 main_v59 ((fun x i u => Host.scatterAdd scatter_S8000_S200000x1_S200000_n_0_0_1 x i u) : (⟨S8000, .f32⟩ : BufTy).Contents (Elt F) → (⟨S200000x1, .i32⟩ : BufTy).Contents (Elt F) → (⟨S200000, .f32⟩ : BufTy).Contents (Elt F) → (⟨S8000, .f32⟩ : BufTy).Contents (Elt F)),
    StableHlo.nullary main_cst_10 (constant S_ .f32 0x3F800000#32),
    StableHlo.unary main_cst_10 main_v60 (broadcastInDim S8000 ![] bcast_S_S8000 : (⟨S_, .f32⟩ : BufTy).Contents (Elt F) → (⟨S8000, .f32⟩ : BufTy).Contents (Elt F)),
    StableHlo.binary main_v59 main_v60 main_v61 (maximumf : (⟨S8000, .f32⟩ : BufTy).Contents (Elt F) → (⟨S8000, .f32⟩ : BufTy).Contents (Elt F) → (⟨S8000, .f32⟩ : BufTy).Contents (Elt F)),
    StableHlo.unary main_v61 main_v62 (broadcastInDim S8000x1 ![0] bcast_S8000_S8000x1_0 : (⟨S8000, .f32⟩ : BufTy).Contents (Elt F) → (⟨S8000x1, .f32⟩ : BufTy).Contents (Elt F)),
    StableHlo.unary main_v62 main_v63 (broadcastInDim S8000x512 ![0, 1] bcast_S8000x1_S8000x512_0_1 : (⟨S8000x1, .f32⟩ : BufTy).Contents (Elt F) → (⟨S8000x512, .f32⟩ : BufTy).Contents (Elt F)),
    StableHlo.binary main_v55 main_v63 main_v64 (Host.divf : (⟨S8000x512, .f32⟩ : BufTy).Contents (Elt F) → (⟨S8000x512, .f32⟩ : BufTy).Contents (Elt F) → (⟨S8000x512, .f32⟩ : BufTy).Contents (Elt F)),
    StableHlo.binary main_v64 main_arg18 main_v65 ((fun l r => Host.dotGeneral dot_S8000x512_S512x256_S8000x256_1_0_0_1_n_n none l r) : (⟨S8000x512, .f32⟩ : BufTy).Contents (Elt F) → (⟨S512x256, .f32⟩ : BufTy).Contents (Elt F) → (⟨S8000x256, .f32⟩ : BufTy).Contents (Elt F)),
    StableHlo.unary main_arg19 main_v66 (broadcastInDim S1x256 ![1] bcast_S256_S1x256_1 : (⟨S256, .f32⟩ : BufTy).Contents (Elt F) → (⟨S1x256, .f32⟩ : BufTy).Contents (Elt F)),
    StableHlo.unary main_v66 main_v67 (broadcastInDim S8000x256 ![0, 1] bcast_S1x256_S8000x256_0_1 : (⟨S1x256, .f32⟩ : BufTy).Contents (Elt F) → (⟨S8000x256, .f32⟩ : BufTy).Contents (Elt F)),
    StableHlo.binary main_v65 main_v67 main_v68 (addf : (⟨S8000x256, .f32⟩ : BufTy).Contents (Elt F) → (⟨S8000x256, .f32⟩ : BufTy).Contents (Elt F) → (⟨S8000x256, .f32⟩ : BufTy).Contents (Elt F)),
    StableHlo.binary main_v51 main_arg20 main_v69 ((fun l r => Host.dotGeneral dot_S8000x512_S512x256_S8000x256_1_0_0_1_n_n none l r) : (⟨S8000x512, .f32⟩ : BufTy).Contents (Elt F) → (⟨S512x256, .f32⟩ : BufTy).Contents (Elt F) → (⟨S8000x256, .f32⟩ : BufTy).Contents (Elt F)),
    StableHlo.binary main_v68 main_v69 main_v70 (addf : (⟨S8000x256, .f32⟩ : BufTy).Contents (Elt F) → (⟨S8000x256, .f32⟩ : BufTy).Contents (Elt F) → (⟨S8000x256, .f32⟩ : BufTy).Contents (Elt F)),
    StableHlo.TRef.nullary main_call7.c (constantI S_ 32 0#32),
    StableHlo.TRef.unary main_call7.c main_call7.v0 (broadcastInDim S200000 ![] bcast_S_S200000),
    StableHlo.TRef.binary (.of main_arg5) main_call7.v0 main_call7.v1 (cmpi .slt),
    StableHlo.TRef.nullary main_call7.c_0 (constantI S_ 32 8000#32),
    StableHlo.TRef.unary main_call7.c_0 main_call7.v2 (broadcastInDim S200000 ![] bcast_S_S200000),
    StableHlo.TRef.binary (.of main_arg5) main_call7.v2 main_call7.v3 addi,
    StableHlo.TRef.ternary main_call7.v1 main_call7.v3 (.of main_arg5) main_call7.call0.v0 select,
    StableHlo.TRef.unary main_call7.call0.v0 main_call7.v5 (broadcastInDim S200000x1 ![0] bcast_S200000_S200000x1_0),
    StableHlo.TRef.nullary main_call7.c_1 (constantI S1 32 7999#32),
    StableHlo.TRef.nullary main_call7.c_2 (constantI S_ 32 0#32),
    StableHlo.TRef.unary main_call7.c_2 main_call7.v6 (broadcastInDim S200000x1 ![] bcast_S_S200000x1),
    StableHlo.TRef.binary main_call7.v5 main_call7.v6 main_call7.v7 (cmpi .sge),
    StableHlo.TRef.unary main_call7.c_1 main_call7.v8 (broadcastInDim S1x1 ![1] bcast_S1_S1x1_1),
    StableHlo.TRef.unary main_call7.v8 main_call7.v9 (broadcastInDim S200000x1 ![0, 1] bcast_S1x1_S200000x1_0_1),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S200000x1_S200000_d1 h_S_),
    StableHlo.TRef.binary (.of main_v51) main_call7.v5 main_call7.v13 (fun x i => Host.gather gather_S8000x512_S200000x1_S200000x512_1_0_n_n_0_1_1512 x i),
    StableHlo.TRef.unary main_call7.v12 main_call7.v14 (broadcastInDim S200000x512 ![0] bcast_S200000_S200000x512_0),
    StableHlo.TRef.nullary main_call7.cst (constant S_ .f32 0x7FC00000#32),
    StableHlo.TRef.unary main_call7.cst main_call7.v15 (broadcastInDim S200000x512 ![] bcast_S_S200000x512),
    StableHlo.TRef.ternary main_call7.v14 main_call7.v13 main_call7.v15 main_call7.v16 select,
    StableHlo.nullary main_cst_11 (constant S_ .f32 0x00000000#32),
    StableHlo.unary main_cst_11 main_v72 (broadcastInDim S20000x512 ![] bcast_S_S20000x512 : (⟨S_, .f32⟩ : BufTy).Contents (Elt F) → (⟨S20000x512, .f32⟩ : BufTy).Contents (Elt F)),
    StableHlo.unary main_arg4 main_v73 (broadcastInDim S200000x1 ![0] bcast_S200000_S200000x1_0 : (⟨S200000, .i32⟩ : BufTy).Contents (Elt F) → (⟨S200000x1, .i32⟩ : BufTy).Contents (Elt F)),
    StableHlo.ternary main_v72 main_v73 main_v71 main_v74 ((fun x i u => Host.scatterAdd scatter_S20000x512_S200000x1_S200000x512_1_0_0_1 x i u) : (⟨S20000x512, .f32⟩ : BufTy).Contents (Elt F) → (⟨S200000x1, .i32⟩ : BufTy).Contents (Elt F) → (⟨S200000x512, .f32⟩ : BufTy).Contents (Elt F) → (⟨S20000x512, .f32⟩ : BufTy).Contents (Elt F)),
    StableHlo.nullary main_cst_12 (constant S_ .f32 0x3F800000#32),
    StableHlo.unary main_cst_12 main_v75 (broadcastInDim S200000 ![] bcast_S_S200000 : (⟨S_, .f32⟩ : BufTy).Contents (Elt F) → (⟨S200000, .f32⟩ : BufTy).Contents (Elt F)),
    StableHlo.nullary main_cst_13 (constant S_ .f32 0x00000000#32),
    StableHlo.unary main_cst_13 main_v76 (broadcastInDim S20000 ![] bcast_S_S20000 : (⟨S_, .f32⟩ : BufTy).Contents (Elt F) → (⟨S20000, .f32⟩ : BufTy).Contents (Elt F)),
    StableHlo.unary main_arg4 main_v77 (broadcastInDim S200000x1 ![0] bcast_S200000_S200000x1_0 : (⟨S200000, .i32⟩ : BufTy).Contents (Elt F) → (⟨S200000x1, .i32⟩ : BufTy).Contents (Elt F)),
    StableHlo.ternary main_v76 main_v77 main_v75 main_v78 ((fun x i u => Host.scatterAdd scatter_S20000_S200000x1_S200000_n_0_0_1 x i u) : (⟨S20000, .f32⟩ : BufTy).Contents (Elt F) → (⟨S200000x1, .i32⟩ : BufTy).Contents (Elt F) → (⟨S200000, .f32⟩ : BufTy).Contents (Elt F) → (⟨S20000, .f32⟩ : BufTy).Contents (Elt F)),
    StableHlo.nullary main_cst_14 (constant S_ .f32 0x3F800000#32),
    StableHlo.unary main_cst_14 main_v79 (broadcastInDim S20000 ![] bcast_S_S20000 : (⟨S_, .f32⟩ : BufTy).Contents (Elt F) → (⟨S20000, .f32⟩ : BufTy).Contents (Elt F)),
    StableHlo.binary main_v78 main_v79 main_v80 (maximumf : (⟨S20000, .f32⟩ : BufTy).Contents (Elt F) → (⟨S20000, .f32⟩ : BufTy).Contents (Elt F) → (⟨S20000, .f32⟩ : BufTy).Contents (Elt F)),
    StableHlo.unary main_v80 main_v81 (broadcastInDim S20000x1 ![0] bcast_S20000_S20000x1_0 : (⟨S20000, .f32⟩ : BufTy).Contents (Elt F) → (⟨S20000x1, .f32⟩ : BufTy).Contents (Elt F)),
    StableHlo.unary main_v81 main_v82 (broadcastInDim S20000x512 ![0, 1] bcast_S20000x1_S20000x512_0_1 : (⟨S20000x1, .f32⟩ : BufTy).Contents (Elt F) → (⟨S20000x512, .f32⟩ : BufTy).Contents (Elt F)),
    StableHlo.binary main_v74 main_v82 main_v83 (Host.divf : (⟨S20000x512, .f32⟩ : BufTy).Contents (Elt F) → (⟨S20000x512, .f32⟩ : BufTy).Contents (Elt F) → (⟨S20000x512, .f32⟩ : BufTy).Contents (Elt F)),
    StableHlo.binary main_v83 main_arg21 main_v84 ((fun l r => Host.dotGeneral dot_S20000x512_S512x256_S20000x256_1_0_0_1_n_n none l r) : (⟨S20000x512, .f32⟩ : BufTy).Contents (Elt F) → (⟨S512x256, .f32⟩ : BufTy).Contents (Elt F) → (⟨S20000x256, .f32⟩ : BufTy).Contents (Elt F)),
    StableHlo.unary main_arg22 main_v85 (broadcastInDim S1x256 ![1] bcast_S256_S1x256_1 : (⟨S256, .f32⟩ : BufTy).Contents (Elt F) → (⟨S1x256, .f32⟩ : BufTy).Contents (Elt F)),
    StableHlo.unary main_v85 main_v86 (broadcastInDim S20000x256 ![0, 1] bcast_S1x256_S20000x256_0_1 : (⟨S1x256, .f32⟩ : BufTy).Contents (Elt F) → (⟨S20000x256, .f32⟩ : BufTy).Contents (Elt F)),
    StableHlo.binary main_v84 main_v86 main_v87 (addf : (⟨S20000x256, .f32⟩ : BufTy).Contents (Elt F) → (⟨S20000x256, .f32⟩ : BufTy).Contents (Elt F) → (⟨S20000x256, .f32⟩ : BufTy).Contents (Elt F)),
    StableHlo.binary main_v50 main_arg23 main_v88 ((fun l r => Host.dotGeneral dot_S20000x512_S512x256_S20000x256_1_0_0_1_n_n none l r) : (⟨S20000x512, .f32⟩ : BufTy).Contents (Elt F) → (⟨S512x256, .f32⟩ : BufTy).Contents (Elt F) → (⟨S20000x256, .f32⟩ : BufTy).Contents (Elt F)),
    StableHlo.binary main_v87 main_v88 main_v89 (addf : (⟨S20000x256, .f32⟩ : BufTy).Contents (Elt F) → (⟨S20000x256, .f32⟩ : BufTy).Contents (Elt F) → (⟨S20000x256, .f32⟩ : BufTy).Contents (Elt F)) ]

abbrev ops : List (HloOp τ sig (Elt F)) := ops_part0 ++ ops_part1

set_option maxRecDepth 8192 in
theorem main_part0_eq (c : Dev nD) : main_part0 (F := F) c = seq ops_part0 := by
  simp only [main_part0, fn_where.body, fn_take.body, fn_where_1.body, fn_take_0.body, fn_where_3.body, fn_take_2.body, fn_take_4.body, fn_relu.body, fn_relu_5.body, seq, bind_assoc, pure_bind]

set_option maxRecDepth 8192 in
theorem main_part1_eq (c : Dev nD) : main_part1 (F := F) c = seq ops_part1 := by
  simp only [main_part1, fn_where.body, fn_take.body, fn_where_1.body, fn_take_0.body, fn_where_3.body, fn_take_2.body, fn_take_4.body, fn_relu.body, fn_relu_5.body, seq, bind_assoc, pure_bind]

set_option maxRecDepth 8192 in
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  refine List.forall_append.mpr ⟨?_, ?_⟩ <;> repeat' first | exact trivial | refine (List.forall_cons _ _ _).mpr ⟨?_, ?_⟩ | with_reducible exact unary_bufs_sub .. | with_reducible exact binary_bufs_sub .. | with_reducible exact nullary_bufs_sub .. | with_reducible exact ternary_bufs_sub ..

theorem ops_fresh : ∀ op ∈ (ops : List (HloOp τ sig (Elt F))), op.fresh = ∅ := by
  refine List.forall_iff_forall_mem.mp (List.forall_append.mpr ⟨?_, ?_⟩) <;> repeat' first | refine ⟨?_, ?_⟩ | rfl

abbrev ops_part0_W : List (Ref sig .tc) :=
  [main_v0, main_v1, main_v2, main_v3, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4, main_v5, main_v6, main_v7, main_v8, main_v9, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v10, main_v11, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v12, main_cst, main_v13, main_v14, main_v15, main_cst_0, main_v16, main_cst_1, main_v17, main_v18, main_v19, main_cst_2, main_v20, main_v21, main_v22, main_v23, main_v24, main_v25, main_v26, main_v27, main_v28, main_v29, main_v30, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v31, main_cst_3, main_v32, main_v33, main_v34, main_cst_4, main_v35, main_cst_5, main_v36, main_v37, main_v38, main_cst_6, main_v39, main_v40, main_v41, main_v42, main_v43, main_v44, main_v45, main_v46, main_v47, main_v48, main_v49, main_call4_cst, main_call4_v0, main_v50, main_call5_cst, main_call5_v0, main_v51]
abbrev ops_part1_W : List (Ref sig .tc) :=
  [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v52, main_cst_7, main_v53, main_v54, main_v55, main_cst_8, main_v56, main_cst_9, main_v57, main_v58, main_v59, main_cst_10, main_v60, main_v61, main_v62, main_v63, main_v64, main_v65, main_v66, main_v67, main_v68, main_v69, main_v70, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v71, main_cst_11, main_v72, main_v73, main_v74, main_cst_12, main_v75, main_cst_13, main_v76, main_v77, main_v78, main_cst_14, main_v79, main_v80, main_v81, main_v82, main_v83, main_v84, main_v85, main_v86, main_v87, main_v88, main_v89]
abbrev ops_W : List (Ref sig .tc) := ops_part0_W ++ ops_part1_W

theorem ops_part0_we : WritesEach (ops_part0 (F := F)) ops_part0_W := by
  repeat first | exact .nil | refine .cons rfl ?_

theorem ops_part1_we : WritesEach (ops_part1 (F := F)) ops_part1_W := by
  repeat first | exact .nil | refine .cons rfl ?_

theorem ops_we : WritesEach (ops (F := F)) ops_W := ops_part0_we.append ops_part1_we

def res (m : (ℓ : Loc nD τ sig) → Buf (Elt F) ℓ) (c : Dev nD) (b : Ref sig .tc) :=
  after (ops (F := F)) (launchContents m c) (Proc.devRef .tc b)

theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v89) = res m c main_v89
      ∧ r.2.mem ((c.tc : Thread nD τ).loc main_v70) = res m c main_v70
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  by
  refine (θ_run defs _ _).mono (fun _ h c => ⟨h c _, h c _, ?_⟩)
    (run_seq scopedRefs_eq scopedSems_eq defs main (fun _ => ops) main_eq (fun _ => ops_sub) m ρ (fun _ => ops_fresh))
  repeat' constructor
  all_goals exact (h c _).trans (ops_we.keep _ (by decide))

theorem frame (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => (h c).2.2) (run m ρ)

end Cert.ReferenceIdeal.Hand

end
-- ==== Proof.Ref.Eqs.lean ====
import proofs.«401578_j53953379173285_3_alg».proof.Proof.Ref.Run

noncomputable section

namespace Cert.ReferenceIdeal.HandValue

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F] {m : (ℓ : Loc nD τ sig) → Buf (Elt F) ℓ} {c : Dev nD}

set_option maxRecDepth 16384

attribute [local irreducible] Host.reduce Host.gather Host.scatterAdd

-- a buffer the reference never writes ends at its launch contents
theorem res_arg (r : Ref sig .tc) (h : r ∉ ops_W := by decide) : res m c r = m ((c.tc : Thread nD τ).loc r) :=
  ops_we.keep _ h

theorem e_main_v0 : res m c main_v0 = Host.dotGeneral dot_S20000x384_S384x512_S20000x512_1_0_0_1_n_n none (res m c main_arg0) (res m c main_arg6) :=
  ops_we.binary _ 0 rfl
theorem e_main_v1 : res m c main_v1 = broadcastInDim S1x512 ![1] bcast_S512_S1x512_1 (res m c main_arg7) :=
  ops_we.unary _ 1 rfl
theorem e_main_v2 : res m c main_v2 = broadcastInDim S20000x512 ![0, 1] bcast_S1x512_S20000x512_0_1 (res m c main_v1) :=
  ops_we.unary _ 2 rfl
theorem e_main_v3 : res m c main_v3 = addf (res m c main_v0) (res m c main_v2) :=
  ops_we.binary _ 3 rfl
theorem e_main_call0_c : res m c main_call0_c = constantI S_ 32 0#32 :=
  ops_we.nullary _ 4 rfl
theorem e_main_call0_v0 : res m c main_call0_v0 = broadcastInDim S20000 ![] bcast_S_S20000 (res m c main_call0_c) :=
  ops_we.unary _ 5 rfl
theorem e_main_call0_v1 : res m c main_call0_v1 = cmpi .slt (res m c main_arg2) (res m c main_call0_v0) :=
  ops_we.binary _ 6 rfl
theorem e_main_call0_c_0 : res m c main_call0_c_0 = constantI S_ 32 20000#32 :=
  ops_we.nullary _ 7 rfl
theorem e_main_call0_v2 : res m c main_call0_v2 = broadcastInDim S20000 ![] bcast_S_S20000 (res m c main_call0_c_0) :=
  ops_we.unary _ 8 rfl
theorem e_main_call0_v3 : res m c main_call0_v3 = addi (res m c main_arg2) (res m c main_call0_v2) :=
  ops_we.binary _ 9 rfl
theorem e_main_call0_v4 : res m c main_call0_v4 = select (res m c main_call0_v1) (res m c main_call0_v3) (res m c main_arg2) :=
  ops_we.ternary _ 10 rfl
theorem e_main_call0_v5 : res m c main_call0_v5 = broadcastInDim S20000x1 ![0] bcast_S20000_S20000x1_0 (res m c main_call0_v4) :=
  ops_we.unary _ 11 rfl
theorem e_main_call0_c_1 : res m c main_call0_c_1 = constantI S1 32 19999#32 :=
  ops_we.nullary _ 12 rfl
theorem e_main_call0_c_2 : res m c main_call0_c_2 = constantI S_ 32 0#32 :=
  ops_we.nullary _ 13 rfl
theorem e_main_call0_v6 : res m c main_call0_v6 = broadcastInDim S20000x1 ![] bcast_S_S20000x1 (res m c main_call0_c_2) :=
  ops_we.unary _ 14 rfl
theorem e_main_call0_v7 : res m c main_call0_v7 = cmpi .sge (res m c main_call0_v5) (res m c main_call0_v6) :=
  ops_we.binary _ 15 rfl
theorem e_main_call0_v8 : res m c main_call0_v8 = broadcastInDim S1x1 ![1] bcast_S1_S1x1_1 (res m c main_call0_c_1) :=
  ops_we.unary _ 16 rfl
theorem e_main_call0_v9 : res m c main_call0_v9 = broadcastInDim S20000x1 ![0, 1] bcast_S1x1_S20000x1_0_1 (res m c main_call0_v8) :=
  ops_we.unary _ 17 rfl
theorem e_main_call0_v10 : res m c main_call0_v10 = cmpi .sle (res m c main_call0_v5) (res m c main_call0_v9) :=
  ops_we.binary _ 18 rfl
theorem e_main_call0_v11 : res m c main_call0_v11 = andi (res m c main_call0_v7) (res m c main_call0_v10) :=
  ops_we.binary _ 19 rfl
theorem e_main_call0_c_3 : res m c main_call0_c_3 = constantI S_ 1 1#1 :=
  ops_we.nullary _ 20 rfl
theorem e_main_call0_v12 : res m c main_call0_v12 = Host.reduce IntOp.andi (res m c main_call0_v11) (res m c main_call0_c_3) reducesTo_S20000x1_S20000_d1 h_S_ :=
  ops_we.binary _ 21 rfl
theorem e_main_call0_v13 : res m c main_call0_v13 = Host.gather gather_S20000x512_S20000x1_S20000x512_1_0_n_n_0_1_1512 (res m c main_arg10) (res m c main_call0_v5) :=
  ops_we.binary _ 22 rfl
theorem e_main_call0_v14 : res m c main_call0_v14 = broadcastInDim S20000x512 ![0] bcast_S20000_S20000x512_0 (res m c main_call0_v12) :=
  ops_we.unary _ 23 rfl
theorem e_main_call0_cst : res m c main_call0_cst = constant S_ .f32 0x7FC00000#32 :=
  ops_we.nullary _ 24 rfl
theorem e_main_call0_v15 : res m c main_call0_v15 = broadcastInDim S20000x512 ![] bcast_S_S20000x512 (res m c main_call0_cst) :=
  ops_we.unary _ 25 rfl
theorem e_main_v4 : res m c main_v4 = select (res m c main_call0_v14) (res m c main_call0_v13) (res m c main_call0_v15) :=
  ops_we.ternary _ 26 rfl
theorem e_main_v5 : res m c main_v5 = addf (res m c main_v3) (res m c main_v4) :=
  ops_we.binary _ 27 rfl
theorem e_main_v6 : res m c main_v6 = Host.dotGeneral dot_S8000x384_S384x512_S8000x512_1_0_0_1_n_n none (res m c main_arg1) (res m c main_arg8) :=
  ops_we.binary _ 28 rfl
theorem e_main_v7 : res m c main_v7 = broadcastInDim S1x512 ![1] bcast_S512_S1x512_1 (res m c main_arg9) :=
  ops_we.unary _ 29 rfl
theorem e_main_v8 : res m c main_v8 = broadcastInDim S8000x512 ![0, 1] bcast_S1x512_S8000x512_0_1 (res m c main_v7) :=
  ops_we.unary _ 30 rfl
theorem e_main_v9 : res m c main_v9 = addf (res m c main_v6) (res m c main_v8) :=
  ops_we.binary _ 31 rfl
theorem e_main_call1_c : res m c main_call1_c = constantI S_ 32 0#32 :=
  ops_we.nullary _ 32 rfl
theorem e_main_call1_v0 : res m c main_call1_v0 = broadcastInDim S8000 ![] bcast_S_S8000 (res m c main_call1_c) :=
  ops_we.unary _ 33 rfl
theorem e_main_call1_v1 : res m c main_call1_v1 = cmpi .slt (res m c main_arg3) (res m c main_call1_v0) :=
  ops_we.binary _ 34 rfl
theorem e_main_call1_c_0 : res m c main_call1_c_0 = constantI S_ 32 8000#32 :=
  ops_we.nullary _ 35 rfl
theorem e_main_call1_v2 : res m c main_call1_v2 = broadcastInDim S8000 ![] bcast_S_S8000 (res m c main_call1_c_0) :=
  ops_we.unary _ 36 rfl
theorem e_main_call1_v3 : res m c main_call1_v3 = addi (res m c main_arg3) (res m c main_call1_v2) :=
  ops_we.binary _ 37 rfl
theorem e_main_call1_v4 : res m c main_call1_v4 = select (res m c main_call1_v1) (res m c main_call1_v3) (res m c main_arg3) :=
  ops_we.ternary _ 38 rfl
theorem e_main_call1_v5 : res m c main_call1_v5 = broadcastInDim S8000x1 ![0] bcast_S8000_S8000x1_0 (res m c main_call1_v4) :=
  ops_we.unary _ 39 rfl
theorem e_main_call1_c_1 : res m c main_call1_c_1 = constantI S1 32 7999#32 :=
  ops_we.nullary _ 40 rfl
theorem e_main_call1_c_2 : res m c main_call1_c_2 = constantI S_ 32 0#32 :=
  ops_we.nullary _ 41 rfl
theorem e_main_call1_v6 : res m c main_call1_v6 = broadcastInDim S8000x1 ![] bcast_S_S8000x1 (res m c main_call1_c_2) :=
  ops_we.unary _ 42 rfl
theorem e_main_call1_v7 : res m c main_call1_v7 = cmpi .sge (res m c main_call1_v5) (res m c main_call1_v6) :=
  ops_we.binary _ 43 rfl
theorem e_main_call1_v8 : res m c main_call1_v8 = broadcastInDim S1x1 ![1] bcast_S1_S1x1_1 (res m c main_call1_c_1) :=
  ops_we.unary _ 44 rfl
theorem e_main_call1_v9 : res m c main_call1_v9 = broadcastInDim S8000x1 ![0, 1] bcast_S1x1_S8000x1_0_1 (res m c main_call1_v8) :=
  ops_we.unary _ 45 rfl
theorem e_main_call1_v10 : res m c main_call1_v10 = cmpi .sle (res m c main_call1_v5) (res m c main_call1_v9) :=
  ops_we.binary _ 46 rfl
theorem e_main_call1_v11 : res m c main_call1_v11 = andi (res m c main_call1_v7) (res m c main_call1_v10) :=
  ops_we.binary _ 47 rfl
theorem e_main_call1_c_3 : res m c main_call1_c_3 = constantI S_ 1 1#1 :=
  ops_we.nullary _ 48 rfl
theorem e_main_call1_v12 : res m c main_call1_v12 = Host.reduce IntOp.andi (res m c main_call1_v11) (res m c main_call1_c_3) reducesTo_S8000x1_S8000_d1 h_S_ :=
  ops_we.binary _ 49 rfl
theorem e_main_call1_v13 : res m c main_call1_v13 = Host.gather gather_S8000x512_S8000x1_S8000x512_1_0_n_n_0_1_1512 (res m c main_arg11) (res m c main_call1_v5) :=
  ops_we.binary _ 50 rfl
theorem e_main_call1_v14 : res m c main_call1_v14 = broadcastInDim S8000x512 ![0] bcast_S8000_S8000x512_0 (res m c main_call1_v12) :=
  ops_we.unary _ 51 rfl
theorem e_main_call1_cst : res m c main_call1_cst = constant S_ .f32 0x7FC00000#32 :=
  ops_we.nullary _ 52 rfl
theorem e_main_call1_v15 : res m c main_call1_v15 = broadcastInDim S8000x512 ![] bcast_S_S8000x512 (res m c main_call1_cst) :=
  ops_we.unary _ 53 rfl
theorem e_main_v10 : res m c main_v10 = select (res m c main_call1_v14) (res m c main_call1_v13) (res m c main_call1_v15) :=
  ops_we.ternary _ 54 rfl
theorem e_main_v11 : res m c main_v11 = addf (res m c main_v9) (res m c main_v10) :=
  ops_we.binary _ 55 rfl
theorem e_main_call2_c : res m c main_call2_c = constantI S_ 32 0#32 :=
  ops_we.nullary _ 56 rfl
theorem e_main_call2_v0 : res m c main_call2_v0 = broadcastInDim S200000 ![] bcast_S_S200000 (res m c main_call2_c) :=
  ops_we.unary _ 57 rfl
theorem e_main_call2_v1 : res m c main_call2_v1 = cmpi .slt (res m c main_arg4) (res m c main_call2_v0) :=
  ops_we.binary _ 58 rfl
theorem e_main_call2_c_0 : res m c main_call2_c_0 = constantI S_ 32 20000#32 :=
  ops_we.nullary _ 59 rfl
theorem e_main_call2_v2 : res m c main_call2_v2 = broadcastInDim S200000 ![] bcast_S_S200000 (res m c main_call2_c_0) :=
  ops_we.unary _ 60 rfl
theorem e_main_call2_v3 : res m c main_call2_v3 = addi (res m c main_arg4) (res m c main_call2_v2) :=
  ops_we.binary _ 61 rfl
theorem e_main_call2_v4 : res m c main_call2_v4 = select (res m c main_call2_v1) (res m c main_call2_v3) (res m c main_arg4) :=
  ops_we.ternary _ 62 rfl
theorem e_main_call2_v5 : res m c main_call2_v5 = broadcastInDim S200000x1 ![0] bcast_S200000_S200000x1_0 (res m c main_call2_v4) :=
  ops_we.unary _ 63 rfl
theorem e_main_call2_c_1 : res m c main_call2_c_1 = constantI S1 32 19999#32 :=
  ops_we.nullary _ 64 rfl
theorem e_main_call2_c_2 : res m c main_call2_c_2 = constantI S_ 32 0#32 :=
  ops_we.nullary _ 65 rfl
theorem e_main_call2_v6 : res m c main_call2_v6 = broadcastInDim S200000x1 ![] bcast_S_S200000x1 (res m c main_call2_c_2) :=
  ops_we.unary _ 66 rfl
theorem e_main_call2_v7 : res m c main_call2_v7 = cmpi .sge (res m c main_call2_v5) (res m c main_call2_v6) :=
  ops_we.binary _ 67 rfl
theorem e_main_call2_v8 : res m c main_call2_v8 = broadcastInDim S1x1 ![1] bcast_S1_S1x1_1 (res m c main_call2_c_1) :=
  ops_we.unary _ 68 rfl
theorem e_main_call2_v9 : res m c main_call2_v9 = broadcastInDim S200000x1 ![0, 1] bcast_S1x1_S200000x1_0_1 (res m c main_call2_v8) :=
  ops_we.unary _ 69 rfl
theorem e_main_call2_v10 : res m c main_call2_v10 = cmpi .sle (res m c main_call2_v5) (res m c main_call2_v9) :=
  ops_we.binary _ 70 rfl
theorem e_main_call2_v11 : res m c main_call2_v11 = andi (res m c main_call2_v7) (res m c main_call2_v10) :=
  ops_we.binary _ 71 rfl
theorem e_main_call2_c_3 : res m c main_call2_c_3 = constantI S_ 1 1#1 :=
  ops_we.nullary _ 72 rfl
theorem e_main_call2_v12 : res m c main_call2_v12 = Host.reduce IntOp.andi (res m c main_call2_v11) (res m c main_call2_c_3) reducesTo_S200000x1_S200000_d1 h_S_ :=
  ops_we.binary _ 73 rfl
theorem e_main_call2_v13 : res m c main_call2_v13 = Host.gather gather_S20000x512_S200000x1_S200000x512_1_0_n_n_0_1_1512 (res m c main_v5) (res m c main_call2_v5) :=
  ops_we.binary _ 74 rfl
theorem e_main_call2_v14 : res m c main_call2_v14 = broadcastInDim S200000x512 ![0] bcast_S200000_S200000x512_0 (res m c main_call2_v12) :=
  ops_we.unary _ 75 rfl
theorem e_main_call2_cst : res m c main_call2_cst = constant S_ .f32 0x7FC00000#32 :=
  ops_we.nullary _ 76 rfl
theorem e_main_call2_v15 : res m c main_call2_v15 = broadcastInDim S200000x512 ![] bcast_S_S200000x512 (res m c main_call2_cst) :=
  ops_we.unary _ 77 rfl
theorem e_main_v12 : res m c main_v12 = select (res m c main_call2_v14) (res m c main_call2_v13) (res m c main_call2_v15) :=
  ops_we.ternary _ 78 rfl
theorem e_main_cst : res m c main_cst = constant S_ .f32 0x00000000#32 :=
  ops_we.nullary _ 79 rfl
theorem e_main_v13 : res m c main_v13 = broadcastInDim S8000x512 ![] bcast_S_S8000x512 (res m c main_cst) :=
  ops_we.unary _ 80 rfl
theorem e_main_v14 : res m c main_v14 = broadcastInDim S200000x1 ![0] bcast_S200000_S200000x1_0 (res m c main_arg5) :=
  ops_we.unary _ 81 rfl
theorem e_main_v15 : res m c main_v15 = Host.scatterAdd scatter_S8000x512_S200000x1_S200000x512_1_0_0_1 (res m c main_v13) (res m c main_v14) (res m c main_v12) :=
  ops_we.ternary _ 82 rfl
theorem e_main_cst_0 : res m c main_cst_0 = constant S_ .f32 0x3F800000#32 :=
  ops_we.nullary _ 83 rfl
theorem e_main_v16 : res m c main_v16 = broadcastInDim S200000 ![] bcast_S_S200000 (res m c main_cst_0) :=
  ops_we.unary _ 84 rfl
theorem e_main_cst_1 : res m c main_cst_1 = constant S_ .f32 0x00000000#32 :=
  ops_we.nullary _ 85 rfl
theorem e_main_v17 : res m c main_v17 = broadcastInDim S8000 ![] bcast_S_S8000 (res m c main_cst_1) :=
  ops_we.unary _ 86 rfl
theorem e_main_v18 : res m c main_v18 = broadcastInDim S200000x1 ![0] bcast_S200000_S200000x1_0 (res m c main_arg5) :=
  ops_we.unary _ 87 rfl
theorem e_main_v19 : res m c main_v19 = Host.scatterAdd scatter_S8000_S200000x1_S200000_n_0_0_1 (res m c main_v17) (res m c main_v18) (res m c main_v16) :=
  ops_we.ternary _ 88 rfl
theorem e_main_cst_2 : res m c main_cst_2 = constant S_ .f32 0x3F800000#32 :=
  ops_we.nullary _ 89 rfl
theorem e_main_v20 : res m c main_v20 = broadcastInDim S8000 ![] bcast_S_S8000 (res m c main_cst_2) :=
  ops_we.unary _ 90 rfl
theorem e_main_v21 : res m c main_v21 = maximumf (res m c main_v19) (res m c main_v20) :=
  ops_we.binary _ 91 rfl
theorem e_main_v22 : res m c main_v22 = broadcastInDim S8000x1 ![0] bcast_S8000_S8000x1_0 (res m c main_v21) :=
  ops_we.unary _ 92 rfl
theorem e_main_v23 : res m c main_v23 = broadcastInDim S8000x512 ![0, 1] bcast_S8000x1_S8000x512_0_1 (res m c main_v22) :=
  ops_we.unary _ 93 rfl
theorem e_main_v24 : res m c main_v24 = Host.divf (res m c main_v15) (res m c main_v23) :=
  ops_we.binary _ 94 rfl
theorem e_main_v25 : res m c main_v25 = Host.dotGeneral dot_S8000x512_S512x512_S8000x512_1_0_0_1_n_n none (res m c main_v24) (res m c main_arg12) :=
  ops_we.binary _ 95 rfl
theorem e_main_v26 : res m c main_v26 = broadcastInDim S1x512 ![1] bcast_S512_S1x512_1 (res m c main_arg13) :=
  ops_we.unary _ 96 rfl
theorem e_main_v27 : res m c main_v27 = broadcastInDim S8000x512 ![0, 1] bcast_S1x512_S8000x512_0_1 (res m c main_v26) :=
  ops_we.unary _ 97 rfl
theorem e_main_v28 : res m c main_v28 = addf (res m c main_v25) (res m c main_v27) :=
  ops_we.binary _ 98 rfl
theorem e_main_v29 : res m c main_v29 = Host.dotGeneral dot_S8000x512_S512x512_S8000x512_1_0_0_1_n_n none (res m c main_v11) (res m c main_arg14) :=
  ops_we.binary _ 99 rfl
theorem e_main_v30 : res m c main_v30 = addf (res m c main_v28) (res m c main_v29) :=
  ops_we.binary _ 100 rfl
theorem e_main_call3_c : res m c main_call3_c = constantI S_ 32 0#32 :=
  ops_we.nullary _ 101 rfl
theorem e_main_call3_v0 : res m c main_call3_v0 = broadcastInDim S200000 ![] bcast_S_S200000 (res m c main_call3_c) :=
  ops_we.unary _ 102 rfl
theorem e_main_call3_v1 : res m c main_call3_v1 = cmpi .slt (res m c main_arg5) (res m c main_call3_v0) :=
  ops_we.binary _ 103 rfl
theorem e_main_call3_c_0 : res m c main_call3_c_0 = constantI S_ 32 8000#32 :=
  ops_we.nullary _ 104 rfl
theorem e_main_call3_v2 : res m c main_call3_v2 = broadcastInDim S200000 ![] bcast_S_S200000 (res m c main_call3_c_0) :=
  ops_we.unary _ 105 rfl
theorem e_main_call3_v3 : res m c main_call3_v3 = addi (res m c main_arg5) (res m c main_call3_v2) :=
  ops_we.binary _ 106 rfl
theorem e_main_call3_v4 : res m c main_call3_v4 = select (res m c main_call3_v1) (res m c main_call3_v3) (res m c main_arg5) :=
  ops_we.ternary _ 107 rfl
theorem e_main_call3_v5 : res m c main_call3_v5 = broadcastInDim S200000x1 ![0] bcast_S200000_S200000x1_0 (res m c main_call3_v4) :=
  ops_we.unary _ 108 rfl
theorem e_main_call3_c_1 : res m c main_call3_c_1 = constantI S1 32 7999#32 :=
  ops_we.nullary _ 109 rfl
theorem e_main_call3_c_2 : res m c main_call3_c_2 = constantI S_ 32 0#32 :=
  ops_we.nullary _ 110 rfl
theorem e_main_call3_v6 : res m c main_call3_v6 = broadcastInDim S200000x1 ![] bcast_S_S200000x1 (res m c main_call3_c_2) :=
  ops_we.unary _ 111 rfl
theorem e_main_call3_v7 : res m c main_call3_v7 = cmpi .sge (res m c main_call3_v5) (res m c main_call3_v6) :=
  ops_we.binary _ 112 rfl
theorem e_main_call3_v8 : res m c main_call3_v8 = broadcastInDim S1x1 ![1] bcast_S1_S1x1_1 (res m c main_call3_c_1) :=
  ops_we.unary _ 113 rfl
theorem e_main_call3_v9 : res m c main_call3_v9 = broadcastInDim S200000x1 ![0, 1] bcast_S1x1_S200000x1_0_1 (res m c main_call3_v8) :=
  ops_we.unary _ 114 rfl
theorem e_main_call3_v10 : res m c main_call3_v10 = cmpi .sle (res m c main_call3_v5) (res m c main_call3_v9) :=
  ops_we.binary _ 115 rfl
theorem e_main_call3_v11 : res m c main_call3_v11 = andi (res m c main_call3_v7) (res m c main_call3_v10) :=
  ops_we.binary _ 116 rfl
theorem e_main_call3_c_3 : res m c main_call3_c_3 = constantI S_ 1 1#1 :=
  ops_we.nullary _ 117 rfl
theorem e_main_call3_v12 : res m c main_call3_v12 = Host.reduce IntOp.andi (res m c main_call3_v11) (res m c main_call3_c_3) reducesTo_S200000x1_S200000_d1 h_S_ :=
  ops_we.binary _ 118 rfl
theorem e_main_call3_v13 : res m c main_call3_v13 = Host.gather gather_S8000x512_S200000x1_S200000x512_1_0_n_n_0_1_1512 (res m c main_v11) (res m c main_call3_v5) :=
  ops_we.binary _ 119 rfl
theorem e_main_call3_v14 : res m c main_call3_v14 = broadcastInDim S200000x512 ![0] bcast_S200000_S200000x512_0 (res m c main_call3_v12) :=
  ops_we.unary _ 120 rfl
theorem e_main_call3_cst : res m c main_call3_cst = constant S_ .f32 0x7FC00000#32 :=
  ops_we.nullary _ 121 rfl
theorem e_main_call3_v15 : res m c main_call3_v15 = broadcastInDim S200000x512 ![] bcast_S_S200000x512 (res m c main_call3_cst) :=
  ops_we.unary _ 122 rfl
theorem e_main_v31 : res m c main_v31 = select (res m c main_call3_v14) (res m c main_call3_v13) (res m c main_call3_v15) :=
  ops_we.ternary _ 123 rfl
theorem e_main_cst_3 : res m c main_cst_3 = constant S_ .f32 0x00000000#32 :=
  ops_we.nullary _ 124 rfl
theorem e_main_v32 : res m c main_v32 = broadcastInDim S20000x512 ![] bcast_S_S20000x512 (res m c main_cst_3) :=
  ops_we.unary _ 125 rfl
theorem e_main_v33 : res m c main_v33 = broadcastInDim S200000x1 ![0] bcast_S200000_S200000x1_0 (res m c main_arg4) :=
  ops_we.unary _ 126 rfl
theorem e_main_v34 : res m c main_v34 = Host.scatterAdd scatter_S20000x512_S200000x1_S200000x512_1_0_0_1 (res m c main_v32) (res m c main_v33) (res m c main_v31) :=
  ops_we.ternary _ 127 rfl
theorem e_main_cst_4 : res m c main_cst_4 = constant S_ .f32 0x3F800000#32 :=
  ops_we.nullary _ 128 rfl
theorem e_main_v35 : res m c main_v35 = broadcastInDim S200000 ![] bcast_S_S200000 (res m c main_cst_4) :=
  ops_we.unary _ 129 rfl
theorem e_main_cst_5 : res m c main_cst_5 = constant S_ .f32 0x00000000#32 :=
  ops_we.nullary _ 130 rfl
theorem e_main_v36 : res m c main_v36 = broadcastInDim S20000 ![] bcast_S_S20000 (res m c main_cst_5) :=
  ops_we.unary _ 131 rfl
theorem e_main_v37 : res m c main_v37 = broadcastInDim S200000x1 ![0] bcast_S200000_S200000x1_0 (res m c main_arg4) :=
  ops_we.unary _ 132 rfl
theorem e_main_v38 : res m c main_v38 = Host.scatterAdd scatter_S20000_S200000x1_S200000_n_0_0_1 (res m c main_v36) (res m c main_v37) (res m c main_v35) :=
  ops_we.ternary _ 133 rfl
theorem e_main_cst_6 : res m c main_cst_6 = constant S_ .f32 0x3F800000#32 :=
  ops_we.nullary _ 134 rfl
theorem e_main_v39 : res m c main_v39 = broadcastInDim S20000 ![] bcast_S_S20000 (res m c main_cst_6) :=
  ops_we.unary _ 135 rfl
theorem e_main_v40 : res m c main_v40 = maximumf (res m c main_v38) (res m c main_v39) :=
  ops_we.binary _ 136 rfl
theorem e_main_v41 : res m c main_v41 = broadcastInDim S20000x1 ![0] bcast_S20000_S20000x1_0 (res m c main_v40) :=
  ops_we.unary _ 137 rfl
theorem e_main_v42 : res m c main_v42 = broadcastInDim S20000x512 ![0, 1] bcast_S20000x1_S20000x512_0_1 (res m c main_v41) :=
  ops_we.unary _ 138 rfl
theorem e_main_v43 : res m c main_v43 = Host.divf (res m c main_v34) (res m c main_v42) :=
  ops_we.binary _ 139 rfl
theorem e_main_v44 : res m c main_v44 = Host.dotGeneral dot_S20000x512_S512x512_S20000x512_1_0_0_1_n_n none (res m c main_v43) (res m c main_arg15) :=
  ops_we.binary _ 140 rfl
theorem e_main_v45 : res m c main_v45 = broadcastInDim S1x512 ![1] bcast_S512_S1x512_1 (res m c main_arg16) :=
  ops_we.unary _ 141 rfl
theorem e_main_v46 : res m c main_v46 = broadcastInDim S20000x512 ![0, 1] bcast_S1x512_S20000x512_0_1 (res m c main_v45) :=
  ops_we.unary _ 142 rfl
theorem e_main_v47 : res m c main_v47 = addf (res m c main_v44) (res m c main_v46) :=
  ops_we.binary _ 143 rfl
theorem e_main_v48 : res m c main_v48 = Host.dotGeneral dot_S20000x512_S512x512_S20000x512_1_0_0_1_n_n none (res m c main_v5) (res m c main_arg17) :=
  ops_we.binary _ 144 rfl
theorem e_main_v49 : res m c main_v49 = addf (res m c main_v47) (res m c main_v48) :=
  ops_we.binary _ 145 rfl
theorem e_main_call4_cst : res m c main_call4_cst = constant S_ .f32 0x00000000#32 :=
  ops_we.nullary _ 146 rfl
theorem e_main_call4_v0 : res m c main_call4_v0 = broadcastInDim S20000x512 ![] bcast_S_S20000x512 (res m c main_call4_cst) :=
  ops_we.unary _ 147 rfl
theorem e_main_v50 : res m c main_v50 = maximumf (res m c main_v49) (res m c main_call4_v0) :=
  ops_we.binary _ 148 rfl
theorem e_main_call5_cst : res m c main_call5_cst = constant S_ .f32 0x00000000#32 :=
  ops_we.nullary _ 149 rfl
theorem e_main_call5_v0 : res m c main_call5_v0 = broadcastInDim S8000x512 ![] bcast_S_S8000x512 (res m c main_call5_cst) :=
  ops_we.unary _ 150 rfl
theorem e_main_v51 : res m c main_v51 = maximumf (res m c main_v30) (res m c main_call5_v0) :=
  ops_we.binary _ 151 rfl
theorem e_main_call6_c : res m c main_call6_c = constantI S_ 32 0#32 :=
  ops_we.nullary _ 152 rfl
theorem e_main_call6_v0 : res m c main_call6_v0 = broadcastInDim S200000 ![] bcast_S_S200000 (res m c main_call6_c) :=
  ops_we.unary _ 153 rfl
theorem e_main_call6_v1 : res m c main_call6_v1 = cmpi .slt (res m c main_arg4) (res m c main_call6_v0) :=
  ops_we.binary _ 154 rfl
theorem e_main_call6_c_0 : res m c main_call6_c_0 = constantI S_ 32 20000#32 :=
  ops_we.nullary _ 155 rfl
theorem e_main_call6_v2 : res m c main_call6_v2 = broadcastInDim S200000 ![] bcast_S_S200000 (res m c main_call6_c_0) :=
  ops_we.unary _ 156 rfl
theorem e_main_call6_v3 : res m c main_call6_v3 = addi (res m c main_arg4) (res m c main_call6_v2) :=
  ops_we.binary _ 157 rfl
theorem e_main_call6_v4 : res m c main_call6_v4 = select (res m c main_call6_v1) (res m c main_call6_v3) (res m c main_arg4) :=
  ops_we.ternary _ 158 rfl
theorem e_main_call6_v5 : res m c main_call6_v5 = broadcastInDim S200000x1 ![0] bcast_S200000_S200000x1_0 (res m c main_call6_v4) :=
  ops_we.unary _ 159 rfl
theorem e_main_call6_c_1 : res m c main_call6_c_1 = constantI S1 32 19999#32 :=
  ops_we.nullary _ 160 rfl
theorem e_main_call6_c_2 : res m c main_call6_c_2 = constantI S_ 32 0#32 :=
  ops_we.nullary _ 161 rfl
theorem e_main_call6_v6 : res m c main_call6_v6 = broadcastInDim S200000x1 ![] bcast_S_S200000x1 (res m c main_call6_c_2) :=
  ops_we.unary _ 162 rfl
theorem e_main_call6_v7 : res m c main_call6_v7 = cmpi .sge (res m c main_call6_v5) (res m c main_call6_v6) :=
  ops_we.binary _ 163 rfl
theorem e_main_call6_v8 : res m c main_call6_v8 = broadcastInDim S1x1 ![1] bcast_S1_S1x1_1 (res m c main_call6_c_1) :=
  ops_we.unary _ 164 rfl
theorem e_main_call6_v9 : res m c main_call6_v9 = broadcastInDim S200000x1 ![0, 1] bcast_S1x1_S200000x1_0_1 (res m c main_call6_v8) :=
  ops_we.unary _ 165 rfl
theorem e_main_call6_v10 : res m c main_call6_v10 = cmpi .sle (res m c main_call6_v5) (res m c main_call6_v9) :=
  ops_we.binary _ 166 rfl
theorem e_main_call6_v11 : res m c main_call6_v11 = andi (res m c main_call6_v7) (res m c main_call6_v10) :=
  ops_we.binary _ 167 rfl
theorem e_main_call6_c_3 : res m c main_call6_c_3 = constantI S_ 1 1#1 :=
  ops_we.nullary _ 168 rfl
theorem e_main_call6_v12 : res m c main_call6_v12 = Host.reduce IntOp.andi (res m c main_call6_v11) (res m c main_call6_c_3) reducesTo_S200000x1_S200000_d1 h_S_ :=
  ops_we.binary _ 169 rfl
theorem e_main_call6_v13 : res m c main_call6_v13 = Host.gather gather_S20000x512_S200000x1_S200000x512_1_0_n_n_0_1_1512 (res m c main_v50) (res m c main_call6_v5) :=
  ops_we.binary _ 170 rfl
theorem e_main_call6_v14 : res m c main_call6_v14 = broadcastInDim S200000x512 ![0] bcast_S200000_S200000x512_0 (res m c main_call6_v12) :=
  ops_we.unary _ 171 rfl
theorem e_main_call6_cst : res m c main_call6_cst = constant S_ .f32 0x7FC00000#32 :=
  ops_we.nullary _ 172 rfl
theorem e_main_call6_v15 : res m c main_call6_v15 = broadcastInDim S200000x512 ![] bcast_S_S200000x512 (res m c main_call6_cst) :=
  ops_we.unary _ 173 rfl
theorem e_main_v52 : res m c main_v52 = select (res m c main_call6_v14) (res m c main_call6_v13) (res m c main_call6_v15) :=
  ops_we.ternary _ 174 rfl
theorem e_main_cst_7 : res m c main_cst_7 = constant S_ .f32 0x00000000#32 :=
  ops_we.nullary _ 175 rfl
theorem e_main_v53 : res m c main_v53 = broadcastInDim S8000x512 ![] bcast_S_S8000x512 (res m c main_cst_7) :=
  ops_we.unary _ 176 rfl
theorem e_main_v54 : res m c main_v54 = broadcastInDim S200000x1 ![0] bcast_S200000_S200000x1_0 (res m c main_arg5) :=
  ops_we.unary _ 177 rfl
theorem e_main_v55 : res m c main_v55 = Host.scatterAdd scatter_S8000x512_S200000x1_S200000x512_1_0_0_1 (res m c main_v53) (res m c main_v54) (res m c main_v52) :=
  ops_we.ternary _ 178 rfl
theorem e_main_cst_8 : res m c main_cst_8 = constant S_ .f32 0x3F800000#32 :=
  ops_we.nullary _ 179 rfl
theorem e_main_v56 : res m c main_v56 = broadcastInDim S200000 ![] bcast_S_S200000 (res m c main_cst_8) :=
  ops_we.unary _ 180 rfl
theorem e_main_cst_9 : res m c main_cst_9 = constant S_ .f32 0x00000000#32 :=
  ops_we.nullary _ 181 rfl
theorem e_main_v57 : res m c main_v57 = broadcastInDim S8000 ![] bcast_S_S8000 (res m c main_cst_9) :=
  ops_we.unary _ 182 rfl
theorem e_main_v58 : res m c main_v58 = broadcastInDim S200000x1 ![0] bcast_S200000_S200000x1_0 (res m c main_arg5) :=
  ops_we.unary _ 183 rfl
theorem e_main_v59 : res m c main_v59 = Host.scatterAdd scatter_S8000_S200000x1_S200000_n_0_0_1 (res m c main_v57) (res m c main_v58) (res m c main_v56) :=
  ops_we.ternary _ 184 rfl
theorem e_main_cst_10 : res m c main_cst_10 = constant S_ .f32 0x3F800000#32 :=
  ops_we.nullary _ 185 rfl
theorem e_main_v60 : res m c main_v60 = broadcastInDim S8000 ![] bcast_S_S8000 (res m c main_cst_10) :=
  ops_we.unary _ 186 rfl
theorem e_main_v61 : res m c main_v61 = maximumf (res m c main_v59) (res m c main_v60) :=
  ops_we.binary _ 187 rfl
theorem e_main_v62 : res m c main_v62 = broadcastInDim S8000x1 ![0] bcast_S8000_S8000x1_0 (res m c main_v61) :=
  ops_we.unary _ 188 rfl
theorem e_main_v63 : res m c main_v63 = broadcastInDim S8000x512 ![0, 1] bcast_S8000x1_S8000x512_0_1 (res m c main_v62) :=
  ops_we.unary _ 189 rfl
theorem e_main_v64 : res m c main_v64 = Host.divf (res m c main_v55) (res m c main_v63) :=
  ops_we.binary _ 190 rfl
theorem e_main_v65 : res m c main_v65 = Host.dotGeneral dot_S8000x512_S512x256_S8000x256_1_0_0_1_n_n none (res m c main_v64) (res m c main_arg18) :=
  ops_we.binary _ 191 rfl
theorem e_main_v66 : res m c main_v66 = broadcastInDim S1x256 ![1] bcast_S256_S1x256_1 (res m c main_arg19) :=
  ops_we.unary _ 192 rfl
theorem e_main_v67 : res m c main_v67 = broadcastInDim S8000x256 ![0, 1] bcast_S1x256_S8000x256_0_1 (res m c main_v66) :=
  ops_we.unary _ 193 rfl
theorem e_main_v68 : res m c main_v68 = addf (res m c main_v65) (res m c main_v67) :=
  ops_we.binary _ 194 rfl
theorem e_main_v69 : res m c main_v69 = Host.dotGeneral dot_S8000x512_S512x256_S8000x256_1_0_0_1_n_n none (res m c main_v51) (res m c main_arg20) :=
  ops_we.binary _ 195 rfl
theorem e_main_v70 : res m c main_v70 = addf (res m c main_v68) (res m c main_v69) :=
  ops_we.binary _ 196 rfl
theorem e_main_call7_c : res m c main_call7_c = constantI S_ 32 0#32 :=
  ops_we.nullary _ 197 rfl
theorem e_main_call7_v0 : res m c main_call7_v0 = broadcastInDim S200000 ![] bcast_S_S200000 (res m c main_call7_c) :=
  ops_we.unary _ 198 rfl
theorem e_main_call7_v1 : res m c main_call7_v1 = cmpi .slt (res m c main_arg5) (res m c main_call7_v0) :=
  ops_we.binary _ 199 rfl
theorem e_main_call7_c_0 : res m c main_call7_c_0 = constantI S_ 32 8000#32 :=
  ops_we.nullary _ 200 rfl
theorem e_main_call7_v2 : res m c main_call7_v2 = broadcastInDim S200000 ![] bcast_S_S200000 (res m c main_call7_c_0) :=
  ops_we.unary _ 201 rfl
theorem e_main_call7_v3 : res m c main_call7_v3 = addi (res m c main_arg5) (res m c main_call7_v2) :=
  ops_we.binary _ 202 rfl
theorem e_main_call7_v4 : res m c main_call7_v4 = select (res m c main_call7_v1) (res m c main_call7_v3) (res m c main_arg5) :=
  ops_we.ternary _ 203 rfl
theorem e_main_call7_v5 : res m c main_call7_v5 = broadcastInDim S200000x1 ![0] bcast_S200000_S200000x1_0 (res m c main_call7_v4) :=
  ops_we.unary _ 204 rfl
theorem e_main_call7_c_1 : res m c main_call7_c_1 = constantI S1 32 7999#32 :=
  ops_we.nullary _ 205 rfl
theorem e_main_call7_c_2 : res m c main_call7_c_2 = constantI S_ 32 0#32 :=
  ops_we.nullary _ 206 rfl
theorem e_main_call7_v6 : res m c main_call7_v6 = broadcastInDim S200000x1 ![] bcast_S_S200000x1 (res m c main_call7_c_2) :=
  ops_we.unary _ 207 rfl
theorem e_main_call7_v7 : res m c main_call7_v7 = cmpi .sge (res m c main_call7_v5) (res m c main_call7_v6) :=
  ops_we.binary _ 208 rfl
theorem e_main_call7_v8 : res m c main_call7_v8 = broadcastInDim S1x1 ![1] bcast_S1_S1x1_1 (res m c main_call7_c_1) :=
  ops_we.unary _ 209 rfl
theorem e_main_call7_v9 : res m c main_call7_v9 = broadcastInDim S200000x1 ![0, 1] bcast_S1x1_S200000x1_0_1 (res m c main_call7_v8) :=
  ops_we.unary _ 210 rfl
theorem e_main_call7_v10 : res m c main_call7_v10 = cmpi .sle (res m c main_call7_v5) (res m c main_call7_v9) :=
  ops_we.binary _ 211 rfl
theorem e_main_call7_v11 : res m c main_call7_v11 = andi (res m c main_call7_v7) (res m c main_call7_v10) :=
  ops_we.binary _ 212 rfl
theorem e_main_call7_c_3 : res m c main_call7_c_3 = constantI S_ 1 1#1 :=
  ops_we.nullary _ 213 rfl
theorem e_main_call7_v12 : res m c main_call7_v12 = Host.reduce IntOp.andi (res m c main_call7_v11) (res m c main_call7_c_3) reducesTo_S200000x1_S200000_d1 h_S_ :=
  ops_we.binary _ 214 rfl
theorem e_main_call7_v13 : res m c main_call7_v13 = Host.gather gather_S8000x512_S200000x1_S200000x512_1_0_n_n_0_1_1512 (res m c main_v51) (res m c main_call7_v5) :=
  ops_we.binary _ 215 rfl
theorem e_main_call7_v14 : res m c main_call7_v14 = broadcastInDim S200000x512 ![0] bcast_S200000_S200000x512_0 (res m c main_call7_v12) :=
  ops_we.unary _ 216 rfl
theorem e_main_call7_cst : res m c main_call7_cst = constant S_ .f32 0x7FC00000#32 :=
  ops_we.nullary _ 217 rfl
theorem e_main_call7_v15 : res m c main_call7_v15 = broadcastInDim S200000x512 ![] bcast_S_S200000x512 (res m c main_call7_cst) :=
  ops_we.unary _ 218 rfl
theorem e_main_v71 : res m c main_v71 = select (res m c main_call7_v14) (res m c main_call7_v13) (res m c main_call7_v15) :=
  ops_we.ternary _ 219 rfl
theorem e_main_cst_11 : res m c main_cst_11 = constant S_ .f32 0x00000000#32 :=
  ops_we.nullary _ 220 rfl
theorem e_main_v72 : res m c main_v72 = broadcastInDim S20000x512 ![] bcast_S_S20000x512 (res m c main_cst_11) :=
  ops_we.unary _ 221 rfl
theorem e_main_v73 : res m c main_v73 = broadcastInDim S200000x1 ![0] bcast_S200000_S200000x1_0 (res m c main_arg4) :=
  ops_we.unary _ 222 rfl
theorem e_main_v74 : res m c main_v74 = Host.scatterAdd scatter_S20000x512_S200000x1_S200000x512_1_0_0_1 (res m c main_v72) (res m c main_v73) (res m c main_v71) :=
  ops_we.ternary _ 223 rfl
theorem e_main_cst_12 : res m c main_cst_12 = constant S_ .f32 0x3F800000#32 :=
  ops_we.nullary _ 224 rfl
theorem e_main_v75 : res m c main_v75 = broadcastInDim S200000 ![] bcast_S_S200000 (res m c main_cst_12) :=
  ops_we.unary _ 225 rfl
theorem e_main_cst_13 : res m c main_cst_13 = constant S_ .f32 0x00000000#32 :=
  ops_we.nullary _ 226 rfl
theorem e_main_v76 : res m c main_v76 = broadcastInDim S20000 ![] bcast_S_S20000 (res m c main_cst_13) :=
  ops_we.unary _ 227 rfl
theorem e_main_v77 : res m c main_v77 = broadcastInDim S200000x1 ![0] bcast_S200000_S200000x1_0 (res m c main_arg4) :=
  ops_we.unary _ 228 rfl
theorem e_main_v78 : res m c main_v78 = Host.scatterAdd scatter_S20000_S200000x1_S200000_n_0_0_1 (res m c main_v76) (res m c main_v77) (res m c main_v75) :=
  ops_we.ternary _ 229 rfl
theorem e_main_cst_14 : res m c main_cst_14 = constant S_ .f32 0x3F800000#32 :=
  ops_we.nullary _ 230 rfl
theorem e_main_v79 : res m c main_v79 = broadcastInDim S20000 ![] bcast_S_S20000 (res m c main_cst_14) :=
  ops_we.unary _ 231 rfl
theorem e_main_v80 : res m c main_v80 = maximumf (res m c main_v78) (res m c main_v79) :=
  ops_we.binary _ 232 rfl
theorem e_main_v81 : res m c main_v81 = broadcastInDim S20000x1 ![0] bcast_S20000_S20000x1_0 (res m c main_v80) :=
  ops_we.unary _ 233 rfl
theorem e_main_v82 : res m c main_v82 = broadcastInDim S20000x512 ![0, 1] bcast_S20000x1_S20000x512_0_1 (res m c main_v81) :=
  ops_we.unary _ 234 rfl
theorem e_main_v83 : res m c main_v83 = Host.divf (res m c main_v74) (res m c main_v82) :=
  ops_we.binary _ 235 rfl
theorem e_main_v84 : res m c main_v84 = Host.dotGeneral dot_S20000x512_S512x256_S20000x256_1_0_0_1_n_n none (res m c main_v83) (res m c main_arg21) :=
  ops_we.binary _ 236 rfl
theorem e_main_v85 : res m c main_v85 = broadcastInDim S1x256 ![1] bcast_S256_S1x256_1 (res m c main_arg22) :=
  ops_we.unary _ 237 rfl
theorem e_main_v86 : res m c main_v86 = broadcastInDim S20000x256 ![0, 1] bcast_S1x256_S20000x256_0_1 (res m c main_v85) :=
  ops_we.unary _ 238 rfl
theorem e_main_v87 : res m c main_v87 = addf (res m c main_v84) (res m c main_v86) :=
  ops_we.binary _ 239 rfl
theorem e_main_v88 : res m c main_v88 = Host.dotGeneral dot_S20000x512_S512x256_S20000x256_1_0_0_1_n_n none (res m c main_v50) (res m c main_arg23) :=
  ops_we.binary _ 240 rfl
theorem e_main_v89 : res m c main_v89 = addf (res m c main_v87) (res m c main_v88) :=
  ops_we.binary _ 241 rfl

end Cert.ReferenceIdeal.HandValue

end
-- ==== Proof.Shared.lean ====
import proofs.«401578_j53953379173285_3_alg».proof.ReferenceIdeal

noncomputable section

namespace Cert.Shared

open Idealize.ShloMosaic Idealize.SL.Sem
open Cert.ReferenceIdeal

variable {F : FTy → Type} [FloatOps F]

def gatherM : GatherDims S20000x512 S20000x1 S20000x512 where
  offsetDims := [1]
  collapsedSliceDims := [0]
  operandBatchingDims := []
  startIndicesBatchingDims := []
  startIndexMap := [0]
  indexVectorDim := 1
  sliceSizes := ![1, 512]
  wf := by decide

def gatherD : GatherDims S8000x512 S8000x1 S8000x512 where
  offsetDims := [1]
  collapsedSliceDims := [0]
  operandBatchingDims := []
  startIndicesBatchingDims := []
  startIndexMap := [0]
  indexVectorDim := 1
  sliceSizes := ![1, 512]
  wf := by decide

def idxM (ids : (⟨S20000, .i32⟩ : BufTy).Contents (Elt F)) : (⟨S20000x1, .i32⟩ : BufTy).Contents (Elt F) :=
  broadcastInDim S20000x1 ![0] (by decide)
    (select (cmpi .slt ids (broadcastInDim S20000 ![] (by decide) (constantI S_ 32 0#32)))
      (addi ids (broadcastInDim S20000 ![] (by decide) (constantI S_ 32 20000#32))) ids)

def maskM (ids : (⟨S20000, .i32⟩ : BufTy).Contents (Elt F)) : (⟨S20000, .i1⟩ : BufTy).Contents (Elt F) :=
  Host.reduce IntOp.andi
    (andi (cmpi .sge (idxM (F := F) ids) (broadcastInDim S20000x1 ![] (by decide) (constantI S_ 32 0#32)))
      (cmpi .sle (idxM (F := F) ids)
        (broadcastInDim S20000x1 ![0, 1] (by decide) (broadcastInDim S1x1 ![1] (by decide) (constantI S1 32 19999#32)))))
    (constantI S_ 1 1#1) (by decide : S20000x1.ReducesTo [1] S20000) (by decide : 0 < S_.numel)

def takeM (tab : (⟨S20000x512, .f32⟩ : BufTy).Contents (Elt F)) (ids : (⟨S20000, .i32⟩ : BufTy).Contents (Elt F)) :
    (⟨S20000x512, .f32⟩ : BufTy).Contents (Elt F) :=
  select (broadcastInDim S20000x512 ![0] (by decide) (maskM (F := F) ids))
    (Host.gather gatherM tab (idxM (F := F) ids))
    (broadcastInDim S20000x512 ![] (by decide) (constant S_ .f32 0x7FC00000#32))

def idxD (ids : (⟨S8000, .i32⟩ : BufTy).Contents (Elt F)) : (⟨S8000x1, .i32⟩ : BufTy).Contents (Elt F) :=
  broadcastInDim S8000x1 ![0] (by decide)
    (select (cmpi .slt ids (broadcastInDim S8000 ![] (by decide) (constantI S_ 32 0#32)))
      (addi ids (broadcastInDim S8000 ![] (by decide) (constantI S_ 32 8000#32))) ids)

def maskD (ids : (⟨S8000, .i32⟩ : BufTy).Contents (Elt F)) : (⟨S8000, .i1⟩ : BufTy).Contents (Elt F) :=
  Host.reduce IntOp.andi
    (andi (cmpi .sge (idxD (F := F) ids) (broadcastInDim S8000x1 ![] (by decide) (constantI S_ 32 0#32)))
      (cmpi .sle (idxD (F := F) ids)
        (broadcastInDim S8000x1 ![0, 1] (by decide) (broadcastInDim S1x1 ![1] (by decide) (constantI S1 32 7999#32)))))
    (constantI S_ 1 1#1) (by decide : S8000x1.ReducesTo [1] S8000) (by decide : 0 < S_.numel)

def takeD (tab : (⟨S8000x512, .f32⟩ : BufTy).Contents (Elt F)) (ids : (⟨S8000, .i32⟩ : BufTy).Contents (Elt F)) :
    (⟨S8000x512, .f32⟩ : BufTy).Contents (Elt F) :=
  select (broadcastInDim S8000x512 ![0] (by decide) (maskD (F := F) ids))
    (Host.gather gatherD tab (idxD (F := F) ids))
    (broadcastInDim S8000x512 ![] (by decide) (constant S_ .f32 0x7FC00000#32))

end Cert.Shared

end
-- ==== Proof.Ref.AggDefs.lean ====
import proofs.«401578_j53953379173285_3_alg».proof.ReferenceIdeal
import proofs.«401578_j53953379173285_3_alg».proof.Proof.Gen.ReferenceIdeal
import Idealize.ShloMosaic.Lib.ValueIdx

noncomputable section

namespace Cert.ReferenceIdeal.HandValue

open Idealize.ShloMosaic Idealize.SL.Sem
open Cert.ReferenceIdeal Cert.ReferenceIdeal.Gen

variable {F : FTy → Type} [FloatOps F]

def edgeIdxM (ids : IVec S200000 32) : IVec S200000x1 32 :=
  broadcastInDim S200000x1 ![0] bcast_S200000_S200000x1_0
    (select (cmpi .slt ids (broadcastInDim S200000 ![] bcast_S_S200000 (constantI S_ 32 0#32)))
      (addi ids (broadcastInDim S200000 ![] bcast_S_S200000 (constantI S_ 32 20000#32))) ids)

def edgeMaskM (ids : IVec S200000 32) : IVec S200000 1 :=
  Host.reduce IntOp.andi
    (andi (cmpi .sge (edgeIdxM ids) (broadcastInDim S200000x1 ![] bcast_S_S200000x1 (constantI S_ 32 0#32)))
      (cmpi .sle (edgeIdxM ids)
        (broadcastInDim S200000x1 ![0, 1] bcast_S1x1_S200000x1_0_1
          (broadcastInDim S1x1 ![1] bcast_S1_S1x1_1 (constantI S1 32 19999#32)))))
    (constantI S_ 1 1#1) reducesTo_S200000x1_S200000_d1 h_S_

def edgeTakeM (tab : FVec F S20000x512 .f32) (ids : IVec S200000 32) : FVec F S200000x512 .f32 :=
  select (broadcastInDim S200000x512 ![0] bcast_S200000_S200000x512_0 (edgeMaskM ids))
    (Host.gather gather_S20000x512_S200000x1_S200000x512_1_0_n_n_0_1_1512 tab (edgeIdxM ids))
    (broadcastInDim S200000x512 ![] bcast_S_S200000x512 (constant (F := F) S_ .f32 0x7FC00000#32))

def edgeIdxD (ids : IVec S200000 32) : IVec S200000x1 32 :=
  broadcastInDim S200000x1 ![0] bcast_S200000_S200000x1_0
    (select (cmpi .slt ids (broadcastInDim S200000 ![] bcast_S_S200000 (constantI S_ 32 0#32)))
      (addi ids (broadcastInDim S200000 ![] bcast_S_S200000 (constantI S_ 32 8000#32))) ids)

def edgeMaskD (ids : IVec S200000 32) : IVec S200000 1 :=
  Host.reduce IntOp.andi
    (andi (cmpi .sge (edgeIdxD ids) (broadcastInDim S200000x1 ![] bcast_S_S200000x1 (constantI S_ 32 0#32)))
      (cmpi .sle (edgeIdxD ids)
        (broadcastInDim S200000x1 ![0, 1] bcast_S1x1_S200000x1_0_1
          (broadcastInDim S1x1 ![1] bcast_S1_S1x1_1 (constantI S1 32 7999#32)))))
    (constantI S_ 1 1#1) reducesTo_S200000x1_S200000_d1 h_S_

def edgeTakeD (tab : FVec F S8000x512 .f32) (ids : IVec S200000 32) : FVec F S200000x512 .f32 :=
  select (broadcastInDim S200000x512 ![0] bcast_S200000_S200000x512_0 (edgeMaskD ids))
    (Host.gather gather_S8000x512_S200000x1_S200000x512_1_0_n_n_0_1_1512 tab (edgeIdxD ids))
    (broadcastInDim S200000x512 ![] bcast_S_S200000x512 (constant (F := F) S_ .f32 0x7FC00000#32))

def aggMD (x : FVec F S20000x512 .f32) (esrc edst : IVec S200000 32) : FVec F S8000x512 .f32 :=
  Host.divf (F := F)
    (Host.scatterAdd (F := F) scatter_S8000x512_S200000x1_S200000x512_1_0_0_1
      (broadcastInDim S8000x512 ![] bcast_S_S8000x512 (constant (F := F) S_ .f32 0x00000000#32))
      (broadcastInDim S200000x1 ![0] bcast_S200000_S200000x1_0 edst)
      (edgeTakeM x esrc))
    (broadcastInDim S8000x512 ![0, 1] bcast_S8000x1_S8000x512_0_1
      (broadcastInDim S8000x1 ![0] bcast_S8000_S8000x1_0
        (maximumf (F := F)
          (Host.scatterAdd (F := F) scatter_S8000_S200000x1_S200000_n_0_0_1
            (broadcastInDim S8000 ![] bcast_S_S8000 (constant (F := F) S_ .f32 0x00000000#32))
            (broadcastInDim S200000x1 ![0] bcast_S200000_S200000x1_0 edst)
            (broadcastInDim S200000 ![] bcast_S_S200000 (constant (F := F) S_ .f32 0x3F800000#32)))
          (broadcastInDim S8000 ![] bcast_S_S8000 (constant (F := F) S_ .f32 0x3F800000#32)))))

def aggDM (x : FVec F S8000x512 .f32) (esrc edst : IVec S200000 32) : FVec F S20000x512 .f32 :=
  Host.divf (F := F)
    (Host.scatterAdd (F := F) scatter_S20000x512_S200000x1_S200000x512_1_0_0_1
      (broadcastInDim S20000x512 ![] bcast_S_S20000x512 (constant (F := F) S_ .f32 0x00000000#32))
      (broadcastInDim S200000x1 ![0] bcast_S200000_S200000x1_0 edst)
      (edgeTakeD x esrc))
    (broadcastInDim S20000x512 ![0, 1] bcast_S20000x1_S20000x512_0_1
      (broadcastInDim S20000x1 ![0] bcast_S20000_S20000x1_0
        (maximumf (F := F)
          (Host.scatterAdd (F := F) scatter_S20000_S200000x1_S200000_n_0_0_1
            (broadcastInDim S20000 ![] bcast_S_S20000 (constant (F := F) S_ .f32 0x00000000#32))
            (broadcastInDim S200000x1 ![0] bcast_S200000_S200000x1_0 edst)
            (broadcastInDim S200000 ![] bcast_S_S200000 (constant (F := F) S_ .f32 0x3F800000#32)))
          (broadcastInDim S20000 ![] bcast_S_S20000 (constant (F := F) S_ .f32 0x3F800000#32)))))

end Cert.ReferenceIdeal.HandValue

end
-- ==== Proof.Ref.Stages.lean ====
import proofs.«401578_j53953379173285_3_alg».proof.Proof.Ref.Eqs
import proofs.«401578_j53953379173285_3_alg».proof.Proof.Shared
import proofs.«401578_j53953379173285_3_alg».proof.Proof.Ref.AggDefs

noncomputable section

namespace Cert.ReferenceIdeal.HandValue

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F]

attribute [local irreducible] Host.reduce Host.gather Host.scatterAdd

theorem stage_v5 (m : (ℓ : Loc nD τ sig) → Buf (Elt F) ℓ) (c : Dev nD) :
    res m c main_v5 = addf (addf (Host.dotGeneral dot_S20000x384_S384x512_S20000x512_1_0_0_1_n_n none (m ((c.tc : Thread nD τ).loc main_arg0) : (⟨S20000x384, .f32⟩ : BufTy).Contents (Elt F)) (m ((c.tc : Thread nD τ).loc main_arg6) : (⟨S384x512, .f32⟩ : BufTy).Contents (Elt F))) (broadcastInDim S20000x512 ![0, 1] bcast_S1x512_S20000x512_0_1 (broadcastInDim S1x512 ![1] bcast_S512_S1x512_1 (m ((c.tc : Thread nD τ).loc main_arg7) : (⟨S512, .f32⟩ : BufTy).Contents (Elt F))))) (Cert.Shared.takeM (m ((c.tc : Thread nD τ).loc main_arg10) : (⟨S20000x512, .f32⟩ : BufTy).Contents (Elt F)) (m ((c.tc : Thread nD τ).loc main_arg2) : (⟨S20000, .i32⟩ : BufTy).Contents (Elt F))) := by
  rw [e_main_v5, e_main_v4, e_main_call0_v15, e_main_call0_cst, e_main_call0_v14, e_main_call0_v13, e_main_call0_v12, e_main_call0_c_3, e_main_call0_v11, e_main_call0_v10, e_main_call0_v9, e_main_call0_v8, e_main_call0_v7, e_main_call0_v6, e_main_call0_c_2, e_main_call0_c_1, e_main_call0_v5, e_main_call0_v4, e_main_call0_v3, e_main_call0_v2, e_main_call0_c_0, e_main_call0_v1, e_main_call0_v0, e_main_call0_c, e_main_v3, e_main_v2, e_main_v1, e_main_v0, res_arg main_arg0, res_arg main_arg2, res_arg main_arg6, res_arg main_arg7, res_arg main_arg10]
  rfl

theorem stage_v11 (m : (ℓ : Loc nD τ sig) → Buf (Elt F) ℓ) (c : Dev nD) :
    res m c main_v11 = addf (addf (Host.dotGeneral dot_S8000x384_S384x512_S8000x512_1_0_0_1_n_n none (m ((c.tc : Thread nD τ).loc main_arg1) : (⟨S8000x384, .f32⟩ : BufTy).Contents (Elt F)) (m ((c.tc : Thread nD τ).loc main_arg8) : (⟨S384x512, .f32⟩ : BufTy).Contents (Elt F))) (broadcastInDim S8000x512 ![0, 1] bcast_S1x512_S8000x512_0_1 (broadcastInDim S1x512 ![1] bcast_S512_S1x512_1 (m ((c.tc : Thread nD τ).loc main_arg9) : (⟨S512, .f32⟩ : BufTy).Contents (Elt F))))) (Cert.Shared.takeD (m ((c.tc : Thread nD τ).loc main_arg11) : (⟨S8000x512, .f32⟩ : BufTy).Contents (Elt F)) (m ((c.tc : Thread nD τ).loc main_arg3) : (⟨S8000, .i32⟩ : BufTy).Contents (Elt F))) := by
  rw [e_main_v11, e_main_v10, e_main_call1_v15, e_main_call1_cst, e_main_call1_v14, e_main_call1_v13, e_main_call1_v12, e_main_call1_c_3, e_main_call1_v11, e_main_call1_v10, e_main_call1_v9, e_main_call1_v8, e_main_call1_v7, e_main_call1_v6, e_main_call1_c_2, e_main_call1_c_1, e_main_call1_v5, e_main_call1_v4, e_main_call1_v3, e_main_call1_v2, e_main_call1_c_0, e_main_call1_v1, e_main_call1_v0, e_main_call1_c, e_main_v9, e_main_v8, e_main_v7, e_main_v6, res_arg main_arg1, res_arg main_arg3, res_arg main_arg8, res_arg main_arg9, res_arg main_arg11]
  rfl

theorem stage_v24 (m : (ℓ : Loc nD τ sig) → Buf (Elt F) ℓ) (c : Dev nD) :
    res m c main_v24 = aggMD (res m c main_v5 : (⟨S20000x512, .f32⟩ : BufTy).Contents (Elt F)) (m ((c.tc : Thread nD τ).loc main_arg4) : (⟨S200000, .i32⟩ : BufTy).Contents (Elt F)) (m ((c.tc : Thread nD τ).loc main_arg5) : (⟨S200000, .i32⟩ : BufTy).Contents (Elt F)) := by
  rw [e_main_v24, e_main_v23, e_main_v22, e_main_v21, e_main_v20, e_main_cst_2, e_main_v19, e_main_v18, e_main_v17, e_main_cst_1, e_main_v16, e_main_cst_0, e_main_v15, e_main_v14, e_main_v13, e_main_cst, e_main_v12, e_main_call2_v15, e_main_call2_cst, e_main_call2_v14, e_main_call2_v13, e_main_call2_v12, e_main_call2_c_3, e_main_call2_v11, e_main_call2_v10, e_main_call2_v9, e_main_call2_v8, e_main_call2_v7, e_main_call2_v6, e_main_call2_c_2, e_main_call2_c_1, e_main_call2_v5, e_main_call2_v4, e_main_call2_v3, e_main_call2_v2, e_main_call2_c_0, e_main_call2_v1, e_main_call2_v0, e_main_call2_c, res_arg main_arg4, res_arg main_arg5]
  rfl

theorem stage_v30 (m : (ℓ : Loc nD τ sig) → Buf (Elt F) ℓ) (c : Dev nD) :
    res m c main_v30 = addf (addf (Host.dotGeneral dot_S8000x512_S512x512_S8000x512_1_0_0_1_n_n none (res m c main_v24 : (⟨S8000x512, .f32⟩ : BufTy).Contents (Elt F)) (m ((c.tc : Thread nD τ).loc main_arg12) : (⟨S512x512, .f32⟩ : BufTy).Contents (Elt F))) (broadcastInDim S8000x512 ![0, 1] bcast_S1x512_S8000x512_0_1 (broadcastInDim S1x512 ![1] bcast_S512_S1x512_1 (m ((c.tc : Thread nD τ).loc main_arg13) : (⟨S512, .f32⟩ : BufTy).Contents (Elt F))))) (Host.dotGeneral dot_S8000x512_S512x512_S8000x512_1_0_0_1_n_n none (res m c main_v11 : (⟨S8000x512, .f32⟩ : BufTy).Contents (Elt F)) (m ((c.tc : Thread nD τ).loc main_arg14) : (⟨S512x512, .f32⟩ : BufTy).Contents (Elt F))) := by
  rw [e_main_v30, e_main_v29, e_main_v28, e_main_v27, e_main_v26, e_main_v25, res_arg main_arg12, res_arg main_arg13, res_arg main_arg14]

theorem stage_v43 (m : (ℓ : Loc nD τ sig) → Buf (Elt F) ℓ) (c : Dev nD) :
    res m c main_v43 = aggDM (res m c main_v11 : (⟨S8000x512, .f32⟩ : BufTy).Contents (Elt F)) (m ((c.tc : Thread nD τ).loc main_arg5) : (⟨S200000, .i32⟩ : BufTy).Contents (Elt F)) (m ((c.tc : Thread nD τ).loc main_arg4) : (⟨S200000, .i32⟩ : BufTy).Contents (Elt F)) := by
  rw [e_main_v43, e_main_v42, e_main_v41, e_main_v40, e_main_v39, e_main_cst_6, e_main_v38, e_main_v37, e_main_v36, e_main_cst_5, e_main_v35, e_main_cst_4, e_main_v34, e_main_v33, e_main_v32, e_main_cst_3, e_main_v31, e_main_call3_v15, e_main_call3_cst, e_main_call3_v14, e_main_call3_v13, e_main_call3_v12, e_main_call3_c_3, e_main_call3_v11, e_main_call3_v10, e_main_call3_v9, e_main_call3_v8, e_main_call3_v7, e_main_call3_v6, e_main_call3_c_2, e_main_call3_c_1, e_main_call3_v5, e_main_call3_v4, e_main_call3_v3, e_main_call3_v2, e_main_call3_c_0, e_main_call3_v1, e_main_call3_v0, e_main_call3_c, res_arg main_arg4, res_arg main_arg5]
  rfl

theorem stage_v49 (m : (ℓ : Loc nD τ sig) → Buf (Elt F) ℓ) (c : Dev nD) :
    res m c main_v49 = addf (addf (Host.dotGeneral dot_S20000x512_S512x512_S20000x512_1_0_0_1_n_n none (res m c main_v43 : (⟨S20000x512, .f32⟩ : BufTy).Contents (Elt F)) (m ((c.tc : Thread nD τ).loc main_arg15) : (⟨S512x512, .f32⟩ : BufTy).Contents (Elt F))) (broadcastInDim S20000x512 ![0, 1] bcast_S1x512_S20000x512_0_1 (broadcastInDim S1x512 ![1] bcast_S512_S1x512_1 (m ((c.tc : Thread nD τ).loc main_arg16) : (⟨S512, .f32⟩ : BufTy).Contents (Elt F))))) (Host.dotGeneral dot_S20000x512_S512x512_S20000x512_1_0_0_1_n_n none (res m c main_v5 : (⟨S20000x512, .f32⟩ : BufTy).Contents (Elt F)) (m ((c.tc : Thread nD τ).loc main_arg17) : (⟨S512x512, .f32⟩ : BufTy).Contents (Elt F))) := by
  rw [e_main_v49, e_main_v48, e_main_v47, e_main_v46, e_main_v45, e_main_v44, res_arg main_arg15, res_arg main_arg16, res_arg main_arg17]

theorem stage_v50 (m : (ℓ : Loc nD τ sig) → Buf (Elt F) ℓ) (c : Dev nD) :
    res m c main_v50 = maximumf (res m c main_v49 : (⟨S20000x512, .f32⟩ : BufTy).Contents (Elt F)) (broadcastInDim S20000x512 ![] bcast_S_S20000x512 (constant S_ .f32 0x00000000#32 : (⟨S_, .f32⟩ : BufTy).Contents (Elt F))) := by
  rw [e_main_v50, e_main_call4_v0, e_main_call4_cst]

theorem stage_v51 (m : (ℓ : Loc nD τ sig) → Buf (Elt F) ℓ) (c : Dev nD) :
    res m c main_v51 = maximumf (res m c main_v30 : (⟨S8000x512, .f32⟩ : BufTy).Contents (Elt F)) (broadcastInDim S8000x512 ![] bcast_S_S8000x512 (constant S_ .f32 0x00000000#32 : (⟨S_, .f32⟩ : BufTy).Contents (Elt F))) := by
  rw [e_main_v51, e_main_call5_v0, e_main_call5_cst]

theorem stage_v64 (m : (ℓ : Loc nD τ sig) → Buf (Elt F) ℓ) (c : Dev nD) :
    res m c main_v64 = aggMD (res m c main_v50 : (⟨S20000x512, .f32⟩ : BufTy).Contents (Elt F)) (m ((c.tc : Thread nD τ).loc main_arg4) : (⟨S200000, .i32⟩ : BufTy).Contents (Elt F)) (m ((c.tc : Thread nD τ).loc main_arg5) : (⟨S200000, .i32⟩ : BufTy).Contents (Elt F)) := by
  rw [e_main_v64, e_main_v63, e_main_v62, e_main_v61, e_main_v60, e_main_cst_10, e_main_v59, e_main_v58, e_main_v57, e_main_cst_9, e_main_v56, e_main_cst_8, e_main_v55, e_main_v54, e_main_v53, e_main_cst_7, e_main_v52, e_main_call6_v15, e_main_call6_cst, e_main_call6_v14, e_main_call6_v13, e_main_call6_v12, e_main_call6_c_3, e_main_call6_v11, e_main_call6_v10, e_main_call6_v9, e_main_call6_v8, e_main_call6_v7, e_main_call6_v6, e_main_call6_c_2, e_main_call6_c_1, e_main_call6_v5, e_main_call6_v4, e_main_call6_v3, e_main_call6_v2, e_main_call6_c_0, e_main_call6_v1, e_main_call6_v0, e_main_call6_c, res_arg main_arg4, res_arg main_arg5]
  rfl

theorem stage_v70 (m : (ℓ : Loc nD τ sig) → Buf (Elt F) ℓ) (c : Dev nD) :
    res m c main_v70 = addf (addf (Host.dotGeneral dot_S8000x512_S512x256_S8000x256_1_0_0_1_n_n none (res m c main_v64 : (⟨S8000x512, .f32⟩ : BufTy).Contents (Elt F)) (m ((c.tc : Thread nD τ).loc main_arg18) : (⟨S512x256, .f32⟩ : BufTy).Contents (Elt F))) (broadcastInDim S8000x256 ![0, 1] bcast_S1x256_S8000x256_0_1 (broadcastInDim S1x256 ![1] bcast_S256_S1x256_1 (m ((c.tc : Thread nD τ).loc main_arg19) : (⟨S256, .f32⟩ : BufTy).Contents (Elt F))))) (Host.dotGeneral dot_S8000x512_S512x256_S8000x256_1_0_0_1_n_n none (res m c main_v51 : (⟨S8000x512, .f32⟩ : BufTy).Contents (Elt F)) (m ((c.tc : Thread nD τ).loc main_arg20) : (⟨S512x256, .f32⟩ : BufTy).Contents (Elt F))) := by
  rw [e_main_v70, e_main_v69, e_main_v68, e_main_v67, e_main_v66, e_main_v65, res_arg main_arg18, res_arg main_arg19, res_arg main_arg20]

theorem stage_v83 (m : (ℓ : Loc nD τ sig) → Buf (Elt F) ℓ) (c : Dev nD) :
    res m c main_v83 = aggDM (res m c main_v51 : (⟨S8000x512, .f32⟩ : BufTy).Contents (Elt F)) (m ((c.tc : Thread nD τ).loc main_arg5) : (⟨S200000, .i32⟩ : BufTy).Contents (Elt F)) (m ((c.tc : Thread nD τ).loc main_arg4) : (⟨S200000, .i32⟩ : BufTy).Contents (Elt F)) := by
  rw [e_main_v83, e_main_v82, e_main_v81, e_main_v80, e_main_v79, e_main_cst_14, e_main_v78, e_main_v77, e_main_v76, e_main_cst_13, e_main_v75, e_main_cst_12, e_main_v74, e_main_v73, e_main_v72, e_main_cst_11, e_main_v71, e_main_call7_v15, e_main_call7_cst, e_main_call7_v14, e_main_call7_v13, e_main_call7_v12, e_main_call7_c_3, e_main_call7_v11, e_main_call7_v10, e_main_call7_v9, e_main_call7_v8, e_main_call7_v7, e_main_call7_v6, e_main_call7_c_2, e_main_call7_c_1, e_main_call7_v5, e_main_call7_v4, e_main_call7_v3, e_main_call7_v2, e_main_call7_c_0, e_main_call7_v1, e_main_call7_v0, e_main_call7_c, res_arg main_arg4, res_arg main_arg5]
  rfl

theorem stage_v89 (m : (ℓ : Loc nD τ sig) → Buf (Elt F) ℓ) (c : Dev nD) :
    res m c main_v89 = addf (addf (Host.dotGeneral dot_S20000x512_S512x256_S20000x256_1_0_0_1_n_n none (res m c main_v83 : (⟨S20000x512, .f32⟩ : BufTy).Contents (Elt F)) (m ((c.tc : Thread nD τ).loc main_arg21) : (⟨S512x256, .f32⟩ : BufTy).Contents (Elt F))) (broadcastInDim S20000x256 ![0, 1] bcast_S1x256_S20000x256_0_1 (broadcastInDim S1x256 ![1] bcast_S256_S1x256_1 (m ((c.tc : Thread nD τ).loc main_arg22) : (⟨S256, .f32⟩ : BufTy).Contents (Elt F))))) (Host.dotGeneral dot_S20000x512_S512x256_S20000x256_1_0_0_1_n_n none (res m c main_v50 : (⟨S20000x512, .f32⟩ : BufTy).Contents (Elt F)) (m ((c.tc : Thread nD τ).loc main_arg23) : (⟨S512x256, .f32⟩ : BufTy).Contents (Elt F))) := by
  rw [e_main_v89, e_main_v88, e_main_v87, e_main_v86, e_main_v85, e_main_v84, res_arg main_arg21, res_arg main_arg22, res_arg main_arg23]

end Cert.ReferenceIdeal.HandValue

end
-- ==== Proof.Ref.RowDims.lean ====
import Idealize.ShloMosaic.Lib.ValueIdx

noncomputable section

namespace Cert.RowDims

open Idealize.ShloMosaic Idealize.ShloMosaic.ValueIdx

variable {N C E w : Nat}

theorem one_ne_zero2 : ¬ (1 : Fin 2) = 0 := by decide

abbrev gathRows (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem gathRows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (j : (⟨2, ![E, C]⟩ : Shape).Idx) :
    Host.gather (gathRows N C E wf) x idx j
      = x (ix2 ⟨min (idx (ix2 (j 0) (0 : Fin 1))).toInt.toNat (N - 1), by omega⟩ (j 1)) := by
  unfold Host.gather
  congr 1
  funext a
  refine Fin.ext ?_
  match a with
  | ⟨0, _⟩ =>
    show (gathRows N C E wf).start j idx 0 + (gathRows N C E wf).batchCoord j 0 + (gathRows N C E wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gathRows N C E wf).startIndexMap from List.mem_singleton.mpr rfl)]
    have hsi : (gathRows N C E wf).siIdx j ⟨List.idxOf (0 : Fin 2) (gathRows N C E wf).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    show (gathRows N C E wf).start j idx 1 + (gathRows N C E wf).batchCoord j 1 + (gathRows N C E wf).offCoord j 1 = (j 1).val
    rw [GatherDims.batchCoord_eq_zero _ _ _ List.not_mem_nil]
    unfold GatherDims.start
    rw [dif_neg (show (1 : Fin 2) ∉ (gathRows N C E wf).startIndexMap from
      fun h => absurd (List.mem_singleton.mp h) one_ne_zero2)]
    simp only [Nat.add_zero, Nat.zero_add]
    unfold GatherDims.offCoord
    rw [dif_pos (show (1 : Fin 2) ∈ (gathRows N C E wf).sKept from
      (GatherDims.mem_sKept _ _).mpr ⟨fun h => absurd (List.mem_singleton.mp h) one_ne_zero2, List.not_mem_nil⟩)]
    rfl

abbrev scatRows (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem scatRows_start0 (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (scatRows N C E wf).start j idx (0 : Fin 2) = (idx (ix2 (j 0) (0 : Fin 1))).toInt := by
  unfold ScatterDims.start
  rw [dif_pos (show (0 : Fin 2) ∈ (scatRows N C E wf).scatterDimsToOperandDims from List.mem_singleton.mpr rfl)]
  have hsi : (scatRows N C E wf).siIdx j ⟨List.idxOf (0 : Fin 2) (scatRows N C E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem scatRows_start1 (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (scatRows N C E wf).start j idx (1 : Fin 2) = 0 := by
  unfold ScatterDims.start
  rw [dif_neg (show (1 : Fin 2) ∉ (scatRows N C E wf).scatterDimsToOperandDims from
    fun h => absurd (List.mem_singleton.mp h) one_ne_zero2)]

theorem scatRows_window0 (wf : ScatterDims.WF ⟨2, ![N, C]⟩ ⟨2, ![E, 1]⟩ ⟨2, ![E, C]⟩ [1] [0] [0] 1)
    (j : (⟨2, ![E, C]⟩ : Shape).Idx) : (scatRows N C E wf).window j (0 : Fin 2) = 0 := by
  unfold ScatterDims.window
  rw [dif_neg (show (0 : Fin 2) ∉ (scatRows N C E wf).sKept from by simp [ScatterDims.sKept, Shape.kept])]

theorem scatRows_window1 (wf : ScatterDims.WF ⟨2, ![N, C]⟩ ⟨2, ![E, 1]⟩ ⟨2, ![E, C]⟩ [1] [0] [0] 1)
    (j : (⟨2, ![E, C]⟩ : Shape).Idx) : (scatRows N C E wf).window j (1 : Fin 2) = (j 1).val := by
  unfold ScatterDims.window
  rw [dif_pos (show (1 : Fin 2) ∈ (scatRows N C E wf).sKept from by simp [ScatterDims.sKept, Shape.kept])]
  rfl

theorem scatRows_resultIdx?_eq_some_iff (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) (i : (⟨2, ![N, C]⟩ : Shape).Idx) :
    (scatRows N C E wf).resultIdx? j idx = some i ↔
      (idx (ix2 (j 0) (0 : Fin 1))).toInt = ((i 0).val : ℤ) ∧ (j 1).val = (i 1).val := by
  unfold ScatterDims.resultIdx?
  split
  · rename_i h
    rw [Option.some.injEq]
    constructor
    · intro hf
      have h0 := h 0
      have h1 := h 1
      have e0 := congrArg (fun f : (⟨2, ![N, C]⟩ : Shape).Idx => (f 0).val) hf
      have e1 := congrArg (fun f : (⟨2, ![N, C]⟩ : Shape).Idx => (f 1).val) hf
      simp only at e0 e1
      rw [scatRows_start0, scatRows_window0] at e0 h0
      rw [scatRows_start1, scatRows_window1] at e1 h1
      constructor <;> omega
    · rintro ⟨hi0, hi1⟩
      funext a
      refine Fin.ext ?_
      match a with
      | ⟨0, _⟩ =>
        show ((scatRows N C E wf).start j idx 0 + ((scatRows N C E wf).window j 0 : ℤ)).toNat = (i 0).val
        rw [scatRows_start0, scatRows_window0, hi0]
        omega
      | ⟨1, _⟩ =>
        show ((scatRows N C E wf).start j idx 1 + ((scatRows N C E wf).window j 1 : ℤ)).toNat = (i 1).val
        rw [scatRows_start1, scatRows_window1, hi1]
        omega
  · rename_i h
    constructor
    · intro hf; cases hf
    · rintro ⟨hi0, hi1⟩
      exfalso; apply h
      intro a
      match a with
      | ⟨0, _⟩ =>
        show 0 ≤ (scatRows N C E wf).start j idx 0 + ((scatRows N C E wf).window j 0 : ℤ) ∧
          (scatRows N C E wf).start j idx 0 + ((scatRows N C E wf).window j 0 : ℤ) < ((N : ℕ) : ℤ)
        rw [scatRows_start0, scatRows_window0, hi0]
        have : (i 0).val < N := (i 0).isLt
        constructor <;> omega
      | ⟨1, _⟩ =>
        show 0 ≤ (scatRows N C E wf).start j idx 1 + ((scatRows N C E wf).window j 1 : ℤ) ∧
          (scatRows N C E wf).start j idx 1 + ((scatRows N C E wf).window j 1 : ℤ) < ((C : ℕ) : ℤ)
        rw [scatRows_start1, scatRows_window1, hi1]
        have : (i 1).val < C := (i 1).isLt
        constructor <;> omega

end Cert.RowDims

end
-- ==== Proof.KI.HostDims.lean ====
import Idealize.ShloMosaic.Lib.ValueIdx

noncomputable section

namespace Cert.HostDims

open Idealize.ShloMosaic Idealize.ShloMosaic.ValueIdx

variable {N A B E w : Nat}

abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem scat1_start (wf : ScatterDims.WF ⟨1, ![N]⟩ ⟨2, ![E, 1]⟩ ⟨1, ![E]⟩ [] [0] [0] 1)
    (j : (⟨1, ![E]⟩ : Shape).Idx) (idx : IVec ⟨2, ![E, 1]⟩ w) (a : Fin 1) :
    (scat1 N E wf).start j idx a = (idx (ix2 (j 0) (0 : Fin 1))).toInt := by
  obtain rfl : a = 0 := Subsingleton.elim _ _
  unfold ScatterDims.start
  rw [dif_pos (show (0 : Fin 1) ∈ (scat1 N E wf).scatterDimsToOperandDims from List.mem_singleton.mpr rfl)]
  have hsi : (scat1 N E wf).siIdx j ⟨List.idxOf (0 : Fin 1) (scat1 N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem scat1_window (wf : ScatterDims.WF ⟨1, ![N]⟩ ⟨2, ![E, 1]⟩ ⟨1, ![E]⟩ [] [0] [0] 1)
    (j : (⟨1, ![E]⟩ : Shape).Idx) (a : Fin 1) : (scat1 N E wf).window j a = 0 := by
  obtain rfl : a = 0 := Subsingleton.elim _ _
  unfold ScatterDims.window
  rw [dif_neg]
  simp [ScatterDims.sKept, Shape.kept]

theorem scat1_resultIdx?_eq_some_iff (wf : ScatterDims.WF ⟨1, ![N]⟩ ⟨2, ![E, 1]⟩ ⟨1, ![E]⟩ [] [0] [0] 1)
    (j : (⟨1, ![E]⟩ : Shape).Idx) (idx : IVec ⟨2, ![E, 1]⟩ w) (i : (⟨1, ![N]⟩ : Shape).Idx) :
    (scat1 N E wf).resultIdx? j idx = some i ↔ (idx (ix2 (j 0) (0 : Fin 1))).toInt = ((i 0).val : ℤ) := by
  unfold ScatterDims.resultIdx?
  split
  · rename_i h
    rw [Option.some.injEq]
    constructor
    · intro hf
      have h0 := h 0
      have e := congrArg (fun f : (⟨1, ![N]⟩ : Shape).Idx => (f 0).val) hf
      simp only at e
      rw [scat1_start, scat1_window] at e h0
      omega
    · intro hi
      funext a
      obtain rfl : a = 0 := Subsingleton.elim _ _
      refine Fin.ext ?_
      show ((scat1 N E wf).start j idx 0 + ((scat1 N E wf).window j 0 : ℤ)).toNat = (i 0).val
      rw [scat1_start, scat1_window, hi]
      omega
  · rename_i h
    constructor
    · intro hf; cases hf
    · intro hi
      exfalso; apply h
      intro a
      obtain rfl : a = 0 := Subsingleton.elim _ _
      rw [scat1_start, scat1_window, hi]
      have := (i 0).isLt
      constructor
      · omega
      · show ((i 0).val : ℤ) + ((0 : ℕ) : ℤ) < ((N : ℕ) : ℤ)
        have : (i 0).val < N := (i 0).isLt
        omega

abbrev scat2 (A B E : Nat) (wf : ScatterDims.WF ⟨2, ![A, B]⟩ ⟨2, ![E, 2]⟩ ⟨1, ![E]⟩ [] [0, 1] [0, 1] 1) :
    ScatterDims ⟨2, ![A, B]⟩ ⟨2, ![E, 2]⟩ ⟨1, ![E]⟩ where
  updateWindowDims := []
  insertedWindowDims := [0, 1]
  scatterDimsToOperandDims := [0, 1]
  indexVectorDim := 1
  wf := wf

theorem scat2_start0 (wf : ScatterDims.WF ⟨2, ![A, B]⟩ ⟨2, ![E, 2]⟩ ⟨1, ![E]⟩ [] [0, 1] [0, 1] 1)
    (j : (⟨1, ![E]⟩ : Shape).Idx) (idx : IVec ⟨2, ![E, 2]⟩ w) :
    (scat2 A B E wf).start j idx (0 : Fin 2) = (idx (ix2 (j 0) (0 : Fin 2))).toInt := by
  unfold ScatterDims.start
  rw [dif_pos (show (0 : Fin 2) ∈ (scat2 A B E wf).scatterDimsToOperandDims from by simp)]
  have hsi : (scat2 A B E wf).siIdx j ⟨List.idxOf (0 : Fin 2) (scat2 A B E wf).scatterDimsToOperandDims,
      List.idxOf_lt_length_iff.2 (by simp)⟩ = ix2 (j 0) (0 : Fin 2) := by
    funext b; refine Fin.ext ?_
    match b with
    | ⟨0, _⟩ => rfl
    | ⟨1, _⟩ => rfl
  rw [hsi]
  rfl

theorem scat2_start1 (wf : ScatterDims.WF ⟨2, ![A, B]⟩ ⟨2, ![E, 2]⟩ ⟨1, ![E]⟩ [] [0, 1] [0, 1] 1)
    (j : (⟨1, ![E]⟩ : Shape).Idx) (idx : IVec ⟨2, ![E, 2]⟩ w) :
    (scat2 A B E wf).start j idx (1 : Fin 2) = (idx (ix2 (j 0) (1 : Fin 2))).toInt := by
  unfold ScatterDims.start
  rw [dif_pos (show (1 : Fin 2) ∈ (scat2 A B E wf).scatterDimsToOperandDims from by simp)]
  have hsi : (scat2 A B E wf).siIdx j ⟨List.idxOf (1 : Fin 2) (scat2 A B E wf).scatterDimsToOperandDims,
      List.idxOf_lt_length_iff.2 (by simp)⟩ = ix2 (j 0) (1 : Fin 2) := by
    funext b; refine Fin.ext ?_
    match b with
    | ⟨0, _⟩ => rfl
    | ⟨1, _⟩ => rfl
  rw [hsi]
  rfl

theorem scat2_window (wf : ScatterDims.WF ⟨2, ![A, B]⟩ ⟨2, ![E, 2]⟩ ⟨1, ![E]⟩ [] [0, 1] [0, 1] 1)
    (j : (⟨1, ![E]⟩ : Shape).Idx) (a : Fin 2) : (scat2 A B E wf).window j a = 0 := by
  unfold ScatterDims.window
  rw [dif_neg]
  simp [ScatterDims.sKept, Shape.kept]
  omega

theorem scat2_resultIdx?_eq_some_iff (wf : ScatterDims.WF ⟨2, ![A, B]⟩ ⟨2, ![E, 2]⟩ ⟨1, ![E]⟩ [] [0, 1] [0, 1] 1)
    (j : (⟨1, ![E]⟩ : Shape).Idx) (idx : IVec ⟨2, ![E, 2]⟩ w) (i : (⟨2, ![A, B]⟩ : Shape).Idx) :
    (scat2 A B E wf).resultIdx? j idx = some i ↔
      (idx (ix2 (j 0) (0 : Fin 2))).toInt = ((i 0).val : ℤ) ∧ (idx (ix2 (j 0) (1 : Fin 2))).toInt = ((i 1).val : ℤ) := by
  unfold ScatterDims.resultIdx?
  split
  · rename_i h
    rw [Option.some.injEq]
    constructor
    · intro hf
      have h0 := h 0
      have h1 := h 1
      have e0 := congrArg (fun f : (⟨2, ![A, B]⟩ : Shape).Idx => (f 0).val) hf
      have e1 := congrArg (fun f : (⟨2, ![A, B]⟩ : Shape).Idx => (f 1).val) hf
      simp only at e0 e1
      rw [scat2_start0, scat2_window] at e0 h0
      rw [scat2_start1, scat2_window] at e1 h1
      constructor <;> omega
    · rintro ⟨hi0, hi1⟩
      funext a
      refine Fin.ext ?_
      match a with
      | ⟨0, _⟩ =>
        show ((scat2 A B E wf).start j idx 0 + ((scat2 A B E wf).window j 0 : ℤ)).toNat = (i 0).val
        rw [scat2_start0, scat2_window, hi0]
        omega
      | ⟨1, _⟩ =>
        show ((scat2 A B E wf).start j idx 1 + ((scat2 A B E wf).window j 1 : ℤ)).toNat = (i 1).val
        rw [scat2_start1, scat2_window, hi1]
        omega
  · rename_i h
    constructor
    · intro hf; cases hf
    · rintro ⟨hi0, hi1⟩
      exfalso; apply h
      intro a
      match a with
      | ⟨0, _⟩ =>
        show 0 ≤ (scat2 A B E wf).start j idx 0 + ((scat2 A B E wf).window j 0 : ℤ) ∧
          (scat2 A B E wf).start j idx 0 + ((scat2 A B E wf).window j 0 : ℤ) < ((A : ℕ) : ℤ)
        rw [scat2_start0, scat2_window, hi0]
        have : (i 0).val < A := (i 0).isLt
        constructor <;> omega
      | ⟨1, _⟩ =>
        show 0 ≤ (scat2 A B E wf).start j idx 1 + ((scat2 A B E wf).window j 1 : ℤ) ∧
          (scat2 A B E wf).start j idx 1 + ((scat2 A B E wf).window j 1 : ℤ) < ((B : ℕ) : ℤ)
        rw [scat2_start1, scat2_window, hi1]
        have : (i 1).val < B := (i 1).isLt
        constructor <;> omega

abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem gath1_apply {α : Type} (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (gath1 N E wf) x idx j
      = x (ix1 ⟨min (idx (ix2 (j 0) (0 : Fin 1))).toInt.toNat (N - 1), by omega⟩) := by
  unfold Host.gather
  congr 1
  funext a
  obtain rfl : a = 0 := Subsingleton.elim _ _
  refine Fin.ext ?_
  show (gath1 N E wf).start j idx 0 + (gath1 N E wf).batchCoord j 0 + (gath1 N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1 N E wf).startIndexMap from List.mem_singleton.mpr rfl)]
  have hsi : (gath1 N E wf).siIdx j ⟨List.idxOf (0 : Fin 1) (gath1 N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

end Cert.HostDims

end
-- ==== Proof.Ref.Agg.lean ====
import proofs.«401578_j53953379173285_3_alg».proof.Proof.Ref.AggDefs
import proofs.«401578_j53953379173285_3_alg».proof.Proof.Ref.RowDims
import proofs.«401578_j53953379173285_3_alg».proof.Proof.KI.HostDims
import proofs.«401578_j53953379173285_3_alg».proof.Proof.Spec
import proofs.«401578_j53953379173285_3_alg».proof.Proof.Cur
import Idealize.ShloMosaic.Lib.ValueIdx
import Idealize.ShloMosaic.Lib.IdealHost
import Idealize.ShloMosaic.Lib.ReduceAll
import Mathlib.Algebra.BigOperators.Group.Finset.Basic
import Mathlib.Data.EReal.Basic

noncomputable section

namespace Cert.ReferenceIdeal.HandValue

open Idealize.ShloMosaic Idealize.ShloMosaic.ValueIdx Idealize.SL.Sem
open Cert.ReferenceIdeal Cert.ReferenceIdeal.Gen
open scoped BigOperators

theorem foldl_andi_one {ι : Type} (f : ι → BitVec 1) (hf : ∀ i, f i = 1#1) :
    ∀ l : List ι, l.foldl (fun r n => IntOp.andi r (f n)) 1#1 = 1#1
  | [] => rfl
  | a :: l => by
    have h1 : IntOp.andi 1#1 1#1 = 1#1 := by decide
    rw [List.foldl_cons, hf a, h1]
    exact foldl_andi_one f hf l

theorem reduce_andi_of_forall {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x hx _

theorem bcast_col_apply {α : Type} {n : Nat} (h : (⟨1, ![n]⟩ : Shape).BroadcastsInDim ⟨2, ![n, 1]⟩ ![0])
    (v : (⟨1, ![n]⟩ : Shape).Idx → α) (j : (⟨2, ![n, 1]⟩ : Shape).Idx) :
    broadcastInDim ⟨2, ![n, 1]⟩ ![0] h v j = v (ix1 (j 0)) := by
  unfold broadcastInDim
  refine congrArg v (funext fun a => Fin.ext ?_)
  obtain rfl : a = 0 := Subsingleton.elim _ _
  have hj : (j 0).val < n := (j 0).isLt
  split
  · next h1 => change n = 1 at h1; show (0 : ℕ) = (j 0).val; omega
  · rfl

theorem bcast_rows_apply {α : Type} {n m : Nat} (h : (⟨1, ![n]⟩ : Shape).BroadcastsInDim ⟨2, ![n, m]⟩ ![0])
    (v : (⟨1, ![n]⟩ : Shape).Idx → α) (j : (⟨2, ![n, m]⟩ : Shape).Idx) :
    broadcastInDim ⟨2, ![n, m]⟩ ![0] h v j = v (ix1 (j 0)) := by
  unfold broadcastInDim
  refine congrArg v (funext fun a => Fin.ext ?_)
  obtain rfl : a = 0 := Subsingleton.elim _ _
  have hj : (j 0).val < n := (j 0).isLt
  split
  · next h1 => change n = 1 at h1; show (0 : ℕ) = (j 0).val; omega
  · rfl

theorem bcast_ofCol_apply {α : Type} {n m : Nat} (h : (⟨2, ![n, 1]⟩ : Shape).BroadcastsInDim ⟨2, ![n, m]⟩ ![0, 1])
    (u : (⟨2, ![n, 1]⟩ : Shape).Idx → α) (j : (⟨2, ![n, m]⟩ : Shape).Idx) :
    broadcastInDim ⟨2, ![n, m]⟩ ![0, 1] h u j = u (ix2 (j 0) (0 : Fin 1)) := by
  unfold broadcastInDim
  refine congrArg u (funext fun a => Fin.ext ?_)
  match a with
  | ⟨0, _⟩ =>
    have hj : (j 0).val < n := (j 0).isLt
    split
    · next h1 => change n = 1 at h1; show (0 : ℕ) = (j 0).val; omega
    · rfl
  | ⟨1, _⟩ =>
    split
    · rfl
    · next h1 => exact absurd rfl h1

theorem sum_rows_fiber {M : Type*} [AddCommMonoid M] {E C : ℕ} (p : Fin E → Prop) [DecidablePred p] (f : Fin C)
    (S : Finset (⟨2, ![E, C]⟩ : Shape).Idx) (hS : ∀ j, j ∈ S ↔ p (j 0) ∧ (j 1).val = f.val)
    (upd : (⟨2, ![E, C]⟩ : Shape).Idx → M) :
    ∑ j ∈ S, upd j = ∑ e ∈ Finset.univ.filter p, upd (ix2 e f) := by
  have hl : ∀ j ∈ S, ix2 (j 0) f = j := fun j hj => by
    have hf : f = j 1 := Fin.ext ((hS j).1 hj).2.symm
    rw [hf]; exact (eq_ix2 j).symm
  refine Finset.sum_nbij' (fun j => j 0) (fun e => ix2 e f) ?_ ?_ hl ?_ ?_
  · intro j hj; exact Finset.mem_filter.2 ⟨Finset.mem_univ _, ((hS j).1 hj).1⟩
  · intro e he; exact (hS _).2 ⟨(Finset.mem_filter.1 he).2, rfl⟩
  · intro e _; rfl
  · intro j hj; exact congrArg upd (hl j hj).symm

theorem sum_vec_fiber {M : Type*} [AddCommMonoid M] {E : ℕ} (p : Fin E → Prop) [DecidablePred p]
    (S : Finset (⟨1, ![E]⟩ : Shape).Idx) (hS : ∀ j, j ∈ S ↔ p (j 0)) (g : (⟨1, ![E]⟩ : Shape).Idx → M) :
    ∑ j ∈ S, g j = ∑ e ∈ Finset.univ.filter p, g (ix1 e) := by
  refine Finset.sum_nbij' (fun j => j 0) (fun e => ix1 e) ?_ ?_ ?_ ?_ ?_
  · intro j hj; exact Finset.mem_filter.2 ⟨Finset.mem_univ _, (hS j).1 hj⟩
  · intro e he; exact (hS _).2 (Finset.mem_filter.1 he).2
  · intro j _; exact (eq_ix1 j).symm
  · intro e _; rfl
  · intro j _; exact congrArg g (eq_ix1 j)

theorem scatRows_sum {N C E w : ℕ} (wf : ScatterDims.WF ⟨2, ![N, C]⟩ ⟨2, ![E, 1]⟩ ⟨2, ![E, C]⟩ [1] [0] [0] 1)
    (x0 : (⟨2, ![N, C]⟩ : Shape).Idx → EReal) (idx : IVec ⟨2, ![E, 1]⟩ w) (upd : (⟨2, ![E, C]⟩ : Shape).Idx → EReal)
    (dst : Fin E → Fin N) (hdst : ∀ e, (idx (ix2 e (0 : Fin 1))).toInt = ((dst e).val : ℤ))
    (d : Fin N) (f : Fin C) :
    Ideal.hostScatterAdd (Cert.RowDims.scatRows N C E wf) x0 idx upd (ix2 d f)
      = x0 (ix2 d f) + ∑ e ∈ Finset.univ.filter (fun e => dst e = d), upd (ix2 e f) := by
  unfold Ideal.hostScatterAdd
  congr 1
  refine sum_rows_fiber (fun e => dst e = d) f _ (fun j => ?_) upd
  rw [Finset.mem_filter, Cert.RowDims.scatRows_resultIdx?_eq_some_iff]
  have hj := hdst (j 0)
  simp only [Finset.mem_univ, true_and]
  constructor
  · rintro ⟨h0, h1⟩
    have h : ((dst (j 0)).val : ℤ) = (d.val : ℤ) := hj.symm.trans h0
    exact ⟨Fin.ext (by exact_mod_cast h), h1⟩
  · rintro ⟨h0, h1⟩
    have h : ((dst (j 0)).val : ℤ) = (d.val : ℤ) := by rw [h0]
    exact ⟨hj.trans h, h1⟩

theorem scat1_sum {N E w : ℕ} (wf : ScatterDims.WF ⟨1, ![N]⟩ ⟨2, ![E, 1]⟩ ⟨1, ![E]⟩ [] [0] [0] 1)
    (x0 : (⟨1, ![N]⟩ : Shape).Idx → EReal) (idx : IVec ⟨2, ![E, 1]⟩ w) (upd : (⟨1, ![E]⟩ : Shape).Idx → EReal)
    (dst : Fin E → Fin N) (hdst : ∀ e, (idx (ix2 e (0 : Fin 1))).toInt = ((dst e).val : ℤ))
    (d : Fin N) :
    Ideal.hostScatterAdd (Cert.HostDims.scat1 N E wf) x0 idx upd (ix1 d)
      = x0 (ix1 d) + ∑ e ∈ Finset.univ.filter (fun e => dst e = d), upd (ix1 e) := by
  unfold Ideal.hostScatterAdd
  congr 1
  refine sum_vec_fiber (fun e => dst e = d) _ (fun j => ?_) upd
  rw [Finset.mem_filter, Cert.HostDims.scat1_resultIdx?_eq_some_iff]
  have hj := hdst (j 0)
  simp only [Finset.mem_univ, true_and]
  constructor
  · intro h0
    have h : ((dst (j 0)).val : ℤ) = (d.val : ℤ) := hj.symm.trans h0
    exact Fin.ext (by exact_mod_cast h)
  · intro h0
    have h : ((dst (j 0)).val : ℤ) = (d.val : ℤ) := by rw [h0]
    exact hj.trans h

theorem div_max_card (S : EReal) (n : ℕ) :
    Ideal.div S (max ((n : ℕ) : EReal) 1) = S * ((1 / max (n : ℝ) 1 : ℝ) : EReal) := by
  have hm : max ((n : ℕ) : EReal) 1 = ((max (n : ℝ) 1 : ℝ) : EReal) := by
    rw [EReal.coe_strictMono.monotone.map_max]; rfl
  rw [hm]
  exact Ideal.div_coe (ne_of_gt (lt_max_of_lt_right one_pos)) S

theorem zero32_toInt : (0#32 : BitVec 32).toInt = 0 := by decide

theorem edgeIdxM_apply (ids : IVec S200000 32) (j : S200000x1.Idx) (h0 : 0 ≤ (ids (ix1 (j 0))).toInt) :
    edgeIdxM ids j = ids (ix1 (j 0)) := by
  unfold edgeIdxM
  rw [bcast_col_apply]
  show Scalar.select (IntOp.cmpi .slt (ids (ix1 (j 0))) 0#32) (IntOp.addi (ids (ix1 (j 0))) 20000#32)
    (ids (ix1 (j 0))) = _
  have hc : IntOp.cmpi .slt (ids (ix1 (j 0))) 0#32 = 0#1 := by
    refine eq_zero_of_ne_one fun h => ?_
    have := IntOp.cmpi_slt.1 h
    rw [zero32_toInt] at this
    omega
  rw [hc, select_zero]

theorem edgeIdxD_apply (ids : IVec S200000 32) (j : S200000x1.Idx) (h0 : 0 ≤ (ids (ix1 (j 0))).toInt) :
    edgeIdxD ids j = ids (ix1 (j 0)) := by
  unfold edgeIdxD
  rw [bcast_col_apply]
  show Scalar.select (IntOp.cmpi .slt (ids (ix1 (j 0))) 0#32) (IntOp.addi (ids (ix1 (j 0))) 8000#32)
    (ids (ix1 (j 0))) = _
  have hc : IntOp.cmpi .slt (ids (ix1 (j 0))) 0#32 = 0#1 := by
    refine eq_zero_of_ne_one fun h => ?_
    have := IntOp.cmpi_slt.1 h
    rw [zero32_toInt] at this
    omega
  rw [hc, select_zero]

theorem edgeMaskM_apply (ids : IVec S200000 32)
    (hr : ∀ e : Fin 200000, 0 ≤ (ids (ix1 e)).toInt ∧ (ids (ix1 e)).toInt ≤ 19999) (k : S200000.Idx) :
    edgeMaskM ids k = 1#1 := by
  unfold edgeMaskM
  refine reduce_andi_of_forall _ _ _ _ rfl (fun i => ?_) k
  show IntOp.andi (IntOp.cmpi .sge (edgeIdxM ids i) 0#32) (IntOp.cmpi .sle (edgeIdxM ids i) 19999#32) = 1#1
  rw [edgeIdxM_apply ids i (hr (i 0)).1]
  refine IntOp.andi_eq_one.2 ⟨IntOp.cmpi_sge.2 ?_, IntOp.cmpi_sle.2 ?_⟩
  · rw [zero32_toInt]; exact (hr (i 0)).1
  · have hz : (19999#32 : BitVec 32).toInt = 19999 := by decide
    rw [hz]; exact (hr (i 0)).2

theorem edgeMaskD_apply (ids : IVec S200000 32)
    (hr : ∀ e : Fin 200000, 0 ≤ (ids (ix1 e)).toInt ∧ (ids (ix1 e)).toInt ≤ 7999) (k : S200000.Idx) :
    edgeMaskD ids k = 1#1 := by
  unfold edgeMaskD
  refine reduce_andi_of_forall _ _ _ _ rfl (fun i => ?_) k
  show IntOp.andi (IntOp.cmpi .sge (edgeIdxD ids i) 0#32) (IntOp.cmpi .sle (edgeIdxD ids i) 7999#32) = 1#1
  rw [edgeIdxD_apply ids i (hr (i 0)).1]
  refine IntOp.andi_eq_one.2 ⟨IntOp.cmpi_sge.2 ?_, IntOp.cmpi_sle.2 ?_⟩
  · rw [zero32_toInt]; exact (hr (i 0)).1
  · have hz : (7999#32 : BitVec 32).toInt = 7999 := by decide
    rw [hz]; exact (hr (i 0)).2

theorem edgeTakeM_apply (x : S20000x512.Idx → EReal) (ids : IVec S200000 32) (src : Fin 200000 → Fin 20000)
    (hsrc : ∀ e, (ids (ix1 e)).toInt = ((src e).val : ℤ)) (j : S200000x512.Idx) :
    edgeTakeM (F := Ideal) x ids j = x (ix2 (src (j 0)) (j 1)) := by
  have hr : ∀ e : Fin 200000, 0 ≤ (ids (ix1 e)).toInt ∧ (ids (ix1 e)).toInt ≤ 19999 := fun e => by
    rw [hsrc e]; have := (src e).isLt; omega
  unfold edgeTakeM
  rw [select_apply, bcast_rows_apply, edgeMaskM_apply ids hr, select_one]
  have hd : gather_S20000x512_S200000x1_S200000x512_1_0_n_n_0_1_1512
      = Cert.RowDims.gathRows 20000 512 200000 gather_S20000x512_S200000x1_S200000x512_1_0_n_n_0_1_1512_wf := rfl
  rw [hd, Cert.RowDims.gathRows_apply (by norm_num)]
  have hi : (edgeIdxM ids (ix2 (j 0) (0 : Fin 1))).toInt = ((src (j 0)).val : ℤ) := by
    rw [edgeIdxM_apply ids _ (hr (j 0)).1]; exact hsrc (j 0)
  refine congrArg x (congrArg (fun r => ix2 r (j 1)) (Fin.ext ?_))
  show min (edgeIdxM ids (ix2 (j 0) (0 : Fin 1))).toInt.toNat (20000 - 1) = (src (j 0)).val
  rw [hi, Int.toNat_natCast]
  have := (src (j 0)).isLt
  omega

theorem edgeTakeD_apply (x : S8000x512.Idx → EReal) (ids : IVec S200000 32) (src : Fin 200000 → Fin 8000)
    (hsrc : ∀ e, (ids (ix1 e)).toInt = ((src e).val : ℤ)) (j : S200000x512.Idx) :
    edgeTakeD (F := Ideal) x ids j = x (ix2 (src (j 0)) (j 1)) := by
  have hr : ∀ e : Fin 200000, 0 ≤ (ids (ix1 e)).toInt ∧ (ids (ix1 e)).toInt ≤ 7999 := fun e => by
    rw [hsrc e]; have := (src e).isLt; omega
  unfold edgeTakeD
  rw [select_apply, bcast_rows_apply, edgeMaskD_apply ids hr, select_one]
  have hd : gather_S8000x512_S200000x1_S200000x512_1_0_n_n_0_1_1512
      = Cert.RowDims.gathRows 8000 512 200000 gather_S8000x512_S200000x1_S200000x512_1_0_n_n_0_1_1512_wf := rfl
  rw [hd, Cert.RowDims.gathRows_apply (by norm_num)]
  have hi : (edgeIdxD ids (ix2 (j 0) (0 : Fin 1))).toInt = ((src (j 0)).val : ℤ) := by
    rw [edgeIdxD_apply ids _ (hr (j 0)).1]; exact hsrc (j 0)
  refine congrArg x (congrArg (fun r => ix2 r (j 1)) (Fin.ext ?_))
  show min (edgeIdxD ids (ix2 (j 0) (0 : Fin 1))).toInt.toNat (8000 - 1) = (src (j 0)).val
  rw [hi, Int.toNat_natCast]
  have := (src (j 0)).isLt
  omega

theorem edgeCol_toInt {N : ℕ} (ids : IVec S200000 32) (dst : Fin 200000 → Fin N)
    (hdst : ∀ e, (ids (ix1 e)).toInt = ((dst e).val : ℤ)) (e : Fin 200000) :
    ((broadcastInDim S200000x1 ![0] bcast_S200000_S200000x1_0 ids) (ix2 e (0 : Fin 1))).toInt = ((dst e).val : ℤ) := by
  rw [bcast_col_apply]; exact hdst e

theorem zeros_apply {T : Shape} (h : S_.BroadcastsInDim T ![]) (j : T.Idx) :
    (broadcastInDim T ![] h (constant (F := Ideal) S_ .f32 0x00000000#32)) j = 0 := by
  rw [broadcastInDim_scalar_apply, constant_apply, Ideal.ofBits_zero_f32]

theorem ones_apply {T : Shape} (h : S_.BroadcastsInDim T ![]) (j : T.Idx) :
    (broadcastInDim T ![] h (constant (F := Ideal) S_ .f32 0x3F800000#32)) j = 1 := by
  rw [broadcastInDim_scalar_apply, constant_apply, Ideal.ofBits_one_f32]

theorem rowsMD_apply (x : S20000x512.Idx → EReal) (esrc edst : IVec S200000 32) (src : Fin 200000 → Fin 20000)
    (dst : Fin 200000 → Fin 8000) (hsrc : ∀ e, (esrc (ix1 e)).toInt = ((src e).val : ℤ))
    (hdst : ∀ e, (edst (ix1 e)).toInt = ((dst e).val : ℤ)) (d : Fin 8000) (f : Fin 512) :
    Host.scatterAdd (F := Ideal) scatter_S8000x512_S200000x1_S200000x512_1_0_0_1
        (broadcastInDim S8000x512 ![] bcast_S_S8000x512 (constant (F := Ideal) S_ .f32 0x00000000#32))
        (broadcastInDim S200000x1 ![0] bcast_S200000_S200000x1_0 edst) (edgeTakeM (F := Ideal) x esrc) (ix2 d f)
      = ∑ e ∈ Finset.univ.filter (fun e => dst e = d), Cert.Cur.cur2 x (src e) f := by
  have hrows : scatter_S8000x512_S200000x1_S200000x512_1_0_0_1
      = Cert.RowDims.scatRows 8000 512 200000 scatter_S8000x512_S200000x1_S200000x512_1_0_0_1_wf := rfl
  unfold Host.scatterAdd
  rw [Ideal.hostScatterAdd_def, hrows, scatRows_sum _ _ _ _ dst (edgeCol_toInt edst dst hdst), zeros_apply, zero_add]
  refine Finset.sum_congr rfl fun e _ => ?_
  rw [edgeTakeM_apply x esrc src hsrc]
  rfl

theorem cntMD_apply (edst : IVec S200000 32) (dst : Fin 200000 → Fin 8000)
    (hdst : ∀ e, (edst (ix1 e)).toInt = ((dst e).val : ℤ)) (d : Fin 8000) :
    Host.scatterAdd (F := Ideal) scatter_S8000_S200000x1_S200000_n_0_0_1
        (broadcastInDim S8000 ![] bcast_S_S8000 (constant (F := Ideal) S_ .f32 0x00000000#32))
        (broadcastInDim S200000x1 ![0] bcast_S200000_S200000x1_0 edst)
        (broadcastInDim S200000 ![] bcast_S_S200000 (constant (F := Ideal) S_ .f32 0x3F800000#32)) (ix1 d)
      = ((Cert.Spec.indeg dst d : ℕ) : EReal) := by
  have hcnt : scatter_S8000_S200000x1_S200000_n_0_0_1
      = Cert.HostDims.scat1 8000 200000 scatter_S8000_S200000x1_S200000_n_0_0_1_wf := rfl
  unfold Host.scatterAdd
  rw [Ideal.hostScatterAdd_def, hcnt, scat1_sum _ _ _ _ dst (edgeCol_toInt edst dst hdst), zeros_apply, zero_add]
  have ho : ∀ e ∈ Finset.univ.filter (fun e => dst e = d), (broadcastInDim S200000 ![] bcast_S_S200000
      (constant (F := Ideal) S_ .f32 0x3F800000#32)) (ix1 e) = (1 : EReal) := fun e _ => ones_apply _ _
  rw [Finset.sum_congr rfl ho, Finset.sum_const, nsmul_one]
  rfl

theorem aggMD_eq (x : S20000x512.Idx → EReal) (esrc edst : IVec S200000 32) (src : Fin 200000 → Fin 20000)
    (dst : Fin 200000 → Fin 8000) (hsrc : ∀ e, (esrc (ix1 e)).toInt = ((src e).val : ℤ))
    (hdst : ∀ e, (edst (ix1 e)).toInt = ((dst e).val : ℤ)) :
    aggMD (F := Ideal) x esrc edst = fun y => Cert.Spec.meanR (Cert.Cur.cur2 x) src dst (y 0) (y 1) := by
  funext y
  obtain ⟨d, f, rfl⟩ : ∃ (d : Fin 8000) (f : Fin 512), y = ix2 d f := ⟨y 0, y 1, eq_ix2 y⟩
  show aggMD (F := Ideal) x esrc edst (ix2 d f) = Cert.Spec.meanR (Cert.Cur.cur2 x) src dst d f
  unfold aggMD
  rw [hostDivf_apply, bcast_ofCol_apply, bcast_col_apply, maximumf_apply,
    rowsMD_apply x esrc edst src dst hsrc hdst]
  show Ideal.div _ (max (Host.scatterAdd (F := Ideal) scatter_S8000_S200000x1_S200000_n_0_0_1 _ _ _ (ix1 d)) _) = _
  rw [cntMD_apply edst dst hdst, ones_apply, div_max_card]
  rfl

theorem rowsDM_apply (x : S8000x512.Idx → EReal) (esrc edst : IVec S200000 32) (src : Fin 200000 → Fin 8000)
    (dst : Fin 200000 → Fin 20000) (hsrc : ∀ e, (esrc (ix1 e)).toInt = ((src e).val : ℤ))
    (hdst : ∀ e, (edst (ix1 e)).toInt = ((dst e).val : ℤ)) (d : Fin 20000) (f : Fin 512) :
    Host.scatterAdd (F := Ideal) scatter_S20000x512_S200000x1_S200000x512_1_0_0_1
        (broadcastInDim S20000x512 ![] bcast_S_S20000x512 (constant (F := Ideal) S_ .f32 0x00000000#32))
        (broadcastInDim S200000x1 ![0] bcast_S200000_S200000x1_0 edst) (edgeTakeD (F := Ideal) x esrc) (ix2 d f)
      = ∑ e ∈ Finset.univ.filter (fun e => dst e = d), Cert.Cur.cur2 x (src e) f := by
  have hrows : scatter_S20000x512_S200000x1_S200000x512_1_0_0_1
      = Cert.RowDims.scatRows 20000 512 200000 scatter_S20000x512_S200000x1_S200000x512_1_0_0_1_wf := rfl
  unfold Host.scatterAdd
  rw [Ideal.hostScatterAdd_def, hrows, scatRows_sum _ _ _ _ dst (edgeCol_toInt edst dst hdst), zeros_apply, zero_add]
  refine Finset.sum_congr rfl fun e _ => ?_
  rw [edgeTakeD_apply x esrc src hsrc]
  rfl

theorem cntDM_apply (edst : IVec S200000 32) (dst : Fin 200000 → Fin 20000)
    (hdst : ∀ e, (edst (ix1 e)).toInt = ((dst e).val : ℤ)) (d : Fin 20000) :
    Host.scatterAdd (F := Ideal) scatter_S20000_S200000x1_S200000_n_0_0_1
        (broadcastInDim S20000 ![] bcast_S_S20000 (constant (F := Ideal) S_ .f32 0x00000000#32))
        (broadcastInDim S200000x1 ![0] bcast_S200000_S200000x1_0 edst)
        (broadcastInDim S200000 ![] bcast_S_S200000 (constant (F := Ideal) S_ .f32 0x3F800000#32)) (ix1 d)
      = ((Cert.Spec.indeg dst d : ℕ) : EReal) := by
  have hcnt : scatter_S20000_S200000x1_S200000_n_0_0_1
      = Cert.HostDims.scat1 20000 200000 scatter_S20000_S200000x1_S200000_n_0_0_1_wf := rfl
  unfold Host.scatterAdd
  rw [Ideal.hostScatterAdd_def, hcnt, scat1_sum _ _ _ _ dst (edgeCol_toInt edst dst hdst), zeros_apply, zero_add]
  have ho : ∀ e ∈ Finset.univ.filter (fun e => dst e = d), (broadcastInDim S200000 ![] bcast_S_S200000
      (constant (F := Ideal) S_ .f32 0x3F800000#32)) (ix1 e) = (1 : EReal) := fun e _ => ones_apply _ _
  rw [Finset.sum_congr rfl ho, Finset.sum_const, nsmul_one]
  rfl

theorem aggDM_eq (x : S8000x512.Idx → EReal) (esrc edst : IVec S200000 32) (src : Fin 200000 → Fin 8000)
    (dst : Fin 200000 → Fin 20000) (hsrc : ∀ e, (esrc (ix1 e)).toInt = ((src e).val : ℤ))
    (hdst : ∀ e, (edst (ix1 e)).toInt = ((dst e).val : ℤ)) :
    aggDM (F := Ideal) x esrc edst = fun y => Cert.Spec.meanR (Cert.Cur.cur2 x) src dst (y 0) (y 1) := by
  funext y
  obtain ⟨d, f, rfl⟩ : ∃ (d : Fin 20000) (f : Fin 512), y = ix2 d f := ⟨y 0, y 1, eq_ix2 y⟩
  show aggDM (F := Ideal) x esrc edst (ix2 d f) = Cert.Spec.meanR (Cert.Cur.cur2 x) src dst d f
  unfold aggDM
  rw [hostDivf_apply, bcast_ofCol_apply, bcast_col_apply, maximumf_apply,
    rowsDM_apply x esrc edst src dst hsrc hdst]
  show Ideal.div _ (max (Host.scatterAdd (F := Ideal) scatter_S20000_S200000x1_S200000_n_0_0_1 _ _ _ (ix1 d)) _) = _
  rw [cntDM_apply edst dst hdst, ones_apply, div_max_card]
  rfl

end Cert.ReferenceIdeal.HandValue

end
-- ==== Proof.Ref.Dense.lean ====
import Idealize.ShloMosaic.PureOps
import Idealize.ShloMosaic.PureOps.Ideal.Laws
import Idealize.ShloMosaic.Lib.ValueIdx
import proofs.«401578_j53953379173285_3_alg».proof.Proof.Spec
import proofs.«401578_j53953379173285_3_alg».proof.Proof.Cur

noncomputable section

namespace Cert.ReferenceIdeal.HandValue

open Idealize.ShloMosaic Idealize.ShloMosaic.ValueIdx Cert.Cur
open scoped BigOperators

variable {n K M : ℕ}

theorem cur2_fun {α : Type} {a b : ℕ} (f : Fin a → Fin b → α) :
    cur2 (fun y : (⟨2, ![a, b]⟩ : Shape).Idx => f (y 0) (y 1)) = f := rfl

theorem plain_lhs0 (j : (⟨2, ![n, M]⟩ : Shape).Idx) (k : (DotDims.plain n K M).contr.Idx) :
    ((DotDims.plain n K M).lhsIdx j k 0).val = (j 0).val := rfl
theorem plain_lhs1 (j : (⟨2, ![n, M]⟩ : Shape).Idx) (k : (DotDims.plain n K M).contr.Idx) :
    ((DotDims.plain n K M).lhsIdx j k 1).val = (k ⟨0, Nat.one_pos⟩).val := rfl
theorem plain_rhs0 (j : (⟨2, ![n, M]⟩ : Shape).Idx) (k : (DotDims.plain n K M).contr.Idx) :
    ((DotDims.plain n K M).rhsIdx j k 0).val = (k ⟨0, Nat.one_pos⟩).val := rfl
theorem plain_rhs1 (j : (⟨2, ![n, M]⟩ : Shape).Idx) (k : (DotDims.plain n K M).contr.Idx) :
    ((DotDims.plain n K M).rhsIdx j k 1).val = (j 1).val := rfl

theorem plain_dot_apply (sched : HostSchedule) (l : FVec Ideal ⟨2, ![n, K]⟩ .f32) (r : FVec Ideal ⟨2, ![K, M]⟩ .f32)
    (y : (⟨2, ![n, M]⟩ : Shape).Idx) :
    FloatOps.dotGeneral (DotDims.plain n K M) none sched l r y = Cert.Spec.mm (cur2 l) (cur2 r) (y 0) (y 1) := by
  rw [Ideal.dotGeneral_apply, ← Equiv.sum_comp (contrEquiv1 (DotDims.plain n K M) K rfl rfl).symm]
  unfold Cert.Spec.mm cur2
  refine Finset.sum_congr rfl fun k _ => ?_
  have hk := contrEquiv1_symm_val (DotDims.plain n K M) K rfl rfl k
  congr 2
  · funext a
    match a with
    | ⟨0, _⟩ => exact Fin.ext (plain_lhs0 _ _)
    | ⟨1, _⟩ => exact Fin.ext ((plain_lhs1 _ _).trans hk)
  · funext a
    match a with
    | ⟨0, _⟩ => exact Fin.ext ((plain_rhs0 _ _).trans hk)
    | ⟨1, _⟩ => exact Fin.ext (plain_rhs1 _ _)

theorem dot_apply (D : DotDims ⟨2, ![n, K]⟩ ⟨2, ![K, M]⟩ ⟨2, ![n, M]⟩) (hD : D = DotDims.plain n K M)
    (l : FVec Ideal ⟨2, ![n, K]⟩ .f32) (r : FVec Ideal ⟨2, ![K, M]⟩ .f32) (y : (⟨2, ![n, M]⟩ : Shape).Idx) :
    Host.dotGeneral (F := Ideal) D none l r y = Cert.Spec.mm (cur2 l) (cur2 r) (y 0) (y 1) := by
  subst hD
  exact plain_dot_apply _ l r y

theorem bias_apply {α : Type} (h1 : (⟨1, ![M]⟩ : Shape).BroadcastsInDim ⟨2, ![1, M]⟩ ![1])
    (h2 : (⟨2, ![1, M]⟩ : Shape).BroadcastsInDim ⟨2, ![n, M]⟩ ![0, 1]) (b : (⟨1, ![M]⟩ : Shape).Idx → α)
    (y : (⟨2, ![n, M]⟩ : Shape).Idx) :
    broadcastInDim ⟨2, ![n, M]⟩ ![0, 1] h2 (broadcastInDim ⟨2, ![1, M]⟩ ![1] h1 b) y = cur1 b (y 1) := by
  unfold broadcastInDim cur1
  congr 1
  funext a
  match a with
  | ⟨0, _⟩ =>
    apply Fin.ext
    have hy : (y 1).val < M := (y 1).isLt
    by_cases hM : M = 1
    · subst hM
      simp
      show 0 = (y 1).val
      omega
    · simp [hM]

theorem enc_eq (D : DotDims ⟨2, ![n, K]⟩ ⟨2, ![K, M]⟩ ⟨2, ![n, M]⟩) (hD : D = DotDims.plain n K M)
    (h1 : (⟨1, ![M]⟩ : Shape).BroadcastsInDim ⟨2, ![1, M]⟩ ![1])
    (h2 : (⟨2, ![1, M]⟩ : Shape).BroadcastsInDim ⟨2, ![n, M]⟩ ![0, 1])
    (X : FVec Ideal ⟨2, ![n, K]⟩ .f32) (W : FVec Ideal ⟨2, ![K, M]⟩ .f32) (b : FVec Ideal ⟨1, ![M]⟩ .f32)
    (add : FVec Ideal ⟨2, ![n, M]⟩ .f32) :
    addf (addf (Host.dotGeneral (F := Ideal) D none X W)
        (broadcastInDim ⟨2, ![n, M]⟩ ![0, 1] h2 (broadcastInDim ⟨2, ![1, M]⟩ ![1] h1 b))) add
      = fun y => Cert.Spec.encR (cur2 X) (cur2 W) (cur1 b) (cur2 add) (y 0) (y 1) := by
  funext y
  show (Host.dotGeneral (F := Ideal) D none X W y
      + broadcastInDim ⟨2, ![n, M]⟩ ![0, 1] h2 (broadcastInDim ⟨2, ![1, M]⟩ ![1] h1 b) y) + add y = _
  rw [dot_apply D hD, bias_apply, cur2_apply add y]
  rfl

theorem comb_eq (D : DotDims ⟨2, ![n, K]⟩ ⟨2, ![K, M]⟩ ⟨2, ![n, M]⟩) (hD : D = DotDims.plain n K M)
    (D' : DotDims ⟨2, ![n, K]⟩ ⟨2, ![K, M]⟩ ⟨2, ![n, M]⟩) (hD' : D' = DotDims.plain n K M)
    (h1 : (⟨1, ![M]⟩ : Shape).BroadcastsInDim ⟨2, ![1, M]⟩ ![1])
    (h2 : (⟨2, ![1, M]⟩ : Shape).BroadcastsInDim ⟨2, ![n, M]⟩ ![0, 1])
    (mean : FVec Ideal ⟨2, ![n, K]⟩ .f32) (Wl : FVec Ideal ⟨2, ![K, M]⟩ .f32) (b : FVec Ideal ⟨1, ![M]⟩ .f32)
    (xd : FVec Ideal ⟨2, ![n, K]⟩ .f32) (Wr : FVec Ideal ⟨2, ![K, M]⟩ .f32) :
    addf (addf (Host.dotGeneral (F := Ideal) D none mean Wl)
        (broadcastInDim ⟨2, ![n, M]⟩ ![0, 1] h2 (broadcastInDim ⟨2, ![1, M]⟩ ![1] h1 b)))
        (Host.dotGeneral (F := Ideal) D' none xd Wr)
      = fun y => Cert.Spec.sageR (cur2 mean) (cur2 xd) (cur2 Wl) (cur1 b) (cur2 Wr) (y 0) (y 1) := by
  funext y
  show (Host.dotGeneral (F := Ideal) D none mean Wl y
      + broadcastInDim ⟨2, ![n, M]⟩ ![0, 1] h2 (broadcastInDim ⟨2, ![1, M]⟩ ![1] h1 b) y)
      + Host.dotGeneral (F := Ideal) D' none xd Wr y = _
  rw [dot_apply D hD, dot_apply D' hD', bias_apply]
  rfl

theorem relu_eq (h : (⟨0, ![]⟩ : Shape).BroadcastsInDim ⟨2, ![n, M]⟩ ![]) (x : FVec Ideal ⟨2, ![n, M]⟩ .f32) :
    maximumf x (broadcastInDim ⟨2, ![n, M]⟩ ![] h (constant (F := Ideal) ⟨0, ![]⟩ .f32 0x00000000#32))
      = fun y => Cert.Spec.relu (cur2 x) (y 0) (y 1) := by
  funext y
  show max (x y) (Ideal.ofBits .f32 0x00000000#32) = _
  rw [Ideal.ofBits_zero_f32, cur2_apply x y]
  rfl

end Cert.ReferenceIdeal.HandValue

end
-- ==== Proof.Ref.Chain.lean ====
import proofs.«401578_j53953379173285_3_alg».proof.ReferenceIdeal
import proofs.«401578_j53953379173285_3_alg».proof.Proof.Gen.ReferenceIdeal
import proofs.«401578_j53953379173285_3_alg».proof.Proof.Shared
import proofs.«401578_j53953379173285_3_alg».proof.Proof.Spec
import proofs.«401578_j53953379173285_3_alg».proof.Proof.Cur
import proofs.«401578_j53953379173285_3_alg».proof.Proof.Ref.Dense
import proofs.«401578_j53953379173285_3_alg».proof.Proof.Ref.AggDefs

noncomputable section

namespace Cert.ReferenceIdeal.HandValue

open Idealize.ShloMosaic Idealize.ShloMosaic.ValueIdx Cert.Cur Idealize.SL.Sem
open Cert.ReferenceIdeal Cert.ReferenceIdeal.Gen

def mkArgs (A0 : FVec Ideal S20000x384 .f32) (A1 : FVec Ideal S8000x384 .f32) (Em : FVec Ideal S20000x512 .f32) (Ed : FVec Ideal S8000x512 .f32)
    (src : Fin 200000 → Fin 20000) (dst : Fin 200000 → Fin 8000)
    (A6 : FVec Ideal S384x512 .f32) (A7 : FVec Ideal S512 .f32) (A8 : FVec Ideal S384x512 .f32) (A9 : FVec Ideal S512 .f32)
    (A12 : FVec Ideal S512x512 .f32) (A13 : FVec Ideal S512 .f32) (A14 : FVec Ideal S512x512 .f32)
    (A15 : FVec Ideal S512x512 .f32) (A16 : FVec Ideal S512 .f32) (A17 : FVec Ideal S512x512 .f32)
    (A18 : FVec Ideal S512x256 .f32) (A19 : FVec Ideal S256 .f32) (A20 : FVec Ideal S512x256 .f32)
    (A21 : FVec Ideal S512x256 .f32) (A22 : FVec Ideal S256 .f32) (A23 : FVec Ideal S512x256 .f32) : Cert.Spec.Args where
  mf := cur2 A0
  df := cur2 A1
  embm := cur2 Em
  embd := cur2 Ed
  src := src
  dst := dst
  Wm := cur2 A6
  bm := cur1 A7
  Wd := cur2 A8
  bd := cur1 A9
  W1mdl := cur2 A12
  b1md := cur1 A13
  W1mdr := cur2 A14
  W1dml := cur2 A15
  b1dm := cur1 A16
  W1dmr := cur2 A17
  W2mdl := cur2 A18
  b2md := cur1 A19
  W2mdr := cur2 A20
  W2dml := cur2 A21
  b2dm := cur1 A22
  W2dmr := cur2 A23

section Chain

variable (A0 : FVec Ideal S20000x384 .f32) (A1 : FVec Ideal S8000x384 .f32) (A2 : IVec S20000 32) (A3 : IVec S8000 32)
  (A4 A5 : IVec S200000 32) (A6 : FVec Ideal S384x512 .f32) (A7 : FVec Ideal S512 .f32) (A8 : FVec Ideal S384x512 .f32)
  (A9 : FVec Ideal S512 .f32) (A10 : FVec Ideal S20000x512 .f32) (A11 : FVec Ideal S8000x512 .f32)
  (A12 : FVec Ideal S512x512 .f32) (A13 : FVec Ideal S512 .f32) (A14 : FVec Ideal S512x512 .f32)
  (A15 : FVec Ideal S512x512 .f32) (A16 : FVec Ideal S512 .f32) (A17 : FVec Ideal S512x512 .f32)
  (A18 : FVec Ideal S512x256 .f32) (A19 : FVec Ideal S256 .f32) (A20 : FVec Ideal S512x256 .f32)
  (A21 : FVec Ideal S512x256 .f32) (A22 : FVec Ideal S256 .f32) (A23 : FVec Ideal S512x256 .f32)
  (src : Fin 200000 → Fin 20000) (dst : Fin 200000 → Fin 8000)
  (hMD : ∀ x : FVec Ideal S20000x512 .f32, aggMD x A4 A5 = fun y => Cert.Spec.meanR (cur2 x) src dst (y 0) (y 1))
  (hDM : ∀ x : FVec Ideal S8000x512 .f32, aggDM x A5 A4 = fun y => Cert.Spec.meanR (cur2 x) dst src (y 0) (y 1))
  (X5 : FVec Ideal S20000x512 .f32) (X11 : FVec Ideal S8000x512 .f32) (X24 X30 : FVec Ideal S8000x512 .f32)
  (X43 X49 X50 : FVec Ideal S20000x512 .f32) (X51 X64 : FVec Ideal S8000x512 .f32) (X70 : FVec Ideal S8000x256 .f32)
  (X83 : FVec Ideal S20000x512 .f32) (X89 : FVec Ideal S20000x256 .f32)

abbrev chainArgs : Cert.Spec.Args :=
  mkArgs A0 A1 (Cert.Shared.takeM (F := Ideal) A10 A2) (Cert.Shared.takeD (F := Ideal) A11 A3) src dst
    A6 A7 A8 A9 A12 A13 A14 A15 A16 A17 A18 A19 A20 A21 A22 A23

local notation "𝔞" => chainArgs A0 A1 A2 A3 A6 A7 A8 A9 A10 A11 A12 A13 A14 A15 A16 A17 A18 A19 A20 A21 A22 A23 src dst

variable
  (h5 : X5 = addf (F := Ideal) (addf (F := Ideal) (Host.dotGeneral (F := Ideal) dot_S20000x384_S384x512_S20000x512_1_0_0_1_n_n none A0 A6)
      (broadcastInDim S20000x512 ![0, 1] bcast_S1x512_S20000x512_0_1 (broadcastInDim S1x512 ![1] bcast_S512_S1x512_1 A7)))
      (Cert.Shared.takeM (F := Ideal) A10 A2))
  (h11 : X11 = addf (F := Ideal) (addf (F := Ideal) (Host.dotGeneral (F := Ideal) dot_S8000x384_S384x512_S8000x512_1_0_0_1_n_n none A1 A8)
      (broadcastInDim S8000x512 ![0, 1] bcast_S1x512_S8000x512_0_1 (broadcastInDim S1x512 ![1] bcast_S512_S1x512_1 A9)))
      (Cert.Shared.takeD (F := Ideal) A11 A3))
  (h24 : X24 = aggMD X5 A4 A5)
  (h30 : X30 = addf (F := Ideal) (addf (F := Ideal) (Host.dotGeneral (F := Ideal) dot_S8000x512_S512x512_S8000x512_1_0_0_1_n_n none X24 A12)
      (broadcastInDim S8000x512 ![0, 1] bcast_S1x512_S8000x512_0_1 (broadcastInDim S1x512 ![1] bcast_S512_S1x512_1 A13)))
      (Host.dotGeneral (F := Ideal) dot_S8000x512_S512x512_S8000x512_1_0_0_1_n_n none X11 A14))
  (h43 : X43 = aggDM X11 A5 A4)
  (h49 : X49 = addf (F := Ideal) (addf (F := Ideal) (Host.dotGeneral (F := Ideal) dot_S20000x512_S512x512_S20000x512_1_0_0_1_n_n none X43 A15)
      (broadcastInDim S20000x512 ![0, 1] bcast_S1x512_S20000x512_0_1 (broadcastInDim S1x512 ![1] bcast_S512_S1x512_1 A16)))
      (Host.dotGeneral (F := Ideal) dot_S20000x512_S512x512_S20000x512_1_0_0_1_n_n none X5 A17))
  (h50 : X50 = maximumf (F := Ideal) X49 (broadcastInDim S20000x512 ![] bcast_S_S20000x512 (constant (F := Ideal) S_ .f32 0x00000000#32)))
  (h51 : X51 = maximumf (F := Ideal) X30 (broadcastInDim S8000x512 ![] bcast_S_S8000x512 (constant (F := Ideal) S_ .f32 0x00000000#32)))
  (h64 : X64 = aggMD X50 A4 A5)
  (h70 : X70 = addf (F := Ideal) (addf (F := Ideal) (Host.dotGeneral (F := Ideal) dot_S8000x512_S512x256_S8000x256_1_0_0_1_n_n none X64 A18)
      (broadcastInDim S8000x256 ![0, 1] bcast_S1x256_S8000x256_0_1 (broadcastInDim S1x256 ![1] bcast_S256_S1x256_1 A19)))
      (Host.dotGeneral (F := Ideal) dot_S8000x512_S512x256_S8000x256_1_0_0_1_n_n none X51 A20))
  (h83 : X83 = aggDM X51 A5 A4)
  (h89 : X89 = addf (F := Ideal) (addf (F := Ideal) (Host.dotGeneral (F := Ideal) dot_S20000x512_S512x256_S20000x256_1_0_0_1_n_n none X83 A21)
      (broadcastInDim S20000x256 ![0, 1] bcast_S1x256_S20000x256_0_1 (broadcastInDim S1x256 ![1] bcast_S256_S1x256_1 A22)))
      (Host.dotGeneral (F := Ideal) dot_S20000x512_S512x256_S20000x256_1_0_0_1_n_n none X50 A23))

set_option maxRecDepth 100000 in
include h5 in

theorem chain_xm : X5 = fun y => Cert.Spec.rXm 𝔞 (y 0) (y 1) := by
  rw [h5]
  exact enc_eq dot_S20000x384_S384x512_S20000x512_1_0_0_1_n_n rfl bcast_S512_S1x512_1 bcast_S1x512_S20000x512_0_1 A0 A6 A7 _

include h11 in

theorem chain_xd : X11 = fun y => Cert.Spec.rXd 𝔞 (y 0) (y 1) := by
  rw [h11]
  exact enc_eq dot_S8000x384_S384x512_S8000x512_1_0_0_1_n_n rfl bcast_S512_S1x512_1 bcast_S1x512_S8000x512_0_1 A1 A8 A9 _

include h5 h11 h24 h30 h51 hMD in

theorem chain_hd : X51 = fun y => Cert.Spec.rHd 𝔞 (y 0) (y 1) := by
  rw [h51, h30, h24, chain_xm A0 A1 A2 A3 A6 A7 A8 A9 A10 A11 A12 A13 A14 A15 A16 A17 A18 A19 A20 A21 A22 A23 src dst X5 h5,
    chain_xd A0 A1 A2 A3 A6 A7 A8 A9 A10 A11 A12 A13 A14 A15 A16 A17 A18 A19 A20 A21 A22 A23 src dst X11 h11,
    hMD, comb_eq dot_S8000x512_S512x512_S8000x512_1_0_0_1_n_n rfl dot_S8000x512_S512x512_S8000x512_1_0_0_1_n_n rfl, relu_eq]
  simp only [cur2_fun]
  rfl

set_option maxRecDepth 100000 in
include h5 h11 h43 h49 h50 hDM in

theorem chain_hm : X50 = fun y => Cert.Spec.rHm 𝔞 (y 0) (y 1) := by
  rw [h50, h49, h43, chain_xm A0 A1 A2 A3 A6 A7 A8 A9 A10 A11 A12 A13 A14 A15 A16 A17 A18 A19 A20 A21 A22 A23 src dst X5 h5, chain_xd A0 A1 A2 A3 A6 A7 A8 A9 A10 A11 A12 A13 A14 A15 A16 A17 A18 A19 A20 A21 A22 A23 src dst X11 h11,
    hDM,
    comb_eq dot_S20000x512_S512x512_S20000x512_1_0_0_1_n_n rfl dot_S20000x512_S512x512_S20000x512_1_0_0_1_n_n rfl, relu_eq]
  simp only [cur2_fun]
  rfl

set_option maxRecDepth 100000 in
include h5 h11 h24 h30 h43 h49 h50 h51 h64 h70 hMD hDM in

theorem chain_od : X70 = fun y => Cert.Spec.rOd 𝔞 (y 0) (y 1) := by
  rw [h70, h64,
    chain_hm A0 A1 A2 A3 A4 A5 A6 A7 A8 A9 A10 A11 A12 A13 A14 A15 A16 A17 A18 A19 A20 A21 A22 A23 src dst hDM X5 X11 X43 X49 X50 h5 h11 h43 h49 h50,
    chain_hd A0 A1 A2 A3 A4 A5 A6 A7 A8 A9 A10 A11 A12 A13 A14 A15 A16 A17 A18 A19 A20 A21 A22 A23 src dst hMD X5 X11 X24 X30 X51 h5 h11 h24 h30 h51,
    hMD,
    comb_eq dot_S8000x512_S512x256_S8000x256_1_0_0_1_n_n rfl dot_S8000x512_S512x256_S8000x256_1_0_0_1_n_n rfl]
  simp only [cur2_fun]
  rfl

set_option maxRecDepth 100000 in
include h5 h11 h24 h30 h43 h49 h50 h51 h83 h89 hMD hDM in

theorem chain_om : X89 = fun y => Cert.Spec.rOm 𝔞 (y 0) (y 1) := by
  rw [h89, h83,
    chain_hm A0 A1 A2 A3 A4 A5 A6 A7 A8 A9 A10 A11 A12 A13 A14 A15 A16 A17 A18 A19 A20 A21 A22 A23 src dst hDM X5 X11 X43 X49 X50 h5 h11 h43 h49 h50,
    chain_hd A0 A1 A2 A3 A4 A5 A6 A7 A8 A9 A10 A11 A12 A13 A14 A15 A16 A17 A18 A19 A20 A21 A22 A23 src dst hMD X5 X11 X24 X30 X51 h5 h11 h24 h30 h51,
    hDM,
    comb_eq dot_S20000x512_S512x256_S20000x256_1_0_0_1_n_n rfl dot_S20000x512_S512x256_S20000x256_1_0_0_1_n_n rfl]
  simp only [cur2_fun]
  rfl

end Chain

end Cert.ReferenceIdeal.HandValue

end
-- ==== Proof.Ref.Value.lean ====
import proofs.«401578_j53953379173285_3_alg».proof.Proof.Ref.Run
import proofs.«401578_j53953379173285_3_alg».proof.Proof.Ref.Stages
import proofs.«401578_j53953379173285_3_alg».proof.Proof.Ref.Agg
import proofs.«401578_j53953379173285_3_alg».proof.Proof.Ref.Chain

noncomputable section

namespace Cert.ReferenceIdeal.HandValue

open Idealize.ShloMosaic Idealize.ShloMosaic.TcCoe Idealize.ShloMosaic.ValueIdx Cert.Cur Idealize.SL.Sem
open Cert.ReferenceIdeal Cert.ReferenceIdeal.Gen Cert.ReferenceIdeal.Hand

def refArgs (m : (ℓ : Loc nD τ sig) → Buf (Elt Ideal) ℓ) (c : Dev nD) (src : Fin 200000 → Fin 20000)
    (dst : Fin 200000 → Fin 8000) : Cert.Spec.Args where
  embm := cur2 (Cert.Shared.takeM (F := Ideal) (m ((c.tc : Thread nD τ).loc main_arg10) : FVec Ideal S20000x512 .f32) (m ((c.tc : Thread nD τ).loc main_arg2) : IVec S20000 32))
  embd := cur2 (Cert.Shared.takeD (F := Ideal) (m ((c.tc : Thread nD τ).loc main_arg11) : FVec Ideal S8000x512 .f32) (m ((c.tc : Thread nD τ).loc main_arg3) : IVec S8000 32))
  src := src
  dst := dst
  mf := cur2 (m ((c.tc : Thread nD τ).loc main_arg0) : FVec Ideal S20000x384 .f32)
  df := cur2 (m ((c.tc : Thread nD τ).loc main_arg1) : FVec Ideal S8000x384 .f32)
  Wm := cur2 (m ((c.tc : Thread nD τ).loc main_arg6) : FVec Ideal S384x512 .f32)
  bm := cur1 (m ((c.tc : Thread nD τ).loc main_arg7) : FVec Ideal S512 .f32)
  Wd := cur2 (m ((c.tc : Thread nD τ).loc main_arg8) : FVec Ideal S384x512 .f32)
  bd := cur1 (m ((c.tc : Thread nD τ).loc main_arg9) : FVec Ideal S512 .f32)
  W1mdl := cur2 (m ((c.tc : Thread nD τ).loc main_arg12) : FVec Ideal S512x512 .f32)
  b1md := cur1 (m ((c.tc : Thread nD τ).loc main_arg13) : FVec Ideal S512 .f32)
  W1mdr := cur2 (m ((c.tc : Thread nD τ).loc main_arg14) : FVec Ideal S512x512 .f32)
  W1dml := cur2 (m ((c.tc : Thread nD τ).loc main_arg15) : FVec Ideal S512x512 .f32)
  b1dm := cur1 (m ((c.tc : Thread nD τ).loc main_arg16) : FVec Ideal S512 .f32)
  W1dmr := cur2 (m ((c.tc : Thread nD τ).loc main_arg17) : FVec Ideal S512x512 .f32)
  W2mdl := cur2 (m ((c.tc : Thread nD τ).loc main_arg18) : FVec Ideal S512x256 .f32)
  b2md := cur1 (m ((c.tc : Thread nD τ).loc main_arg19) : FVec Ideal S256 .f32)
  W2mdr := cur2 (m ((c.tc : Thread nD τ).loc main_arg20) : FVec Ideal S512x256 .f32)
  W2dml := cur2 (m ((c.tc : Thread nD τ).loc main_arg21) : FVec Ideal S512x256 .f32)
  b2dm := cur1 (m ((c.tc : Thread nD τ).loc main_arg22) : FVec Ideal S256 .f32)
  W2dmr := cur2 (m ((c.tc : Thread nD τ).loc main_arg23) : FVec Ideal S512x256 .f32)

section Results

variable (m : (ℓ : Loc nD τ sig) → Buf (Elt Ideal) ℓ) (c : Dev nD) (src : Fin 200000 → Fin 20000) (dst : Fin 200000 → Fin 8000)
  (hsrc : ∀ e : Fin 200000, ((m ((c.tc : Thread nD τ).loc main_arg4) : IVec S200000 32) (ix1 e)).toInt = ((src e).val : ℤ))
  (hdst : ∀ e : Fin 200000, ((m ((c.tc : Thread nD τ).loc main_arg5) : IVec S200000 32) (ix1 e)).toInt = ((dst e).val : ℤ))

set_option maxRecDepth 100000 in
include hsrc hdst in

theorem res_v89 : (res (F := Ideal) m c main_v89 : FVec Ideal S20000x256 .f32) = fun y => Cert.Spec.rOm (refArgs m c src dst) (y 0) (y 1) :=
  chain_om
      _ _ _ _ _ _ _ _ _ _ _ _ _ _ _ _ _ _ _ _ _ _ _ _
      src dst
      (fun x => aggMD_eq x _ _ src dst hsrc hdst) (fun x => aggDM_eq x _ _ dst src hdst hsrc)
      _ _ _ _
      _ _ _ _
      _ _
      (stage_v5 m c) (stage_v11 m c) (stage_v24 m c) (stage_v30 m c) (stage_v43 m c) (stage_v49 m c) (stage_v50 m c)
      (stage_v51 m c) (stage_v83 m c) (stage_v89 m c)

set_option maxRecDepth 100000 in
include hsrc hdst in

theorem res_v70 : (res (F := Ideal) m c main_v70 : FVec Ideal S8000x256 .f32) = fun y => Cert.Spec.rOd (refArgs m c src dst) (y 0) (y 1) :=
  chain_od
      _ _ _ _ _ _ _ _ _ _ _ _ _ _ _ _ _ _ _ _ _ _ _ _
      src dst
      (fun x => aggMD_eq x _ _ src dst hsrc hdst) (fun x => aggDM_eq x _ _ dst src hdst hsrc)
      _ _ _ _
      _ _ _ _
      _ _
      (stage_v5 m c) (stage_v11 m c) (stage_v24 m c) (stage_v30 m c) (stage_v43 m c) (stage_v49 m c) (stage_v50 m c)
      (stage_v51 m c) (stage_v64 m c) (stage_v70 m c)

end Results

theorem run_value (m : (ℓ : Loc nD τ sig) → Buf (Elt Ideal) ℓ) (ρ : Dev nD → PrngReg)
    (src : Dev nD → Fin 200000 → Fin 20000) (dst : Dev nD → Fin 200000 → Fin 8000)
    (hsrc : ∀ (c : Dev nD) (e : Fin 200000), ((m ((c.tc : Thread nD τ).loc main_arg4) : IVec S200000 32) (ix1 e)).toInt = (((src c) e).val : ℤ))
    (hdst : ∀ (c : Dev nD) (e : Fin 200000), ((m ((c.tc : Thread nD τ).loc main_arg5) : IVec S200000 32) (ix1 e)).toInt = (((dst c) e).val : ℤ)) :
    θ_run (defs (F := Ideal)) (onTc (τ := τ) (main (F := Ideal))) ⟨m, fun _ => 0, ρ⟩ fun r => ∀ c : Dev nD,
      r.2.mem ((c.tc : Thread nD τ).loc main_v89) = (fun y => Cert.Spec.rOm (refArgs m c (src c) (dst c)) (y 0) (y 1) : FVec Ideal S20000x256 .f32)
      ∧ r.2.mem ((c.tc : Thread nD τ).loc main_v70) = (fun y => Cert.Spec.rOd (refArgs m c (src c) (dst c)) (y 0) (y 1) : FVec Ideal S8000x256 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run _ _ _).mono
    (fun r h c => ⟨(h c).1.trans (res_v89 m c (src c) (dst c) (hsrc c) (hdst c)),
      (h c).2.1.trans (res_v70 m c (src c) (dst c) (hsrc c) (hdst c)), (h c).2.2⟩)
    (Cert.ReferenceIdeal.Hand.run (F := Ideal) m ρ)

end Cert.ReferenceIdeal.HandValue

end
-- ==== Proof.KI.Writes.lean ====
import proofs.«401578_j53953379173285_3_alg».proof.Proof.Gen.KernelIdeal.Launch
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- An operation whose one result is a reference of the list `W` writes inside `W`. -/
theorem writes_sub {op : HloOp τ sig (Elt F)} {W : List (Ref sig .tc)} {y : Ref sig .tc}
    (h : op.writes = {Proc.devRef .tc y}) (hy : y ∈ W) :
    op.writes ⊆ (W.map (Proc.devRef (τ := τ) .tc)).toFinset := by
  rw [h, Finset.singleton_subset_iff, List.mem_toFinset]; exact List.mem_map_of_mem hy

theorem main_part0_ops0_fresh : (main_part0_ops0 : List (HloOp τ sig (Elt F))).Forall fun op => op.fresh = ∅ := by
  simp only [List.Forall]; repeat' constructor
abbrev main_part0_ops0_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]
theorem main_part0_ops0_writes : (main_part0_ops0 : List (HloOp τ sig (Elt F))).Forall fun op => op.writes ⊆ (main_part0_ops0_W.map (Proc.devRef (τ := τ) .tc)).toFinset := by
  simp only [List.Forall]; repeat' apply And.intro
  all_goals exact writes_sub rfl (by decide)

theorem main_part0_ops1_fresh : (main_part0_ops1 : List (HloOp τ sig (Elt F))).Forall fun op => op.fresh = ∅ := by
  simp only [List.Forall]; repeat' constructor
abbrev main_part0_ops1_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v1]
theorem main_part0_ops1_writes : (main_part0_ops1 : List (HloOp τ sig (Elt F))).Forall fun op => op.writes ⊆ (main_part0_ops1_W.map (Proc.devRef (τ := τ) .tc)).toFinset := by
  simp only [List.Forall]; repeat' apply And.intro
  all_goals exact writes_sub rfl (by decide)

theorem main_part0_ops2_fresh : (main_part0_ops2 : List (HloOp τ sig (Elt F))).Forall fun op => op.fresh = ∅ := by
  simp only [List.Forall]; repeat' constructor
abbrev main_part0_ops2_W : List (Ref sig .tc) := [main_v2, main_v3, main_v4, main_v5]
theorem main_part0_ops2_writes : (main_part0_ops2 : List (HloOp τ sig (Elt F))).Forall fun op => op.writes ⊆ (main_part0_ops2_W.map (Proc.devRef (τ := τ) .tc)).toFinset := by
  simp only [List.Forall]; repeat' apply And.intro
  all_goals exact writes_sub rfl (by decide)

theorem main_part0_ops3_fresh : (main_part0_ops3 : List (HloOp τ sig (Elt F))).Forall fun op => op.fresh = ∅ := by
  simp only [List.Forall]; repeat' constructor
abbrev main_part0_ops3_W : List (Ref sig .tc) := [main_v7, main_v8, main_v9, main_v10]
theorem main_part0_ops3_writes : (main_part0_ops3 : List (HloOp τ sig (Elt F))).Forall fun op => op.writes ⊆ (main_part0_ops3_W.map (Proc.devRef (τ := τ) .tc)).toFinset := by
  simp only [List.Forall]; repeat' apply And.intro
  all_goals exact writes_sub rfl (by decide)

theorem main_part0_ops4_fresh : (main_part0_ops4 : List (HloOp τ sig (Elt F))).Forall fun op => op.fresh = ∅ := by
  simp only [List.Forall]; repeat' constructor
abbrev main_part0_ops4_W : List (Ref sig .tc) := [main_cst, main_v12, main_cst_0, main_v13, main_v14, main_v15, main_cst_1, main_v16, main_v17, main_c, main_v18, main_v19, main_c_2, main_v20, main_v21, main_v22, main_v23, main_v24, main_cst_3, main_v25, main_v26, main_cst_4, main_v27, main_c_5, main_v28, main_v29, main_c_6, main_v30, main_v31, main_v32, main_c_7, main_v33, main_v34, main_c_8, main_v35, main_v36, main_v37, main_v38, main_v39, main_v40, main_v41, main_v42, main_cst_9, main_v43, main_cst_10, main_v44, main_v45, main_v46]
theorem main_part0_ops4_writes : (main_part0_ops4 : List (HloOp τ sig (Elt F))).Forall fun op => op.writes ⊆ (main_part0_ops4_W.map (Proc.devRef (τ := τ) .tc)).toFinset := by
  simp only [List.Forall]; repeat' apply And.intro
  all_goals exact writes_sub rfl (by decide)

theorem main_part1_ops0_fresh : (main_part1_ops0 : List (HloOp τ sig (Elt F))).Forall fun op => op.fresh = ∅ := by
  simp only [List.Forall]; repeat' constructor
abbrev main_part1_ops0_W : List (Ref sig .tc) := [main_cst_11, main_v47, main_v48, main_c_12, main_v49, main_v50, main_c_13, main_v51, main_v52, main_v53, main_v54, main_v55, main_cst_14, main_v56, main_v57, main_cst_15, main_v58, main_c_16, main_v59, main_v60, main_c_17, main_v61, main_v62, main_v63, main_c_18, main_v64, main_v65, main_c_19, main_v66, main_v67, main_v68, main_v69, main_v70, main_v71, main_v72, main_v73, main_c_20]
theorem main_part1_ops0_writes : (main_part1_ops0 : List (HloOp τ sig (Elt F))).Forall fun op => op.writes ⊆ (main_part1_ops0_W.map (Proc.devRef (τ := τ) .tc)).toFinset := by
  simp only [List.Forall]; repeat' apply And.intro
  all_goals exact writes_sub rfl (by decide)

theorem main_part1_ops1_fresh : (main_part1_ops1 : List (HloOp τ sig (Elt F))).Forall fun op => op.fresh = ∅ := by
  simp only [List.Forall]; repeat' constructor
abbrev main_part1_ops1_W : List (Ref sig .tc) := [main_call2_v0, main_v74]
theorem main_part1_ops1_writes : (main_part1_ops1 : List (HloOp τ sig (Elt F))).Forall fun op => op.writes ⊆ (main_part1_ops1_W.map (Proc.devRef (τ := τ) .tc)).toFinset := by
  simp only [List.Forall]; repeat' apply And.intro
  all_goals exact writes_sub rfl (by decide)

theorem main_part1_ops2_fresh : (main_part1_ops2 : List (HloOp τ sig (Elt F))).Forall fun op => op.fresh = ∅ := by
  simp only [List.Forall]; repeat' constructor
abbrev main_part1_ops2_W : List (Ref sig .tc) := [main_c_21]
theorem main_part1_ops2_writes : (main_part1_ops2 : List (HloOp τ sig (Elt F))).Forall fun op => op.writes ⊆ (main_part1_ops2_W.map (Proc.devRef (τ := τ) .tc)).toFinset := by
  simp only [List.Forall]; repeat' apply And.intro
  all_goals exact writes_sub rfl (by decide)

theorem main_part1_ops3_fresh : (main_part1_ops3 : List (HloOp τ sig (Elt F))).Forall fun op => op.fresh = ∅ := by
  simp only [List.Forall]; repeat' constructor
abbrev main_part1_ops3_W : List (Ref sig .tc) := [main_call3_v0, main_v75]
theorem main_part1_ops3_writes : (main_part1_ops3 : List (HloOp τ sig (Elt F))).Forall fun op => op.writes ⊆ (main_part1_ops3_W.map (Proc.devRef (τ := τ) .tc)).toFinset := by
  simp only [List.Forall]; repeat' apply And.intro
  all_goals exact writes_sub rfl (by decide)

theorem main_part1_ops4_fresh : (main_part1_ops4 : List (HloOp τ sig (Elt F))).Forall fun op => op.fresh = ∅ := by
  simp only [List.Forall]; repeat' constructor
abbrev main_part1_ops4_W : List (Ref sig .tc) := [main_v76, main_v77, main_v78]
theorem main_part1_ops4_writes : (main_part1_ops4 : List (HloOp τ sig (Elt F))).Forall fun op => op.writes ⊆ (main_part1_ops4_W.map (Proc.devRef (τ := τ) .tc)).toFinset := by
  simp only [List.Forall]; repeat' apply And.intro
  all_goals exact writes_sub rfl (by decide)

theorem main_part1_ops5_fresh : (main_part1_ops5 : List (HloOp τ sig (Elt F))).Forall fun op => op.fresh = ∅ := by
  simp only [List.Forall]; repeat' constructor
abbrev main_part1_ops5_W : List (Ref sig .tc) := [main_v80, main_v81, main_v82]
theorem main_part1_ops5_writes : (main_part1_ops5 : List (HloOp τ sig (Elt F))).Forall fun op => op.writes ⊆ (main_part1_ops5_W.map (Proc.devRef (τ := τ) .tc)).toFinset := by
  simp only [List.Forall]; repeat' apply And.intro
  all_goals exact writes_sub rfl (by decide)

theorem main_part1_ops6_fresh : (main_part1_ops6 : List (HloOp τ sig (Elt F))).Forall fun op => op.fresh = ∅ := by
  simp only [List.Forall]; repeat' constructor
abbrev main_part1_ops6_W : List (Ref sig .tc) := [main_c_22]
theorem main_part1_ops6_writes : (main_part1_ops6 : List (HloOp τ sig (Elt F))).Forall fun op => op.writes ⊆ (main_part1_ops6_W.map (Proc.devRef (τ := τ) .tc)).toFinset := by
  simp only [List.Forall]; repeat' apply And.intro
  all_goals exact writes_sub rfl (by decide)

theorem main_part1_ops7_fresh : (main_part1_ops7 : List (HloOp τ sig (Elt F))).Forall fun op => op.fresh = ∅ := by
  simp only [List.Forall]; repeat' constructor
abbrev main_part1_ops7_W : List (Ref sig .tc) := [main_call4_v0, main_v84]
theorem main_part1_ops7_writes : (main_part1_ops7 : List (HloOp τ sig (Elt F))).Forall fun op => op.writes ⊆ (main_part1_ops7_W.map (Proc.devRef (τ := τ) .tc)).toFinset := by
  simp only [List.Forall]; repeat' apply And.intro
  all_goals exact writes_sub rfl (by decide)

theorem main_part1_ops8_fresh : (main_part1_ops8 : List (HloOp τ sig (Elt F))).Forall fun op => op.fresh = ∅ := by
  simp only [List.Forall]; repeat' constructor
abbrev main_part1_ops8_W : List (Ref sig .tc) := [main_c_23]
theorem main_part1_ops8_writes : (main_part1_ops8 : List (HloOp τ sig (Elt F))).Forall fun op => op.writes ⊆ (main_part1_ops8_W.map (Proc.devRef (τ := τ) .tc)).toFinset := by
  simp only [List.Forall]; repeat' apply And.intro
  all_goals exact writes_sub rfl (by decide)

theorem main_part1_ops9_fresh : (main_part1_ops9 : List (HloOp τ sig (Elt F))).Forall fun op => op.fresh = ∅ := by
  simp only [List.Forall]; repeat' constructor
abbrev main_part1_ops9_W : List (Ref sig .tc) := [main_call5_v0, main_v85]
theorem main_part1_ops9_writes : (main_part1_ops9 : List (HloOp τ sig (Elt F))).Forall fun op => op.writes ⊆ (main_part1_ops9_W.map (Proc.devRef (τ := τ) .tc)).toFinset := by
  simp only [List.Forall]; repeat' apply And.intro
  all_goals exact writes_sub rfl (by decide)

theorem main_part1_ops10_fresh : (main_part1_ops10 : List (HloOp τ sig (Elt F))).Forall fun op => op.fresh = ∅ := by
  simp only [List.Forall]; repeat' constructor
abbrev main_part1_ops10_W : List (Ref sig .tc) := [main_v86, main_v87, main_v88]
theorem main_part1_ops10_writes : (main_part1_ops10 : List (HloOp τ sig (Elt F))).Forall fun op => op.writes ⊆ (main_part1_ops10_W.map (Proc.devRef (τ := τ) .tc)).toFinset := by
  simp only [List.Forall]; repeat' apply And.intro
  all_goals exact writes_sub rfl (by decide)

theorem main_part1_ops11_fresh : (main_part1_ops11 : List (HloOp τ sig (Elt F))).Forall fun op => op.fresh = ∅ := by
  simp only [List.Forall]; repeat' constructor
abbrev main_part1_ops11_W : List (Ref sig .tc) := [main_v90, main_v91, main_v92]
theorem main_part1_ops11_writes : (main_part1_ops11 : List (HloOp τ sig (Elt F))).Forall fun op => op.writes ⊆ (main_part1_ops11_W.map (Proc.devRef (τ := τ) .tc)).toFinset := by
  simp only [List.Forall]; repeat' apply And.intro
  all_goals exact writes_sub rfl (by decide)

end Cert.KernelIdeal.Hand

end
-- ==== Proof.KI.Reg0.lean ====
import proofs.«401578_j53953379173285_3_alg».proof.Proof.Gen.KernelIdeal.Launch
import proofs.«401578_j53953379173285_3_alg».proof.Proof.Gen.KernelIdeal.Skeleton
import proofs.«401578_j53953379173285_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x384 := Rect.unit (s := S2000x384) ![0, 0] S2000x384.size inb_S2000x384_S2000x384_0_0
abbrev r0_1 : Rect S384x512 := Rect.unit (s := S384x512) ![0, 0] S384x512.size inb_S384x512_S384x512_0_0
abbrev r0_2 : Rect S2000x512 := Rect.unit (s := S2000x512) ![0, 0] S2000x512.size inb_S2000x512_S2000x512_0_0
abbrev r0_3 : Rect S1x512 := Rect.unit (s := S1x512) ![0, 0] S1x512.size inb_S1x512_S1x512_0_0

def out0_4 (x0 : Vec F S2000x384 .bf16) (x1 : Vec F S384x512 .bf16) (x2 : Vec F S2000x512 .bf16) (x3 : Vec F S1x512 .f32) :
    Vec F S2000x512 .bf16 :=
  View.canon [⟨r0_2, k0_pay1 (View.ld x0 r0_0) (View.ld x1 r0_1) (View.ld x2 r0_2) (View.ld x3 r0_3)⟩]

theorem cover0_4 (p0 : Vec F S2000x512 .bf16) (y : S2000x512.Idx) :
    ∃ pc ∈ ([⟨r0_2, p0⟩] : List (View.Piece (Elt F) S2000x512 .bf16)), y ∈ pc.1.set :=
  View.cover_of_tiled [⟨r0_2, p0⟩] S2000x512.size (by rfl) y

theorem sound_kernel0 (c : Dev nD) (E : Set ℕ) (i : grid0.Coords)
    (arg1 : Memref sig .tc .vmem S2000x384 .bf16) (harg1 : arg1.IsWhole) (arg2 : Memref sig .tc .vmem S384x512 .bf16) (harg2 : arg2.IsWhole)
    (arg3 : Memref sig .tc .vmem S2000x512 .bf16) (harg3 : arg3.IsWhole) (arg4 : Memref sig .tc .vmem S1x512 .f32) (harg4 : arg4.IsWhole)
    (arg5 : Memref sig .tc .vmem S2000x512 .bf16) (harg5 : arg5.IsWhole)
    (x0 : Vec F S2000x384 .bf16) (x1 : Vec F S384x512 .bf16) (x2 : Vec F S2000x512 .bf16) (x3 : Vec F S1x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__linear_bias_add_body i arg1 harg1 arg2 harg2 arg3 harg3 arg4 harg4 arg5 harg5) K := by
  simp only [cc0__linear_bias_add_body_eq_skeleton]; unfold cc0__linear_bias_add_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]; rotate_left; isplitl [H1]; rotate_left; isplitl [H2]; rotate_left; isplitl [H3]
  all_goals
    iexists _; isplitr; swap; · iassumption
    ipureintro
    first | with_reducible rfl | exact View.read_writes_eq_canon _ _ _ (cover0_4 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Region0

end Cert.KernelIdeal.Hand

end
-- ==== Proof.KI.Reg1.lean ====
import proofs.«401578_j53953379173285_3_alg».proof.Proof.Gen.KernelIdeal.Launch
import proofs.«401578_j53953379173285_3_alg».proof.Proof.Gen.KernelIdeal.Skeleton
import proofs.«401578_j53953379173285_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x384 := Rect.unit (s := S2000x384) ![0, 0] S2000x384.size inb_S2000x384_S2000x384_0_0
abbrev r1_1 : Rect S384x512 := Rect.unit (s := S384x512) ![0, 0] S384x512.size inb_S384x512_S384x512_0_0
abbrev r1_2 : Rect S2000x512 := Rect.unit (s := S2000x512) ![0, 0] S2000x512.size inb_S2000x512_S2000x512_0_0
abbrev r1_3 : Rect S1x512 := Rect.unit (s := S1x512) ![0, 0] S1x512.size inb_S1x512_S1x512_0_0

def out1_4 (x0 : Vec F S2000x384 .bf16) (x1 : Vec F S384x512 .bf16) (x2 : Vec F S2000x512 .bf16) (x3 : Vec F S1x512 .f32) :
    Vec F S2000x512 .bf16 :=
  View.canon [⟨r1_2, k1_pay1 (View.ld x0 r1_0) (View.ld x1 r1_1) (View.ld x2 r1_2) (View.ld x3 r1_3)⟩]

theorem cover1_4 (p0 : Vec F S2000x512 .bf16) (y : S2000x512.Idx) :
    ∃ pc ∈ ([⟨r1_2, p0⟩] : List (View.Piece (Elt F) S2000x512 .bf16)), y ∈ pc.1.set :=
  View.cover_of_tiled [⟨r1_2, p0⟩] S2000x512.size (by rfl) y

theorem sound_kernel1 (c : Dev nD) (E : Set ℕ) (i : grid1.Coords)
    (arg1 : Memref sig .tc .vmem S2000x384 .bf16) (harg1 : arg1.IsWhole) (arg2 : Memref sig .tc .vmem S384x512 .bf16) (harg2 : arg2.IsWhole)
    (arg3 : Memref sig .tc .vmem S2000x512 .bf16) (harg3 : arg3.IsWhole) (arg4 : Memref sig .tc .vmem S1x512 .f32) (harg4 : arg4.IsWhole)
    (arg5 : Memref sig .tc .vmem S2000x512 .bf16) (harg5 : arg5.IsWhole)
    (x0 : Vec F S2000x384 .bf16) (x1 : Vec F S384x512 .bf16) (x2 : Vec F S2000x512 .bf16) (x3 : Vec F S1x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__linear_bias_add_body i arg1 harg1 arg2 harg2 arg3 harg3 arg4 harg4 arg5 harg5) K := by
  simp only [cc1__linear_bias_add_body_eq_skeleton]; unfold cc1__linear_bias_add_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]; rotate_left; isplitl [H1]; rotate_left; isplitl [H2]; rotate_left; isplitl [H3]
  all_goals
    iexists _; isplitr; swap; · iassumption
    ipureintro
    first | with_reducible rfl | exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl
theorem hout1 (c : Dev nD) : (dat1 V c).Φ (Fin.last cfg1.N) ⊢ Pipeline.ΦA spec1 c := .rfl

end Region1

end Cert.KernelIdeal.Hand

end
-- ==== Proof.KI.Reg2.lean ====
import proofs.«401578_j53953379173285_3_alg».proof.Proof.Gen.KernelIdeal.Launch
import proofs.«401578_j53953379173285_3_alg».proof.Proof.Gen.KernelIdeal.Skeleton
import proofs.«401578_j53953379173285_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)

abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

theorem idleAt2_6 (i : grid2.Coords) (h : ¬cond2_1 i) : cfg2.idle 6 i = true := by
  show (!(k2_cond2 i == 1#1)) = true
  cases hb : (k2_cond2 i == 1#1)
  · rfl
  · exact absurd (eq_of_beq hb) h
theorem liveAt2_6 (i : grid2.Coords) (h : cond2_1 i) : cfg2.idle 6 i = false := by
  show (!(k2_cond2 i == 1#1)) = false
  rw [show k2_cond2 i = 1#1 from h]; rfl
theorem noFlush2_6 (t : Fin cfg2.N) (h : ¬cond2_1 (grid2.coords t)) : (cfg2.win 6).flush t = false :=
  Bool.eq_false_iff.mpr fun hf => h ((hcond2_1 t).mpr ((flush2_6 t).mp hf))

abbrev ms2_0 (t : Fin cfg2.N) : Memref sig .tc .vmem S400x2048 .bf16 := win2_0.stage (cfg2.slots t 0)
abbrev ms2_1 (t : Fin cfg2.N) : Memref sig .tc .vmem S2048x512 .bf16 := win2_1.stage (cfg2.slots t 1)
abbrev ms2_2 (t : Fin cfg2.N) : Memref sig .tc .vmem S400x512 .bf16 := win2_2.stage (cfg2.slots t 2)
abbrev ms2_3 (t : Fin cfg2.N) : Memref sig .tc .vmem S512x512 .bf16 := win2_3.stage (cfg2.slots t 3)
abbrev ms2_4 (t : Fin cfg2.N) : Memref sig .tc .vmem S512x512 .bf16 := win2_4.stage (cfg2.slots t 4)
abbrev ms2_5 (t : Fin cfg2.N) : Memref sig .tc .vmem S1x512 .f32 := win2_5.stage (cfg2.slots t 5)
abbrev ms2_6 (t : Fin cfg2.N) : Memref sig .tc .vmem S400x512 .bf16 := win2_6.stage (cfg2.slots t 6)
abbrev scM2 : Memref sig .tc .vmem S400x512 .f32 := Memref.whole cc2_scratch0

theorem PhiA2_eq (c : Dev nD) :
    (Pipeline.ΦA spec2 c : sProp 𝕄)
      = iprop(iprop(iprop((∃ d, owns (c : Thread nD τ) scM2 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

def accStep2 (acc : Vec F S400x512 .f32) (r : Vec F S400x2048 .bf16) (x : Vec F S2048x512 .bf16) : Vec F S400x512 .f32 := k2_pay2 acc r x
def acc0_2 : Vec F S400x512 .f32 := k2_pay1
def epi2 (acc : Vec F S400x512 .f32) (wl : Vec F S512x512 .bf16) (xdst : Vec F S400x512 .bf16) (wr : Vec F S512x512 .bf16) (b : Vec F S1x512 .f32) : Vec F S400x512 .bf16 := k2_pay3 acc wl xdst wr b

section Body
variable (c : Dev nD) (i : grid2.Coords)
  (a2 : Memref sig .tc .vmem S400x2048 .bf16) (a3 : Memref sig .tc .vmem S2048x512 .bf16) (a4 : Memref sig .tc .vmem S400x512 .bf16) (a5 : Memref sig .tc .vmem S512x512 .bf16)
  (a6 : Memref sig .tc .vmem S512x512 .bf16) (a7 : Memref sig .tc .vmem S1x512 .f32) (a8 : Memref sig .tc .vmem S400x512 .bf16) (a9 : Memref sig .tc .vmem S400x512 .f32)
  (x0 : Vec F S400x2048 .bf16) (x1 : Vec F S2048x512 .bf16) (x2 : Vec F S400x512 .bf16) (x3 : Vec F S512x512 .bf16) (x4 : Vec F S512x512 .bf16) (x5 : Vec F S1x512 .f32) (x6 : Vec F S400x512 .bf16) (xs : Vec F S400x512 .f32)

-- The body's eight memrefs, each owned at given contents.
def held2 : sProp 𝕄 :=
  iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare xs)

set_option maxHeartbeats 1000000 in
-- The body at any point: one accumulator step (from zero where the reduction restarts), and the epilogue stored where it ends.
theorem kernel2 (h01 : cond2_0 i → ¬cond2_1 i) (h2 : a2.IsWhole) (h3 : a3.IsWhole) (h4 : a4.IsWhole) (h5 : a5.IsWhole) (h6 : a6.IsWhole) (h7 : a7.IsWhole) (h8 : a8.IsWhole) (h9 : a9.IsWhole)
    (E : Set ℕ) (K : PUnit → sProp 𝕄) :
    iprop(held2 c a2 a3 a4 a5 a6 a7 a8 a9 x0 x1 x2 x3 x4 x5 x6 xs
        ∗ (held2 c a2 a3 a4 a5 a6 a7 a8 a9 x0 x1 x2 x3 x4 x5 (if cond2_1 i then epi2 (accStep2 (if cond2_0 i then acc0_2 else xs) x0 x1) x3 x2 x4 x5 else x6)
            (accStep2 (if cond2_0 i then acc0_2 else xs) x0 x1) -∗ K ⟨⟩))
      ⊢ wp frame (wpE (defs₀ (F := F)) Variants.none c none) E (cc2__fused_sage_body i a2 h2 a3 h3 a4 h4 a5 h5 a6 h6 a7 h7 a8 h8 a9 h9) K := by
  simp only [cc2__fused_sage_body_eq_skeleton]; unfold cc2__fused_sage_body_skel held2 owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%fs, %es, HS⟩⟩, Hk⟩
  subst e0 e1 e2 e3 e4 e5 e6 es
  by_cases hc0 : cond2_0 i <;> by_cases hc1 : cond2_1 i <;> first
  | exact absurd hc1 (h01 hc0)
  | ( sl_exec (disch := first | exact hc0 | exact hc1)
      sl_step
      iapply Hk
      isplitl [H0]; rotate_left; isplitl [H1]; rotate_left; isplitl [H2]; rotate_left; isplitl [H3]; rotate_left
      isplitl [H4]; rotate_left; isplitl [H5]; rotate_left; isplitl [H6]
      all_goals
        iexists _; isplitr; swap; · iassumption
        ipureintro
        first | rw [if_pos hc0] | rw [if_neg hc0] | skip
        all_goals first | rw [if_pos hc1] | rw [if_neg hc1] | skip
        all_goals first
          | with_reducible rfl
          | sl_unfold_words
            first
            | rw [View.read_writes_eq_canon _ _ _ (fun y => ⟨_, List.mem_cons_self, View.mem_set_unit_zero hz2 inb_S400x512_S400x512_0_0 y⟩), View.canon_cons_unit_zero hz2]
            simp only [View.readCov_unit_zero (S := S400x512) _ hz2, View.readAt_eq_ld, View.ld_unit_zero (S := S400x512) hz2, View.ld_unit_zero (S := S400x2048) hz2, View.ld_unit_zero (S := S2048x512) hz2, View.ld_unit_zero (S := S512x512) hz2, View.ld_unit_zero (S := S1x512) hz2]
            try rfl )

end Body

-- The invariant's body with the accumulator at contents `s`.
def inv2 (c : Dev nD) (s : Vec F S400x512 .f32) : sProp 𝕄 :=
  iprop(iprop(owns (c : Thread nD τ) scM2 fullShare s ∗ Pipeline.scopedRestBut (Ix := Unit) (Name := ℕ) (U := UR sig nD τ) (Lvl := ℕ) (Val := Elt F) spec2 c [cc2_scratch0]) ∗ (∃ r, prngReg c r))

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def sAt2 (c : Dev nD) : (n : ℕ) → n < cfg2.N → Vec F S400x512 .f32
  | 0, hn => accStep2 acc0_2 (iblk2 V c 0 ⟨0, hn⟩) (iblk2 V c 1 ⟨0, hn⟩)
  | n + 1, hn =>
    if (n + 1) % 10 = 0 then accStep2 acc0_2 (iblk2 V c 0 ⟨n + 1, hn⟩) (iblk2 V c 1 ⟨n + 1, hn⟩)
    else accStep2 (sAt2 c n (Nat.lt_of_succ_lt hn)) (iblk2 V c 0 ⟨n + 1, hn⟩) (iblk2 V c 1 ⟨n + 1, hn⟩)

theorem sAt2_first (c : Dev nD) (t : Fin cfg2.N) (h : t.val % 10 = 0) :
    sAt2 V c t.val t.isLt = accStep2 acc0_2 (iblk2 V c 0 t) (iblk2 V c 1 t) := by
  obtain ⟨n, hn⟩ := t
  cases n with
  | zero => rfl
  | succ n => exact if_pos h

theorem sAt2_next (c : Dev nD) (t : Fin cfg2.N) (h : ¬t.val % 10 = 0) :
    sAt2 V c t.val t.isLt = accStep2 (sAt2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h
  | succ n => exact if_neg h

def oAt2 (c : Dev nD) (t : Fin cfg2.N) : Vec F S400x512 .bf16 :=
  epi2 (sAt2 V c t.val t.isLt) (iblk2 V c 3 t) (iblk2 V c 2 t) (iblk2 V c 4 t) (iblk2 V c 5 t)

def PhiS2 (c : Dev nD) : (n : ℕ) → n ≤ cfg2.N → sProp 𝕄
  | 0, _ => Pipeline.ΦA spec2 c
  | n + 1, hn => iprop(iprop(owns (c : Thread nD τ) scM2 fullShare (sAt2 V c n hn) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) : PhiS2 V c (n + 1) hn = inv2 c (sAt2 V c n hn) := rfl

theorem PhiS2_pos (c : Dev nD) (n : ℕ) (h : n ≤ cfg2.N) (hz : n ≠ 0) : PhiS2 V c n h = inv2 c (sAt2 V c (n - 1) (by omega)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => oAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_6 (c : Dev nD) (t : Fin cfg2.N) : (dat2 V c).after 6 t = oAt2 V c t := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl

-- Before point `t` the invariant holds the accumulator at some contents: what the point before left, unless the reduction restarts.
theorem Phi_open2 (c : Dev nD) (t : Fin cfg2.N) :
    (dat2 V c).Φ t.castSucc ⊢ iprop(∃ s, ⌜t.val % 10 ≠ 0 → s = sAt2 V c (t.val - 1) (Nat.lt_of_le_of_lt (Nat.sub_le _ _) t.isLt)⌝ ∗ inv2 c s) := by
  rw [PhiS2_castSucc V c t]
  by_cases hz : t.val = 0
  · rw [PhiS2_zero V c _ _ hz, PhiA2_eq]; unfold inv2
    iintro ⟨⟨⟨%s, HS⟩, HR⟩, Hg⟩
    iexists s; isplitr; · ipureintro; exact fun h => absurd (by rw [hz]) h
    isplitl [HS HR]
    · isplitl [HS]; · iexact HS
      iexact HR
    iexact Hg
  · rw [PhiS2_pos V c _ _ hz]
    iintro H; iexists _; isplitr; · ipureintro; exact fun _ => rfl
    iexact H

-- One step of the accumulator, the restart and the continuation at once.
theorem sAt2_step (c : Dev nD) (t : Fin cfg2.N) (s : Vec F S400x512 .f32)
    (hs : t.val % 10 ≠ 0 → s = sAt2 V c (t.val - 1) (Nat.lt_of_le_of_lt (Nat.sub_le _ _) t.isLt)) :
    accStep2 (if cond2_0 (grid2.coords t) then acc0_2 else s) (iblk2 V c 0 t) (iblk2 V c 1 t) = sAt2 V c t.val t.isLt := by
  by_cases h : t.val % 10 = 0
  · rw [if_pos ((hcond2_0 t).mpr h), sAt2_first V c t h]
  · rw [if_neg fun hc => h ((hcond2_0 t).mp hc), sAt2_next V c t h, hs h]

-- The output buffer after the body: the epilogue's block where it ran, else what it held.
theorem leaves2_6 (c : Dev nD) (t : Fin cfg2.N) (d) :
    owns (c : Thread nD τ) (ms2_6 t) fullShare (if cond2_1 (grid2.coords t) then oAt2 V c t else (dat2 V c).before 6 t d) ⊢ (dat2 V c).leavesExact 6 t := by
  by_cases hc1 : cond2_1 (grid2.coords t)
  · rw [if_pos hc1, show (dat2 V c).leavesExact 6 t = owns (c : Thread nD τ) (ms2_6 t) fullShare ((dat2 V c).after 6 t) from by
      unfold Dat.leavesExact; rw [liveAt2_6 _ hc1], after2_6]
  · rw [if_neg hc1, Dat.leavesExact_idle (dat2 V c) 6 t (idleAt2_6 _ hc1) (noFlush2_6 t hc1)]
    iintro H; iexists d; iexact H

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

-- The body at any point: the invariant hands over the accumulator, the one body triple runs, and everything is handed back.
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  iintro ⟨HΦ, Ho, ⟨%d0, H0⟩, ⟨%d1, H1⟩, ⟨%d2, H2⟩, ⟨%d3, H3⟩, ⟨%d4, H4⟩, ⟨%d5, H5⟩, ⟨%d6, H6⟩⟩
  ihave HI := (Phi_open2 V c t) $$ HΦ
  icases HI with ⟨%s, %hs, HI⟩
  iapply (kernel2 c (grid2.coords t) _ _ _ _ _ _ _ _ (iblk2 V c 0 t) (iblk2 V c 1 t) (iblk2 V c 2 t) (iblk2 V c 3 t) (iblk2 V c 4 t) (iblk2 V c 5 t) ((dat2 V c).before 6 t d6) s
    (fun h0 h1 => by have a := (hcond2_0 t).mp h0; have b := (hcond2_1 t).mp h1; omega) _ _ _ _ _ _ _ _ Set.univ _)
  rw [sAt2_step V c t s hs]
  unfold held2 inv2
  icases HI with ⟨⟨HS, HR⟩, Hg⟩
  isplitl [H0 H1 H2 H3 H4 H5 H6 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  iintro ⟨H0, H1, H2, H3, H4, H5, H6, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves2_6 V c t d6); iexact H6

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]; unfold inv2
  iintro ⟨⟨HS, HR⟩, Hg⟩
  isplitl [HS HR]
  · isplitl [HS]
    · iexists _; iexact HS
    iexact HR
  iexact Hg

theorem hout2 (c : Dev nD) : (dat2 V c).Φ (Fin.last cfg2.N) ⊢ Pipeline.ΦA spec2 c :=
  Phi_out2 V c _ (by rw [Fin.val_last]; have : cfg2.N = 200 := N_2; omega)

end Region2

end Cert.KernelIdeal.Hand

end
-- ==== Proof.KI.Reg3.lean ====
import proofs.«401578_j53953379173285_3_alg».proof.Proof.Gen.KernelIdeal.Launch
import proofs.«401578_j53953379173285_3_alg».proof.Proof.Gen.KernelIdeal.Skeleton
import proofs.«401578_j53953379173285_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0] : Fin 2 → ℕ) = fun _ => 0 := by funext a; fin_cases a <;> rfl

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)

abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

theorem idleAt3_6 (i : grid3.Coords) (h : ¬cond3_1 i) : cfg3.idle 6 i = true := by
  show (!(k3_cond2 i == 1#1)) = true
  cases hb : (k3_cond2 i == 1#1)
  · rfl
  · exact absurd (eq_of_beq hb) h
theorem liveAt3_6 (i : grid3.Coords) (h : cond3_1 i) : cfg3.idle 6 i = false := by
  show (!(k3_cond2 i == 1#1)) = false
  rw [show k3_cond2 i = 1#1 from h]; rfl
theorem noFlush3_6 (t : Fin cfg3.N) (h : ¬cond3_1 (grid3.coords t)) : (cfg3.win 6).flush t = false :=
  Bool.eq_false_iff.mpr fun hf => h ((hcond3_1 t).mpr ((flush3_6 t).mp hf))

abbrev ms3_0 (t : Fin cfg3.N) : Memref sig .tc .vmem S400x2048 .bf16 := win3_0.stage (cfg3.slots t 0)
abbrev ms3_1 (t : Fin cfg3.N) : Memref sig .tc .vmem S2048x512 .bf16 := win3_1.stage (cfg3.slots t 1)
abbrev ms3_2 (t : Fin cfg3.N) : Memref sig .tc .vmem S400x512 .bf16 := win3_2.stage (cfg3.slots t 2)
abbrev ms3_3 (t : Fin cfg3.N) : Memref sig .tc .vmem S512x512 .bf16 := win3_3.stage (cfg3.slots t 3)
abbrev ms3_4 (t : Fin cfg3.N) : Memref sig .tc .vmem S512x512 .bf16 := win3_4.stage (cfg3.slots t 4)
abbrev ms3_5 (t : Fin cfg3.N) : Memref sig .tc .vmem S1x512 .f32 := win3_5.stage (cfg3.slots t 5)
abbrev ms3_6 (t : Fin cfg3.N) : Memref sig .tc .vmem S400x512 .bf16 := win3_6.stage (cfg3.slots t 6)
abbrev scM3 : Memref sig .tc .vmem S400x512 .f32 := Memref.whole cc3_scratch0

theorem PhiA3_eq (c : Dev nD) :
    (Pipeline.ΦA spec3 c : sProp 𝕄)
      = iprop(iprop(iprop((∃ d, owns (c : Thread nD τ) scM3 fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

def accStep3 (acc : Vec F S400x512 .f32) (r : Vec F S400x2048 .bf16) (x : Vec F S2048x512 .bf16) : Vec F S400x512 .f32 := k3_pay2 acc r x
def acc0_3 : Vec F S400x512 .f32 := k3_pay1
def epi3 (acc : Vec F S400x512 .f32) (wl : Vec F S512x512 .bf16) (xdst : Vec F S400x512 .bf16) (wr : Vec F S512x512 .bf16) (b : Vec F S1x512 .f32) : Vec F S400x512 .bf16 := k3_pay3 acc wl xdst wr b

section Body
variable (c : Dev nD) (i : grid3.Coords)
  (a2 : Memref sig .tc .vmem S400x2048 .bf16) (a3 : Memref sig .tc .vmem S2048x512 .bf16) (a4 : Memref sig .tc .vmem S400x512 .bf16) (a5 : Memref sig .tc .vmem S512x512 .bf16)
  (a6 : Memref sig .tc .vmem S512x512 .bf16) (a7 : Memref sig .tc .vmem S1x512 .f32) (a8 : Memref sig .tc .vmem S400x512 .bf16) (a9 : Memref sig .tc .vmem S400x512 .f32)
  (x0 : Vec F S400x2048 .bf16) (x1 : Vec F S2048x512 .bf16) (x2 : Vec F S400x512 .bf16) (x3 : Vec F S512x512 .bf16) (x4 : Vec F S512x512 .bf16) (x5 : Vec F S1x512 .f32) (x6 : Vec F S400x512 .bf16) (xs : Vec F S400x512 .f32)

-- The body's eight memrefs, each owned at given contents.
def held3 : sProp 𝕄 :=
  iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare xs)

set_option maxHeartbeats 1000000 in
-- The body at any point: one accumulator step (from zero where the reduction restarts), and the epilogue stored where it ends.
theorem kernel3 (h01 : cond3_0 i → ¬cond3_1 i) (h2 : a2.IsWhole) (h3 : a3.IsWhole) (h4 : a4.IsWhole) (h5 : a5.IsWhole) (h6 : a6.IsWhole) (h7 : a7.IsWhole) (h8 : a8.IsWhole) (h9 : a9.IsWhole)
    (E : Set ℕ) (K : PUnit → sProp 𝕄) :
    iprop(held3 c a2 a3 a4 a5 a6 a7 a8 a9 x0 x1 x2 x3 x4 x5 x6 xs
        ∗ (held3 c a2 a3 a4 a5 a6 a7 a8 a9 x0 x1 x2 x3 x4 x5 (if cond3_1 i then epi3 (accStep3 (if cond3_0 i then acc0_3 else xs) x0 x1) x3 x2 x4 x5 else x6)
            (accStep3 (if cond3_0 i then acc0_3 else xs) x0 x1) -∗ K ⟨⟩))
      ⊢ wp frame (wpE (defs₀ (F := F)) Variants.none c none) E (cc3__fused_sage_body i a2 h2 a3 h3 a4 h4 a5 h5 a6 h6 a7 h7 a8 h8 a9 h9) K := by
  simp only [cc3__fused_sage_body_eq_skeleton]; unfold cc3__fused_sage_body_skel held3 owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%fs, %es, HS⟩⟩, Hk⟩
  subst e0 e1 e2 e3 e4 e5 e6 es
  by_cases hc0 : cond3_0 i <;> by_cases hc1 : cond3_1 i <;> first
  | exact absurd hc1 (h01 hc0)
  | ( sl_exec (disch := first | exact hc0 | exact hc1)
      sl_step
      iapply Hk
      isplitl [H0]; rotate_left; isplitl [H1]; rotate_left; isplitl [H2]; rotate_left; isplitl [H3]; rotate_left
      isplitl [H4]; rotate_left; isplitl [H5]; rotate_left; isplitl [H6]
      all_goals
        iexists _; isplitr; swap; · iassumption
        ipureintro
        first | rw [if_pos hc0] | rw [if_neg hc0] | skip
        all_goals first | rw [if_pos hc1] | rw [if_neg hc1] | skip
        all_goals first
          | with_reducible rfl
          | sl_unfold_words
            first
            | rw [View.read_writes_eq_canon _ _ _ (fun y => ⟨_, List.mem_cons_self, View.mem_set_unit_zero hz3 inb_S400x512_S400x512_0_0 y⟩), View.canon_cons_unit_zero hz3]
            simp only [View.readCov_unit_zero (S := S400x512) _ hz3, View.readAt_eq_ld, View.ld_unit_zero (S := S400x512) hz3, View.ld_unit_zero (S := S400x2048) hz3, View.ld_unit_zero (S := S2048x512) hz3, View.ld_unit_zero (S := S512x512) hz3, View.ld_unit_zero (S := S1x512) hz3]
            try rfl )

end Body

-- The invariant's body with the accumulator at contents `s`.
def inv3 (c : Dev nD) (s : Vec F S400x512 .f32) : sProp 𝕄 :=
  iprop(iprop(owns (c : Thread nD τ) scM3 fullShare s ∗ Pipeline.scopedRestBut (Ix := Unit) (Name := ℕ) (U := UR sig nD τ) (Lvl := ℕ) (Val := Elt F) spec3 c [cc3_scratch0]) ∗ (∃ r, prngReg c r))

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def sAt3 (c : Dev nD) : (n : ℕ) → n < cfg3.N → Vec F S400x512 .f32
  | 0, hn => accStep3 acc0_3 (iblk3 V c 0 ⟨0, hn⟩) (iblk3 V c 1 ⟨0, hn⟩)
  | n + 1, hn =>
    if (n + 1) % 4 = 0 then accStep3 acc0_3 (iblk3 V c 0 ⟨n + 1, hn⟩) (iblk3 V c 1 ⟨n + 1, hn⟩)
    else accStep3 (sAt3 c n (Nat.lt_of_succ_lt hn)) (iblk3 V c 0 ⟨n + 1, hn⟩) (iblk3 V c 1 ⟨n + 1, hn⟩)

theorem sAt3_first (c : Dev nD) (t : Fin cfg3.N) (h : t.val % 4 = 0) :
    sAt3 V c t.val t.isLt = accStep3 acc0_3 (iblk3 V c 0 t) (iblk3 V c 1 t) := by
  obtain ⟨n, hn⟩ := t
  cases n with
  | zero => rfl
  | succ n => exact if_pos h

theorem sAt3_next (c : Dev nD) (t : Fin cfg3.N) (h : ¬t.val % 4 = 0) :
    sAt3 V c t.val t.isLt = accStep3 (sAt3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h
  | succ n => exact if_neg h

def oAt3 (c : Dev nD) (t : Fin cfg3.N) : Vec F S400x512 .bf16 :=
  epi3 (sAt3 V c t.val t.isLt) (iblk3 V c 3 t) (iblk3 V c 2 t) (iblk3 V c 4 t) (iblk3 V c 5 t)

def PhiS3 (c : Dev nD) : (n : ℕ) → n ≤ cfg3.N → sProp 𝕄
  | 0, _ => Pipeline.ΦA spec3 c
  | n + 1, hn => iprop(iprop(owns (c : Thread nD τ) scM3 fullShare (sAt3 V c n hn) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) : PhiS3 V c (n + 1) hn = inv3 c (sAt3 V c n hn) := rfl

theorem PhiS3_pos (c : Dev nD) (n : ℕ) (h : n ≤ cfg3.N) (hz : n ≠ 0) : PhiS3 V c n h = inv3 c (sAt3 V c (n - 1) (by omega)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => oAt3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_6 (c : Dev nD) (t : Fin cfg3.N) : (dat3 V c).after 6 t = oAt3 V c t := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl
theorem before3_5 (c : Dev nD) (t : Fin cfg3.N) (d) : (dat3 V c).before 5 t d = iblk3 V c 5 t :=
  ((dat3 V c).before_in_eq_fetched 5 rfl (fun _ => rfl) (fun _ _ _ => rfl) (fun _ => rfl) t d).trans rfl

-- Before point `t` the invariant holds the accumulator at some contents: what the point before left, unless the reduction restarts.
theorem Phi_open3 (c : Dev nD) (t : Fin cfg3.N) :
    (dat3 V c).Φ t.castSucc ⊢ iprop(∃ s, ⌜t.val % 4 ≠ 0 → s = sAt3 V c (t.val - 1) (Nat.lt_of_le_of_lt (Nat.sub_le _ _) t.isLt)⌝ ∗ inv3 c s) := by
  rw [PhiS3_castSucc V c t]
  by_cases hz : t.val = 0
  · rw [PhiS3_zero V c _ _ hz, PhiA3_eq]; unfold inv3
    iintro ⟨⟨⟨%s, HS⟩, HR⟩, Hg⟩
    iexists s; isplitr; · ipureintro; exact fun h => absurd (by rw [hz]) h
    isplitl [HS HR]
    · isplitl [HS]; · iexact HS
      iexact HR
    iexact Hg
  · rw [PhiS3_pos V c _ _ hz]
    iintro H; iexists _; isplitr; · ipureintro; exact fun _ => rfl
    iexact H

-- One step of the accumulator, the restart and the continuation at once.
theorem sAt3_step (c : Dev nD) (t : Fin cfg3.N) (s : Vec F S400x512 .f32)
    (hs : t.val % 4 ≠ 0 → s = sAt3 V c (t.val - 1) (Nat.lt_of_le_of_lt (Nat.sub_le _ _) t.isLt)) :
    accStep3 (if cond3_0 (grid3.coords t) then acc0_3 else s) (iblk3 V c 0 t) (iblk3 V c 1 t) = sAt3 V c t.val t.isLt := by
  by_cases h : t.val % 4 = 0
  · rw [if_pos ((hcond3_0 t).mpr h), sAt3_first V c t h]
  · rw [if_neg fun hc => h ((hcond3_0 t).mp hc), sAt3_next V c t h, hs h]

-- The output buffer after the body: the epilogue's block where it ran, else what it held.
theorem leaves3_6 (c : Dev nD) (t : Fin cfg3.N) (d) :
    owns (c : Thread nD τ) (ms3_6 t) fullShare (if cond3_1 (grid3.coords t) then oAt3 V c t else (dat3 V c).before 6 t d) ⊢ (dat3 V c).leavesExact 6 t := by
  by_cases hc1 : cond3_1 (grid3.coords t)
  · rw [if_pos hc1, show (dat3 V c).leavesExact 6 t = owns (c : Thread nD τ) (ms3_6 t) fullShare ((dat3 V c).after 6 t) from by
      unfold Dat.leavesExact; rw [liveAt3_6 _ hc1], after3_6]
  · rw [if_neg hc1, Dat.leavesExact_idle (dat3 V c) 6 t (idleAt3_6 _ hc1) (noFlush3_6 t hc1)]
    iintro H; iexists d; iexact H

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

-- The body at any point: the invariant hands over the accumulator, the one body triple runs, and everything is handed back.
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  iintro ⟨HΦ, Ho, ⟨%d0, H0⟩, ⟨%d1, H1⟩, ⟨%d2, H2⟩, ⟨%d3, H3⟩, ⟨%d4, H4⟩, ⟨%d5, H5⟩, ⟨%d6, H6⟩⟩
  ihave HI := (Phi_open3 V c t) $$ HΦ
  icases HI with ⟨%s, %hs, HI⟩
  iapply (kernel3 c (grid3.coords t) _ _ _ _ _ _ _ _ (iblk3 V c 0 t) (iblk3 V c 1 t) (iblk3 V c 2 t) (iblk3 V c 3 t) (iblk3 V c 4 t) (iblk3 V c 5 t) ((dat3 V c).before 6 t d6) s
    (fun h0 h1 => by have a := (hcond3_0 t).mp h0; have b := (hcond3_1 t).mp h1; omega) _ _ _ _ _ _ _ _ Set.univ _)
  rw [sAt3_step V c t s hs]
  unfold held3 inv3
  icases HI with ⟨⟨HS, HR⟩, Hg⟩
  isplitl [H0 H1 H2 H3 H4 H5 H6 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  iintro ⟨H0, H1, H2, H3, H4, H5, H6, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves3_6 V c t d6); iexact H6

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]; unfold inv3
  iintro ⟨⟨HS, HR⟩, Hg⟩
  isplitl [HS HR]
  · isplitl [HS]
    · iexists _; iexact HS
    iexact HR
  iexact Hg

theorem hout3 (c : Dev nD) : (dat3 V c).Φ (Fin.last cfg3.N) ⊢ Pipeline.ΦA spec3 c :=
  Phi_out3 V c _ (by rw [Fin.val_last]; have : cfg3.N = 200 := N_3; omega)

end Region3

end Cert.KernelIdeal.Hand

end
-- ==== Proof.KI.Reg4.lean ====
import proofs.«401578_j53953379173285_3_alg».proof.Proof.Gen.KernelIdeal.Launch
import proofs.«401578_j53953379173285_3_alg».proof.Proof.Gen.KernelIdeal.Skeleton
import proofs.«401578_j53953379173285_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 10 = 0 :=
  (by decide +kernel : ∀ t : Fin grid4.N, cond4_0 (grid4.coords t) ↔ t.val % 10 = 0)

abbrev cond4_1 (i : grid4.Coords) : Prop := k4_cond2 i = 1#1
theorem hcond4_1 : ∀ t : Fin cfg4.N, cond4_1 (grid4.coords t) ↔ t.val % 10 = 9 :=
  (by decide +kernel : ∀ t : Fin grid4.N, cond4_1 (grid4.coords t) ↔ t.val % 10 = 9)

theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
theorem liveAt4_6 : ∀ t : Fin cfg4.N, cond4_1 (grid4.coords t) → cfg4.idle 6 (grid4.coords t) = false := by decide +kernel

def accStep4 (acc : Vec F S400x512 .f32) (r : Vec F S400x2048 .bf16) (x : Vec F S2048x512 .bf16) : Vec F S400x512 .f32 :=
  k4_pay2 acc r x
def acc0_4 : Vec F S400x512 .f32 := k4_pay1 (F := F)
def epi4 (acc : Vec F S400x512 .f32) (wl : Vec F S512x256 .bf16) (xdst : Vec F S400x512 .bf16) (wr : Vec F S512x256 .bf16) (b : Vec F S1x256 .f32) : Vec F S400x256 .f32 :=
  k4_pay3 acc wl xdst wr b

theorem hz4 : (![0, 0] : Fin 2 → Nat) = fun _ => 0 := funext fun a => by fin_cases a <;> rfl

section Kernel
variable (c : Dev nD) (i : grid4.Coords)
  (a2 : Memref sig .tc .vmem S400x2048 .bf16) (a3 : Memref sig .tc .vmem S2048x512 .bf16) (a4 : Memref sig .tc .vmem S400x512 .bf16) (a5 : Memref sig .tc .vmem S512x256 .bf16)
  (a6 : Memref sig .tc .vmem S512x256 .bf16) (a7 : Memref sig .tc .vmem S1x256 .f32) (a8 : Memref sig .tc .vmem S400x256 .f32) (a9 : Memref sig .tc .vmem S400x512 .f32)
  (x0 : Vec F S400x2048 .bf16) (x1 : Vec F S2048x512 .bf16) (x2 : Vec F S400x512 .bf16) (x3 : Vec F S512x256 .bf16) (x4 : Vec F S512x256 .bf16) (x5 : Vec F S1x256 .f32) (x6 : Vec F S400x256 .f32) (xs : Vec F S400x512 .f32)

-- The body's eight memrefs, each owned at given contents.
def held4 : sProp 𝕄 :=
  iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare xs)

set_option maxHeartbeats 1000000 in
-- The body at any point: one accumulator step (from zero where the reduction restarts), and the epilogue stored where it ends.
theorem kernel4 (h01 : cond4_0 i → ¬cond4_1 i) (h2 : a2.IsWhole) (h3 : a3.IsWhole) (h4 : a4.IsWhole) (h5 : a5.IsWhole) (h6 : a6.IsWhole) (h7 : a7.IsWhole) (h8 : a8.IsWhole) (h9 : a9.IsWhole)
    (E : Set ℕ) (K : PUnit → sProp 𝕄) :
    iprop(held4 c a2 a3 a4 a5 a6 a7 a8 a9 x0 x1 x2 x3 x4 x5 x6 xs
        ∗ (held4 c a2 a3 a4 a5 a6 a7 a8 a9 x0 x1 x2 x3 x4 x5 (if cond4_1 i then epi4 (accStep4 (if cond4_0 i then acc0_4 else xs) x0 x1) x3 x2 x4 x5 else x6)
            (accStep4 (if cond4_0 i then acc0_4 else xs) x0 x1) -∗ K ⟨⟩))
      ⊢ wp frame (wpE (defs₀ (F := F)) Variants.none c none) E (cc4__fused_sage_body i a2 h2 a3 h3 a4 h4 a5 h5 a6 h6 a7 h7 a8 h8 a9 h9) K := by
  simp only [cc4__fused_sage_body_eq_skeleton]; unfold cc4__fused_sage_body_skel held4 owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%fs, %es, HS⟩⟩, Hk⟩
  subst e0 e1 e2 e3 e4 e5 e6 es
  by_cases hc0 : cond4_0 i <;> by_cases hc1 : cond4_1 i <;> first
  | exact absurd hc1 (h01 hc0)
  | ( sl_exec (disch := first | exact hc0 | exact hc1)
      sl_step
      iapply Hk
      isplitl [H0]; rotate_left; isplitl [H1]; rotate_left; isplitl [H2]; rotate_left; isplitl [H3]; rotate_left
      isplitl [H4]; rotate_left; isplitl [H5]; rotate_left; isplitl [H6]
      all_goals
        iexists _; isplitr; swap; · iassumption
        ipureintro
        first | rw [if_pos hc0] | rw [if_neg hc0] | skip
        all_goals first | rw [if_pos hc1] | rw [if_neg hc1] | skip
        all_goals first
          | with_reducible rfl
          | sl_unfold_words
            first
            | rw [View.read_writes_eq_canon _ _ _ (fun y => ⟨_, List.mem_cons_self, View.mem_set_unit_zero hz4 inb_S400x512_S400x512_0_0 y⟩), View.canon_cons_unit_zero hz4]
            | rw [View.read_writes_eq_canon _ _ _ (fun y => ⟨_, List.mem_cons_self, View.mem_set_unit_zero hz4 inb_S400x256_S400x256_0_0 y⟩), View.canon_cons_unit_zero hz4]
            simp only [View.readAt_eq_ld, View.ld_unit_zero (S := S400x2048) hz4, View.ld_unit_zero (S := S2048x512) hz4, View.ld_unit_zero (S := S400x512) hz4, View.ld_unit_zero (S := S512x256) hz4, View.ld_unit_zero (S := S1x256) hz4, View.readCov_unit_zero (S := S400x512) _ hz4]
            try rfl )

end Kernel

section Regions
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev ms4_0 (t : Fin cfg4.N) : Memref sig .tc .vmem S400x2048 .bf16 := win4_0.stage (cfg4.slots t 0)
abbrev ms4_1 (t : Fin cfg4.N) : Memref sig .tc .vmem S2048x512 .bf16 := win4_1.stage (cfg4.slots t 1)
abbrev ms4_2 (t : Fin cfg4.N) : Memref sig .tc .vmem S400x512 .bf16 := win4_2.stage (cfg4.slots t 2)
abbrev ms4_3 (t : Fin cfg4.N) : Memref sig .tc .vmem S512x256 .bf16 := win4_3.stage (cfg4.slots t 3)
abbrev ms4_4 (t : Fin cfg4.N) : Memref sig .tc .vmem S512x256 .bf16 := win4_4.stage (cfg4.slots t 4)
abbrev ms4_5 (t : Fin cfg4.N) : Memref sig .tc .vmem S1x256 .f32 := win4_5.stage (cfg4.slots t 5)
abbrev ms4_6 (t : Fin cfg4.N) : Memref sig .tc .vmem S400x256 .f32 := win4_6.stage (cfg4.slots t 6)
abbrev scM4 : Memref sig .tc .vmem S400x512 .f32 := Memref.whole cc4_scratch0

theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

-- The invariant's body with the accumulator at contents `s`.
def inv4 (c : Dev nD) (s : Vec F S400x512 .f32) : sProp 𝕄 :=
  iprop(iprop(owns (c : Thread nD τ) scM4 fullShare s ∗ Pipeline.scopedRestBut (Ix := Unit) (Name := ℕ) (U := UR sig nD τ) (Lvl := ℕ) (Val := Elt F) spec4 c [cc4_scratch0]) ∗ (∃ r, prngReg c r))

def sAt4 (c : Dev nD) : (n : ℕ) → n < cfg4.N → Vec F S400x512 .f32
  | 0, hn => accStep4 acc0_4 (iblk4 V c 0 ⟨0, hn⟩) (iblk4 V c 1 ⟨0, hn⟩)
  | n + 1, hn =>
    if (n + 1) % 10 = 0 then accStep4 acc0_4 (iblk4 V c 0 ⟨n + 1, hn⟩) (iblk4 V c 1 ⟨n + 1, hn⟩)
    else accStep4 (sAt4 c n (Nat.lt_of_succ_lt hn)) (iblk4 V c 0 ⟨n + 1, hn⟩) (iblk4 V c 1 ⟨n + 1, hn⟩)

theorem sAt4_first (c : Dev nD) (t : Fin cfg4.N) (h : t.val % 10 = 0) :
    sAt4 V c t.val t.isLt = accStep4 acc0_4 (iblk4 V c 0 t) (iblk4 V c 1 t) := by
  obtain ⟨n, hn⟩ := t
  cases n with
  | zero => rfl
  | succ n => exact if_pos h

theorem sAt4_next (c : Dev nD) (t : Fin cfg4.N) (h : ¬t.val % 10 = 0) :
    sAt4 V c t.val t.isLt = accStep4 (sAt4 V c (t.val - 1) (Nat.lt_of_le_of_lt (Nat.sub_le _ _) t.isLt)) (iblk4 V c 0 t) (iblk4 V c 1 t) := by
  obtain ⟨n, hn⟩ := t
  cases n with
  | zero => exact absurd (Nat.zero_mod _) h
  | succ n => exact if_neg h

def oAt4 (c : Dev nD) (t : Fin cfg4.N) : Vec F S400x256 .f32 :=
  epi4 (sAt4 V c t.val t.isLt) (iblk4 V c 3 t) (iblk4 V c 2 t) (iblk4 V c 4 t) (iblk4 V c 5 t)

def PhiS4 (c : Dev nD) : (n : ℕ) → n ≤ cfg4.N → sProp 𝕄
  | 0, _ => Pipeline.ΦA spec4 c
  | n + 1, hn => iprop(iprop(owns (c : Thread nD τ) scM4 fullShare (sAt4 V c n hn)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) : PhiS4 V c (n + 1) hn = inv4 c (sAt4 V c n hn) := rfl

theorem PhiS4_pos (c : Dev nD) (n : ℕ) (h : n ≤ cfg4.N) (hz : n ≠ 0) : PhiS4 V c n h = inv4 c (sAt4 V c (n - 1) (by omega)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => oAt4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_6 (c : Dev nD) (t : Fin cfg4.N) : (dat4 V c).after 6 t = oAt4 V c t := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl
theorem before4_4 (c : Dev nD) (t : Fin cfg4.N) (d) : (dat4 V c).before 4 t d = iblk4 V c 4 t :=
  ((dat4 V c).before_in_eq_fetched 4 rfl (fun _ => rfl) (fun _ _ _ => rfl) (fun _ => rfl) t d).trans rfl
theorem before4_5 (c : Dev nD) (t : Fin cfg4.N) (d) : (dat4 V c).before 5 t d = iblk4 V c 5 t :=
  ((dat4 V c).before_in_eq_fetched 5 rfl (fun _ => rfl) (fun _ _ _ => rfl) (fun _ => rfl) t d).trans rfl

-- Before point `t` the invariant holds the accumulator at some contents: what the point before left, unless the reduction restarts.
theorem Phi_open4 (c : Dev nD) (t : Fin cfg4.N) :
    (dat4 V c).Φ t.castSucc ⊢ iprop(∃ s, ⌜t.val % 10 ≠ 0 → s = sAt4 V c (t.val - 1) (Nat.lt_of_le_of_lt (Nat.sub_le _ _) t.isLt)⌝ ∗ inv4 c s) := by
  rw [PhiS4_castSucc V c t]
  by_cases hz : t.val = 0
  · rw [PhiS4_zero V c _ _ hz, PhiA4_eq]; unfold inv4
    iintro ⟨⟨⟨%s, HS⟩, HR⟩, Hg⟩
    iexists s; isplitr; · ipureintro; exact fun h => absurd (by rw [hz]) h
    isplitl [HS HR]
    · isplitl [HS]; · iexact HS
      iexact HR
    iexact Hg
  · rw [PhiS4_pos V c _ _ hz]
    iintro H; iexists _; isplitr; · ipureintro; exact fun _ => rfl
    iexact H

-- One step of the accumulator, the restart and the continuation at once.
theorem sAt4_step (c : Dev nD) (t : Fin cfg4.N) (s : Vec F S400x512 .f32)
    (hs : t.val % 10 ≠ 0 → s = sAt4 V c (t.val - 1) (Nat.lt_of_le_of_lt (Nat.sub_le _ _) t.isLt)) :
    accStep4 (if cond4_0 (grid4.coords t) then acc0_4 else s) (iblk4 V c 0 t) (iblk4 V c 1 t) = sAt4 V c t.val t.isLt := by
  by_cases h : t.val % 10 = 0
  · rw [if_pos ((hcond4_0 t).mpr h), sAt4_first V c t h]
  · rw [if_neg fun hc => h ((hcond4_0 t).mp hc), sAt4_next V c t h, hs h]

-- The output buffer after the body: the epilogue's block where it ran, else what it held.
theorem leaves4_6 (c : Dev nD) (t : Fin cfg4.N) (d) :
    owns (c : Thread nD τ) (ms4_6 t) fullShare (if cond4_1 (grid4.coords t) then oAt4 V c t else (dat4 V c).before 6 t d) ⊢ (dat4 V c).leavesExact 6 t := by
  by_cases hc1 : cond4_1 (grid4.coords t)
  · rw [if_pos hc1, show (dat4 V c).leavesExact 6 t = owns (c : Thread nD τ) (ms4_6 t) fullShare ((dat4 V c).after 6 t) from by
      unfold Dat.leavesExact; rw [liveAt4_6 t hc1], after4_6]
  · rw [if_neg hc1, Dat.leavesExact_idle (dat4 V c) 6 t (idleAt4_6 t hc1) (noFlush4_6 t hc1)]
    iintro H; iexists d; iexact H

end Regions

section Body
variable (V : (c : Dev nD) → (b : Ref sig .tc) → Buf (Elt F) ((c : Thread nD τ).loc b))

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

-- The body at any point: the invariant hands over the accumulator, the one body triple runs, and everything is handed back.
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  iintro ⟨HΦ, Ho, ⟨%d0, H0⟩, ⟨%d1, H1⟩, ⟨%d2, H2⟩, ⟨%d3, H3⟩, ⟨%d4, H4⟩, ⟨%d5, H5⟩, ⟨%d6, H6⟩⟩
  ihave HI := (Phi_open4 V c t) $$ HΦ
  icases HI with ⟨%s, %hs, HI⟩
  iapply (kernel4 c (grid4.coords t) _ _ _ _ _ _ _ _ (iblk4 V c 0 t) (iblk4 V c 1 t) (iblk4 V c 2 t) (iblk4 V c 3 t) (iblk4 V c 4 t) (iblk4 V c 5 t) ((dat4 V c).before 6 t d6) s
    (fun h0 h1 => by have a := (hcond4_0 t).mp h0; have b := (hcond4_1 t).mp h1; omega) _ _ _ _ _ _ _ _ Set.univ _)
  rw [sAt4_step V c t s hs]
  unfold held4 inv4
  icases HI with ⟨⟨HS, HR⟩, Hg⟩
  isplitl [H0 H1 H2 H3 H4 H5 H6 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  iintro ⟨H0, H1, H2, H3, H4, H5, H6, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves4_6 V c t d6); iexact H6

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ Pipeline.ΦA spec4 c := by
  have ht : (Fin.last cfg4.N).val ≠ 0 := by rw [Fin.val_last]; have : cfg4.N = 200 := N_4; omega
  rw [show (dat4 V c).Φ (Fin.last cfg4.N) = PhiS4 V c (Fin.last cfg4.N).val (Nat.le_of_lt_succ (Fin.last cfg4.N).isLt) from rfl, PhiS4_pos V c _ _ ht, PhiA4_eq]; unfold inv4
  iintro ⟨⟨HS, Hr⟩, Hg⟩
  isplitl [HS Hr]
  · isplitl [HS]
    · iexists _; iexact HS
    iexact Hr
  iexact Hg

end Body

end Cert.KernelIdeal.Hand

end
-- ==== Proof.KI.Reg5.lean ====
import proofs.«401578_j53953379173285_3_alg».proof.Proof.Gen.KernelIdeal.Launch
import proofs.«401578_j53953379173285_3_alg».proof.Proof.Gen.KernelIdeal.Skeleton
import proofs.«401578_j53953379173285_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 4 = 0 :=
  (by decide +kernel : ∀ t : Fin grid5.N, cond5_0 (grid5.coords t) ↔ t.val % 4 = 0)

abbrev cond5_1 (i : grid5.Coords) : Prop := k5_cond2 i = 1#1
theorem hcond5_1 : ∀ t : Fin cfg5.N, cond5_1 (grid5.coords t) ↔ t.val % 4 = 3 :=
  (by decide +kernel : ∀ t : Fin grid5.N, cond5_1 (grid5.coords t) ↔ t.val % 4 = 3)

theorem idleAt5_6 : ∀ t : Fin cfg5.N, ¬cond5_1 (grid5.coords t) → cfg5.idle 6 (grid5.coords t) = true := by decide +kernel
theorem noFlush5_6 : ∀ t : Fin cfg5.N, ¬cond5_1 (grid5.coords t) → (cfg5.win 6).flush t = false := by decide +kernel
theorem liveAt5_6 : ∀ t : Fin cfg5.N, cond5_1 (grid5.coords t) → cfg5.idle 6 (grid5.coords t) = false := by decide +kernel

def accStep5 (acc : Vec F S400x512 .f32) (r : Vec F S400x2048 .bf16) (x : Vec F S2048x512 .bf16) : Vec F S400x512 .f32 :=
  k5_pay2 acc r x
def acc0_5 : Vec F S400x512 .f32 := k5_pay1 (F := F)
def epi5 (acc : Vec F S400x512 .f32) (wl : Vec F S512x256 .bf16) (xdst : Vec F S400x512 .bf16) (wr : Vec F S512x256 .bf16) (b : Vec F S1x256 .f32) : Vec F S400x256 .f32 :=
  k5_pay3 acc wl xdst wr b

theorem hz5 : (![0, 0] : Fin 2 → Nat) = fun _ => 0 := funext fun a => by fin_cases a <;> rfl

section Kernel
variable (c : Dev nD) (i : grid5.Coords)
  (a2 : Memref sig .tc .vmem S400x2048 .bf16) (a3 : Memref sig .tc .vmem S2048x512 .bf16) (a4 : Memref sig .tc .vmem S400x512 .bf16) (a5 : Memref sig .tc .vmem S512x256 .bf16)
  (a6 : Memref sig .tc .vmem S512x256 .bf16) (a7 : Memref sig .tc .vmem S1x256 .f32) (a8 : Memref sig .tc .vmem S400x256 .f32) (a9 : Memref sig .tc .vmem S400x512 .f32)
  (x0 : Vec F S400x2048 .bf16) (x1 : Vec F S2048x512 .bf16) (x2 : Vec F S400x512 .bf16) (x3 : Vec F S512x256 .bf16) (x4 : Vec F S512x256 .bf16) (x5 : Vec F S1x256 .f32) (x6 : Vec F S400x256 .f32) (xs : Vec F S400x512 .f32)

-- The body's eight memrefs, each owned at given contents.
def held5 : sProp 𝕄 :=
  iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare xs)

set_option maxHeartbeats 1000000 in
-- The body at any point: one accumulator step (from zero where the reduction restarts), and the epilogue stored where it ends.
theorem kernel5 (h01 : cond5_0 i → ¬cond5_1 i) (h2 : a2.IsWhole) (h3 : a3.IsWhole) (h4 : a4.IsWhole) (h5 : a5.IsWhole) (h6 : a6.IsWhole) (h7 : a7.IsWhole) (h8 : a8.IsWhole) (h9 : a9.IsWhole)
    (E : Set ℕ) (K : PUnit → sProp 𝕄) :
    iprop(held5 c a2 a3 a4 a5 a6 a7 a8 a9 x0 x1 x2 x3 x4 x5 x6 xs
        ∗ (held5 c a2 a3 a4 a5 a6 a7 a8 a9 x0 x1 x2 x3 x4 x5 (if cond5_1 i then epi5 (accStep5 (if cond5_0 i then acc0_5 else xs) x0 x1) x3 x2 x4 x5 else x6)
            (accStep5 (if cond5_0 i then acc0_5 else xs) x0 x1) -∗ K ⟨⟩))
      ⊢ wp frame (wpE (defs₀ (F := F)) Variants.none c none) E (cc5__fused_sage_body i a2 h2 a3 h3 a4 h4 a5 h5 a6 h6 a7 h7 a8 h8 a9 h9) K := by
  simp only [cc5__fused_sage_body_eq_skeleton]; unfold cc5__fused_sage_body_skel held5 owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%fs, %es, HS⟩⟩, Hk⟩
  subst e0 e1 e2 e3 e4 e5 e6 es
  by_cases hc0 : cond5_0 i <;> by_cases hc1 : cond5_1 i <;> first
  | exact absurd hc1 (h01 hc0)
  | ( sl_exec (disch := first | exact hc0 | exact hc1)
      sl_step
      iapply Hk
      isplitl [H0]; rotate_left; isplitl [H1]; rotate_left; isplitl [H2]; rotate_left; isplitl [H3]; rotate_left
      isplitl [H4]; rotate_left; isplitl [H5]; rotate_left; isplitl [H6]
      all_goals
        iexists _; isplitr; swap; · iassumption
        ipureintro
        first | rw [if_pos hc0] | rw [if_neg hc0] | skip
        all_goals first | rw [if_pos hc1] | rw [if_neg hc1] | skip
        all_goals first
          | with_reducible rfl
          | sl_unfold_words
            first
            | rw [View.read_writes_eq_canon _ _ _ (fun y => ⟨_, List.mem_cons_self, View.mem_set_unit_zero hz5 inb_S400x512_S400x512_0_0 y⟩), View.canon_cons_unit_zero hz5]
            | rw [View.read_writes_eq_canon _ _ _ (fun y => ⟨_, List.mem_cons_self, View.mem_set_unit_zero hz5 inb_S400x256_S400x256_0_0 y⟩), View.canon_cons_unit_zero hz5]
            simp only [View.readAt_eq_ld, View.ld_unit_zero (S := S400x2048) hz5, View.ld_unit_zero (S := S2048x512) hz5, View.ld_unit_zero (S := S400x512) hz5, View.ld_unit_zero (S := S512x256) hz5, View.ld_unit_zero (S := S1x256) hz5, View.readCov_unit_zero (S := S400x512) _ hz5]
            try rfl )

end Kernel

section Regions
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev ms5_0 (t : Fin cfg5.N) : Memref sig .tc .vmem S400x2048 .bf16 := win5_0.stage (cfg5.slots t 0)
abbrev ms5_1 (t : Fin cfg5.N) : Memref sig .tc .vmem S2048x512 .bf16 := win5_1.stage (cfg5.slots t 1)
abbrev ms5_2 (t : Fin cfg5.N) : Memref sig .tc .vmem S400x512 .bf16 := win5_2.stage (cfg5.slots t 2)
abbrev ms5_3 (t : Fin cfg5.N) : Memref sig .tc .vmem S512x256 .bf16 := win5_3.stage (cfg5.slots t 3)
abbrev ms5_4 (t : Fin cfg5.N) : Memref sig .tc .vmem S512x256 .bf16 := win5_4.stage (cfg5.slots t 4)
abbrev ms5_5 (t : Fin cfg5.N) : Memref sig .tc .vmem S1x256 .f32 := win5_5.stage (cfg5.slots t 5)
abbrev ms5_6 (t : Fin cfg5.N) : Memref sig .tc .vmem S400x256 .f32 := win5_6.stage (cfg5.slots t 6)
abbrev scM5 : Memref sig .tc .vmem S400x512 .f32 := Memref.whole cc5_scratch0

theorem PhiA5_eq (c : Dev nD) :
    (Pipeline.ΦA spec5 c : sProp 𝕄)
      = iprop(iprop(iprop((∃ d, owns (c : Thread nD τ) scM5 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

-- The invariant's body with the accumulator at contents `s`.
def inv5 (c : Dev nD) (s : Vec F S400x512 .f32) : sProp 𝕄 :=
  iprop(iprop(owns (c : Thread nD τ) scM5 fullShare s ∗ Pipeline.scopedRestBut (Ix := Unit) (Name := ℕ) (U := UR sig nD τ) (Lvl := ℕ) (Val := Elt F) spec5 c [cc5_scratch0]) ∗ (∃ r, prngReg c r))

def sAt5 (c : Dev nD) : (n : ℕ) → n < cfg5.N → Vec F S400x512 .f32
  | 0, hn => accStep5 acc0_5 (iblk5 V c 0 ⟨0, hn⟩) (iblk5 V c 1 ⟨0, hn⟩)
  | n + 1, hn =>
    if (n + 1) % 4 = 0 then accStep5 acc0_5 (iblk5 V c 0 ⟨n + 1, hn⟩) (iblk5 V c 1 ⟨n + 1, hn⟩)
    else accStep5 (sAt5 c n (Nat.lt_of_succ_lt hn)) (iblk5 V c 0 ⟨n + 1, hn⟩) (iblk5 V c 1 ⟨n + 1, hn⟩)

theorem sAt5_first (c : Dev nD) (t : Fin cfg5.N) (h : t.val % 4 = 0) :
    sAt5 V c t.val t.isLt = accStep5 acc0_5 (iblk5 V c 0 t) (iblk5 V c 1 t) := by
  obtain ⟨n, hn⟩ := t
  cases n with
  | zero => rfl
  | succ n => exact if_pos h

theorem sAt5_next (c : Dev nD) (t : Fin cfg5.N) (h : ¬t.val % 4 = 0) :
    sAt5 V c t.val t.isLt = accStep5 (sAt5 V c (t.val - 1) (Nat.lt_of_le_of_lt (Nat.sub_le _ _) t.isLt)) (iblk5 V c 0 t) (iblk5 V c 1 t) := by
  obtain ⟨n, hn⟩ := t
  cases n with
  | zero => exact absurd (Nat.zero_mod _) h
  | succ n => exact if_neg h

def oAt5 (c : Dev nD) (t : Fin cfg5.N) : Vec F S400x256 .f32 :=
  epi5 (sAt5 V c t.val t.isLt) (iblk5 V c 3 t) (iblk5 V c 2 t) (iblk5 V c 4 t) (iblk5 V c 5 t)

def PhiS5 (c : Dev nD) : (n : ℕ) → n ≤ cfg5.N → sProp 𝕄
  | 0, _ => Pipeline.ΦA spec5 c
  | n + 1, hn => iprop(iprop(owns (c : Thread nD τ) scM5 fullShare (sAt5 V c n hn)
      ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) : PhiS5 V c (n + 1) hn = inv5 c (sAt5 V c n hn) := rfl

theorem PhiS5_pos (c : Dev nD) (n : ℕ) (h : n ≤ cfg5.N) (hz : n ≠ 0) : PhiS5 V c n h = inv5 c (sAt5 V c (n - 1) (by omega)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => oAt5 V c t
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_6 (c : Dev nD) (t : Fin cfg5.N) : (dat5 V c).after 6 t = oAt5 V c t := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl
theorem before5_4 (c : Dev nD) (t : Fin cfg5.N) (d) : (dat5 V c).before 4 t d = iblk5 V c 4 t :=
  ((dat5 V c).before_in_eq_fetched 4 rfl (fun _ => rfl) (fun _ _ _ => rfl) (fun _ => rfl) t d).trans rfl
theorem before5_5 (c : Dev nD) (t : Fin cfg5.N) (d) : (dat5 V c).before 5 t d = iblk5 V c 5 t :=
  ((dat5 V c).before_in_eq_fetched 5 rfl (fun _ => rfl) (fun _ _ _ => rfl) (fun _ => rfl) t d).trans rfl

-- Before point `t` the invariant holds the accumulator at some contents: what the point before left, unless the reduction restarts.
theorem Phi_open5 (c : Dev nD) (t : Fin cfg5.N) :
    (dat5 V c).Φ t.castSucc ⊢ iprop(∃ s, ⌜t.val % 4 ≠ 0 → s = sAt5 V c (t.val - 1) (Nat.lt_of_le_of_lt (Nat.sub_le _ _) t.isLt)⌝ ∗ inv5 c s) := by
  rw [PhiS5_castSucc V c t]
  by_cases hz : t.val = 0
  · rw [PhiS5_zero V c _ _ hz, PhiA5_eq]; unfold inv5
    iintro ⟨⟨⟨%s, HS⟩, HR⟩, Hg⟩
    iexists s; isplitr; · ipureintro; exact fun h => absurd (by rw [hz]) h
    isplitl [HS HR]
    · isplitl [HS]; · iexact HS
      iexact HR
    iexact Hg
  · rw [PhiS5_pos V c _ _ hz]
    iintro H; iexists _; isplitr; · ipureintro; exact fun _ => rfl
    iexact H

-- One step of the accumulator, the restart and the continuation at once.
theorem sAt5_step (c : Dev nD) (t : Fin cfg5.N) (s : Vec F S400x512 .f32)
    (hs : t.val % 4 ≠ 0 → s = sAt5 V c (t.val - 1) (Nat.lt_of_le_of_lt (Nat.sub_le _ _) t.isLt)) :
    accStep5 (if cond5_0 (grid5.coords t) then acc0_5 else s) (iblk5 V c 0 t) (iblk5 V c 1 t) = sAt5 V c t.val t.isLt := by
  by_cases h : t.val % 4 = 0
  · rw [if_pos ((hcond5_0 t).mpr h), sAt5_first V c t h]
  · rw [if_neg fun hc => h ((hcond5_0 t).mp hc), sAt5_next V c t h, hs h]

-- The output buffer after the body: the epilogue's block where it ran, else what it held.
theorem leaves5_6 (c : Dev nD) (t : Fin cfg5.N) (d) :
    owns (c : Thread nD τ) (ms5_6 t) fullShare (if cond5_1 (grid5.coords t) then oAt5 V c t else (dat5 V c).before 6 t d) ⊢ (dat5 V c).leavesExact 6 t := by
  by_cases hc1 : cond5_1 (grid5.coords t)
  · rw [if_pos hc1, show (dat5 V c).leavesExact 6 t = owns (c : Thread nD τ) (ms5_6 t) fullShare ((dat5 V c).after 6 t) from by
      unfold Dat.leavesExact; rw [liveAt5_6 t hc1], after5_6]
  · rw [if_neg hc1, Dat.leavesExact_idle (dat5 V c) 6 t (idleAt5_6 t hc1) (noFlush5_6 t hc1)]
    iintro H; iexists d; iexact H

end Regions

section Body
variable (V : (c : Dev nD) → (b : Ref sig .tc) → Buf (Elt F) ((c : Thread nD τ).loc b))

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t)

-- The body at any point: the invariant hands over the accumulator, the one body triple runs, and everything is handed back.
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).owesAt () t.succ = (dat5 V c).owesAt () t.castSucc from rfl]
  rw [show (dat5 V c).Φ t.succ = PhiS5 V c (t.val + 1) t.isLt from rfl, PhiS5_succ]
  iintro ⟨HΦ, Ho, ⟨%d0, H0⟩, ⟨%d1, H1⟩, ⟨%d2, H2⟩, ⟨%d3, H3⟩, ⟨%d4, H4⟩, ⟨%d5, H5⟩, ⟨%d6, H6⟩⟩
  ihave HI := (Phi_open5 V c t) $$ HΦ
  icases HI with ⟨%s, %hs, HI⟩
  iapply (kernel5 c (grid5.coords t) _ _ _ _ _ _ _ _ (iblk5 V c 0 t) (iblk5 V c 1 t) (iblk5 V c 2 t) (iblk5 V c 3 t) (iblk5 V c 4 t) (iblk5 V c 5 t) ((dat5 V c).before 6 t d6) s
    (fun h0 h1 => by have a := (hcond5_0 t).mp h0; have b := (hcond5_1 t).mp h1; omega) _ _ _ _ _ _ _ _ Set.univ _)
  rw [sAt5_step V c t s hs]
  unfold held5 inv5
  icases HI with ⟨⟨HS, HR⟩, Hg⟩
  isplitl [H0 H1 H2 H3 H4 H5 H6 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  iintro ⟨H0, H1, H2, H3, H4, H5, H6, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves5_6 V c t d6); iexact H6

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem hout5 (c : Dev nD) : (dat5 V c).Φ (Fin.last cfg5.N) ⊢ Pipeline.ΦA spec5 c := by
  have ht : (Fin.last cfg5.N).val ≠ 0 := by rw [Fin.val_last]; have : cfg5.N = 200 := N_5; omega
  rw [show (dat5 V c).Φ (Fin.last cfg5.N) = PhiS5 V c (Fin.last cfg5.N).val (Nat.le_of_lt_succ (Fin.last cfg5.N).isLt) from rfl, PhiS5_pos V c _ _ ht, PhiA5_eq]; unfold inv5
  iintro ⟨⟨HS, Hr⟩, Hg⟩
  isplitl [HS Hr]
  · isplitl [HS]
    · iexists _; iexact HS
    iexact Hr
  iexact Hg

end Body

end Cert.KernelIdeal.Hand

end
-- ==== Proof.KI.Bound.lean ====
import proofs.«401578_j53953379173285_3_alg».proof.Proof.KI.Writes
import proofs.«401578_j53953379173285_3_alg».proof.Proof.KI.Reg0
import proofs.«401578_j53953379173285_3_alg».proof.Proof.KI.Reg1
import proofs.«401578_j53953379173285_3_alg».proof.Proof.KI.Reg2
import proofs.«401578_j53953379173285_3_alg».proof.Proof.KI.Reg3
import proofs.«401578_j53953379173285_3_alg».proof.Proof.KI.Reg4
import proofs.«401578_j53953379173285_3_alg».proof.Proof.KI.Reg5
import Idealize.ShloMosaic.Lib.Pipeline.FrameBody
import Idealize.ShloMosaic.Lib.Pipeline.RegionsLoop
import Idealize.ShloMosaic.Lib.Pipeline.FrameSuffix
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
abbrev W0 : Dev nD → Valuation τ sig (Elt F) := fun c b => (s₀ m ρ).mem ((c : Dev nD), b)
abbrev W1 : Dev nD → Valuation τ sig (Elt F) := fun c => StableHlo.after main_part0_ops0 (W0 m ρ c)
theorem W1_of (c : Dev nD) (r : Ref sig .tc) (h : r ∉ main_part0_ops0_W) : W1 m ρ c (Proc.devRef .tc r) = W0 m ρ c (Proc.devRef .tc r) :=
  StableHlo.after_of_writes_sub main_part0_ops0 _ main_part0_ops0_writes h
abbrev W2 : Dev nD → Valuation τ sig (Elt F) := fun c => StableHlo.after main_part0_ops1 (W1 m ρ c)
theorem W2_of (c : Dev nD) (r : Ref sig .tc) (h : r ∉ main_part0_ops1_W) : W2 m ρ c (Proc.devRef .tc r) = W1 m ρ c (Proc.devRef .tc r) :=
  StableHlo.after_of_writes_sub main_part0_ops1 _ main_part0_ops1_writes h
abbrev W3 : Dev nD → Valuation τ sig (Elt F) := fun c => StableHlo.after main_part0_ops2 (W2 m ρ c)
theorem W3_of (c : Dev nD) (r : Ref sig .tc) (h : r ∉ main_part0_ops2_W) : W3 m ρ c (Proc.devRef .tc r) = W2 m ρ c (Proc.devRef .tc r) :=
  StableHlo.after_of_writes_sub main_part0_ops2 _ main_part0_ops2_writes h
abbrev Ventry0 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (Ventry0 m ρ) c).arrAt w cfg0.N
theorem Wexit0_arr (c : Dev nD) (w : Fin cfg0.W) :
    W4 m ρ c (Proc.devRef .tc (Pipeline.arrRef spec0 w)) = (dat0 (Ventry0 m ρ) c).arrAt w cfg0.N := by
  unfold W4; exact Pipeline.withArrays_arr spec0 launch0.win.arr_inj c _ _ w
theorem Wexit0_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev Vexit0 : (c : Dev nD) → (b : Ref sig .tc) → Buf (Elt F) ((c : Thread nD τ).loc b) := fun c b => W4 m ρ c b
theorem hF0 (c : Dev nD) (w : Fin cfg0.W) : (dat0 (Ventry0 m ρ) c).arrAt w cfg0.N = Vexit0 m ρ c (Pipeline.arrRef spec0 w) :=
  (Wexit0_arr m ρ c w).symm
theorem hrest0 (c : Dev nD) : ∀ b, b ∉ Finset.univ.image (Pipeline.arrRef spec0) → Vexit0 m ρ c b = Ventry0 m ρ c b :=
  fun b hb => Wexit0_of_ne m ρ c b fun w e => hb (Finset.mem_image.mpr ⟨w, Finset.mem_univ _, e⟩)
abbrev W5 : Dev nD → Valuation τ sig (Elt F) := fun c => StableHlo.after main_part0_ops3 (W4 m ρ c)
theorem W5_of (c : Dev nD) (r : Ref sig .tc) (h : r ∉ main_part0_ops3_W) : W5 m ρ c (Proc.devRef .tc r) = W4 m ρ c (Proc.devRef .tc r) :=
  StableHlo.after_of_writes_sub main_part0_ops3 _ main_part0_ops3_writes h
abbrev Ventry1 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (Ventry1 m ρ) c).arrAt w cfg1.N
theorem Wexit1_arr (c : Dev nD) (w : Fin cfg1.W) :
    W6 m ρ c (Proc.devRef .tc (Pipeline.arrRef spec1 w)) = (dat1 (Ventry1 m ρ) c).arrAt w cfg1.N := by
  unfold W6; exact Pipeline.withArrays_arr spec1 launch1.win.arr_inj c _ _ w
theorem Wexit1_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev Vexit1 : (c : Dev nD) → (b : Ref sig .tc) → Buf (Elt F) ((c : Thread nD τ).loc b) := fun c b => W6 m ρ c b
theorem hF1 (c : Dev nD) (w : Fin cfg1.W) : (dat1 (Ventry1 m ρ) c).arrAt w cfg1.N = Vexit1 m ρ c (Pipeline.arrRef spec1 w) :=
  (Wexit1_arr m ρ c w).symm
theorem hrest1 (c : Dev nD) : ∀ b, b ∉ Finset.univ.image (Pipeline.arrRef spec1) → Vexit1 m ρ c b = Ventry1 m ρ c b :=
  fun b hb => Wexit1_of_ne m ρ c b fun w e => hb (Finset.mem_image.mpr ⟨w, Finset.mem_univ _, e⟩)
abbrev W7 : Dev nD → Valuation τ sig (Elt F) := fun c => StableHlo.after main_part0_ops4 (W6 m ρ c)
theorem W7_of (c : Dev nD) (r : Ref sig .tc) (h : r ∉ main_part0_ops4_W) : W7 m ρ c (Proc.devRef .tc r) = W6 m ρ c (Proc.devRef .tc r) :=
  StableHlo.after_of_writes_sub main_part0_ops4 _ main_part0_ops4_writes h
abbrev W8 : Dev nD → Valuation τ sig (Elt F) := fun c => StableHlo.after main_part1_ops0 (W7 m ρ c)
theorem W8_of (c : Dev nD) (r : Ref sig .tc) (h : r ∉ main_part1_ops0_W) : W8 m ρ c (Proc.devRef .tc r) = W7 m ρ c (Proc.devRef .tc r) :=
  StableHlo.after_of_writes_sub main_part1_ops0 _ main_part1_ops0_writes h
abbrev W9 : Dev nD → Valuation τ sig (Elt F) := fun c => StableHlo.after main_part1_ops1 (W8 m ρ c)
theorem W9_of (c : Dev nD) (r : Ref sig .tc) (h : r ∉ main_part1_ops1_W) : W9 m ρ c (Proc.devRef .tc r) = W8 m ρ c (Proc.devRef .tc r) :=
  StableHlo.after_of_writes_sub main_part1_ops1 _ main_part1_ops1_writes h
abbrev W10 : Dev nD → Valuation τ sig (Elt F) := fun c => StableHlo.after main_part1_ops2 (W9 m ρ c)
theorem W10_of (c : Dev nD) (r : Ref sig .tc) (h : r ∉ main_part1_ops2_W) : W10 m ρ c (Proc.devRef .tc r) = W9 m ρ c (Proc.devRef .tc r) :=
  StableHlo.after_of_writes_sub main_part1_ops2 _ main_part1_ops2_writes h
abbrev W11 : Dev nD → Valuation τ sig (Elt F) := fun c => StableHlo.after main_part1_ops3 (W10 m ρ c)
theorem W11_of (c : Dev nD) (r : Ref sig .tc) (h : r ∉ main_part1_ops3_W) : W11 m ρ c (Proc.devRef .tc r) = W10 m ρ c (Proc.devRef .tc r) :=
  StableHlo.after_of_writes_sub main_part1_ops3 _ main_part1_ops3_writes h
abbrev W12 : Dev nD → Valuation τ sig (Elt F) := fun c => StableHlo.after main_part1_ops4 (W11 m ρ c)
theorem W12_of (c : Dev nD) (r : Ref sig .tc) (h : r ∉ main_part1_ops4_W) : W12 m ρ c (Proc.devRef .tc r) = W11 m ρ c (Proc.devRef .tc r) :=
  StableHlo.after_of_writes_sub main_part1_ops4 _ main_part1_ops4_writes h
abbrev Ventry2 : (c : Dev nD) → (b : Ref sig .tc) → Buf (Elt F) ((c : Thread nD τ).loc b) := fun c b => W12 m ρ c b
def W13 (c : Dev nD) : Valuation τ sig (Elt F) :=
  Pipeline.withArrays spec2 c (W12 m ρ c) fun w => (dat2 (Ventry2 m ρ) c).arrAt w cfg2.N
theorem Wexit2_arr (c : Dev nD) (w : Fin cfg2.W) :
    W13 m ρ c (Proc.devRef .tc (Pipeline.arrRef spec2 w)) = (dat2 (Ventry2 m ρ) c).arrAt w cfg2.N := by
  unfold W13; exact Pipeline.withArrays_arr spec2 launch2.win.arr_inj c _ _ w
theorem Wexit2_of_ne (c : Dev nD) (b : Ref sig .tc) (hb : ∀ w, Pipeline.arrRef spec2 w ≠ b) :
    W13 m ρ c (Proc.devRef .tc b) = W12 m ρ c (Proc.devRef .tc b) := by
  unfold W13; exact Pipeline.withArrays_of_ne spec2 c _ _ b hb
abbrev Vexit2 : (c : Dev nD) → (b : Ref sig .tc) → Buf (Elt F) ((c : Thread nD τ).loc b) := fun c b => W13 m ρ c b
theorem hF2 (c : Dev nD) (w : Fin cfg2.W) : (dat2 (Ventry2 m ρ) c).arrAt w cfg2.N = Vexit2 m ρ c (Pipeline.arrRef spec2 w) :=
  (Wexit2_arr m ρ c w).symm
theorem hrest2 (c : Dev nD) : ∀ b, b ∉ Finset.univ.image (Pipeline.arrRef spec2) → Vexit2 m ρ c b = Ventry2 m ρ c b :=
  fun b hb => Wexit2_of_ne m ρ c b fun w e => hb (Finset.mem_image.mpr ⟨w, Finset.mem_univ _, e⟩)
abbrev W14 : Dev nD → Valuation τ sig (Elt F) := fun c => StableHlo.after main_part1_ops5 (W13 m ρ c)
theorem W14_of (c : Dev nD) (r : Ref sig .tc) (h : r ∉ main_part1_ops5_W) : W14 m ρ c (Proc.devRef .tc r) = W13 m ρ c (Proc.devRef .tc r) :=
  StableHlo.after_of_writes_sub main_part1_ops5 _ main_part1_ops5_writes h
abbrev Ventry3 : (c : Dev nD) → (b : Ref sig .tc) → Buf (Elt F) ((c : Thread nD τ).loc b) := fun c b => W14 m ρ c b
def W15 (c : Dev nD) : Valuation τ sig (Elt F) :=
  Pipeline.withArrays spec3 c (W14 m ρ c) fun w => (dat3 (Ventry3 m ρ) c).arrAt w cfg3.N
theorem Wexit3_arr (c : Dev nD) (w : Fin cfg3.W) :
    W15 m ρ c (Proc.devRef .tc (Pipeline.arrRef spec3 w)) = (dat3 (Ventry3 m ρ) c).arrAt w cfg3.N := by
  unfold W15; exact Pipeline.withArrays_arr spec3 launch3.win.arr_inj c _ _ w
theorem Wexit3_of_ne (c : Dev nD) (b : Ref sig .tc) (hb : ∀ w, Pipeline.arrRef spec3 w ≠ b) :
    W15 m ρ c (Proc.devRef .tc b) = W14 m ρ c (Proc.devRef .tc b) := by
  unfold W15; exact Pipeline.withArrays_of_ne spec3 c _ _ b hb
abbrev Vexit3 : (c : Dev nD) → (b : Ref sig .tc) → Buf (Elt F) ((c : Thread nD τ).loc b) := fun c b => W15 m ρ c b
theorem hF3 (c : Dev nD) (w : Fin cfg3.W) : (dat3 (Ventry3 m ρ) c).arrAt w cfg3.N = Vexit3 m ρ c (Pipeline.arrRef spec3 w) :=
  (Wexit3_arr m ρ c w).symm
theorem hrest3 (c : Dev nD) : ∀ b, b ∉ Finset.univ.image (Pipeline.arrRef spec3) → Vexit3 m ρ c b = Ventry3 m ρ c b :=
  fun b hb => Wexit3_of_ne m ρ c b fun w e => hb (Finset.mem_image.mpr ⟨w, Finset.mem_univ _, e⟩)
abbrev W16 : Dev nD → Valuation τ sig (Elt F) := fun c => StableHlo.after main_part1_ops6 (W15 m ρ c)
theorem W16_of (c : Dev nD) (r : Ref sig .tc) (h : r ∉ main_part1_ops6_W) : W16 m ρ c (Proc.devRef .tc r) = W15 m ρ c (Proc.devRef .tc r) :=
  StableHlo.after_of_writes_sub main_part1_ops6 _ main_part1_ops6_writes h
abbrev W17 : Dev nD → Valuation τ sig (Elt F) := fun c => StableHlo.after main_part1_ops7 (W16 m ρ c)
theorem W17_of (c : Dev nD) (r : Ref sig .tc) (h : r ∉ main_part1_ops7_W) : W17 m ρ c (Proc.devRef .tc r) = W16 m ρ c (Proc.devRef .tc r) :=
  StableHlo.after_of_writes_sub main_part1_ops7 _ main_part1_ops7_writes h
abbrev W18 : Dev nD → Valuation τ sig (Elt F) := fun c => StableHlo.after main_part1_ops8 (W17 m ρ c)
theorem W18_of (c : Dev nD) (r : Ref sig .tc) (h : r ∉ main_part1_ops8_W) : W18 m ρ c (Proc.devRef .tc r) = W17 m ρ c (Proc.devRef .tc r) :=
  StableHlo.after_of_writes_sub main_part1_ops8 _ main_part1_ops8_writes h
abbrev W19 : Dev nD → Valuation τ sig (Elt F) := fun c => StableHlo.after main_part1_ops9 (W18 m ρ c)
theorem W19_of (c : Dev nD) (r : Ref sig .tc) (h : r ∉ main_part1_ops9_W) : W19 m ρ c (Proc.devRef .tc r) = W18 m ρ c (Proc.devRef .tc r) :=
  StableHlo.after_of_writes_sub main_part1_ops9 _ main_part1_ops9_writes h
abbrev W20 : Dev nD → Valuation τ sig (Elt F) := fun c => StableHlo.after main_part1_ops10 (W19 m ρ c)
theorem W20_of (c : Dev nD) (r : Ref sig .tc) (h : r ∉ main_part1_ops10_W) : W20 m ρ c (Proc.devRef .tc r) = W19 m ρ c (Proc.devRef .tc r) :=
  StableHlo.after_of_writes_sub main_part1_ops10 _ main_part1_ops10_writes h
abbrev Ventry4 : (c : Dev nD) → (b : Ref sig .tc) → Buf (Elt F) ((c : Thread nD τ).loc b) := fun c b => W20 m ρ c b
def W21 (c : Dev nD) : Valuation τ sig (Elt F) :=
  Pipeline.withArrays spec4 c (W20 m ρ c) fun w => (dat4 (Ventry4 m ρ) c).arrAt w cfg4.N
theorem Wexit4_arr (c : Dev nD) (w : Fin cfg4.W) :
    W21 m ρ c (Proc.devRef .tc (Pipeline.arrRef spec4 w)) = (dat4 (Ventry4 m ρ) c).arrAt w cfg4.N := by
  unfold W21; exact Pipeline.withArrays_arr spec4 launch4.win.arr_inj c _ _ w
theorem Wexit4_of_ne (c : Dev nD) (b : Ref sig .tc) (hb : ∀ w, Pipeline.arrRef spec4 w ≠ b) :
    W21 m ρ c (Proc.devRef .tc b) = W20 m ρ c (Proc.devRef .tc b) := by
  unfold W21; exact Pipeline.withArrays_of_ne spec4 c _ _ b hb
abbrev Vexit4 : (c : Dev nD) → (b : Ref sig .tc) → Buf (Elt F) ((c : Thread nD τ).loc b) := fun c b => W21 m ρ c b
theorem hF4 (c : Dev nD) (w : Fin cfg4.W) : (dat4 (Ventry4 m ρ) c).arrAt w cfg4.N = Vexit4 m ρ c (Pipeline.arrRef spec4 w) :=
  (Wexit4_arr m ρ c w).symm
theorem hrest4 (c : Dev nD) : ∀ b, b ∉ Finset.univ.image (Pipeline.arrRef spec4) → Vexit4 m ρ c b = Ventry4 m ρ c b :=
  fun b hb => Wexit4_of_ne m ρ c b fun w e => hb (Finset.mem_image.mpr ⟨w, Finset.mem_univ _, e⟩)
abbrev W22 : Dev nD → Valuation τ sig (Elt F) := fun c => StableHlo.after main_part1_ops11 (W21 m ρ c)
theorem W22_of (c : Dev nD) (r : Ref sig .tc) (h : r ∉ main_part1_ops11_W) : W22 m ρ c (Proc.devRef .tc r) = W21 m ρ c (Proc.devRef .tc r) :=
  StableHlo.after_of_writes_sub main_part1_ops11 _ main_part1_ops11_writes h
abbrev Ventry5 : (c : Dev nD) → (b : Ref sig .tc) → Buf (Elt F) ((c : Thread nD τ).loc b) := fun c b => W22 m ρ c b
def W23 (c : Dev nD) : Valuation τ sig (Elt F) :=
  Pipeline.withArrays spec5 c (W22 m ρ c) fun w => (dat5 (Ventry5 m ρ) c).arrAt w cfg5.N
theorem Wexit5_arr (c : Dev nD) (w : Fin cfg5.W) :
    W23 m ρ c (Proc.devRef .tc (Pipeline.arrRef spec5 w)) = (dat5 (Ventry5 m ρ) c).arrAt w cfg5.N := by
  unfold W23; exact Pipeline.withArrays_arr spec5 launch5.win.arr_inj c _ _ w
theorem Wexit5_of_ne (c : Dev nD) (b : Ref sig .tc) (hb : ∀ w, Pipeline.arrRef spec5 w ≠ b) :
    W23 m ρ c (Proc.devRef .tc b) = W22 m ρ c (Proc.devRef .tc b) := by
  unfold W23; exact Pipeline.withArrays_of_ne spec5 c _ _ b hb
abbrev Vexit5 : (c : Dev nD) → (b : Ref sig .tc) → Buf (Elt F) ((c : Thread nD τ).loc b) := fun c b => W23 m ρ c b
theorem hF5 (c : Dev nD) (w : Fin cfg5.W) : (dat5 (Ventry5 m ρ) c).arrAt w cfg5.N = Vexit5 m ρ c (Pipeline.arrRef spec5 w) :=
  (Wexit5_arr m ρ c w).symm
theorem hrest5 (c : Dev nD) : ∀ b, b ∉ Finset.univ.image (Pipeline.arrRef spec5) → Vexit5 m ρ c b = Ventry5 m ρ c b :=
  fun b hb => Wexit5_of_ne m ρ c b fun w e => hb (Finset.mem_image.mpr ⟨w, Finset.mem_univ _, e⟩)
abbrev Wlast : Dev nD → Valuation τ sig (Elt F) := W23 m ρ
/-- No host stretch writes `r` and no region's window holds it. -/
abbrev Untouched (r : Ref sig .tc) : Prop :=
  (∀ w, Pipeline.arrRef spec5 w ≠ r) ∧ r ∉ main_part1_ops11_W ∧ (∀ w, Pipeline.arrRef spec4 w ≠ r) ∧ r ∉ main_part1_ops10_W ∧ r ∉ main_part1_ops9_W ∧ r ∉ main_part1_ops8_W ∧ r ∉ main_part1_ops7_W ∧ r ∉ main_part1_ops6_W ∧ (∀ w, Pipeline.arrRef spec3 w ≠ r) ∧ r ∉ main_part1_ops5_W ∧ (∀ w, Pipeline.arrRef spec2 w ≠ r) ∧ r ∉ main_part1_ops4_W ∧ r ∉ main_part1_ops3_W ∧ r ∉ main_part1_ops2_W ∧ r ∉ main_part1_ops1_W ∧ r ∉ main_part1_ops0_W ∧ r ∉ main_part0_ops4_W ∧ (∀ w, Pipeline.arrRef spec1 w ≠ r) ∧ r ∉ main_part0_ops3_W ∧ (∀ w, Pipeline.arrRef spec0 w ≠ r) ∧ r ∉ main_part0_ops2_W ∧ r ∉ main_part0_ops1_W ∧ r ∉ main_part0_ops0_W

/-- Such a reference keeps its launch contents to the end. -/
theorem Wlast_keep (c : Dev nD) (r : Ref sig .tc) (h : Untouched r) :
    Wlast m ρ c (Proc.devRef .tc r) = m ((c : Thread nD τ).loc r) := by
  obtain ⟨h0, h1, h2, h3, h4, h5, h6, h7, h8, h9, h10, h11, h12, h13, h14, h15, h16, h17, h18, h19, h20, h21, h22⟩ := h
  exact (Wexit5_of_ne m ρ c r h0).trans <| (W22_of m ρ c r h1).trans <| (Wexit4_of_ne m ρ c r h2).trans <| (W20_of m ρ c r h3).trans <| (W19_of m ρ c r h4).trans <| (W18_of m ρ c r h5).trans <| (W17_of m ρ c r h6).trans <| (W16_of m ρ c r h7).trans <| (Wexit3_of_ne m ρ c r h8).trans <| (W14_of m ρ c r h9).trans <| (Wexit2_of_ne m ρ c r h10).trans <| (W12_of m ρ c r h11).trans <| (W11_of m ρ c r h12).trans <| (W10_of m ρ c r h13).trans <| (W9_of m ρ c r h14).trans <| (W8_of m ρ c r h15).trans <| (W7_of m ρ c r h16).trans <| (Wexit1_of_ne m ρ c r h17).trans <| (W5_of m ρ c r h18).trans <| (Wexit0_of_ne m ρ c r h19).trans <| (W3_of m ρ c r h20).trans <| (W2_of m ρ c r h21).trans <| (W1_of m ρ c r h22).trans rfl
end Cert.KernelIdeal.Hand
end
-- ==== Proof.KI.Segs.lean ====
import proofs.«401578_j53953379173285_3_alg».proof.Proof.KI.Bound

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

abbrev adm : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) adm p) c
  | ⟨0, _⟩ => fun c => dat0 (Ventry0 m ρ) c
  | ⟨1, _⟩ => fun c => dat1 (Ventry1 m ρ) c
  | ⟨2, _⟩ => fun c => dat2 (Ventry2 m ρ) c
  | ⟨3, _⟩ => fun c => dat3 (Ventry3 m ρ) c
  | ⟨4, _⟩ => fun c => dat4 (Ventry4 m ρ) c
  | ⟨5, _⟩ => fun c => dat5 (Ventry5 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (Wlast m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ventry0 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (Ventry0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ventry0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec0 c : sProp 𝕄) ⊢ (pdats m ρ 0 c).Φ 0 := hin0 (Ventry0 m ρ) c
    refine .trans ?_ h
    unfold Pipeline.ΦA
    iintro ⟨Hp, -, Hr⟩
    isplitl [Hr]; · iexact Hr
    iexact Hp
  hout c := by
    rw [Pipeline.ownSems0_none]
    have h : (pdats m ρ 0 c).Φ (Fin.last _) ⊢ (Pipeline.ΦA spec0 c : sProp 𝕄) := hout0 (Ventry0 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ventry0 m ρ c) (Vexit0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ventry1 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (Ventry1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ventry1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m ρ 1 c).Φ 0 := hin1 (Ventry1 m ρ) c
    refine .trans ?_ h
    unfold Pipeline.ΦA
    iintro ⟨Hp, -, Hr⟩
    isplitl [Hr]; · iexact Hr
    iexact Hp
  hout c := by
    rw [Pipeline.ownSems0_none]
    have h : (pdats m ρ 1 c).Φ (Fin.last _) ⊢ (Pipeline.ΦA spec1 c : sProp 𝕄) := hout1 (Ventry1 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ventry1 m ρ c) (Vexit1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ventry2 m ρ) c).loose
  hwaits := Pipeline.hwaits_of_owed_zero _ _ _ _ L lv 2 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec2 c (Ventry2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Ventry2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec2 c : sProp 𝕄) ⊢ (pdats m ρ 2 c).Φ 0 := hin2 (Ventry2 m ρ) c
    refine .trans ?_ h
    unfold Pipeline.ΦA
    iintro ⟨Hp, -, Hr⟩
    isplitl [Hr]; · iexact Hr
    iexact Hp
  hout c := by
    rw [Pipeline.ownSems0_none]
    have h : (pdats m ρ 2 c).Φ (Fin.last _) ⊢ (Pipeline.ΦA spec2 c : sProp 𝕄) := hout2 (Ventry2 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Ventry2 m ρ c) (Vexit2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Ventry3 m ρ) c).loose
  hwaits := Pipeline.hwaits_of_owed_zero _ _ _ _ L lv 3 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec3 c (Ventry3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Ventry3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec3 c : sProp 𝕄) ⊢ (pdats m ρ 3 c).Φ 0 := hin3 (Ventry3 m ρ) c
    refine .trans ?_ h
    unfold Pipeline.ΦA
    iintro ⟨Hp, -, Hr⟩
    isplitl [Hr]; · iexact Hr
    iexact Hp
  hout c := by
    rw [Pipeline.ownSems0_none]
    have h : (pdats m ρ 3 c).Φ (Fin.last _) ⊢ (Pipeline.ΦA spec3 c : sProp 𝕄) := hout3 (Ventry3 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Ventry3 m ρ c) (Vexit3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Ventry4 m ρ) c).loose
  hwaits := Pipeline.hwaits_of_owed_zero _ _ _ _ L lv 4 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec4 c (Ventry4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Ventry4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec4 c : sProp 𝕄) ⊢ (pdats m ρ 4 c).Φ 0 := hin4 (Ventry4 m ρ) c
    refine .trans ?_ h
    unfold Pipeline.ΦA
    iintro ⟨Hp, -, Hr⟩
    isplitl [Hr]; · iexact Hr
    iexact Hp
  hout c := by
    rw [Pipeline.ownSems0_none]
    have h : (pdats m ρ 4 c).Φ (Fin.last _) ⊢ (Pipeline.ΦA spec4 c : sProp 𝕄) := hout4 (Ventry4 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Ventry4 m ρ c) (Vexit4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Ventry5 m ρ) c).loose
  hwaits := Pipeline.hwaits_of_owed_zero _ _ _ _ L lv 5 fun _ _ => rfl
  pre c := iprop(StableHlo.held (c : Thread nD τ) (Pipeline.ucRefs τ sig) (W22 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (Ventry5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Ventry5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec5 c : sProp 𝕄) ⊢ (pdats m ρ 5 c).Φ 0 := hin5 (Ventry5 m ρ) c
    refine .trans ?_ h
    unfold Pipeline.ΦA
    iintro ⟨Hp, -, Hr⟩
    isplitl [Hr]; · iexact Hr
    iexact Hp
  hout c := by
    rw [Pipeline.ownSems0_none]
    have h : (pdats m ρ 5 c).Φ (Fin.last _) ⊢ (Pipeline.ΦA spec5 c : sProp 𝕄) := hout5 (Ventry5 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Ventry5 m ρ c) (Vexit5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KI.Run.lean ====
import proofs.«401578_j53953379173285_3_alg».proof.Proof.KI.Segs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .region (reg0 m ρ),
    .host (hseg main_part0_ops3 main_part0_ops3_sub main_part0_ops3_fresh (W4 m ρ)),
    .region (reg1 m ρ),
    .host (hseg main_part0_ops4 main_part0_ops4_sub main_part0_ops4_fresh (W6 m ρ)),
    .host (hseg main_part1_ops0 main_part1_ops0_sub main_part1_ops0_fresh (W7 m ρ)),
    .host (hseg main_part1_ops1 main_part1_ops1_sub main_part1_ops1_fresh (W8 m ρ)),
    .host (hseg main_part1_ops2 main_part1_ops2_sub main_part1_ops2_fresh (W9 m ρ)),
    .host (hseg main_part1_ops3 main_part1_ops3_sub main_part1_ops3_fresh (W10 m ρ)),
    .host (hseg main_part1_ops4 main_part1_ops4_sub main_part1_ops4_fresh (W11 m ρ)),
    .region (reg2 m ρ),
    .host (hseg main_part1_ops5 main_part1_ops5_sub main_part1_ops5_fresh (W13 m ρ)),
    .region (reg3 m ρ),
    .host (hseg main_part1_ops6 main_part1_ops6_sub main_part1_ops6_fresh (W15 m ρ)),
    .host (hseg main_part1_ops7 main_part1_ops7_sub main_part1_ops7_fresh (W16 m ρ)),
    .host (hseg main_part1_ops8 main_part1_ops8_sub main_part1_ops8_fresh (W17 m ρ)),
    .host (hseg main_part1_ops9 main_part1_ops9_sub main_part1_ops9_fresh (W18 m ρ)),
    .host (hseg main_part1_ops10 main_part1_ops10_sub main_part1_ops10_fresh (W19 m ρ)),
    .region (reg4 m ρ),
    .host (hseg main_part1_ops11 main_part1_ops11_sub main_part1_ops11_fresh (W21 m ρ)),
    .region (reg5 m ρ) ]

theorem main_run (c : Dev nD) : main (F := F) c = Pipeline.Seg.run (segs m ρ) := (main_chain_windows c).trans (by chain_rfl)

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem ((c : Thread nD τ).1, b) = Wlast m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wlast m ρ c b)
    (hfin := fun c s' => by
      iintro ⟨⟨Hh, -⟩, HSI⟩
      unfold StableHlo.held
      imodintro
      iapply (pointsTo_read_all (Pipeline.ucRefs τ sig) (fun b => (((c : Thread nD τ)).1, b)) (Wlast m ρ c) s')
      isplitl [Hh] <;> iassumption)
    (hQ := fun s h => h)

/-- After the run, an unscoped reference that no host stretch writes and no region's window holds is as launched. -/
theorem kept (c : Dev nD) {mem : (ℓ : Loc nD τ sig) → Buf (Elt F) ℓ}
    (hs : ∀ b ∈ Pipeline.ucRefs τ sig, mem ((c : Thread nD τ).1, b) = Wlast m ρ c b)
    (r : Ref sig .tc) (hr : ¬ (Proc.devRef .tc r : DevRef τ sig).isScoped) (h : Untouched r) :
    mem ((c.tc : Thread nD τ).loc r) = m ((c.tc : Thread nD τ).loc r) :=
  (hs _ (mem_uc r hr)).trans (Wlast_keep m ρ c r h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs (onTc (τ := τ) (main (F := F))) ⟨m, fun _ => 0, ρ⟩).mono (fun r h c => by
    repeat' apply And.intro
    all_goals exact kept m ρ c (h c) _ (by decide) (by decide)) (run m ρ)

end Cert.KernelIdeal.Hand

end
-- ==== Proof.KI.KArgs.lean ====
import proofs.«401578_j53953379173285_3_alg».proof.KernelIdeal
import proofs.«401578_j53953379173285_3_alg».proof.Proof.Shared
import proofs.«401578_j53953379173285_3_alg».proof.Proof.Spec
import proofs.«401578_j53953379173285_3_alg».proof.Proof.Cur

set_option maxRecDepth 16384

noncomputable section

namespace Cert.KernelIdeal.HandValue

open Cert.KernelIdeal Cert.Cur
open Idealize.ShloMosaic Idealize.ShloMosaic.TcCoe
open Idealize.SL.Sem

def kArgs (m : (ℓ : Loc nD τ sig) → Buf (Elt Ideal) ℓ) (c : Dev nD) (src : Fin 200000 → Fin 20000) (dst : Fin 200000 → Fin 8000) :
    Cert.Spec.Args where
  mf := cur2 (m ((c.tc : Thread nD τ).loc main_arg0))
  df := cur2 (m ((c.tc : Thread nD τ).loc main_arg1))
  embm := cur2 (Cert.Shared.takeM (F := Ideal) (m ((c.tc : Thread nD τ).loc main_arg10)) (m ((c.tc : Thread nD τ).loc main_arg2)))
  embd := cur2 (Cert.Shared.takeD (F := Ideal) (m ((c.tc : Thread nD τ).loc main_arg11)) (m ((c.tc : Thread nD τ).loc main_arg3)))
  src := src
  dst := dst
  Wm := cur2 (m ((c.tc : Thread nD τ).loc main_arg6))
  bm := cur1 (m ((c.tc : Thread nD τ).loc main_arg7))
  Wd := cur2 (m ((c.tc : Thread nD τ).loc main_arg8))
  bd := cur1 (m ((c.tc : Thread nD τ).loc main_arg9))
  W1mdl := cur2 (m ((c.tc : Thread nD τ).loc main_arg12))
  b1md := cur1 (m ((c.tc : Thread nD τ).loc main_arg13))
  W1mdr := cur2 (m ((c.tc : Thread nD τ).loc main_arg14))
  W1dml := cur2 (m ((c.tc : Thread nD τ).loc main_arg15))
  b1dm := cur1 (m ((c.tc : Thread nD τ).loc main_arg16))
  W1dmr := cur2 (m ((c.tc : Thread nD τ).loc main_arg17))
  W2mdl := cur2 (m ((c.tc : Thread nD τ).loc main_arg18))
  b2md := cur1 (m ((c.tc : Thread nD τ).loc main_arg19))
  W2mdr := cur2 (m ((c.tc : Thread nD τ).loc main_arg20))
  W2dml := cur2 (m ((c.tc : Thread nD τ).loc main_arg21))
  b2dm := cur1 (m ((c.tc : Thread nD τ).loc main_arg22))
  W2dmr := cur2 (m ((c.tc : Thread nD τ).loc main_arg23))

section Fields
variable (m : (ℓ : Loc nD τ sig) → Buf (Elt Ideal) ℓ) (c : Dev nD) (src : Fin 200000 → Fin 20000) (dst : Fin 200000 → Fin 8000)
theorem kArgs_mf : (kArgs m c src dst).mf = cur2 (m ((c.tc : Thread nD τ).loc main_arg0)) := by simp only [kArgs]
theorem kArgs_df : (kArgs m c src dst).df = cur2 (m ((c.tc : Thread nD τ).loc main_arg1)) := by simp only [kArgs]
theorem kArgs_Wm : (kArgs m c src dst).Wm = cur2 (m ((c.tc : Thread nD τ).loc main_arg6)) := by simp only [kArgs]
theorem kArgs_bm : (kArgs m c src dst).bm = cur1 (m ((c.tc : Thread nD τ).loc main_arg7)) := by simp only [kArgs]
theorem kArgs_Wd : (kArgs m c src dst).Wd = cur2 (m ((c.tc : Thread nD τ).loc main_arg8)) := by simp only [kArgs]
theorem kArgs_bd : (kArgs m c src dst).bd = cur1 (m ((c.tc : Thread nD τ).loc main_arg9)) := by simp only [kArgs]
theorem kArgs_W1mdl : (kArgs m c src dst).W1mdl = cur2 (m ((c.tc : Thread nD τ).loc main_arg12)) := by simp only [kArgs]
theorem kArgs_b1md : (kArgs m c src dst).b1md = cur1 (m ((c.tc : Thread nD τ).loc main_arg13)) := by simp only [kArgs]
theorem kArgs_W1mdr : (kArgs m c src dst).W1mdr = cur2 (m ((c.tc : Thread nD τ).loc main_arg14)) := by simp only [kArgs]
theorem kArgs_W1dml : (kArgs m c src dst).W1dml = cur2 (m ((c.tc : Thread nD τ).loc main_arg15)) := by simp only [kArgs]
theorem kArgs_b1dm : (kArgs m c src dst).b1dm = cur1 (m ((c.tc : Thread nD τ).loc main_arg16)) := by simp only [kArgs]
theorem kArgs_W1dmr : (kArgs m c src dst).W1dmr = cur2 (m ((c.tc : Thread nD τ).loc main_arg17)) := by simp only [kArgs]
theorem kArgs_W2mdl : (kArgs m c src dst).W2mdl = cur2 (m ((c.tc : Thread nD τ).loc main_arg18)) := by simp only [kArgs]
theorem kArgs_b2md : (kArgs m c src dst).b2md = cur1 (m ((c.tc : Thread nD τ).loc main_arg19)) := by simp only [kArgs]
theorem kArgs_W2mdr : (kArgs m c src dst).W2mdr = cur2 (m ((c.tc : Thread nD τ).loc main_arg20)) := by simp only [kArgs]
theorem kArgs_W2dml : (kArgs m c src dst).W2dml = cur2 (m ((c.tc : Thread nD τ).loc main_arg21)) := by simp only [kArgs]
theorem kArgs_b2dm : (kArgs m c src dst).b2dm = cur1 (m ((c.tc : Thread nD τ).loc main_arg22)) := by simp only [kArgs]
theorem kArgs_W2dmr : (kArgs m c src dst).W2dmr = cur2 (m ((c.tc : Thread nD τ).loc main_arg23)) := by simp only [kArgs]
theorem kArgs_embm : (kArgs m c src dst).embm = cur2 (Cert.Shared.takeM (F := Ideal) (m ((c.tc : Thread nD τ).loc main_arg10)) (m ((c.tc : Thread nD τ).loc main_arg2))) := by simp only [kArgs]
theorem kArgs_embd : (kArgs m c src dst).embd = cur2 (Cert.Shared.takeD (F := Ideal) (m ((c.tc : Thread nD τ).loc main_arg11)) (m ((c.tc : Thread nD τ).loc main_arg3))) := by simp only [kArgs]
theorem kArgs_src : (kArgs m c src dst).src = src := by simp only [kArgs]
theorem kArgs_dst : (kArgs m c src dst).dst = dst := by simp only [kArgs]
end Fields

end Cert.KernelIdeal.HandValue

end
-- ==== Proof.KI.ValueArgs.lean ====
import proofs.«401578_j53953379173285_3_alg».proof.Proof.KI.Bound

set_option maxRecDepth 16384

noncomputable section

namespace Cert.KernelIdeal.HandValue

open Cert.KernelIdeal Cert.KernelIdeal.Gen Cert.KernelIdeal.Hand
open Idealize.ShloMosaic Idealize.ShloMosaic.TcCoe
open Idealize.SL Idealize.SL.Sem

section Args
variable {F : FTy → Type} [FloatOps F]
variable (m : (ℓ : Loc nD τ sig) → Buf (Elt F) ℓ) (ρ : Dev nD → PrngReg) (c : Dev nD)

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23]

theorem args_0 (r : Ref sig .tc) (hr : r ∈ argRefs) : W0 m ρ c (Proc.devRef .tc r) = m ((c.tc : Thread nD τ).loc r) := rfl

theorem notin_main_part0_ops0 : ∀ r ∈ argRefs, r ∉ main_part0_ops0_W := by decide
theorem args_1 (r : Ref sig .tc) (hr : r ∈ argRefs) : W1 m ρ c (Proc.devRef .tc r) = m ((c.tc : Thread nD τ).loc r) :=
  (W1_of m ρ c r (notin_main_part0_ops0 r hr)).trans (args_0 m ρ c r hr)

theorem notin_main_part0_ops1 : ∀ r ∈ argRefs, r ∉ main_part0_ops1_W := by decide
theorem args_2 (r : Ref sig .tc) (hr : r ∈ argRefs) : W2 m ρ c (Proc.devRef .tc r) = m ((c.tc : Thread nD τ).loc r) :=
  (W2_of m ρ c r (notin_main_part0_ops1 r hr)).trans (args_1 m ρ c r hr)

theorem notin_main_part0_ops2 : ∀ r ∈ argRefs, r ∉ main_part0_ops2_W := by decide
theorem args_3 (r : Ref sig .tc) (hr : r ∈ argRefs) : W3 m ρ c (Proc.devRef .tc r) = m ((c.tc : Thread nD τ).loc r) :=
  (W3_of m ρ c r (notin_main_part0_ops2 r hr)).trans (args_2 m ρ c r hr)

theorem ne_arr0 : ∀ r ∈ argRefs, ∀ w, Pipeline.arrRef spec0 w ≠ r := by decide
theorem args_4 (r : Ref sig .tc) (hr : r ∈ argRefs) : W4 m ρ c (Proc.devRef .tc r) = m ((c.tc : Thread nD τ).loc r) :=
  (Wexit0_of_ne m ρ c r (ne_arr0 r hr)).trans (args_3 m ρ c r hr)

theorem notin_main_part0_ops3 : ∀ r ∈ argRefs, r ∉ main_part0_ops3_W := by decide
theorem args_5 (r : Ref sig .tc) (hr : r ∈ argRefs) : W5 m ρ c (Proc.devRef .tc r) = m ((c.tc : Thread nD τ).loc r) :=
  (W5_of m ρ c r (notin_main_part0_ops3 r hr)).trans (args_4 m ρ c r hr)

theorem ne_arr1 : ∀ r ∈ argRefs, ∀ w, Pipeline.arrRef spec1 w ≠ r := by decide
theorem args_6 (r : Ref sig .tc) (hr : r ∈ argRefs) : W6 m ρ c (Proc.devRef .tc r) = m ((c.tc : Thread nD τ).loc r) :=
  (Wexit1_of_ne m ρ c r (ne_arr1 r hr)).trans (args_5 m ρ c r hr)

theorem notin_main_part0_ops4 : ∀ r ∈ argRefs, r ∉ main_part0_ops4_W := by decide
theorem args_7 (r : Ref sig .tc) (hr : r ∈ argRefs) : W7 m ρ c (Proc.devRef .tc r) = m ((c.tc : Thread nD τ).loc r) :=
  (W7_of m ρ c r (notin_main_part0_ops4 r hr)).trans (args_6 m ρ c r hr)

theorem notin_main_part1_ops0 : ∀ r ∈ argRefs, r ∉ main_part1_ops0_W := by decide
theorem args_8 (r : Ref sig .tc) (hr : r ∈ argRefs) : W8 m ρ c (Proc.devRef .tc r) = m ((c.tc : Thread nD τ).loc r) :=
  (W8_of m ρ c r (notin_main_part1_ops0 r hr)).trans (args_7 m ρ c r hr)

theorem notin_main_part1_ops1 : ∀ r ∈ argRefs, r ∉ main_part1_ops1_W := by decide
theorem args_9 (r : Ref sig .tc) (hr : r ∈ argRefs) : W9 m ρ c (Proc.devRef .tc r) = m ((c.tc : Thread nD τ).loc r) :=
  (W9_of m ρ c r (notin_main_part1_ops1 r hr)).trans (args_8 m ρ c r hr)

theorem notin_main_part1_ops2 : ∀ r ∈ argRefs, r ∉ main_part1_ops2_W := by decide
theorem args_10 (r : Ref sig .tc) (hr : r ∈ argRefs) : W10 m ρ c (Proc.devRef .tc r) = m ((c.tc : Thread nD τ).loc r) :=
  (W10_of m ρ c r (notin_main_part1_ops2 r hr)).trans (args_9 m ρ c r hr)

theorem notin_main_part1_ops3 : ∀ r ∈ argRefs, r ∉ main_part1_ops3_W := by decide
theorem args_11 (r : Ref sig .tc) (hr : r ∈ argRefs) : W11 m ρ c (Proc.devRef .tc r) = m ((c.tc : Thread nD τ).loc r) :=
  (W11_of m ρ c r (notin_main_part1_ops3 r hr)).trans (args_10 m ρ c r hr)

theorem notin_main_part1_ops4 : ∀ r ∈ argRefs, r ∉ main_part1_ops4_W := by decide
theorem args_12 (r : Ref sig .tc) (hr : r ∈ argRefs) : W12 m ρ c (Proc.devRef .tc r) = m ((c.tc : Thread nD τ).loc r) :=
  (W12_of m ρ c r (notin_main_part1_ops4 r hr)).trans (args_11 m ρ c r hr)

theorem ne_arr2 : ∀ r ∈ argRefs, ∀ w, Pipeline.arrRef spec2 w ≠ r := by decide
theorem args_13 (r : Ref sig .tc) (hr : r ∈ argRefs) : W13 m ρ c (Proc.devRef .tc r) = m ((c.tc : Thread nD τ).loc r) :=
  (Wexit2_of_ne m ρ c r (ne_arr2 r hr)).trans (args_12 m ρ c r hr)

theorem notin_main_part1_ops5 : ∀ r ∈ argRefs, r ∉ main_part1_ops5_W := by decide
theorem args_14 (r : Ref sig .tc) (hr : r ∈ argRefs) : W14 m ρ c (Proc.devRef .tc r) = m ((c.tc : Thread nD τ).loc r) :=
  (W14_of m ρ c r (notin_main_part1_ops5 r hr)).trans (args_13 m ρ c r hr)

theorem ne_arr3 : ∀ r ∈ argRefs, ∀ w, Pipeline.arrRef spec3 w ≠ r := by decide
theorem args_15 (r : Ref sig .tc) (hr : r ∈ argRefs) : W15 m ρ c (Proc.devRef .tc r) = m ((c.tc : Thread nD τ).loc r) :=
  (Wexit3_of_ne m ρ c r (ne_arr3 r hr)).trans (args_14 m ρ c r hr)

theorem notin_main_part1_ops6 : ∀ r ∈ argRefs, r ∉ main_part1_ops6_W := by decide
theorem args_16 (r : Ref sig .tc) (hr : r ∈ argRefs) : W16 m ρ c (Proc.devRef .tc r) = m ((c.tc : Thread nD τ).loc r) :=
  (W16_of m ρ c r (notin_main_part1_ops6 r hr)).trans (args_15 m ρ c r hr)

theorem notin_main_part1_ops7 : ∀ r ∈ argRefs, r ∉ main_part1_ops7_W := by decide
theorem args_17 (r : Ref sig .tc) (hr : r ∈ argRefs) : W17 m ρ c (Proc.devRef .tc r) = m ((c.tc : Thread nD τ).loc r) :=
  (W17_of m ρ c r (notin_main_part1_ops7 r hr)).trans (args_16 m ρ c r hr)

theorem notin_main_part1_ops8 : ∀ r ∈ argRefs, r ∉ main_part1_ops8_W := by decide
theorem args_18 (r : Ref sig .tc) (hr : r ∈ argRefs) : W18 m ρ c (Proc.devRef .tc r) = m ((c.tc : Thread nD τ).loc r) :=
  (W18_of m ρ c r (notin_main_part1_ops8 r hr)).trans (args_17 m ρ c r hr)

theorem notin_main_part1_ops9 : ∀ r ∈ argRefs, r ∉ main_part1_ops9_W := by decide
theorem args_19 (r : Ref sig .tc) (hr : r ∈ argRefs) : W19 m ρ c (Proc.devRef .tc r) = m ((c.tc : Thread nD τ).loc r) :=
  (W19_of m ρ c r (notin_main_part1_ops9 r hr)).trans (args_18 m ρ c r hr)

theorem notin_main_part1_ops10 : ∀ r ∈ argRefs, r ∉ main_part1_ops10_W := by decide
theorem args_20 (r : Ref sig .tc) (hr : r ∈ argRefs) : W20 m ρ c (Proc.devRef .tc r) = m ((c.tc : Thread nD τ).loc r) :=
  (W20_of m ρ c r (notin_main_part1_ops10 r hr)).trans (args_19 m ρ c r hr)

theorem ne_arr4 : ∀ r ∈ argRefs, ∀ w, Pipeline.arrRef spec4 w ≠ r := by decide
theorem args_21 (r : Ref sig .tc) (hr : r ∈ argRefs) : W21 m ρ c (Proc.devRef .tc r) = m ((c.tc : Thread nD τ).loc r) :=
  (Wexit4_of_ne m ρ c r (ne_arr4 r hr)).trans (args_20 m ρ c r hr)

theorem notin_main_part1_ops11 : ∀ r ∈ argRefs, r ∉ main_part1_ops11_W := by decide
theorem args_22 (r : Ref sig .tc) (hr : r ∈ argRefs) : W22 m ρ c (Proc.devRef .tc r) = m ((c.tc : Thread nD τ).loc r) :=
  (W22_of m ρ c r (notin_main_part1_ops11 r hr)).trans (args_21 m ρ c r hr)

theorem ne_arr5 : ∀ r ∈ argRefs, ∀ w, Pipeline.arrRef spec5 w ≠ r := by decide
theorem args_23 (r : Ref sig .tc) (hr : r ∈ argRefs) : W23 m ρ c (Proc.devRef .tc r) = m ((c.tc : Thread nD τ).loc r) :=
  (Wexit5_of_ne m ρ c r (ne_arr5 r hr)).trans (args_22 m ρ c r hr)
end Args

end Cert.KernelIdeal.HandValue

end
-- ==== Proof.KI.ValShared.lean ====
import proofs.«401578_j53953379173285_3_alg».proof.Proof.Gen.KernelIdeal
import Idealize.ShloMosaic.Lib.ValueIdx
import Idealize.ShloMosaic.PureOps.Ideal.Laws
import Idealize.ShloMosaic.Lib.Pipeline.Value
import Idealize.ShloMosaic.Lib.ValueLayout
import Mathlib.Algebra.BigOperators.Fin
import Mathlib.Logic.Equiv.Fin.Basic

set_option maxRecDepth 16384

noncomputable section

namespace Cert.KernelIdeal.HandValue

open Cert.KernelIdeal Cert.KernelIdeal.Gen
open Idealize.ShloMosaic Idealize.ShloMosaic.TcCoe Idealize.SL.Sem Idealize.ShloMosaic.ValueIdx
open scoped BigOperators

def natRd {a b : ℕ} (x : (⟨2, ![a, b]⟩ : Shape).Idx → EReal) (i j : ℕ) : EReal :=
  if h : i < a ∧ j < b then x (ix2 ⟨i, h.1⟩ ⟨j, h.2⟩) else 0

theorem natRd_of_lt {a b : ℕ} (x : (⟨2, ![a, b]⟩ : Shape).Idx → EReal) (i : Fin a) (j : Fin b) :
    natRd x i.val j.val = x (ix2 i j) := dif_pos ⟨i.isLt, j.isLt⟩

theorem sum_tiles (f : ℕ → EReal) (nk B N : ℕ) (hN : nk * B = N) :
    ∑ k' ∈ Finset.range nk, ∑ s : Fin B, f (B * k' + s.val) = ∑ s' : Fin N, f s'.val := by
  subst hN
  rw [Finset.sum_range, ← Equiv.sum_comp (finProdFinEquiv (m := nk) (n := B)) (fun s' => f s'.val), Fintype.sum_prod_type]
  refine Finset.sum_congr rfl fun a _ => Finset.sum_congr rfl fun b _ => ?_
  refine congrArg f ?_
  show B * a.val + b.val = b.val + B * a.val
  omega

theorem ix2_ext {a b : ℕ} {x y : (⟨2, ![a, b]⟩ : Shape).Idx} (h0 : (x 0).val = (y 0).val) (h1 : (x 1).val = (y 1).val) : x = y :=
  funext fun i => Fin.ext (match i with
    | ⟨0, _⟩ => h0
    | ⟨1, _⟩ => h1)

theorem mm_single {a n b : ℕ} (d : DotDims (⟨2, ![a, n]⟩ : Shape) (⟨2, ![n, b]⟩ : Shape) (⟨2, ![a, b]⟩ : Shape))
    (hr : d.contr.rank = 1) (hs : d.contr.size ⟨0, by omega⟩ = n)
    (hL0 : ∀ j k, (d.lhsIdx j k 0).val = (j 0).val) (hL1 : ∀ j k, (d.lhsIdx j k 1).val = (k ⟨0, by omega⟩).val)
    (hR0 : ∀ j k, (d.rhsIdx j k 0).val = (k ⟨0, by omega⟩).val) (hR1 : ∀ j k, (d.rhsIdx j k 1).val = (j 1).val)
    (l : (⟨2, ![a, n]⟩ : Shape).Idx → EReal) (r : (⟨2, ![n, b]⟩ : Shape).Idx → EReal) (p : Fin a) (q : Fin b) :
    ∑ k : d.contr.Idx, l (d.lhsIdx (ix2 p q) k) * r (d.rhsIdx (ix2 p q) k) = ∑ s : Fin n, l (ix2 p s) * r (ix2 s q) := by
  rw [← Equiv.sum_comp (contrEquiv1 d n hr hs).symm]
  refine Finset.sum_congr rfl fun s _ => ?_
  have hk := contrEquiv1_symm_val d n hr hs s
  rw [show d.lhsIdx (ix2 p q) ((contrEquiv1 d n hr hs).symm s) = ix2 p s from ix2_ext (hL0 _ _) ((hL1 _ _).trans hk),
    show d.rhsIdx (ix2 p q) ((contrEquiv1 d n hr hs).symm s) = ix2 s q from ix2_ext ((hR0 _ _).trans hk) (hR1 _ _)]

abbrev DA : DotDims S400x2048 S2048x512 S400x512 := dot_S400x2048_S2048x512_S400x512_1_0_0_1_n_n

theorem lhsA_0 (j : S400x512.Idx) (k : DA.contr.Idx) : (DA.lhsIdx j k 0).val = (j 0).val := by
  simp [DotDims.lhsIdx, DA, dot_S400x2048_S2048x512_S400x512_1_0_0_1_n_n]; rfl
theorem lhsA_1 (j : S400x512.Idx) (k : DA.contr.Idx) : (DA.lhsIdx j k 1).val = (k ⟨0, Nat.one_pos⟩).val :=
  DotDims.lhsIdx_val_of_single (d := DA) (cl := 1) rfl j k
theorem rhsA_0 (j : S400x512.Idx) (k : DA.contr.Idx) : (DA.rhsIdx j k 0).val = (k ⟨0, Nat.one_pos⟩).val :=
  DotDims.rhsIdx_val_of_single (d := DA) (cr := 0) rfl j k
theorem rhsA_1 (j : S400x512.Idx) (k : DA.contr.Idx) : (DA.rhsIdx j k 1).val = (j 1).val := by
  simp [DotDims.rhsIdx, DA, dot_S400x2048_S2048x512_S400x512_1_0_0_1_n_n]; rfl

theorem mmA (l : FVec Ideal S400x2048 .bf16) (r : FVec Ideal S2048x512 .bf16) (p : Fin 400) (q : Fin 512) :
    ∑ k : DA.contr.Idx, l (DA.lhsIdx (ix2 p q) k) * r (DA.rhsIdx (ix2 p q) k) = ∑ s : Fin 2048, l (ix2 p s) * r (ix2 s q) :=
  mm_single DA rfl rfl lhsA_0 lhsA_1 rhsA_0 rhsA_1 l r p q

theorem hzE : (![0, 0] : Fin 2 → Nat) = fun _ => 0 := funext fun a => by fin_cases a <;> rfl

theorem lhsE_0 (j : S2000x512.Idx) (k : dot_S2000x384_S384x512_S2000x512_1_0_0_1_n_n.contr.Idx) :
    ((dot_S2000x384_S384x512_S2000x512_1_0_0_1_n_n.lhsIdx j k 0 : Fin 2000) : ℕ) = (j 0 : ℕ) := by
  simp [DotDims.lhsIdx, dot_S2000x384_S384x512_S2000x512_1_0_0_1_n_n]; rfl

theorem lhsE_1 (j : S2000x512.Idx) (k : dot_S2000x384_S384x512_S2000x512_1_0_0_1_n_n.contr.Idx) :
    ((dot_S2000x384_S384x512_S2000x512_1_0_0_1_n_n.lhsIdx j k 1 : Fin 384) : ℕ) = (k ⟨0, by decide⟩ : ℕ) :=
  dot_S2000x384_S384x512_S2000x512_1_0_0_1_n_n.lhsIdx_val_of_single (cl := 1) rfl j k

theorem rhsE_0 (j : S2000x512.Idx) (k : dot_S2000x384_S384x512_S2000x512_1_0_0_1_n_n.contr.Idx) :
    ((dot_S2000x384_S384x512_S2000x512_1_0_0_1_n_n.rhsIdx j k 0 : Fin 384) : ℕ) = (k ⟨0, by decide⟩ : ℕ) :=
  dot_S2000x384_S384x512_S2000x512_1_0_0_1_n_n.rhsIdx_val_of_single (cr := 0) rfl j k

theorem rhsE_1 (j : S2000x512.Idx) (k : dot_S2000x384_S384x512_S2000x512_1_0_0_1_n_n.contr.Idx) :
    ((dot_S2000x384_S384x512_S2000x512_1_0_0_1_n_n.rhsIdx j k 1 : Fin 512) : ℕ) = (j 1 : ℕ) := by
  simp [DotDims.rhsIdx, dot_S2000x384_S384x512_S2000x512_1_0_0_1_n_n]; rfl

theorem mmE_apply (x0 : FVec Ideal S2000x384 .bf16) (x1 : FVec Ideal S384x512 .bf16) (p : Fin 2000) (q : Fin 512) :
    matmul dot_S2000x384_S384x512_S2000x512_1_0_0_1_n_n none x0 x1 (constant S2000x512 .f32 0x00000000#32) (ix2 p q)
      = ∑ k : Fin 384, x0 (ix2 p k) * x1 (ix2 k q) := by
  exact (Ideal.matmul_constant_zero_apply dot_S2000x384_S384x512_S2000x512_1_0_0_1_n_n none x0 x1 (ix2 p q)).trans
    (mm_single dot_S2000x384_S384x512_S2000x512_1_0_0_1_n_n rfl rfl lhsE_0 lhsE_1 rhsE_0 rhsE_1 x0 x1 p q)

namespace L1

abbrev DB : DotDims S400x512 S512x512 S400x512 := dot_S400x512_S512x512_S400x512_1_0_0_1_n_n

theorem lhsB_0 (j : S400x512.Idx) (k : DB.contr.Idx) : (DB.lhsIdx j k 0).val = (j 0).val := by
  simp [DotDims.lhsIdx, DB, dot_S400x512_S512x512_S400x512_1_0_0_1_n_n]; rfl
theorem lhsB_1 (j : S400x512.Idx) (k : DB.contr.Idx) : (DB.lhsIdx j k 1).val = (k ⟨0, Nat.one_pos⟩).val :=
  DotDims.lhsIdx_val_of_single (d := DB) (cl := 1) rfl j k
theorem rhsB_0 (j : S400x512.Idx) (k : DB.contr.Idx) : (DB.rhsIdx j k 0).val = (k ⟨0, Nat.one_pos⟩).val :=
  DotDims.rhsIdx_val_of_single (d := DB) (cr := 0) rfl j k
theorem rhsB_1 (j : S400x512.Idx) (k : DB.contr.Idx) : (DB.rhsIdx j k 1).val = (j 1).val := by
  simp [DotDims.rhsIdx, DB, dot_S400x512_S512x512_S400x512_1_0_0_1_n_n]; rfl

theorem mmB (l : FVec Ideal S400x512 .bf16) (r : FVec Ideal S512x512 .bf16) (p : Fin 400) (q : Fin 512) :
    ∑ k : DB.contr.Idx, l (DB.lhsIdx (ix2 p q) k) * r (DB.rhsIdx (ix2 p q) k) = ∑ f : Fin 512, l (ix2 p f) * r (ix2 f q) :=
  mm_single DB rfl rfl lhsB_0 lhsB_1 rhsB_0 rhsB_1 l r p q

end L1

namespace L2

abbrev DB : DotDims S400x512 S512x256 S400x256 := dot_S400x512_S512x256_S400x256_1_0_0_1_n_n

theorem lhsB_0 (j : S400x256.Idx) (k : DB.contr.Idx) : (DB.lhsIdx j k 0).val = (j 0).val := by
  simp [DotDims.lhsIdx, DB, dot_S400x512_S512x256_S400x256_1_0_0_1_n_n]; rfl
theorem lhsB_1 (j : S400x256.Idx) (k : DB.contr.Idx) : (DB.lhsIdx j k 1).val = (k ⟨0, Nat.one_pos⟩).val :=
  DotDims.lhsIdx_val_of_single (d := DB) (cl := 1) rfl j k
theorem rhsB_0 (j : S400x256.Idx) (k : DB.contr.Idx) : (DB.rhsIdx j k 0).val = (k ⟨0, Nat.one_pos⟩).val :=
  DotDims.rhsIdx_val_of_single (d := DB) (cr := 0) rfl j k
theorem rhsB_1 (j : S400x256.Idx) (k : DB.contr.Idx) : (DB.rhsIdx j k 1).val = (j 1).val := by
  simp [DotDims.rhsIdx, DB, dot_S400x512_S512x256_S400x256_1_0_0_1_n_n]; rfl

theorem mmB (l : FVec Ideal S400x512 .bf16) (r : FVec Ideal S512x256 .bf16) (p : Fin 400) (q : Fin 256) :
    ∑ k : DB.contr.Idx, l (DB.lhsIdx (ix2 p q) k) * r (DB.rhsIdx (ix2 p q) k) = ∑ f : Fin 512, l (ix2 p f) * r (ix2 f q) :=
  mm_single DB rfl rfl lhsB_0 lhsB_1 rhsB_0 rhsB_1 l r p q

end L2

end Cert.KernelIdeal.HandValue

end
-- ==== Proof.KI.Reg0Val.lean ====
import proofs.«401578_j53953379173285_3_alg».proof.Proof.KI.Reg0
import proofs.«401578_j53953379173285_3_alg».proof.Proof.KI.ValShared
import proofs.«401578_j53953379173285_3_alg».proof.Proof.Spec
import proofs.«401578_j53953379173285_3_alg».proof.Proof.Cur
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

theorem pay0_apply (x0 : FVec Ideal S2000x384 .bf16) (x1 : FVec Ideal S384x512 .bf16) (x2 : FVec Ideal S2000x512 .bf16)
    (x3 : FVec Ideal S1x512 .f32) (p : Fin 2000) (q : Fin 512) :
    k0_pay1 x0 x1 x2 x3 (ix2 p q) = (∑ k : Fin 384, x0 (ix2 p k) * x1 (ix2 k q)) + x2 (ix2 p q) + x3 (ix2 (0 : Fin 1) q) := by
  unfold k0_pay1
  simp only [shapeCast_self]
  rw [truncf_apply, addf_apply, addf_apply, extf_apply, mmE_apply, broadcastTo_1b_ab_apply]

theorem out0_4_apply (x0 : FVec Ideal S2000x384 .bf16) (x1 : FVec Ideal S384x512 .bf16) (x2 : FVec Ideal S2000x512 .bf16)
    (x3 : FVec Ideal S1x512 .f32) (p : Fin 2000) (q : Fin 512) :
    out0_4 (F := Ideal) x0 x1 x2 x3 (ix2 p q) = (∑ k : Fin 384, x0 (ix2 p k) * x1 (ix2 k q)) + x2 (ix2 p q) + x3 (ix2 (0 : Fin 1) q) := by
  unfold out0_4
  rw [View.canon_unit_zero hzE]
  simp only [View.ld_unit_zero (S := S2000x384) hzE, View.ld_unit_zero (S := S384x512) hzE, View.ld_unit_zero (S := S2000x512) hzE, View.ld_unit_zero (S := S1x512) hzE]
  exact pay0_apply x0 x1 x2 x3 p q

section Value0

variable (V : (c : Dev nD) → (b : Ref sig .tc) → Buf (Elt Ideal) ((c : Thread nD τ).loc b))

abbrev xarr0 (c : Dev nD) : FVec Ideal S20000x384 .bf16 := V c main_v2
abbrev warr0 (c : Dev nD) : FVec Ideal S384x512 .bf16 := V c main_v3
abbrev aarr0 (c : Dev nD) : FVec Ideal S20000x512 .bf16 := V c main_v4
abbrev barr0 (c : Dev nD) : FVec Ideal S1x512 .f32 := V c main_v5

def G0 (c : Dev nD) : FVec Ideal S20000x512 .bf16 := fun y =>
  Cert.Spec.encK (Cert.Cur.cur2 (xarr0 V c)) (Cert.Cur.cur2 (warr0 V c)) (Cert.Cur.cur2 (aarr0 V c)) (Cert.Cur.row (barr0 V c)) (y 0) (y 1)

theorem G0_apply (c : Dev nD) (r : Fin 20000) (q : Fin 512) :
    G0 V c (ix2 r q) = (∑ k : Fin 384, xarr0 V c (ix2 r k) * warr0 V c (ix2 k q)) + aarr0 V c (ix2 r q) + barr0 V c (ix2 (0 : Fin 1) q) := rfl

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem iblk0_0_apply (c : Dev nD) (t : Fin cfg0.N) (p : Fin 2000) (k : Fin 384) (r : Fin 20000) (hr : r.val = t.val * 2000 + p.val) :
    (iblk0 V c 0 t : FVec Ideal S2000x384 .bf16) (ix2 p k) = xarr0 V c (ix2 r k) := by
  obtain ⟨e0, e1, -⟩ := idx_facts0 t
  unfold iblk0
  rw [View.read_apply]
  exact congrArg (V c main_v2) (ix2_ext (by show win0_0.index t (0 : Fin 2) * 2000 + 1 * p.val = r.val; rw [e0, hr]; omega) (by show win0_0.index t (1 : Fin 2) * 384 + 1 * k.val = k.val; rw [e1]; omega))

theorem iblk0_1_apply (c : Dev nD) (t : Fin cfg0.N) (k : Fin 384) (q : Fin 512) :
    (iblk0 V c 1 t : FVec Ideal S384x512 .bf16) (ix2 k q) = warr0 V c (ix2 k q) := by
  obtain ⟨-, -, e0, e1, -⟩ := idx_facts0 t
  unfold iblk0
  rw [View.read_apply]
  exact congrArg (V c main_v3) (ix2_ext (by show win0_1.index t (0 : Fin 2) * 384 + 1 * k.val = k.val; rw [e0]; omega) (by show win0_1.index t (1 : Fin 2) * 512 + 1 * q.val = q.val; rw [e1]; omega))

theorem iblk0_2_apply (c : Dev nD) (t : Fin cfg0.N) (p : Fin 2000) (q : Fin 512) (r : Fin 20000) (hr : r.val = t.val * 2000 + p.val) :
    (iblk0 V c 2 t : FVec Ideal S2000x512 .bf16) (ix2 p q) = aarr0 V c (ix2 r q) := by
  obtain ⟨-, -, -, -, e0, e1, -⟩ := idx_facts0 t
  unfold iblk0
  rw [View.read_apply]
  exact congrArg (V c main_v4) (ix2_ext (by show win0_2.index t (0 : Fin 2) * 2000 + 1 * p.val = r.val; rw [e0, hr]; omega) (by show win0_2.index t (1 : Fin 2) * 512 + 1 * q.val = q.val; rw [e1]; omega))

theorem iblk0_3_apply (c : Dev nD) (t : Fin cfg0.N) (q : Fin 512) :
    (iblk0 V c 3 t : FVec Ideal S1x512 .f32) (ix2 (0 : Fin 1) q) = barr0 V c (ix2 (0 : Fin 1) q) := by
  obtain ⟨-, -, -, -, -, -, e0, e1, -⟩ := idx_facts0 t
  unfold iblk0
  rw [View.read_apply]
  exact congrArg (V c main_v5) (ix2_ext (by show win0_3.index t (0 : Fin 2) * 1 + 1 * 0 = 0; rw [e0]) (by show win0_3.index t (1 : Fin 2) * 512 + 1 * q.val = q.val; rw [e1]; omega))

theorem block0_eq (c : Dev nD) (t : Fin cfg0.N) (p : Fin 2000) (q : Fin 512) (r : Fin 20000) (hr : r.val = t.val * 2000 + p.val) :
    out0_4 (F := Ideal) (iblk0 V c 0 t) (iblk0 V c 1 t) (iblk0 V c 2 t) (iblk0 V c 3 t) (ix2 p q) = G0 V c (ix2 r q) := by
  refine (out0_4_apply (iblk0 V c 0 t) (iblk0 V c 1 t) (iblk0 V c 2 t) (iblk0 V c 3 t) p q).trans ?_
  rw [G0_apply, iblk0_2_apply V c t p q r hr, iblk0_3_apply V c t q]
  congr 2
  refine Finset.sum_congr rfl fun k _ => ?_
  rw [iblk0_0_apply V c t p k r hr, iblk0_1_apply V c t k q]

theorem block0_eq_idx (c : Dev nD) (t : Fin cfg0.N) (j : S2000x512.Idx) (i : S20000x512.Idx)
    (h0 : (i 0).val = t.val * 2000 + (j 0).val) (h1 : (i 1).val = (j 1).val) :
    out0_4 (F := Ideal) (iblk0 V c 0 t) (iblk0 V c 1 t) (iblk0 V c 2 t) (iblk0 V c 3 t) j = G0 V c i := by
  obtain ⟨p, q, rfl⟩ : ∃ (p : Fin 2000) (q : Fin 512), j = ix2 p q := ⟨j 0, j 1, eq_ix2 j⟩
  obtain ⟨r, q', rfl⟩ : ∃ (r : Fin 20000) (q' : Fin 512), i = ix2 r q' := ⟨i 0, i 1, eq_ix2 i⟩
  obtain rfl : q' = q := Fin.ext h1
  exact block0_eq V c t p q' r h0

theorem flushed0_eq (c : Dev nD) (t : Fin cfg0.N) :
    (dat0 V c).flushed 4 t = ((cfg0.win 4).blk t).view.read (Elt Ideal) (G0 V c) := by
  show (cfg0.win 4).cut (grid0.coords t) ((dat0 V c).after 4 t) = _
  rw [after0_4]
  obtain ⟨-, -, -, -, -, -, -, -, e0, e1⟩ := idx_facts0 t
  funext j
  show out0_4 (F := Ideal) (iblk0 V c 0 t) (iblk0 V c 1 t) (iblk0 V c 2 t) (iblk0 V c 3 t) j = G0 V c (((cfg0.win 4).blk t).view.emb j)
  refine block0_eq_idx V c t j _ ?_ ?_
  · show win0_4.index t (0 : Fin 2) * 2000 + 1 * (j 0).val = _; rw [e0]; omega
  · show win0_4.index t (1 : Fin 2) * 512 + 1 * (j 1).val = _; rw [e1]; omega

theorem mem_blk0 (t : Fin cfg0.N) (i : S20000x512.Idx) :
    i ∈ ((cfg0.win 4).blk t).view.set ↔ ∀ a : Fin 2, win0_4.index t a * S2000x512.size a ≤ (i a).val ∧ (i a).val < win0_4.index t a * S2000x512.size a + S2000x512.size a := by
  show i ∈ ((View.whole main_v6).slice (win0_4.rect t)).set ↔ _
  rw [View.set_slice_whole, Rect.mem_set_unit]
  exact Iff.rfl

theorem cover0 (i : S20000x512.Idx) : ∃ t : Fin cfg0.N, (cfg0.win 4).flush t = true ∧ i ∈ ((cfg0.win 4).blk t).view.set := by
  have hi0 : (i 0).val < 20000 := (i 0).isLt
  have hi1 : (i 1).val < 512 := (i 1).isLt
  have hN : cfg0.N = 10 := N_0
  have hlt : (i 0).val / 2000 < cfg0.N := by rw [hN]; omega
  obtain ⟨-, -, -, -, -, -, -, -, e0, e1⟩ := idx_facts0 ⟨(i 0).val / 2000, hlt⟩
  refine ⟨⟨(i 0).val / 2000, hlt⟩, flush0_4 _, ?_⟩
  rw [mem_blk0]
  intro a
  match a with
  | ⟨0, _⟩ =>
    show win0_4.index ⟨(i 0).val / 2000, hlt⟩ (0 : Fin 2) * 2000 ≤ (i 0).val ∧ (i 0).val < win0_4.index ⟨(i 0).val / 2000, hlt⟩ (0 : Fin 2) * 2000 + 2000
    rw [e0]; dsimp only; omega
  | ⟨1, _⟩ =>
    show win0_4.index ⟨(i 0).val / 2000, hlt⟩ (1 : Fin 2) * 512 ≤ (i 1).val ∧ (i 1).val < win0_4.index ⟨(i 0).val / 2000, hlt⟩ (1 : Fin 2) * 512 + 512
    rw [e1]; omega

theorem arr0_out (c : Dev nD) : (dat0 (F := Ideal) V c).arrAt 4 cfg0.N
    = fun y => Cert.Spec.encK (Cert.Cur.cur2 (V c main_v2)) (Cert.Cur.cur2 (V c main_v3)) (Cert.Cur.cur2 (V c main_v4)) (Cert.Cur.row (V c main_v5)) (y 0) (y 1) :=
  (dat0 V c).arrAt_eq_of_cover 4 (G0 V c) (fun t _ => flushed0_eq V c t) cover0

end Value0

end Cert.KernelIdeal.HandValue

end
-- ==== Proof.KI.Reg1Val.lean ====
import proofs.«401578_j53953379173285_3_alg».proof.Proof.KI.Reg1
import proofs.«401578_j53953379173285_3_alg».proof.Proof.KI.ValShared
import proofs.«401578_j53953379173285_3_alg».proof.Proof.Spec
import proofs.«401578_j53953379173285_3_alg».proof.Proof.Cur
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

theorem pay1_apply (x0 : FVec Ideal S2000x384 .bf16) (x1 : FVec Ideal S384x512 .bf16) (x2 : FVec Ideal S2000x512 .bf16)
    (x3 : FVec Ideal S1x512 .f32) (p : Fin 2000) (q : Fin 512) :
    k1_pay1 x0 x1 x2 x3 (ix2 p q) = (∑ k : Fin 384, x0 (ix2 p k) * x1 (ix2 k q)) + x2 (ix2 p q) + x3 (ix2 (0 : Fin 1) q) := by
  unfold k1_pay1
  simp only [shapeCast_self]
  rw [truncf_apply, addf_apply, addf_apply, extf_apply, mmE_apply, broadcastTo_1b_ab_apply]

theorem out1_4_apply (x0 : FVec Ideal S2000x384 .bf16) (x1 : FVec Ideal S384x512 .bf16) (x2 : FVec Ideal S2000x512 .bf16)
    (x3 : FVec Ideal S1x512 .f32) (p : Fin 2000) (q : Fin 512) :
    out1_4 (F := Ideal) x0 x1 x2 x3 (ix2 p q) = (∑ k : Fin 384, x0 (ix2 p k) * x1 (ix2 k q)) + x2 (ix2 p q) + x3 (ix2 (0 : Fin 1) q) := by
  unfold out1_4
  rw [View.canon_unit_zero hzE]
  simp only [View.ld_unit_zero (S := S2000x384) hzE, View.ld_unit_zero (S := S384x512) hzE, View.ld_unit_zero (S := S2000x512) hzE, View.ld_unit_zero (S := S1x512) hzE]
  exact pay1_apply x0 x1 x2 x3 p q

section Value1

variable (V : (c : Dev nD) → (b : Ref sig .tc) → Buf (Elt Ideal) ((c : Thread nD τ).loc b))

abbrev xarr1 (c : Dev nD) : FVec Ideal S8000x384 .bf16 := V c main_v7
abbrev warr1 (c : Dev nD) : FVec Ideal S384x512 .bf16 := V c main_v8
abbrev aarr1 (c : Dev nD) : FVec Ideal S8000x512 .bf16 := V c main_v9
abbrev barr1 (c : Dev nD) : FVec Ideal S1x512 .f32 := V c main_v10

def G1 (c : Dev nD) : FVec Ideal S8000x512 .bf16 := fun y =>
  Cert.Spec.encK (Cert.Cur.cur2 (xarr1 V c)) (Cert.Cur.cur2 (warr1 V c)) (Cert.Cur.cur2 (aarr1 V c)) (Cert.Cur.row (barr1 V c)) (y 0) (y 1)

theorem G1_apply (c : Dev nD) (r : Fin 8000) (q : Fin 512) :
    G1 V c (ix2 r q) = (∑ k : Fin 384, xarr1 V c (ix2 r k) * warr1 V c (ix2 k q)) + aarr1 V c (ix2 r q) + barr1 V c (ix2 (0 : Fin 1) q) := rfl

theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem iblk1_0_apply (c : Dev nD) (t : Fin cfg1.N) (p : Fin 2000) (k : Fin 384) (r : Fin 8000) (hr : r.val = t.val * 2000 + p.val) :
    (iblk1 V c 0 t : FVec Ideal S2000x384 .bf16) (ix2 p k) = xarr1 V c (ix2 r k) := by
  obtain ⟨e0, e1, -⟩ := idx_facts1 t
  unfold iblk1
  rw [View.read_apply]
  exact congrArg (V c main_v7) (ix2_ext (by show win1_0.index t (0 : Fin 2) * 2000 + 1 * p.val = r.val; rw [e0, hr]; omega) (by show win1_0.index t (1 : Fin 2) * 384 + 1 * k.val = k.val; rw [e1]; omega))

theorem iblk1_1_apply (c : Dev nD) (t : Fin cfg1.N) (k : Fin 384) (q : Fin 512) :
    (iblk1 V c 1 t : FVec Ideal S384x512 .bf16) (ix2 k q) = warr1 V c (ix2 k q) := by
  obtain ⟨-, -, e0, e1, -⟩ := idx_facts1 t
  unfold iblk1
  rw [View.read_apply]
  exact congrArg (V c main_v8) (ix2_ext (by show win1_1.index t (0 : Fin 2) * 384 + 1 * k.val = k.val; rw [e0]; omega) (by show win1_1.index t (1 : Fin 2) * 512 + 1 * q.val = q.val; rw [e1]; omega))

theorem iblk1_2_apply (c : Dev nD) (t : Fin cfg1.N) (p : Fin 2000) (q : Fin 512) (r : Fin 8000) (hr : r.val = t.val * 2000 + p.val) :
    (iblk1 V c 2 t : FVec Ideal S2000x512 .bf16) (ix2 p q) = aarr1 V c (ix2 r q) := by
  obtain ⟨-, -, -, -, e0, e1, -⟩ := idx_facts1 t
  unfold iblk1
  rw [View.read_apply]
  exact congrArg (V c main_v9) (ix2_ext (by show win1_2.index t (0 : Fin 2) * 2000 + 1 * p.val = r.val; rw [e0, hr]; omega) (by show win1_2.index t (1 : Fin 2) * 512 + 1 * q.val = q.val; rw [e1]; omega))

theorem iblk1_3_apply (c : Dev nD) (t : Fin cfg1.N) (q : Fin 512) :
    (iblk1 V c 3 t : FVec Ideal S1x512 .f32) (ix2 (0 : Fin 1) q) = barr1 V c (ix2 (0 : Fin 1) q) := by
  obtain ⟨-, -, -, -, -, -, e0, e1, -⟩ := idx_facts1 t
  unfold iblk1
  rw [View.read_apply]
  exact congrArg (V c main_v10) (ix2_ext (by show win1_3.index t (0 : Fin 2) * 1 + 1 * 0 = 0; rw [e0]) (by show win1_3.index t (1 : Fin 2) * 512 + 1 * q.val = q.val; rw [e1]; omega))

theorem block1_eq (c : Dev nD) (t : Fin cfg1.N) (p : Fin 2000) (q : Fin 512) (r : Fin 8000) (hr : r.val = t.val * 2000 + p.val) :
    out1_4 (F := Ideal) (iblk1 V c 0 t) (iblk1 V c 1 t) (iblk1 V c 2 t) (iblk1 V c 3 t) (ix2 p q) = G1 V c (ix2 r q) := by
  refine (out1_4_apply (iblk1 V c 0 t) (iblk1 V c 1 t) (iblk1 V c 2 t) (iblk1 V c 3 t) p q).trans ?_
  rw [G1_apply, iblk1_2_apply V c t p q r hr, iblk1_3_apply V c t q]
  congr 2
  refine Finset.sum_congr rfl fun k _ => ?_
  rw [iblk1_0_apply V c t p k r hr, iblk1_1_apply V c t k q]

theorem block1_eq_idx (c : Dev nD) (t : Fin cfg1.N) (j : S2000x512.Idx) (i : S8000x512.Idx)
    (h0 : (i 0).val = t.val * 2000 + (j 0).val) (h1 : (i 1).val = (j 1).val) :
    out1_4 (F := Ideal) (iblk1 V c 0 t) (iblk1 V c 1 t) (iblk1 V c 2 t) (iblk1 V c 3 t) j = G1 V c i := by
  obtain ⟨p, q, rfl⟩ : ∃ (p : Fin 2000) (q : Fin 512), j = ix2 p q := ⟨j 0, j 1, eq_ix2 j⟩
  obtain ⟨r, q', rfl⟩ : ∃ (r : Fin 8000) (q' : Fin 512), i = ix2 r q' := ⟨i 0, i 1, eq_ix2 i⟩
  obtain rfl : q' = q := Fin.ext h1
  exact block1_eq V c t p q' r h0

theorem flushed1_eq (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  obtain ⟨-, -, -, -, -, -, -, -, e0, e1⟩ := idx_facts1 t
  funext j
  show out1_4 (F := Ideal) (iblk1 V c 0 t) (iblk1 V c 1 t) (iblk1 V c 2 t) (iblk1 V c 3 t) j = G1 V c (((cfg1.win 4).blk t).view.emb j)
  refine block1_eq_idx V c t j _ ?_ ?_
  · show win1_4.index t (0 : Fin 2) * 2000 + 1 * (j 0).val = _; rw [e0]; omega
  · show win1_4.index t (1 : Fin 2) * 512 + 1 * (j 1).val = _; rw [e1]; omega

theorem mem_blk1 (t : Fin cfg1.N) (i : S8000x512.Idx) :
    i ∈ ((cfg1.win 4).blk t).view.set ↔ ∀ a : Fin 2, win1_4.index t a * S2000x512.size a ≤ (i a).val ∧ (i a).val < win1_4.index t a * S2000x512.size a + S2000x512.size a := by
  show i ∈ ((View.whole main_v11).slice (win1_4.rect t)).set ↔ _
  rw [View.set_slice_whole, Rect.mem_set_unit]
  exact Iff.rfl

theorem cover1 (i : S8000x512.Idx) : ∃ t : Fin cfg1.N, (cfg1.win 4).flush t = true ∧ i ∈ ((cfg1.win 4).blk t).view.set := by
  have hi0 : (i 0).val < 8000 := (i 0).isLt
  have hi1 : (i 1).val < 512 := (i 1).isLt
  have hN : cfg1.N = 4 := N_1
  have hlt : (i 0).val / 2000 < cfg1.N := by rw [hN]; omega
  obtain ⟨-, -, -, -, -, -, -, -, e0, e1⟩ := idx_facts1 ⟨(i 0).val / 2000, hlt⟩
  refine ⟨⟨(i 0).val / 2000, hlt⟩, flush1_4 _, ?_⟩
  rw [mem_blk1]
  intro a
  match a with
  | ⟨0, _⟩ =>
    show win1_4.index ⟨(i 0).val / 2000, hlt⟩ (0 : Fin 2) * 2000 ≤ (i 0).val ∧ (i 0).val < win1_4.index ⟨(i 0).val / 2000, hlt⟩ (0 : Fin 2) * 2000 + 2000
    rw [e0]; dsimp only; omega
  | ⟨1, _⟩ =>
    show win1_4.index ⟨(i 0).val / 2000, hlt⟩ (1 : Fin 2) * 512 ≤ (i 1).val ∧ (i 1).val < win1_4.index ⟨(i 0).val / 2000, hlt⟩ (1 : Fin 2) * 512 + 512
    rw [e1]; omega

theorem arr1_out (c : Dev nD) : (dat1 (F := Ideal) V c).arrAt 4 cfg1.N
    = fun y => Cert.Spec.encK (Cert.Cur.cur2 (V c main_v7)) (Cert.Cur.cur2 (V c main_v8)) (Cert.Cur.cur2 (V c main_v9)) (Cert.Cur.row (V c main_v10)) (y 0) (y 1) :=
  (dat1 V c).arrAt_eq_of_cover 4 (G1 V c) (fun t _ => flushed1_eq V c t) cover1

end Value1

end Cert.KernelIdeal.HandValue

end
-- ==== Proof.KI.Reg2Val.lean ====
import proofs.«401578_j53953379173285_3_alg».proof.Proof.KI.Reg2
import proofs.«401578_j53953379173285_3_alg».proof.Proof.KI.ValShared
import proofs.«401578_j53953379173285_3_alg».proof.Proof.Spec
import proofs.«401578_j53953379173285_3_alg».proof.Proof.Cur
import Idealize.ShloMosaic.Lib.ValueIdx
import Idealize.ShloMosaic.PureOps.Ideal.Laws
import Idealize.ShloMosaic.Lib.Pipeline.Value
import Idealize.ShloMosaic.Lib.ValueLayout
import Mathlib.Algebra.BigOperators.Fin
import Mathlib.Logic.Equiv.Fin.Basic

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

namespace R2

open L1

theorem accStep_apply (acc : FVec Ideal S400x512 .f32) (r : FVec Ideal S400x2048 .bf16) (x : FVec Ideal S2048x512 .bf16)
    (p : Fin 400) (q : Fin 512) :
    k2_pay2 (F := Ideal) acc r x (ix2 p q) = acc (ix2 p q) + ∑ s : Fin 2048, r (ix2 p s) * x (ix2 s q) := by
  unfold k2_pay2
  simp only [shapeCast_self]
  refine congrArg (acc (ix2 p q) + ·) ?_
  exact (Ideal.matmul_constant_zero_apply DA none r x (ix2 p q)).trans (mmA r x p q)

theorem acc0_apply (p : Fin 400) (q : Fin 512) : (k2_pay1 (F := Ideal)) (ix2 p q) = 0 := by
  unfold k2_pay1
  simp only [shapeCast_self]
  exact Ideal.ofBits_zero_f32

theorem epi_apply (acc : FVec Ideal S400x512 .f32) (wl : FVec Ideal S512x512 .bf16) (xd : FVec Ideal S400x512 .bf16)
    (wr : FVec Ideal S512x512 .bf16) (b : FVec Ideal S1x512 .f32) (p : Fin 400) (q : Fin 512) :
    k2_pay3 (F := Ideal) acc wl xd wr b (ix2 p q)
      = max ((∑ f : Fin 512, acc (ix2 p f) * wl (ix2 f q)) + (∑ f : Fin 512, xd (ix2 p f) * wr (ix2 f q)) + b (ix2 (0 : Fin 1) q)) 0 := by
  unfold k2_pay3
  simp only [shapeCast_self]
  refine congrArg₂ max (congrArg₂ (· + ·) (congrArg₂ (· + ·) ?_ ?_) ?_) ?_
  · exact (Ideal.matmul_constant_zero_apply DB none (truncf .bf16 acc bitsLt_bf16_f32) wl (ix2 p q)).trans
      (mmB (truncf .bf16 acc bitsLt_bf16_f32) wl p q)
  · exact (Ideal.matmul_constant_zero_apply DB none xd wr (ix2 p q)).trans (mmB xd wr p q)
  · exact broadcastTo_1b_ab_apply b broadcasts_S1x512_S400x512 p q
  · exact Ideal.ofBits_zero_f32

section Region2
variable (V : (c : Dev nD) → (b : Ref sig .tc) → Buf (Elt Ideal) ((c : Thread nD τ).loc b))

abbrev rblk (c : Dev nD) (t : Fin cfg2.N) : FVec Ideal S400x2048 .bf16 := iblk2 V c 0 t
abbrev xblk (c : Dev nD) (t : Fin cfg2.N) : FVec Ideal S2048x512 .bf16 := iblk2 V c 1 t
abbrev dblk (c : Dev nD) (t : Fin cfg2.N) : FVec Ideal S400x512 .bf16 := iblk2 V c 2 t
abbrev wlblk (c : Dev nD) (t : Fin cfg2.N) : FVec Ideal S512x512 .bf16 := iblk2 V c 3 t
abbrev wrblk (c : Dev nD) (t : Fin cfg2.N) : FVec Ideal S512x512 .bf16 := iblk2 V c 4 t
abbrev bblk (c : Dev nD) (t : Fin cfg2.N) : FVec Ideal S1x512 .f32 := iblk2 V c 5 t
abbrev Rarr (c : Dev nD) : FVec Ideal S8000x20480 .bf16 := V c main_v42
abbrev Xarr (c : Dev nD) : FVec Ideal S20480x512 .bf16 := V c main_v74
abbrev Darr (c : Dev nD) : FVec Ideal S8000x512 .bf16 := V c main_v11
abbrev WLarr (c : Dev nD) : FVec Ideal S512x512 .bf16 := V c main_v76
abbrev WRarr (c : Dev nD) : FVec Ideal S512x512 .bf16 := V c main_v77
abbrev Barr (c : Dev nD) : FVec Ideal S1x512 .f32 := V c main_v78

theorem idx_facts : ∀ t : Fin cfg2.N,
    (win2_0.index t 0 = t.val / 10 ∧ win2_0.index t 1 = t.val % 10)
    ∧ (win2_1.index t 0 = t.val % 10 ∧ win2_1.index t 1 = 0)
    ∧ (win2_2.index t 0 = t.val / 10 ∧ win2_2.index t 1 = 0)
    ∧ (win2_3.index t 0 = 0 ∧ win2_3.index t 1 = 0)
    ∧ (win2_4.index t 0 = 0 ∧ win2_4.index t 1 = 0)
    ∧ (win2_5.index t 0 = 0 ∧ win2_5.index t 1 = 0)
    ∧ (win2_6.index t 0 = t.val / 10 ∧ win2_6.index t 1 = 0) :=
  (by decide +kernel : ∀ t : Fin grid2.N, _)

theorem lt_N (t : Fin cfg2.N) : t.val < 200 := N_2 ▸ t.isLt

theorem rblk_apply (c : Dev nD) (t : Fin cfg2.N) (i k : ℕ) (hi : t.val / 10 = i) (hk : t.val % 10 = k) (p : Fin 400) (s : Fin 2048) :
    rblk V c t (ix2 p s) = natRd (Rarr V c) (400 * i + p.val) (2048 * k + s.val) := by
  have hf := (idx_facts t).1
  have hN := lt_N t
  subst hi hk
  refine Eq.trans ?_ (natRd_of_lt (Rarr V c) ⟨400 * (t.val / 10) + p.val, by omega⟩ ⟨2048 * (t.val % 10) + s.val, by omega⟩).symm
  unfold rblk iblk2
  rw [View.read_apply]
  exact congrArg (V c main_v42) (ix2_ext (by show win2_0.index t 0 * 400 + 1 * p.val = 400 * (t.val / 10) + p.val; rw [hf.1]; omega) (by show win2_0.index t 1 * 2048 + 1 * s.val = 2048 * (t.val % 10) + s.val; rw [hf.2]; omega))

theorem xblk_apply (c : Dev nD) (t : Fin cfg2.N) (k : ℕ) (hk : t.val % 10 = k) (s : Fin 2048) (q : Fin 512) :
    xblk V c t (ix2 s q) = natRd (Xarr V c) (2048 * k + s.val) q.val := by
  have hf := (idx_facts t).2.1
  have hN := lt_N t
  subst hk
  refine Eq.trans ?_ (natRd_of_lt (Xarr V c) ⟨2048 * (t.val % 10) + s.val, by omega⟩ q).symm
  unfold xblk iblk2
  rw [View.read_apply]
  exact congrArg (V c main_v74) (ix2_ext (by show win2_1.index t 0 * 2048 + 1 * s.val = 2048 * (t.val % 10) + s.val; rw [hf.1]; omega) (by show win2_1.index t 1 * 512 + 1 * q.val = q.val; rw [hf.2]; omega))

theorem dblk_apply (c : Dev nD) (t : Fin cfg2.N) (p : Fin 400) (f : Fin 512) (r : Fin 8000) (hr : r.val = 400 * (t.val / 10) + p.val) :
    dblk V c t (ix2 p f) = Darr V c (ix2 r f) := by
  have hf := (idx_facts t).2.2.1
  unfold dblk iblk2
  rw [View.read_apply]
  exact congrArg (V c main_v11) (ix2_ext (by show win2_2.index t 0 * 400 + 1 * p.val = r.val; rw [hf.1, hr]; omega) (by show win2_2.index t 1 * 512 + 1 * f.val = f.val; rw [hf.2]; omega))

theorem wlblk_apply (c : Dev nD) (t : Fin cfg2.N) (f : Fin 512) (q : Fin 512) : wlblk V c t (ix2 f q) = WLarr V c (ix2 f q) := by
  have hf := (idx_facts t).2.2.2.1
  unfold wlblk iblk2
  rw [View.read_apply]
  exact congrArg (V c main_v76) (ix2_ext (by show win2_3.index t 0 * 512 + 1 * f.val = f.val; rw [hf.1]; omega) (by show win2_3.index t 1 * 512 + 1 * q.val = q.val; rw [hf.2]; omega))

theorem wrblk_apply (c : Dev nD) (t : Fin cfg2.N) (f : Fin 512) (q : Fin 512) : wrblk V c t (ix2 f q) = WRarr V c (ix2 f q) := by
  have hf := (idx_facts t).2.2.2.2.1
  unfold wrblk iblk2
  rw [View.read_apply]
  exact congrArg (V c main_v77) (ix2_ext (by show win2_4.index t 0 * 512 + 1 * f.val = f.val; rw [hf.1]; omega) (by show win2_4.index t 1 * 512 + 1 * q.val = q.val; rw [hf.2]; omega))

theorem bblk_apply (c : Dev nD) (t : Fin cfg2.N) (q : Fin 512) : bblk V c t (ix2 (0 : Fin 1) q) = Barr V c (ix2 (0 : Fin 1) q) := by
  have hf := (idx_facts t).2.2.2.2.2.1
  unfold bblk iblk2
  rw [View.read_apply]
  exact congrArg (V c main_v78) (ix2_ext (by show win2_5.index t 0 * 1 + 1 * 0 = 0; rw [hf.1]) (by show win2_5.index t 1 * 512 + 1 * q.val = q.val; rw [hf.2]; omega))

theorem sAt_apply (c : Dev nD) : ∀ (k : ℕ) (t : Fin cfg2.N) (i : ℕ), t.val / 10 = i → t.val % 10 = k → ∀ (p : Fin 400) (q : Fin 512),
    (sAt2 V c t.val t.isLt : FVec Ideal S400x512 .f32) (ix2 p q)
      = ∑ k' ∈ Finset.range (k + 1), ∑ s : Fin 2048,
          natRd (Rarr V c) (400 * i + p.val) (2048 * k' + s.val) * natRd (Xarr V c) (2048 * k' + s.val) q.val := by
  intro k
  induction k with
  | zero =>
    intro t i hi hk p q
    rw [sAt2_first V c t hk]
    refine (accStep_apply (acc0_2 (F := Ideal)) (rblk V c t) (xblk V c t) p q).trans ?_
    rw [show (acc0_2 (F := Ideal)) (ix2 p q) = 0 from acc0_apply p q, zero_add, Finset.sum_range_one]
    refine Finset.sum_congr rfl fun s _ => ?_
    rw [rblk_apply V c t i 0 hi hk p s, xblk_apply V c t 0 hk s q]
  | succ k ih =>
    intro t i hi hk p q
    have hN := lt_N t
    have hlt : t.val - 1 < cfg2.N := Nat.lt_of_le_of_lt (Nat.sub_le _ _) t.isLt
    rw [sAt2_next V c t (by omega)]
    refine (accStep_apply (sAt2 V c (t.val - 1) hlt) (rblk V c t) (xblk V c t) p q).trans ?_
    rw [Finset.sum_range_succ]
    refine congrArg₂ (· + ·) ?_ ?_
    · exact ih ⟨t.val - 1, hlt⟩ i (by show (t.val - 1) / 10 = i; omega) (by show (t.val - 1) % 10 = k; omega) p q
    · refine Finset.sum_congr rfl fun s _ => ?_
      rw [rblk_apply V c t i (k + 1) hi hk p s, xblk_apply V c t (k + 1) hk s q]

abbrev G2 (c : Dev nD) : FVec Ideal S8000x512 .bf16 := fun y =>
  Cert.Spec.relu (Cert.Spec.sageK (Cert.Spec.meanK (Cert.Cur.cur2 (V c main_v42)) (Cert.Cur.cur2 (V c main_v74)))
    (Cert.Cur.cur2 (V c main_v11)) (Cert.Cur.cur2 (V c main_v76)) (Cert.Cur.cur2 (V c main_v77)) (Cert.Cur.row (V c main_v78))) (y 0) (y 1)

theorem oAt_apply (c : Dev nD) (t : Fin cfg2.N) (h9 : t.val % 10 = 9) (p : Fin 400) (q : Fin 512) (r : Fin 8000)
    (hr : r.val = 400 * (t.val / 10) + p.val) :
    (oAt2 V c t : FVec Ideal S400x512 .bf16) (ix2 p q) = G2 V c (ix2 r q) := by
  unfold oAt2
  refine (epi_apply (sAt2 V c t.val t.isLt) (wlblk V c t) (dblk V c t) (wrblk V c t) (bblk V c t) p q).trans ?_
  show _ = max (Cert.Spec.mm (Cert.Spec.mm (Cert.Cur.cur2 (Rarr V c)) (Cert.Cur.cur2 (Xarr V c))) (Cert.Cur.cur2 (WLarr V c)) r q
      + Cert.Spec.mm (Cert.Cur.cur2 (Darr V c)) (Cert.Cur.cur2 (WRarr V c)) r q + Cert.Cur.row (Barr V c) q) 0
  refine congrArg₂ max (congrArg₂ (· + ·) (congrArg₂ (· + ·) ?_ ?_) ?_) rfl
  · refine Finset.sum_congr rfl fun f _ => ?_
    rw [wlblk_apply V c t f q]
    refine congrArg (· * WLarr V c (ix2 f q)) ?_
    rw [sAt_apply V c 9 t (t.val / 10) rfl h9 p f]
    refine (sum_tiles (fun n => natRd (Rarr V c) (400 * (t.val / 10) + p.val) n * natRd (Xarr V c) n f.val) 10 2048 20480 rfl).trans ?_
    refine Finset.sum_congr rfl fun s' _ => ?_
    show natRd (Rarr V c) (400 * (t.val / 10) + p.val) s'.val * natRd (Xarr V c) s'.val f.val = Rarr V c (ix2 r s') * Xarr V c (ix2 s' f)
    rw [← hr, natRd_of_lt (Rarr V c) r s', natRd_of_lt (Xarr V c) s' f]
  · refine Finset.sum_congr rfl fun f _ => ?_
    rw [dblk_apply V c t p f r hr, wrblk_apply V c t f q]
    rfl
  · exact bblk_apply V c t q

theorem flushed_eq (c : Dev nD) (t : Fin cfg2.N) (hf : (cfg2.win 6).flush t = true) :
    (dat2 V c).flushed 6 t = ((cfg2.win 6).blk t).view.read (Elt Ideal) (G2 V c) := by
  have h9 : t.val % 10 = 9 := (flush2_6 t).mp hf
  have hi := (idx_facts t).2.2.2.2.2.2
  have hN := lt_N t
  show (cfg2.win 6).cut (grid2.coords t) ((dat2 V c).after 6 t) = _
  rw [after2_6]
  funext j
  obtain ⟨p, q, rfl⟩ : ∃ (p : Fin 400) (q : Fin 512), j = ix2 p q := ⟨j 0, j 1, eq_ix2 j⟩
  rw [View.read_apply]
  show (oAt2 V c t : FVec Ideal S400x512 .bf16) (ix2 p q) = G2 V c (((cfg2.win 6).blk t).view.emb (ix2 p q))
  refine (oAt_apply V c t h9 p q ⟨400 * (t.val / 10) + p.val, by omega⟩ rfl).trans ?_
  exact congrArg (G2 V c) (ix2_ext (by show 400 * (t.val / 10) + p.val = win2_6.index t 0 * 400 + 1 * p.val; rw [hi.1]; omega) (by show q.val = win2_6.index t 1 * 512 + 1 * q.val; rw [hi.2]; omega))

theorem cover (i : S8000x512.Idx) : ∃ t : Fin cfg2.N, (cfg2.win 6).flush t = true ∧ i ∈ ((cfg2.win 6).blk t).view.set := by
  have h0 : (i 0).val < 8000 := (i 0).isLt
  have h1 : (i 1).val < 512 := (i 1).isLt
  obtain ⟨t, ht⟩ : ∃ t : Fin cfg2.N, t.val = 10 * ((i 0).val / 400) + 9 :=
    ⟨⟨10 * ((i 0).val / 400) + 9, by rw [show cfg2.N = 200 from N_2]; omega⟩, rfl⟩
  have hi := (idx_facts t).2.2.2.2.2.2
  refine ⟨t, (flush2_6 t).mpr (by omega), ?_⟩
  show i ∈ ((View.whole main_v79).slice (win2_6.rect t)).set
  rw [View.set_slice_whole, Rect.mem_set_unit]
  intro a
  match a with
  | ⟨0, _⟩ => show win2_6.index t 0 * 400 ≤ (i 0).val ∧ (i 0).val < win2_6.index t 0 * 400 + 400
              rw [hi.1]; omega
  | ⟨1, _⟩ => show win2_6.index t 1 * 512 ≤ (i 1).val ∧ (i 1).val < win2_6.index t 1 * 512 + 512
              rw [hi.2]; omega

end Region2

end R2

theorem arr2_out (V : (c : Dev nD) → (b : Ref sig .tc) → Buf (Elt Ideal) ((c : Thread nD τ).loc b)) (c : Dev nD) :
    (dat2 (F := Ideal) V c).arrAt 6 cfg2.N = fun y =>
      Cert.Spec.relu (Cert.Spec.sageK (Cert.Spec.meanK (Cert.Cur.cur2 (V c main_v42)) (Cert.Cur.cur2 (V c main_v74)))
        (Cert.Cur.cur2 (V c main_v11)) (Cert.Cur.cur2 (V c main_v76)) (Cert.Cur.cur2 (V c main_v77)) (Cert.Cur.row (V c main_v78))) (y 0) (y 1) :=
  (dat2 V c).arrAt_eq_of_cover 6 (R2.G2 V c) (R2.flushed_eq V c) R2.cover

end Cert.KernelIdeal.HandValue

end
-- ==== Proof.KI.Reg3Val.lean ====
import proofs.«401578_j53953379173285_3_alg».proof.Proof.KI.Reg3
import proofs.«401578_j53953379173285_3_alg».proof.Proof.KI.ValShared
import proofs.«401578_j53953379173285_3_alg».proof.Proof.Spec
import proofs.«401578_j53953379173285_3_alg».proof.Proof.Cur
import Idealize.ShloMosaic.Lib.ValueIdx
import Idealize.ShloMosaic.PureOps.Ideal.Laws
import Idealize.ShloMosaic.Lib.Pipeline.Value
import Idealize.ShloMosaic.Lib.ValueLayout
import Mathlib.Algebra.BigOperators.Fin
import Mathlib.Logic.Equiv.Fin.Basic

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

namespace R3

open L1

theorem accStep_apply (acc : FVec Ideal S400x512 .f32) (r : FVec Ideal S400x2048 .bf16) (x : FVec Ideal S2048x512 .bf16)
    (p : Fin 400) (q : Fin 512) :
    k3_pay2 (F := Ideal) acc r x (ix2 p q) = acc (ix2 p q) + ∑ s : Fin 2048, r (ix2 p s) * x (ix2 s q) := by
  unfold k3_pay2
  simp only [shapeCast_self]
  refine congrArg (acc (ix2 p q) + ·) ?_
  exact (Ideal.matmul_constant_zero_apply DA none r x (ix2 p q)).trans (mmA r x p q)

theorem acc0_apply (p : Fin 400) (q : Fin 512) : (k3_pay1 (F := Ideal)) (ix2 p q) = 0 := by
  unfold k3_pay1
  simp only [shapeCast_self]
  exact Ideal.ofBits_zero_f32

theorem epi_apply (acc : FVec Ideal S400x512 .f32) (wl : FVec Ideal S512x512 .bf16) (xd : FVec Ideal S400x512 .bf16)
    (wr : FVec Ideal S512x512 .bf16) (b : FVec Ideal S1x512 .f32) (p : Fin 400) (q : Fin 512) :
    k3_pay3 (F := Ideal) acc wl xd wr b (ix2 p q)
      = max ((∑ f : Fin 512, acc (ix2 p f) * wl (ix2 f q)) + (∑ f : Fin 512, xd (ix2 p f) * wr (ix2 f q)) + b (ix2 (0 : Fin 1) q)) 0 := by
  unfold k3_pay3
  simp only [shapeCast_self]
  refine congrArg₂ max (congrArg₂ (· + ·) (congrArg₂ (· + ·) ?_ ?_) ?_) ?_
  · exact (Ideal.matmul_constant_zero_apply DB none (truncf .bf16 acc bitsLt_bf16_f32) wl (ix2 p q)).trans
      (mmB (truncf .bf16 acc bitsLt_bf16_f32) wl p q)
  · exact (Ideal.matmul_constant_zero_apply DB none xd wr (ix2 p q)).trans (mmB xd wr p q)
  · exact broadcastTo_1b_ab_apply b broadcasts_S1x512_S400x512 p q
  · exact Ideal.ofBits_zero_f32

section Region3
variable (V : (c : Dev nD) → (b : Ref sig .tc) → Buf (Elt Ideal) ((c : Thread nD τ).loc b))

abbrev rblk (c : Dev nD) (t : Fin cfg3.N) : FVec Ideal S400x2048 .bf16 := iblk3 V c 0 t
abbrev xblk (c : Dev nD) (t : Fin cfg3.N) : FVec Ideal S2048x512 .bf16 := iblk3 V c 1 t
abbrev dblk (c : Dev nD) (t : Fin cfg3.N) : FVec Ideal S400x512 .bf16 := iblk3 V c 2 t
abbrev wlblk (c : Dev nD) (t : Fin cfg3.N) : FVec Ideal S512x512 .bf16 := iblk3 V c 3 t
abbrev wrblk (c : Dev nD) (t : Fin cfg3.N) : FVec Ideal S512x512 .bf16 := iblk3 V c 4 t
abbrev bblk (c : Dev nD) (t : Fin cfg3.N) : FVec Ideal S1x512 .f32 := iblk3 V c 5 t
abbrev Rarr (c : Dev nD) : FVec Ideal S20000x8192 .bf16 := V c main_v73
abbrev Xarr (c : Dev nD) : FVec Ideal S8192x512 .bf16 := V c main_v75
abbrev Darr (c : Dev nD) : FVec Ideal S20000x512 .bf16 := V c main_v6
abbrev WLarr (c : Dev nD) : FVec Ideal S512x512 .bf16 := V c main_v80
abbrev WRarr (c : Dev nD) : FVec Ideal S512x512 .bf16 := V c main_v81
abbrev Barr (c : Dev nD) : FVec Ideal S1x512 .f32 := V c main_v82

theorem idx_facts : ∀ t : Fin cfg3.N,
    (win3_0.index t 0 = t.val / 4 ∧ win3_0.index t 1 = t.val % 4)
    ∧ (win3_1.index t 0 = t.val % 4 ∧ win3_1.index t 1 = 0)
    ∧ (win3_2.index t 0 = t.val / 4 ∧ win3_2.index t 1 = 0)
    ∧ (win3_3.index t 0 = 0 ∧ win3_3.index t 1 = 0)
    ∧ (win3_4.index t 0 = 0 ∧ win3_4.index t 1 = 0)
    ∧ (win3_5.index t 0 = 0 ∧ win3_5.index t 1 = 0)
    ∧ (win3_6.index t 0 = t.val / 4 ∧ win3_6.index t 1 = 0) :=
  (by decide +kernel : ∀ t : Fin grid3.N, _)

theorem lt_N (t : Fin cfg3.N) : t.val < 200 := N_3 ▸ t.isLt

theorem rblk_apply (c : Dev nD) (t : Fin cfg3.N) (i k : ℕ) (hi : t.val / 4 = i) (hk : t.val % 4 = k) (p : Fin 400) (s : Fin 2048) :
    rblk V c t (ix2 p s) = natRd (Rarr V c) (400 * i + p.val) (2048 * k + s.val) := by
  have hf := (idx_facts t).1
  have hN := lt_N t
  subst hi hk
  refine Eq.trans ?_ (natRd_of_lt (Rarr V c) ⟨400 * (t.val / 4) + p.val, by omega⟩ ⟨2048 * (t.val % 4) + s.val, by omega⟩).symm
  unfold rblk iblk3
  rw [View.read_apply]
  exact congrArg (V c main_v73) (ix2_ext (by show win3_0.index t 0 * 400 + 1 * p.val = 400 * (t.val / 4) + p.val; rw [hf.1]; omega) (by show win3_0.index t 1 * 2048 + 1 * s.val = 2048 * (t.val % 4) + s.val; rw [hf.2]; omega))

theorem xblk_apply (c : Dev nD) (t : Fin cfg3.N) (k : ℕ) (hk : t.val % 4 = k) (s : Fin 2048) (q : Fin 512) :
    xblk V c t (ix2 s q) = natRd (Xarr V c) (2048 * k + s.val) q.val := by
  have hf := (idx_facts t).2.1
  have hN := lt_N t
  subst hk
  refine Eq.trans ?_ (natRd_of_lt (Xarr V c) ⟨2048 * (t.val % 4) + s.val, by omega⟩ q).symm
  unfold xblk iblk3
  rw [View.read_apply]
  exact congrArg (V c main_v75) (ix2_ext (by show win3_1.index t 0 * 2048 + 1 * s.val = 2048 * (t.val % 4) + s.val; rw [hf.1]; omega) (by show win3_1.index t 1 * 512 + 1 * q.val = q.val; rw [hf.2]; omega))

theorem dblk_apply (c : Dev nD) (t : Fin cfg3.N) (p : Fin 400) (f : Fin 512) (r : Fin 20000) (hr : r.val = 400 * (t.val / 4) + p.val) :
    dblk V c t (ix2 p f) = Darr V c (ix2 r f) := by
  have hf := (idx_facts t).2.2.1
  unfold dblk iblk3
  rw [View.read_apply]
  exact congrArg (V c main_v6) (ix2_ext (by show win3_2.index t 0 * 400 + 1 * p.val = r.val; rw [hf.1, hr]; omega) (by show win3_2.index t 1 * 512 + 1 * f.val = f.val; rw [hf.2]; omega))

theorem wlblk_apply (c : Dev nD) (t : Fin cfg3.N) (f : Fin 512) (q : Fin 512) : wlblk V c t (ix2 f q) = WLarr V c (ix2 f q) := by
  have hf := (idx_facts t).2.2.2.1
  unfold wlblk iblk3
  rw [View.read_apply]
  exact congrArg (V c main_v80) (ix2_ext (by show win3_3.index t 0 * 512 + 1 * f.val = f.val; rw [hf.1]; omega) (by show win3_3.index t 1 * 512 + 1 * q.val = q.val; rw [hf.2]; omega))

theorem wrblk_apply (c : Dev nD) (t : Fin cfg3.N) (f : Fin 512) (q : Fin 512) : wrblk V c t (ix2 f q) = WRarr V c (ix2 f q) := by
  have hf := (idx_facts t).2.2.2.2.1
  unfold wrblk iblk3
  rw [View.read_apply]
  exact congrArg (V c main_v81) (ix2_ext (by show win3_4.index t 0 * 512 + 1 * f.val = f.val; rw [hf.1]; omega) (by show win3_4.index t 1 * 512 + 1 * q.val = q.val; rw [hf.2]; omega))

theorem bblk_apply (c : Dev nD) (t : Fin cfg3.N) (q : Fin 512) : bblk V c t (ix2 (0 : Fin 1) q) = Barr V c (ix2 (0 : Fin 1) q) := by
  have hf := (idx_facts t).2.2.2.2.2.1
  unfold bblk iblk3
  rw [View.read_apply]
  exact congrArg (V c main_v82) (ix2_ext (by show win3_5.index t 0 * 1 + 1 * 0 = 0; rw [hf.1]) (by show win3_5.index t 1 * 512 + 1 * q.val = q.val; rw [hf.2]; omega))

theorem sAt_apply (c : Dev nD) : ∀ (k : ℕ) (t : Fin cfg3.N) (i : ℕ), t.val / 4 = i → t.val % 4 = k → ∀ (p : Fin 400) (q : Fin 512),
    (sAt3 V c t.val t.isLt : FVec Ideal S400x512 .f32) (ix2 p q)
      = ∑ k' ∈ Finset.range (k + 1), ∑ s : Fin 2048,
          natRd (Rarr V c) (400 * i + p.val) (2048 * k' + s.val) * natRd (Xarr V c) (2048 * k' + s.val) q.val := by
  intro k
  induction k with
  | zero =>
    intro t i hi hk p q
    rw [sAt3_first V c t hk]
    refine (accStep_apply (acc0_3 (F := Ideal)) (rblk V c t) (xblk V c t) p q).trans ?_
    rw [show (acc0_3 (F := Ideal)) (ix2 p q) = 0 from acc0_apply p q, zero_add, Finset.sum_range_one]
    refine Finset.sum_congr rfl fun s _ => ?_
    rw [rblk_apply V c t i 0 hi hk p s, xblk_apply V c t 0 hk s q]
  | succ k ih =>
    intro t i hi hk p q
    have hN := lt_N t
    have hlt : t.val - 1 < cfg3.N := Nat.lt_of_le_of_lt (Nat.sub_le _ _) t.isLt
    rw [sAt3_next V c t (by omega)]
    refine (accStep_apply (sAt3 V c (t.val - 1) hlt) (rblk V c t) (xblk V c t) p q).trans ?_
    rw [Finset.sum_range_succ]
    refine congrArg₂ (· + ·) ?_ ?_
    · exact ih ⟨t.val - 1, hlt⟩ i (by show (t.val - 1) / 4 = i; omega) (by show (t.val - 1) % 4 = k; omega) p q
    · refine Finset.sum_congr rfl fun s _ => ?_
      rw [rblk_apply V c t i (k + 1) hi hk p s, xblk_apply V c t (k + 1) hk s q]

abbrev G3 (c : Dev nD) : FVec Ideal S20000x512 .bf16 := fun y =>
  Cert.Spec.relu (Cert.Spec.sageK (Cert.Spec.meanK (Cert.Cur.cur2 (V c main_v73)) (Cert.Cur.cur2 (V c main_v75)))
    (Cert.Cur.cur2 (V c main_v6)) (Cert.Cur.cur2 (V c main_v80)) (Cert.Cur.cur2 (V c main_v81)) (Cert.Cur.row (V c main_v82))) (y 0) (y 1)

theorem oAt_apply (c : Dev nD) (t : Fin cfg3.N) (h9 : t.val % 4 = 3) (p : Fin 400) (q : Fin 512) (r : Fin 20000)
    (hr : r.val = 400 * (t.val / 4) + p.val) :
    (oAt3 V c t : FVec Ideal S400x512 .bf16) (ix2 p q) = G3 V c (ix2 r q) := by
  unfold oAt3
  refine (epi_apply (sAt3 V c t.val t.isLt) (wlblk V c t) (dblk V c t) (wrblk V c t) (bblk V c t) p q).trans ?_
  show _ = max (Cert.Spec.mm (Cert.Spec.mm (Cert.Cur.cur2 (Rarr V c)) (Cert.Cur.cur2 (Xarr V c))) (Cert.Cur.cur2 (WLarr V c)) r q
      + Cert.Spec.mm (Cert.Cur.cur2 (Darr V c)) (Cert.Cur.cur2 (WRarr V c)) r q + Cert.Cur.row (Barr V c) q) 0
  refine congrArg₂ max (congrArg₂ (· + ·) (congrArg₂ (· + ·) ?_ ?_) ?_) rfl
  · refine Finset.sum_congr rfl fun f _ => ?_
    rw [wlblk_apply V c t f q]
    refine congrArg (· * WLarr V c (ix2 f q)) ?_
    rw [sAt_apply V c 3 t (t.val / 4) rfl h9 p f]
    refine (sum_tiles (fun n => natRd (Rarr V c) (400 * (t.val / 4) + p.val) n * natRd (Xarr V c) n f.val) 4 2048 8192 rfl).trans ?_
    refine Finset.sum_congr rfl fun s' _ => ?_
    show natRd (Rarr V c) (400 * (t.val / 4) + p.val) s'.val * natRd (Xarr V c) s'.val f.val = Rarr V c (ix2 r s') * Xarr V c (ix2 s' f)
    rw [← hr, natRd_of_lt (Rarr V c) r s', natRd_of_lt (Xarr V c) s' f]
  · refine Finset.sum_congr rfl fun f _ => ?_
    rw [dblk_apply V c t p f r hr, wrblk_apply V c t f q]
    rfl
  · exact bblk_apply V c t q

theorem flushed_eq (c : Dev nD) (t : Fin cfg3.N) (hf : (cfg3.win 6).flush t = true) :
    (dat3 V c).flushed 6 t = ((cfg3.win 6).blk t).view.read (Elt Ideal) (G3 V c) := by
  have h9 : t.val % 4 = 3 := (flush3_6 t).mp hf
  have hi := (idx_facts t).2.2.2.2.2.2
  have hN := lt_N t
  show (cfg3.win 6).cut (grid3.coords t) ((dat3 V c).after 6 t) = _
  rw [after3_6]
  funext j
  obtain ⟨p, q, rfl⟩ : ∃ (p : Fin 400) (q : Fin 512), j = ix2 p q := ⟨j 0, j 1, eq_ix2 j⟩
  rw [View.read_apply]
  show (oAt3 V c t : FVec Ideal S400x512 .bf16) (ix2 p q) = G3 V c (((cfg3.win 6).blk t).view.emb (ix2 p q))
  refine (oAt_apply V c t h9 p q ⟨400 * (t.val / 4) + p.val, by omega⟩ rfl).trans ?_
  exact congrArg (G3 V c) (ix2_ext (by show 400 * (t.val / 4) + p.val = win3_6.index t 0 * 400 + 1 * p.val; rw [hi.1]; omega) (by show q.val = win3_6.index t 1 * 512 + 1 * q.val; rw [hi.2]; omega))

theorem cover (i : S20000x512.Idx) : ∃ t : Fin cfg3.N, (cfg3.win 6).flush t = true ∧ i ∈ ((cfg3.win 6).blk t).view.set := by
  have h0 : (i 0).val < 20000 := (i 0).isLt
  have h1 : (i 1).val < 512 := (i 1).isLt
  obtain ⟨t, ht⟩ : ∃ t : Fin cfg3.N, t.val = 4 * ((i 0).val / 400) + 3 :=
    ⟨⟨4 * ((i 0).val / 400) + 3, by rw [show cfg3.N = 200 from N_3]; omega⟩, rfl⟩
  have hi := (idx_facts t).2.2.2.2.2.2
  refine ⟨t, (flush3_6 t).mpr (by omega), ?_⟩
  show i ∈ ((View.whole main_v83).slice (win3_6.rect t)).set
  rw [View.set_slice_whole, Rect.mem_set_unit]
  intro a
  match a with
  | ⟨0, _⟩ => show win3_6.index t 0 * 400 ≤ (i 0).val ∧ (i 0).val < win3_6.index t 0 * 400 + 400
              rw [hi.1]; omega
  | ⟨1, _⟩ => show win3_6.index t 1 * 512 ≤ (i 1).val ∧ (i 1).val < win3_6.index t 1 * 512 + 512
              rw [hi.2]; omega

end Region3

end R3

theorem arr3_out (V : (c : Dev nD) → (b : Ref sig .tc) → Buf (Elt Ideal) ((c : Thread nD τ).loc b)) (c : Dev nD) :
    (dat3 (F := Ideal) V c).arrAt 6 cfg3.N = fun y =>
      Cert.Spec.relu (Cert.Spec.sageK (Cert.Spec.meanK (Cert.Cur.cur2 (V c main_v73)) (Cert.Cur.cur2 (V c main_v75)))
        (Cert.Cur.cur2 (V c main_v6)) (Cert.Cur.cur2 (V c main_v80)) (Cert.Cur.cur2 (V c main_v81)) (Cert.Cur.row (V c main_v82))) (y 0) (y 1) :=
  (dat3 V c).arrAt_eq_of_cover 6 (R3.G3 V c) (R3.flushed_eq V c) R3.cover

end Cert.KernelIdeal.HandValue

end
-- ==== Proof.KI.HostValSmall.lean ====
import proofs.«401578_j53953379173285_3_alg».proof.Proof.Gen.KernelIdeal.Launch
import proofs.«401578_j53953379173285_3_alg».proof.Proof.Shared
import proofs.«401578_j53953379173285_3_alg».proof.Proof.Spec
import proofs.«401578_j53953379173285_3_alg».proof.Proof.Cur
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost

set_option maxRecDepth 16384

noncomputable section

namespace Cert.KernelIdeal.HandValue

open Cert.KernelIdeal Cert.KernelIdeal.Gen
open Idealize.ShloMosaic Idealize.ShloMosaic.ValueIdx Idealize.ShloMosaic.StableHlo
open Idealize.SL Idealize.SL.Sem

variable (W : Valuation τ sig (Elt Ideal))

theorem pad_rows_apply {n np K : ℕ} (hi : Fin 2 → ℕ) (x : (⟨2, ![n, K]⟩ : Shape).Idx → EReal) {u : Shape} (v : u.Idx → EReal)
    (h : (⟨2, ![n, K]⟩ : Shape).Pads (![0, 0] : Fin 2 → ℕ) hi ![0, 0] ⟨2, ![np, K]⟩) (hu : 0 < u.numel)
    (hv : v (Shape.Idx.first hu) = 0) (y : (⟨2, ![np, K]⟩ : Shape).Idx) :
    pad ⟨2, ![np, K]⟩ ![0, 0] hi ![0, 0] x v h hu y = Cert.Spec.padRows (nsp := np) (Cert.Cur.cur2 x) (y 0) (y 1) := by
  unfold Cert.Spec.padRows
  by_cases hy : (y 0).val < n
  · rw [dif_pos hy]
    exact pad_apply_of_inside _ _ _ x v h hu y (ix2 (⟨(y 0).val, hy⟩ : Fin n) (y 1 : Fin K)) (Fin.forall_fin_two.mpr ⟨by
      show (y 0).val = 0 + (y 0).val * (0 + 1); omega, by show (y 1).val = 0 + (y 1).val * (0 + 1); omega⟩)
  · rw [dif_neg hy, ← hv]
    exact pad_apply_of_not_inside _ _ _ x v h hu y 0 (fun h3 => hy (by
      have h4 : ((y 0).val - 0) / (0 + 1) < n := h3.2.2
      omega))

theorem sitofp_zero_first (z : S_.Idx → BitVec 32) (hz : z = constantI S_ 32 0#32) (hu : 0 < S_.numel) :
    (sitofp (F := Ideal) .bf16 z : S_.Idx → EReal) (Shape.Idx.first hu) = 0 := by
  subst hz
  show (((0#32 : BitVec 32).toInt : ℝ) : EReal) = 0
  simp

set_option maxHeartbeats 4000000 in

theorem take_v0 :
    (StableHlo.after (main_part0_ops0 (F := Ideal)) W (Proc.devRef .tc main_v0) : S20000x512.Idx → EReal)
      = Cert.Shared.takeM (F := Ideal) (W (Proc.devRef .tc main_arg10)) (W (Proc.devRef .tc main_arg2)) := by
  simp only [main_part0_ops0]; after_results_simp <;> (try simp only [TRef.ofBuf, TRef.toBuf, cast_eq]) <;> rfl

set_option maxHeartbeats 4000000 in

theorem take_v1 :
    (StableHlo.after (main_part0_ops1 (F := Ideal)) W (Proc.devRef .tc main_v1) : S8000x512.Idx → EReal)
      = Cert.Shared.takeD (F := Ideal) (W (Proc.devRef .tc main_arg11)) (W (Proc.devRef .tc main_arg3)) := by
  simp only [main_part0_ops1]; after_results_simp <;> (try simp only [TRef.ofBuf, TRef.toBuf, cast_eq]) <;> rfl

theorem ops2_v2 : (StableHlo.after (main_part0_ops2 (F := Ideal)) W (Proc.devRef .tc main_v2) : S20000x384.Idx → EReal)
    = (W (Proc.devRef .tc main_arg0) : S20000x384.Idx → EReal) := by
  simp only [main_part0_ops2]; after_results; rfl
theorem ops2_v3 : (StableHlo.after (main_part0_ops2 (F := Ideal)) W (Proc.devRef .tc main_v3) : S384x512.Idx → EReal)
    = (W (Proc.devRef .tc main_arg6) : S384x512.Idx → EReal) := by
  simp only [main_part0_ops2]; after_results; rfl
theorem ops2_v4 : (StableHlo.after (main_part0_ops2 (F := Ideal)) W (Proc.devRef .tc main_v4) : S20000x512.Idx → EReal)
    = (W (Proc.devRef .tc main_v0) : S20000x512.Idx → EReal) := by
  simp only [main_part0_ops2]; after_results; rfl
theorem ops2_v5 : Cert.Cur.row (StableHlo.after (main_part0_ops2 (F := Ideal)) W (Proc.devRef .tc main_v5) : S1x512.Idx → EReal)
    = Cert.Cur.cur1 (W (Proc.devRef .tc main_arg7) : S512.Idx → EReal) := by
  simp only [main_part0_ops2]; after_results; funext j; exact shapeCast_a_1a_apply _ _ 0 j

theorem ops3_v7 : (StableHlo.after (main_part0_ops3 (F := Ideal)) W (Proc.devRef .tc main_v7) : S8000x384.Idx → EReal)
    = (W (Proc.devRef .tc main_arg1) : S8000x384.Idx → EReal) := by
  simp only [main_part0_ops3]; after_results; rfl
theorem ops3_v8 : (StableHlo.after (main_part0_ops3 (F := Ideal)) W (Proc.devRef .tc main_v8) : S384x512.Idx → EReal)
    = (W (Proc.devRef .tc main_arg8) : S384x512.Idx → EReal) := by
  simp only [main_part0_ops3]; after_results; rfl
theorem ops3_v9 : (StableHlo.after (main_part0_ops3 (F := Ideal)) W (Proc.devRef .tc main_v9) : S8000x512.Idx → EReal)
    = (W (Proc.devRef .tc main_v1) : S8000x512.Idx → EReal) := by
  simp only [main_part0_ops3]; after_results; rfl
theorem ops3_v10 : Cert.Cur.row (StableHlo.after (main_part0_ops3 (F := Ideal)) W (Proc.devRef .tc main_v10) : S1x512.Idx → EReal)
    = Cert.Cur.cur1 (W (Proc.devRef .tc main_arg9) : S512.Idx → EReal) := by
  simp only [main_part0_ops3]; after_results; funext j; exact shapeCast_a_1a_apply _ _ 0 j

theorem p1ops4_v76 : (StableHlo.after (main_part1_ops4 (F := Ideal)) W (Proc.devRef .tc main_v76) : S512x512.Idx → EReal)
    = (W (Proc.devRef .tc main_arg12) : S512x512.Idx → EReal) := by
  simp only [main_part1_ops4]; after_results; rfl
theorem p1ops4_v77 : (StableHlo.after (main_part1_ops4 (F := Ideal)) W (Proc.devRef .tc main_v77) : S512x512.Idx → EReal)
    = (W (Proc.devRef .tc main_arg14) : S512x512.Idx → EReal) := by
  simp only [main_part1_ops4]; after_results; rfl
theorem p1ops4_v78 : Cert.Cur.row (StableHlo.after (main_part1_ops4 (F := Ideal)) W (Proc.devRef .tc main_v78) : S1x512.Idx → EReal)
    = Cert.Cur.cur1 (W (Proc.devRef .tc main_arg13) : S512.Idx → EReal) := by
  simp only [main_part1_ops4]; after_results; funext j; exact shapeCast_a_1a_apply _ _ 0 j

theorem p1ops5_v80 : (StableHlo.after (main_part1_ops5 (F := Ideal)) W (Proc.devRef .tc main_v80) : S512x512.Idx → EReal)
    = (W (Proc.devRef .tc main_arg15) : S512x512.Idx → EReal) := by
  simp only [main_part1_ops5]; after_results; rfl
theorem p1ops5_v81 : (StableHlo.after (main_part1_ops5 (F := Ideal)) W (Proc.devRef .tc main_v81) : S512x512.Idx → EReal)
    = (W (Proc.devRef .tc main_arg17) : S512x512.Idx → EReal) := by
  simp only [main_part1_ops5]; after_results; rfl
theorem p1ops5_v82 : Cert.Cur.row (StableHlo.after (main_part1_ops5 (F := Ideal)) W (Proc.devRef .tc main_v82) : S1x512.Idx → EReal)
    = Cert.Cur.cur1 (W (Proc.devRef .tc main_arg16) : S512.Idx → EReal) := by
  simp only [main_part1_ops5]; after_results; funext j; exact shapeCast_a_1a_apply _ _ 0 j

theorem p1ops10_v86 : (StableHlo.after (main_part1_ops10 (F := Ideal)) W (Proc.devRef .tc main_v86) : S512x256.Idx → EReal)
    = (W (Proc.devRef .tc main_arg18) : S512x256.Idx → EReal) := by
  simp only [main_part1_ops10]; after_results; rfl
theorem p1ops10_v87 : (StableHlo.after (main_part1_ops10 (F := Ideal)) W (Proc.devRef .tc main_v87) : S512x256.Idx → EReal)
    = (W (Proc.devRef .tc main_arg20) : S512x256.Idx → EReal) := by
  simp only [main_part1_ops10]; after_results; rfl
theorem p1ops10_v88 : Cert.Cur.row (StableHlo.after (main_part1_ops10 (F := Ideal)) W (Proc.devRef .tc main_v88) : S1x256.Idx → EReal)
    = Cert.Cur.cur1 (W (Proc.devRef .tc main_arg19) : S256.Idx → EReal) := by
  simp only [main_part1_ops10]; after_results; funext j; exact shapeCast_a_1a_apply _ _ 0 j

theorem p1ops11_v90 : (StableHlo.after (main_part1_ops11 (F := Ideal)) W (Proc.devRef .tc main_v90) : S512x256.Idx → EReal)
    = (W (Proc.devRef .tc main_arg21) : S512x256.Idx → EReal) := by
  simp only [main_part1_ops11]; after_results; rfl
theorem p1ops11_v91 : (StableHlo.after (main_part1_ops11 (F := Ideal)) W (Proc.devRef .tc main_v91) : S512x256.Idx → EReal)
    = (W (Proc.devRef .tc main_arg23) : S512x256.Idx → EReal) := by
  simp only [main_part1_ops11]; after_results; rfl
theorem p1ops11_v92 : Cert.Cur.row (StableHlo.after (main_part1_ops11 (F := Ideal)) W (Proc.devRef .tc main_v92) : S1x256.Idx → EReal)
    = Cert.Cur.cur1 (W (Proc.devRef .tc main_arg22) : S256.Idx → EReal) := by
  simp only [main_part1_ops11]; after_results; funext j; exact shapeCast_a_1a_apply _ _ 0 j

theorem p1ops0_c20 : (StableHlo.after (main_part1_ops0 (F := Ideal)) W (Proc.devRef .tc main_c_20) : S_.Idx → BitVec 32)
    = constantI S_ 32 0#32 := by
  simp only [main_part1_ops0]; after_results
theorem p1ops2_c21 : (StableHlo.after (main_part1_ops2 (F := Ideal)) W (Proc.devRef .tc main_c_21) : S_.Idx → BitVec 32)
    = constantI S_ 32 0#32 := by
  simp only [main_part1_ops2]; after_results
theorem p1ops6_c22 : (StableHlo.after (main_part1_ops6 (F := Ideal)) W (Proc.devRef .tc main_c_22) : S_.Idx → BitVec 32)
    = constantI S_ 32 0#32 := by
  simp only [main_part1_ops6]; after_results
theorem p1ops8_c23 : (StableHlo.after (main_part1_ops8 (F := Ideal)) W (Proc.devRef .tc main_c_23) : S_.Idx → BitVec 32)
    = constantI S_ 32 0#32 := by
  simp only [main_part1_ops8]; after_results

theorem pad_v74 (hz : (W (Proc.devRef .tc main_c_20) : S_.Idx → BitVec 32) = constantI S_ 32 0#32) :
    (StableHlo.after (main_part1_ops1 (F := Ideal)) W (Proc.devRef .tc main_v74) : S20480x512.Idx → EReal)
      = fun y => Cert.Spec.padRows (nsp := 20480) (Cert.Cur.cur2 (W (Proc.devRef .tc main_v6) : S20000x512.Idx → EReal)) (y 0) (y 1) := by
  simp only [main_part1_ops1]; after_results; funext y
  exact pad_rows_apply (n := 20000) (np := 20480) (K := 512) ![480, 0] _ _ pads_S20000x512_S20480x512_04800_000 h_S_ (sitofp_zero_first _ hz h_S_) y
theorem pad_v75 (hz : (W (Proc.devRef .tc main_c_21) : S_.Idx → BitVec 32) = constantI S_ 32 0#32) :
    (StableHlo.after (main_part1_ops3 (F := Ideal)) W (Proc.devRef .tc main_v75) : S8192x512.Idx → EReal)
      = fun y => Cert.Spec.padRows (nsp := 8192) (Cert.Cur.cur2 (W (Proc.devRef .tc main_v11) : S8000x512.Idx → EReal)) (y 0) (y 1) := by
  simp only [main_part1_ops3]; after_results; funext y
  exact pad_rows_apply (n := 8000) (np := 8192) (K := 512) ![192, 0] _ _ pads_S8000x512_S8192x512_01920_000 h_S_ (sitofp_zero_first _ hz h_S_) y
theorem pad_v84 (hz : (W (Proc.devRef .tc main_c_22) : S_.Idx → BitVec 32) = constantI S_ 32 0#32) :
    (StableHlo.after (main_part1_ops7 (F := Ideal)) W (Proc.devRef .tc main_v84) : S20480x512.Idx → EReal)
      = fun y => Cert.Spec.padRows (nsp := 20480) (Cert.Cur.cur2 (W (Proc.devRef .tc main_v83) : S20000x512.Idx → EReal)) (y 0) (y 1) := by
  simp only [main_part1_ops7]; after_results; funext y
  exact pad_rows_apply (n := 20000) (np := 20480) (K := 512) ![480, 0] _ _ pads_S20000x512_S20480x512_04800_000 h_S_ (sitofp_zero_first _ hz h_S_) y
theorem pad_v85 (hz : (W (Proc.devRef .tc main_c_23) : S_.Idx → BitVec 32) = constantI S_ 32 0#32) :
    (StableHlo.after (main_part1_ops9 (F := Ideal)) W (Proc.devRef .tc main_v85) : S8192x512.Idx → EReal)
      = fun y => Cert.Spec.padRows (nsp := 8192) (Cert.Cur.cur2 (W (Proc.devRef .tc main_v79) : S8000x512.Idx → EReal)) (y 0) (y 1) := by
  simp only [main_part1_ops9]; after_results; funext y
  exact pad_rows_apply (n := 8000) (np := 8192) (K := 512) ![192, 0] _ _ pads_S8000x512_S8192x512_01920_000 h_S_ (sitofp_zero_first _ hz h_S_) y

end Cert.KernelIdeal.HandValue

end
-- ==== Proof.KI.RouteMath.lean ====
import Idealize.ShloMosaic.Lib.IdealHost
import Idealize.ShloMosaic.Lib.Pipeline.Value
import proofs.«401578_j53953379173285_3_alg».proof.Proof.KI.HostDims
import proofs.«401578_j53953379173285_3_alg».proof.Proof.Spec

noncomputable section

namespace Cert.HostDims

open Idealize.ShloMosaic Idealize.ShloMosaic.ValueIdx
open scoped BigOperators

variable {N M E ns : Nat}

def idx1Equiv (E : Nat) : (⟨1, ![E]⟩ : Shape).Idx ≃ Fin E where
  toFun j := j 0
  invFun e := ix1 e
  left_inv j := (eq_ix1 j).symm
  right_inv _ := rfl

theorem bcol_apply {α : Type} (hbc : (⟨1, ![E]⟩ : Shape).BroadcastsInDim ⟨2, ![E, 1]⟩ ![0])
    (x : (⟨1, ![E]⟩ : Shape).Idx → α) (e : Fin E) :
    broadcastInDim ⟨2, ![E, 1]⟩ ![0] hbc x (ix2 e (0 : Fin 1)) = x (ix1 e) := by
  refine broadcastInDim_apply ![0] hbc x (ix2 e (0 : Fin 1)) (ix1 e) ?_
  intro a
  obtain rfl : a = 0 := Subsingleton.elim _ _
  show e.val = if E = 1 then 0 else e.val
  split
  · rename_i h; have := e.isLt; omega
  · rfl

theorem nrm_apply (hb0 : (⟨0, ![]⟩ : Shape).BroadcastsInDim ⟨1, ![E]⟩ ![])
    (x : IVec ⟨1, ![E]⟩ 32) (c : BitVec 32) (e : Fin E) (h : 0 ≤ (x (ix1 e)).toInt) :
    select (cmpi .slt x (broadcastInDim ⟨1, ![E]⟩ ![] hb0 (constantI ⟨0, ![]⟩ 32 0#32)))
        (addi x (broadcastInDim ⟨1, ![E]⟩ ![] hb0 (constantI ⟨0, ![]⟩ 32 c))) x (ix1 e) = x (ix1 e) := by
  rw [select_apply]
  have hc : cmpi .slt x (broadcastInDim ⟨1, ![E]⟩ ![] hb0 (constantI ⟨0, ![]⟩ 32 0#32)) (ix1 e) = 0#1 := by
    show IntOp.cmpi .slt (x (ix1 e)) (broadcastInDim ⟨1, ![E]⟩ ![] hb0 (constantI ⟨0, ![]⟩ 32 0#32) (ix1 e)) = 0#1
    rw [broadcastInDim_scalar_apply]
    show BitVec.ofBool ((x (ix1 e)).slt 0#32) = 0#1
    have hs : (x (ix1 e)).slt 0#32 = false := by
      simp only [BitVec.slt, BitVec.toInt_zero, decide_eq_false_iff_not, not_lt]
      exact h
    rw [hs]; rfl
  rw [hc, select_zero]

theorem concat_col0 {α : Type} (hc : Shape.Concatenates [(⟨2, ![E, 1]⟩ : Shape), ⟨2, ![E, 1]⟩] ⟨2, ![E, 2]⟩ 1)
    (a b : (⟨2, ![E, 1]⟩ : Shape).Idx → α) (e : Fin E) :
    concatenate ⟨2, ![E, 2]⟩ 1 [⟨⟨2, ![E, 1]⟩, a⟩, ⟨⟨2, ![E, 1]⟩, b⟩] hc (ix2 e (0 : Fin 2)) = a (ix2 e (0 : Fin 1)) := by
  refine concatenate_pair_apply_left (1 : Fin 2) a b hc (ix2 e (0 : Fin 2)) rfl (ix2 e (0 : Fin 1)) ?_
  intro b'
  match b' with
  | ⟨0, _⟩ => rfl
  | ⟨1, _⟩ => rfl

theorem concat_col1 {α : Type} (hc : Shape.Concatenates [(⟨2, ![E, 1]⟩ : Shape), ⟨2, ![E, 1]⟩] ⟨2, ![E, 2]⟩ 1)
    (a b : (⟨2, ![E, 1]⟩ : Shape).Idx → α) (e : Fin E) :
    concatenate ⟨2, ![E, 2]⟩ 1 [⟨⟨2, ![E, 1]⟩, a⟩, ⟨⟨2, ![E, 1]⟩, b⟩] hc (ix2 e (1 : Fin 2)) = b (ix2 e (0 : Fin 1)) := by
  refine concatenate_pair_apply_right (1 : Fin 2) a b hc (ix2 e (1 : Fin 2)) rfl rfl (ix2 e (0 : Fin 1)) ?_ ?_
  · intro b' hb'
    match b', hb' with
    | ⟨0, _⟩, _ => rfl
    | ⟨1, _⟩, hb' => exact absurd rfl hb'
  · rfl

theorem count_scatter (wf1 : ScatterDims.WF ⟨1, ![N]⟩ ⟨2, ![E, 1]⟩ ⟨1, ![E]⟩ [] [0] [0] 1)
    (zero1 : FVec Ideal ⟨1, ![N]⟩ .f32) (hz : ∀ i, zero1 i = 0)
    (idx1 : IVec ⟨2, ![E, 1]⟩ 32) (kf : Fin E → Fin N)
    (hidx : ∀ e, (idx1 (ix2 e (0 : Fin 1))).toInt = ((kf e).val : ℤ))
    (ones : FVec Ideal ⟨1, ![E]⟩ .f32) (hones : ∀ j, ones j = 1) (i : Fin N) :
    Host.scatterAdd (scat1 N E wf1) zero1 idx1 ones (ix1 i) = ((Cert.Spec.indeg kf i : ℝ) : EReal) := by
  unfold Host.scatterAdd
  rw [Ideal.hostScatterAdd_def]
  unfold Ideal.hostScatterAdd
  rw [hz, zero_add]
  rw [Finset.sum_equiv (idx1Equiv E) (t := Finset.univ.filter fun e => kf e = i) (g := fun _ => (1 : EReal))]
  · rw [Finset.sum_const, nsmul_one]; rfl
  · intro j
    obtain ⟨e, rfl⟩ : ∃ e, j = ix1 e := ⟨j 0, eq_ix1 j⟩
    simp only [Finset.mem_filter, Finset.mem_univ, true_and]
    rw [scat1_resultIdx?_eq_some_iff]
    show (idx1 (ix2 e (0 : Fin 1))).toInt = ((i : ℕ) : ℤ) ↔ kf e = i
    rw [hidx]
    constructor
    · intro h; exact Fin.ext (by exact_mod_cast h)
    · intro h; rw [h]
  · intro j _; exact hones j

theorem weight_apply (hN : 0 < N) (wfg : GatherDims.WF ⟨1, ![N]⟩ ⟨2, ![E, 1]⟩ ⟨1, ![E]⟩ [] [0] [] [0] [] 1 ![1])
    (kf : Fin E → Fin N)
    (cnt : FVec Ideal ⟨1, ![N]⟩ .f32) (hcnt : ∀ i, cnt (ix1 i) = ((Cert.Spec.indeg kf i : ℝ) : EReal))
    (one1 : FVec Ideal ⟨1, ![N]⟩ .f32) (hone1 : ∀ i, one1 i = 1)
    (oneE : FVec Ideal ⟨1, ![E]⟩ .f32) (honeE : ∀ j, oneE j = 1)
    (idx1 : IVec ⟨2, ![E, 1]⟩ 32) (hidx : ∀ e, (idx1 (ix2 e (0 : Fin 1))).toInt = ((kf e).val : ℤ)) (e : Fin E) :
    Host.divf oneE (Host.gather (gath1 N E wfg) (maximumf cnt one1) idx1) (ix1 e) = Cert.Spec.wt kf (kf e) := by
  rw [hostDivf_apply, honeE, gath1_apply hN, maximumf_apply, hone1]
  have hk : (⟨min (idx1 (ix2 ((ix1 e : (⟨1, ![E]⟩ : Shape).Idx) 0) (0 : Fin 1))).toInt.toNat (N - 1), by omega⟩ : Fin N)
      = kf e := by
    refine Fin.ext ?_
    show min (idx1 (ix2 e (0 : Fin 1))).toInt.toNat (N - 1) = (kf e).val
    rw [hidx]; have := (kf e).isLt; omega
  rw [hk, hcnt]
  have hmax : max ((Cert.Spec.indeg kf (kf e) : ℝ) : EReal) 1 = ((max (Cert.Spec.indeg kf (kf e) : ℝ) 1 : ℝ) : EReal) := by
    rw [← EReal.coe_one]; exact (EReal.coe_strictMono.monotone.map_max).symm
  rw [hmax, Ideal.div_coe (lt_of_lt_of_le one_pos (le_max_right _ _)).ne', one_mul]
  rfl

theorem route_scatter (wf2 : ScatterDims.WF ⟨2, ![N, M]⟩ ⟨2, ![E, 2]⟩ ⟨1, ![E]⟩ [] [0, 1] [0, 1] 1)
    (zero2 : FVec Ideal ⟨2, ![N, M]⟩ .f32) (hz : ∀ y, zero2 y = 0)
    (idx2 : IVec ⟨2, ![E, 2]⟩ 32) (kf : Fin E → Fin N) (of : Fin E → Fin ns)
    (h0 : ∀ e, (idx2 (ix2 e (0 : Fin 2))).toInt = ((kf e).val : ℤ))
    (h1 : ∀ e, (idx2 (ix2 e (1 : Fin 2))).toInt = ((of e).val : ℤ))
    (upd : FVec Ideal ⟨1, ![E]⟩ .f32) (hupd : ∀ e, upd (ix1 e) = Cert.Spec.wt kf (kf e))
    (d : Fin N) (s : Fin M) :
    Host.scatterAdd (scat2 N M E wf2) zero2 idx2 upd (ix2 d s) = Cert.Spec.route (nsp := M) of kf d s := by
  unfold Host.scatterAdd
  rw [Ideal.hostScatterAdd_def]
  unfold Ideal.hostScatterAdd
  rw [hz, zero_add]
  unfold Cert.Spec.route
  refine Finset.sum_equiv (idx1Equiv E) ?_ ?_
  · intro j
    obtain ⟨e, rfl⟩ : ∃ e, j = ix1 e := ⟨j 0, eq_ix1 j⟩
    simp only [Finset.mem_filter, Finset.mem_univ, true_and]
    rw [scat2_resultIdx?_eq_some_iff]
    show (idx2 (ix2 e (0 : Fin 2))).toInt = ((d : ℕ) : ℤ) ∧ (idx2 (ix2 e (1 : Fin 2))).toInt = ((s : ℕ) : ℤ)
      ↔ kf e = d ∧ (of e).val = s.val
    rw [h0, h1]
    constructor
    · rintro ⟨a, b⟩; exact ⟨Fin.ext (by exact_mod_cast a), by exact_mod_cast b⟩
    · rintro ⟨a, b⟩; rw [a, b]; exact ⟨rfl, rfl⟩
  · intro j hj
    obtain ⟨e, rfl⟩ : ∃ e, j = ix1 e := ⟨j 0, eq_ix1 j⟩
    simp only [Finset.mem_filter, Finset.mem_univ, true_and] at hj
    rw [scat2_resultIdx?_eq_some_iff] at hj
    have hd : kf e = d := by
      have h : (idx2 (ix2 e (0 : Fin 2))).toInt = ((d : ℕ) : ℤ) := hj.1
      rw [h0] at h; exact Fin.ext (by exact_mod_cast h)
    calc upd (ix1 e) = Cert.Spec.wt kf (kf e) := hupd _
      _ = Cert.Spec.wt kf d := by rw [hd]

theorem count_term (wf1 : ScatterDims.WF ⟨1, ![N]⟩ ⟨2, ![E, 1]⟩ ⟨1, ![E]⟩ [] [0] [0] 1)
    (hbE : (⟨0, ![]⟩ : Shape).BroadcastsInDim ⟨1, ![E]⟩ ![])
    (hbN : (⟨0, ![]⟩ : Shape).BroadcastsInDim ⟨1, ![N]⟩ ![])
    (hbc : (⟨1, ![E]⟩ : Shape).BroadcastsInDim ⟨2, ![E, 1]⟩ ![0])
    (key : IVec ⟨1, ![E]⟩ 32) (kf : Fin E → Fin N) (hkey : ∀ e, (key (ix1 e)).toInt = ((kf e).val : ℤ)) (i : Fin N) :
    Host.scatterAdd (scat1 N E wf1)
        (broadcastInDim ⟨1, ![N]⟩ ![] hbN (constant (F := Ideal) ⟨0, ![]⟩ .f32 0x00000000#32))
        (broadcastInDim ⟨2, ![E, 1]⟩ ![0] hbc key)
        (broadcastInDim ⟨1, ![E]⟩ ![] hbE (constant (F := Ideal) ⟨0, ![]⟩ .f32 0x3F800000#32)) (ix1 i)
      = ((Cert.Spec.indeg kf i : ℝ) : EReal) := by
  refine count_scatter wf1 _ (fun y => ?_) _ kf (fun e => ?_) _ (fun j => ?_) i
  · rw [broadcastInDim_scalar_apply, constant_apply, Ideal.ofBits_zero_f32]
  · rw [bcol_apply, hkey]
  · rw [broadcastInDim_scalar_apply, constant_apply, Ideal.ofBits_one_f32]

theorem route_term (hN : 0 < N)
    (wfg : GatherDims.WF ⟨1, ![N]⟩ ⟨2, ![E, 1]⟩ ⟨1, ![E]⟩ [] [0] [] [0] [] 1 ![1])
    (wf2 : ScatterDims.WF ⟨2, ![N, M]⟩ ⟨2, ![E, 2]⟩ ⟨1, ![E]⟩ [] [0, 1] [0, 1] 1)
    (hbE : (⟨0, ![]⟩ : Shape).BroadcastsInDim ⟨1, ![E]⟩ ![])
    (hbN : (⟨0, ![]⟩ : Shape).BroadcastsInDim ⟨1, ![N]⟩ ![])
    (hbNM : (⟨0, ![]⟩ : Shape).BroadcastsInDim ⟨2, ![N, M]⟩ ![])
    (hbc : (⟨1, ![E]⟩ : Shape).BroadcastsInDim ⟨2, ![E, 1]⟩ ![0])
    (hcat : Shape.Concatenates [(⟨2, ![E, 1]⟩ : Shape), ⟨2, ![E, 1]⟩] ⟨2, ![E, 2]⟩ 1)
    (hlt : FTy.bits .bf16 < FTy.bits .f32)
    (key oth : IVec ⟨1, ![E]⟩ 32) (kf : Fin E → Fin N) (of : Fin E → Fin ns) (cN cM : BitVec 32)
    (hkey : ∀ e, (key (ix1 e)).toInt = ((kf e).val : ℤ)) (hoth : ∀ e, (oth (ix1 e)).toInt = ((of e).val : ℤ))
    (cnt : FVec Ideal ⟨1, ![N]⟩ .f32) (hcnt : ∀ i, cnt (ix1 i) = ((Cert.Spec.indeg kf i : ℝ) : EReal))
    (d : Fin N) (s : Fin M) :
    (truncf .bf16 (Host.scatterAdd (scat2 N M E wf2)
        (broadcastInDim ⟨2, ![N, M]⟩ ![] hbNM (constant (F := Ideal) ⟨0, ![]⟩ .f32 0x00000000#32))
        (concatenate ⟨2, ![E, 2]⟩ 1
          [⟨⟨2, ![E, 1]⟩, broadcastInDim ⟨2, ![E, 1]⟩ ![0] hbc
              (select (cmpi .slt key (broadcastInDim ⟨1, ![E]⟩ ![] hbE (constantI ⟨0, ![]⟩ 32 0#32)))
                (addi key (broadcastInDim ⟨1, ![E]⟩ ![] hbE (constantI ⟨0, ![]⟩ 32 cN))) key)⟩,
           ⟨⟨2, ![E, 1]⟩, broadcastInDim ⟨2, ![E, 1]⟩ ![0] hbc
              (select (cmpi .slt oth (broadcastInDim ⟨1, ![E]⟩ ![] hbE (constantI ⟨0, ![]⟩ 32 0#32)))
                (addi oth (broadcastInDim ⟨1, ![E]⟩ ![] hbE (constantI ⟨0, ![]⟩ 32 cM))) oth)⟩] hcat)
        (Host.divf (broadcastInDim ⟨1, ![E]⟩ ![] hbE (constant (F := Ideal) ⟨0, ![]⟩ .f32 0x3F800000#32))
          (Host.gather (gath1 N E wfg)
            (maximumf cnt (broadcastInDim ⟨1, ![N]⟩ ![] hbN (constant (F := Ideal) ⟨0, ![]⟩ .f32 0x3F800000#32)))
            (broadcastInDim ⟨2, ![E, 1]⟩ ![0] hbc
              (select (cmpi .slt key (broadcastInDim ⟨1, ![E]⟩ ![] hbE (constantI ⟨0, ![]⟩ 32 0#32)))
                (addi key (broadcastInDim ⟨1, ![E]⟩ ![] hbE (constantI ⟨0, ![]⟩ 32 cN))) key))))) hlt
      : FVec Ideal ⟨2, ![N, M]⟩ .bf16) (ix2 d s) = Cert.Spec.route (nsp := M) of kf d s := by
  rw [truncf_apply]
  have hk0 : ∀ e, 0 ≤ (key (ix1 e)).toInt := fun e => by rw [hkey]; exact Int.natCast_nonneg _
  have ho0 : ∀ e, 0 ≤ (oth (ix1 e)).toInt := fun e => by rw [hoth]; exact Int.natCast_nonneg _
  refine route_scatter wf2 _ (fun y => ?_) _ kf of (fun e => ?_) (fun e => ?_) _ (fun e => ?_) d s
  · rw [broadcastInDim_scalar_apply, constant_apply, Ideal.ofBits_zero_f32]
  · rw [concat_col0, bcol_apply, nrm_apply hbE key cN e (hk0 e), hkey]
  · rw [concat_col1, bcol_apply, nrm_apply hbE oth cM e (ho0 e), hoth]
  · refine weight_apply hN wfg kf cnt hcnt _ (fun i => ?_) _ (fun j => ?_) _ (fun e' => ?_) e
    · rw [broadcastInDim_scalar_apply, constant_apply, Ideal.ofBits_one_f32]
    · rw [broadcastInDim_scalar_apply, constant_apply, Ideal.ofBits_one_f32]
    · rw [bcol_apply, nrm_apply hbE key cN e' (hk0 e'), hkey]

end Cert.HostDims

end
-- ==== Proof.KI.HostValRoute.lean ====
import proofs.«401578_j53953379173285_3_alg».proof.Proof.Gen.KernelIdeal.Launch
import Idealize.ShloMosaic.Lib.StableHlo.Run
import proofs.«401578_j53953379173285_3_alg».proof.Proof.KI.RouteMath

set_option maxRecDepth 16384

noncomputable section

namespace Cert.KernelIdeal.HandValue

open Cert.KernelIdeal Cert.KernelIdeal.Gen Idealize.ShloMosaic Idealize.ShloMosaic.TcCoe Idealize.SL.Sem
open Idealize.ShloMosaic.StableHlo Idealize.ShloMosaic.ValueIdx Cert.HostDims

variable (W : Valuation τ sig (Elt Ideal))

set_option maxHeartbeats 4000000 in

theorem v46_after (src : Fin 200000 → Fin 20000)
    (hsrc : ∀ e, (W (Proc.devRef .tc main_arg4) (ix1 e)).toInt = ((src e).val : ℤ)) :
    (StableHlo.after (main_part0_ops4 (F := Ideal)) W (Proc.devRef .tc main_v46) : S20000.Idx → EReal)
      = fun i => ((Cert.Spec.indeg src (i 0) : ℝ) : EReal) := by
  funext y
  obtain ⟨i, rfl⟩ : ∃ i, y = ix1 i := ⟨y 0, eq_ix1 y⟩
  show StableHlo.after (main_part0_ops4 (F := Ideal)) W (Proc.devRef .tc main_v46) (ix1 i)
    = ((Cert.Spec.indeg src i : ℝ) : EReal)
  after_results_simp
  exact count_term (N := 20000) (E := 200000) _ _ _ _ _ src hsrc i

set_option maxHeartbeats 4000000 in

theorem v42_after (src : Fin 200000 → Fin 20000) (dst : Fin 200000 → Fin 8000)
    (hsrc : ∀ e, (W (Proc.devRef .tc main_arg4) (ix1 e)).toInt = ((src e).val : ℤ))
    (hdst : ∀ e, (W (Proc.devRef .tc main_arg5) (ix1 e)).toInt = ((dst e).val : ℤ)) :
    (StableHlo.after (main_part0_ops4 (F := Ideal)) W (Proc.devRef .tc main_v42) : S8000x20480.Idx → EReal)
      = fun y => Cert.Spec.route (nsp := 20480) src dst (y 0) (y 1) := by
  funext y
  obtain ⟨d, s, rfl⟩ : ∃ d s, y = ix2 d s := ⟨y 0, y 1, eq_ix2 y⟩
  show StableHlo.after (main_part0_ops4 (F := Ideal)) W (Proc.devRef .tc main_v42) (ix2 d s)
    = Cert.Spec.route (nsp := 20480) src dst d s
  have hs0 : ∀ e, 0 ≤ (W (Proc.devRef .tc main_arg4) (ix1 e)).toInt := fun e => by
    rw [hsrc]; exact Int.natCast_nonneg _
  have hd0 : ∀ e, 0 ≤ (W (Proc.devRef .tc main_arg5) (ix1 e)).toInt := fun e => by
    rw [hdst]; exact Int.natCast_nonneg _
  after_results_simp
  rw [truncf_apply]
  refine route_scatter (N := 8000) (M := 20480) (E := 200000) _ _ (fun y => ?_) _ dst src (fun e => ?_) (fun e => ?_) _
    (fun e => ?_) d s
  · rw [broadcastInDim_scalar_apply, constant_apply, Ideal.ofBits_zero_f32]
  · rw [concat_col0]
    after_results_simp
    rw [bcol_apply, nrm_apply _ _ _ e (hd0 e), hdst]
  · rw [concat_col1]
    after_results_simp
    rw [bcol_apply, nrm_apply _ _ _ e (hs0 e), hsrc]
  · refine weight_apply (by norm_num) _ dst _
      (fun i => count_term (N := 8000) (E := 200000) _ _ _ _ _ dst hdst i) _ (fun i => ?_) _ (fun j => ?_) _
      (fun e' => ?_) e
    · rw [broadcastInDim_scalar_apply, constant_apply, Ideal.ofBits_one_f32]
    · rw [broadcastInDim_scalar_apply, constant_apply, Ideal.ofBits_one_f32]
    · rw [bcol_apply, nrm_apply _ _ _ e' (hd0 e'), hdst]

set_option maxHeartbeats 4000000 in

theorem v73_after (src : Fin 200000 → Fin 20000) (dst : Fin 200000 → Fin 8000)
    (hsrc : ∀ e, (W (Proc.devRef .tc main_arg4) (ix1 e)).toInt = ((src e).val : ℤ))
    (hdst : ∀ e, (W (Proc.devRef .tc main_arg5) (ix1 e)).toInt = ((dst e).val : ℤ))
    (h46 : (W (Proc.devRef .tc main_v46) : S20000.Idx → EReal) = fun i => ((Cert.Spec.indeg src (i 0) : ℝ) : EReal)) :
    (StableHlo.after (main_part1_ops0 (F := Ideal)) W (Proc.devRef .tc main_v73) : S20000x8192.Idx → EReal)
      = fun y => Cert.Spec.route (nsp := 8192) dst src (y 0) (y 1) := by
  funext y
  obtain ⟨d, s, rfl⟩ : ∃ d s, y = ix2 d s := ⟨y 0, y 1, eq_ix2 y⟩
  show StableHlo.after (main_part1_ops0 (F := Ideal)) W (Proc.devRef .tc main_v73) (ix2 d s)
    = Cert.Spec.route (nsp := 8192) dst src d s
  have hs0 : ∀ e, 0 ≤ (W (Proc.devRef .tc main_arg4) (ix1 e)).toInt := fun e => by
    rw [hsrc]; exact Int.natCast_nonneg _
  have hd0 : ∀ e, 0 ≤ (W (Proc.devRef .tc main_arg5) (ix1 e)).toInt := fun e => by
    rw [hdst]; exact Int.natCast_nonneg _
  after_results_simp
  rw [truncf_apply]
  refine route_scatter (N := 20000) (M := 8192) (E := 200000) _ _ (fun y => ?_) _ src dst (fun e => ?_) (fun e => ?_) _
    (fun e => ?_) d s
  · rw [broadcastInDim_scalar_apply, constant_apply, Ideal.ofBits_zero_f32]
  · rw [concat_col0]
    after_results_simp
    rw [bcol_apply, nrm_apply _ _ _ e (hs0 e), hsrc]
  · rw [concat_col1]
    after_results_simp
    rw [bcol_apply, nrm_apply _ _ _ e (hd0 e), hdst]
  · refine weight_apply (by norm_num) _ src _ (fun i => congrFun h46 (ix1 i)) _ (fun i => ?_) _ (fun j => ?_) _
      (fun e' => ?_) e
    · rw [broadcastInDim_scalar_apply, constant_apply, Ideal.ofBits_one_f32]
    · rw [broadcastInDim_scalar_apply, constant_apply, Ideal.ofBits_one_f32]
    · rw [bcol_apply, nrm_apply _ _ _ e' (hs0 e'), hsrc]

theorem arg4_keep0 :
    StableHlo.after (main_part0_ops4 (F := Ideal)) W (Proc.devRef .tc main_arg4) = W (Proc.devRef .tc main_arg4) := by
  after_results

theorem arg5_keep0 :
    StableHlo.after (main_part0_ops4 (F := Ideal)) W (Proc.devRef .tc main_arg5) = W (Proc.devRef .tc main_arg5) := by
  after_results

theorem arg4_keep1 :
    StableHlo.after (main_part1_ops0 (F := Ideal)) W (Proc.devRef .tc main_arg4) = W (Proc.devRef .tc main_arg4) := by
  after_results

theorem arg5_keep1 :
    StableHlo.after (main_part1_ops0 (F := Ideal)) W (Proc.devRef .tc main_arg5) = W (Proc.devRef .tc main_arg5) := by
  after_results

theorem v42_keep1 :
    StableHlo.after (main_part1_ops0 (F := Ideal)) W (Proc.devRef .tc main_v42) = W (Proc.devRef .tc main_v42) := by
  after_results

theorem v42_after_both (src : Fin 200000 → Fin 20000) (dst : Fin 200000 → Fin 8000)
    (hsrc : ∀ e, (W (Proc.devRef .tc main_arg4) (ix1 e)).toInt = ((src e).val : ℤ))
    (hdst : ∀ e, (W (Proc.devRef .tc main_arg5) (ix1 e)).toInt = ((dst e).val : ℤ)) :
    (StableHlo.after (main_part1_ops0 (F := Ideal)) (StableHlo.after (main_part0_ops4 (F := Ideal)) W)
        (Proc.devRef .tc main_v42) : S8000x20480.Idx → EReal)
      = fun y => Cert.Spec.route (nsp := 20480) src dst (y 0) (y 1) :=
  (v42_keep1 (StableHlo.after (main_part0_ops4 (F := Ideal)) W)).trans (v42_after W src dst hsrc hdst)

theorem v73_after_both (src : Fin 200000 → Fin 20000) (dst : Fin 200000 → Fin 8000)
    (hsrc : ∀ e, (W (Proc.devRef .tc main_arg4) (ix1 e)).toInt = ((src e).val : ℤ))
    (hdst : ∀ e, (W (Proc.devRef .tc main_arg5) (ix1 e)).toInt = ((dst e).val : ℤ)) :
    (StableHlo.after (main_part1_ops0 (F := Ideal)) (StableHlo.after (main_part0_ops4 (F := Ideal)) W)
        (Proc.devRef .tc main_v73) : S20000x8192.Idx → EReal)
      = fun y => Cert.Spec.route (nsp := 8192) dst src (y 0) (y 1) :=
  v73_after (StableHlo.after (main_part0_ops4 (F := Ideal)) W) src dst
    (fun e => (congrArg (fun x : S200000.Idx → BitVec 32 => (x (ix1 e)).toInt) (arg4_keep0 W)).trans (hsrc e))
    (fun e => (congrArg (fun x : S200000.Idx → BitVec 32 => (x (ix1 e)).toInt) (arg5_keep0 W)).trans (hdst e))
    (v46_after W src hsrc)

end Cert.KernelIdeal.HandValue

end
-- ==== Proof.KI.ValueL1.lean ====
import proofs.«401578_j53953379173285_3_alg».proof.Proof.KI.KArgs
import proofs.«401578_j53953379173285_3_alg».proof.Proof.KI.ValueArgs
import proofs.«401578_j53953379173285_3_alg».proof.Proof.KI.Reg0Val
import proofs.«401578_j53953379173285_3_alg».proof.Proof.KI.Reg1Val
import proofs.«401578_j53953379173285_3_alg».proof.Proof.KI.Reg2Val
import proofs.«401578_j53953379173285_3_alg».proof.Proof.KI.Reg3Val
import proofs.«401578_j53953379173285_3_alg».proof.Proof.KI.HostValSmall
import proofs.«401578_j53953379173285_3_alg».proof.Proof.KI.HostValRoute

set_option maxRecDepth 16384

noncomputable section

namespace Cert.KernelIdeal.HandValue

open Cert.KernelIdeal Cert.KernelIdeal.Gen Cert.KernelIdeal.Hand Cert.Cur
open Idealize.ShloMosaic Idealize.ShloMosaic.TcCoe Idealize.ShloMosaic.ValueIdx
open Idealize.SL Idealize.SL.Sem

section Layer1
variable (m : (ℓ : Loc nD τ sig) → Buf (Elt Ideal) ℓ) (ρ : Dev nD → PrngReg) (c : Dev nD)
  (src : Fin 200000 → Fin 20000) (dst : Fin 200000 → Fin 8000)

theorem cur2_unc {α : Type} {a b : ℕ} (f : Fin a → Fin b → α) : cur2 (fun y : (⟨2, ![a, b]⟩ : Shape).Idx => f (y 0) (y 1)) = f := rfl

theorem v0_1 : (W1 m ρ c (Proc.devRef .tc main_v0) : S20000x512.Idx → EReal) = Cert.Shared.takeM (F := Ideal) (m ((c.tc : Thread nD τ).loc main_arg10)) (m ((c.tc : Thread nD τ).loc main_arg2)) := by
  have h := take_v0 (W0 m ρ c)
  rw [(args_0 m ρ c main_arg10 (by decide)), (args_0 m ρ c main_arg2 (by decide))] at h
  exact h
theorem v1_2 : (W2 m ρ c (Proc.devRef .tc main_v1) : S8000x512.Idx → EReal) = Cert.Shared.takeD (F := Ideal) (m ((c.tc : Thread nD τ).loc main_arg11)) (m ((c.tc : Thread nD τ).loc main_arg3)) := by
  have h := take_v1 (W1 m ρ c)
  rw [(args_1 m ρ c main_arg11 (by decide)), (args_1 m ρ c main_arg3 (by decide))] at h
  exact h

theorem v2_3 : (W3 m ρ c (Proc.devRef .tc main_v2) : S20000x384.Idx → EReal) = (m ((c.tc : Thread nD τ).loc main_arg0)) :=
  (ops2_v2 (W2 m ρ c)).trans (args_2 m ρ c main_arg0 (by decide))
theorem v3_3 : (W3 m ρ c (Proc.devRef .tc main_v3) : S384x512.Idx → EReal) = (m ((c.tc : Thread nD τ).loc main_arg6)) :=
  (ops2_v3 (W2 m ρ c)).trans (args_2 m ρ c main_arg6 (by decide))
theorem v4_3 : (W3 m ρ c (Proc.devRef .tc main_v4) : S20000x512.Idx → EReal) = Cert.Shared.takeM (F := Ideal) (m ((c.tc : Thread nD τ).loc main_arg10)) (m ((c.tc : Thread nD τ).loc main_arg2)) :=
  (ops2_v4 (W2 m ρ c)).trans ((W2_of m ρ c main_v0 (by decide)).trans (v0_1 m ρ c))
theorem v5_3 : row (W3 m ρ c (Proc.devRef .tc main_v5) : S1x512.Idx → EReal) = cur1 (m ((c.tc : Thread nD τ).loc main_arg7)) := by
  have h := ops2_v5 (W2 m ρ c)
  rw [(args_2 m ρ c main_arg7 (by decide))] at h
  exact h

theorem v6_4 : cur2 (W4 m ρ c (Proc.devRef .tc main_v6) : S20000x512.Idx → EReal) = Cert.Spec.kXm (kArgs m c src dst) := by
  have h : (W4 m ρ c (Proc.devRef .tc main_v6) : S20000x512.Idx → EReal) = fun y => Cert.Spec.encK (cur2 (W3 m ρ c (Proc.devRef .tc main_v2) : S20000x384.Idx → EReal)) (cur2 (W3 m ρ c (Proc.devRef .tc main_v3) : S384x512.Idx → EReal)) (cur2 (W3 m ρ c (Proc.devRef .tc main_v4) : S20000x512.Idx → EReal)) (row (W3 m ρ c (Proc.devRef .tc main_v5) : S1x512.Idx → EReal)) (y 0) (y 1) :=
    (Wexit0_arr m ρ c 4).trans (arr0_out (Ventry0 m ρ) c)
  rw [v2_3 m ρ c, v3_3 m ρ c, v4_3 m ρ c, v5_3 m ρ c] at h
  refine (congrArg cur2 h).trans ((cur2_unc _).trans ?_)
  simp only [Cert.Spec.kXm, kArgs_mf, kArgs_Wm, kArgs_embm, kArgs_bm]

theorem v7_5 : (W5 m ρ c (Proc.devRef .tc main_v7) : S8000x384.Idx → EReal) = (m ((c.tc : Thread nD τ).loc main_arg1)) :=
  (ops3_v7 (W4 m ρ c)).trans (args_4 m ρ c main_arg1 (by decide))
theorem v8_5 : (W5 m ρ c (Proc.devRef .tc main_v8) : S384x512.Idx → EReal) = (m ((c.tc : Thread nD τ).loc main_arg8)) :=
  (ops3_v8 (W4 m ρ c)).trans (args_4 m ρ c main_arg8 (by decide))
theorem v9_5 : (W5 m ρ c (Proc.devRef .tc main_v9) : S8000x512.Idx → EReal) = Cert.Shared.takeD (F := Ideal) (m ((c.tc : Thread nD τ).loc main_arg11)) (m ((c.tc : Thread nD τ).loc main_arg3)) :=
  (ops3_v9 (W4 m ρ c)).trans (((Wexit0_of_ne m ρ c main_v1 (by decide)).trans (W3_of m ρ c main_v1 (by decide))).trans (v1_2 m ρ c))
theorem v10_5 : row (W5 m ρ c (Proc.devRef .tc main_v10) : S1x512.Idx → EReal) = cur1 (m ((c.tc : Thread nD τ).loc main_arg9)) := by
  have h := ops3_v10 (W4 m ρ c)
  rw [(args_4 m ρ c main_arg9 (by decide))] at h
  exact h

theorem v11_6 : cur2 (W6 m ρ c (Proc.devRef .tc main_v11) : S8000x512.Idx → EReal) = Cert.Spec.kXd (kArgs m c src dst) := by
  have h : (W6 m ρ c (Proc.devRef .tc main_v11) : S8000x512.Idx → EReal) = fun y => Cert.Spec.encK (cur2 (W5 m ρ c (Proc.devRef .tc main_v7) : S8000x384.Idx → EReal)) (cur2 (W5 m ρ c (Proc.devRef .tc main_v8) : S384x512.Idx → EReal)) (cur2 (W5 m ρ c (Proc.devRef .tc main_v9) : S8000x512.Idx → EReal)) (row (W5 m ρ c (Proc.devRef .tc main_v10) : S1x512.Idx → EReal)) (y 0) (y 1) :=
    (Wexit1_arr m ρ c 4).trans (arr1_out (Ventry1 m ρ) c)
  rw [v7_5 m ρ c, v8_5 m ρ c, v9_5 m ρ c, v10_5 m ρ c] at h
  refine (congrArg cur2 h).trans ((cur2_unc _).trans ?_)
  simp only [Cert.Spec.kXd, kArgs_df, kArgs_Wd, kArgs_embd, kArgs_bd]

theorem v76_12 : (W12 m ρ c (Proc.devRef .tc main_v76) : S512x512.Idx → EReal) = (m ((c.tc : Thread nD τ).loc main_arg12)) :=
  (p1ops4_v76 (W11 m ρ c)).trans (args_11 m ρ c main_arg12 (by decide))
theorem v77_12 : (W12 m ρ c (Proc.devRef .tc main_v77) : S512x512.Idx → EReal) = (m ((c.tc : Thread nD τ).loc main_arg14)) :=
  (p1ops4_v77 (W11 m ρ c)).trans (args_11 m ρ c main_arg14 (by decide))
theorem v78_12 : row (W12 m ρ c (Proc.devRef .tc main_v78) : S1x512.Idx → EReal) = cur1 (m ((c.tc : Thread nD τ).loc main_arg13)) := by
  have h := p1ops4_v78 (W11 m ρ c)
  rw [(args_11 m ρ c main_arg13 (by decide))] at h
  exact h

theorem v80_14 : (W14 m ρ c (Proc.devRef .tc main_v80) : S512x512.Idx → EReal) = (m ((c.tc : Thread nD τ).loc main_arg15)) :=
  (p1ops5_v80 (W13 m ρ c)).trans (args_13 m ρ c main_arg15 (by decide))
theorem v81_14 : (W14 m ρ c (Proc.devRef .tc main_v81) : S512x512.Idx → EReal) = (m ((c.tc : Thread nD τ).loc main_arg17)) :=
  (p1ops5_v81 (W13 m ρ c)).trans (args_13 m ρ c main_arg17 (by decide))
theorem v82_14 : row (W14 m ρ c (Proc.devRef .tc main_v82) : S1x512.Idx → EReal) = cur1 (m ((c.tc : Thread nD τ).loc main_arg16)) := by
  have h := p1ops5_v82 (W13 m ρ c)
  rw [(args_13 m ρ c main_arg16 (by decide))] at h
  exact h

section Edges
variable (hsrc : ∀ e, ((m ((c.tc : Thread nD τ).loc main_arg4)) (ix1 e)).toInt = ((src e).val : ℤ))
  (hdst : ∀ e, ((m ((c.tc : Thread nD τ).loc main_arg5)) (ix1 e)).toInt = ((dst e).val : ℤ))
include hsrc hdst

theorem v42_7 : cur2 (W7 m ρ c (Proc.devRef .tc main_v42) : S8000x20480.Idx → EReal) = Cert.Spec.kRmd (kArgs m c src dst) := by
  have h := v42_after (W6 m ρ c) src dst (fun e => by rw [(args_6 m ρ c main_arg4 (by decide))]; exact hsrc e) (fun e => by rw [(args_6 m ρ c main_arg5 (by decide))]; exact hdst e)
  refine (congrArg cur2 h).trans ((cur2_unc _).trans ?_)
  simp only [Cert.Spec.kRmd, kArgs_src, kArgs_dst]
omit hdst in
theorem v46_7 : (W7 m ρ c (Proc.devRef .tc main_v46) : S20000.Idx → EReal) = fun i => ((Cert.Spec.indeg src (i 0) : ℝ) : EReal) :=
  v46_after (W6 m ρ c) src (fun e => by rw [(args_6 m ρ c main_arg4 (by decide))]; exact hsrc e)
theorem v73_8 : cur2 (W8 m ρ c (Proc.devRef .tc main_v73) : S20000x8192.Idx → EReal) = Cert.Spec.kRdm (kArgs m c src dst) := by
  have h := v73_after (W7 m ρ c) src dst (fun e => by rw [(args_7 m ρ c main_arg4 (by decide))]; exact hsrc e) (fun e => by rw [(args_7 m ρ c main_arg5 (by decide))]; exact hdst e) (v46_7 m ρ c src hsrc)
  refine (congrArg cur2 h).trans ((cur2_unc _).trans ?_)
  simp only [Cert.Spec.kRdm, kArgs_src, kArgs_dst]

omit hsrc hdst in
theorem v74_9 : cur2 (W9 m ρ c (Proc.devRef .tc main_v74) : S20480x512.Idx → EReal) = Cert.Spec.padRows (nsp := 20480) (Cert.Spec.kXm (kArgs m c src dst)) := by
  have h := pad_v74 (W8 m ρ c) (p1ops0_c20 (W7 m ρ c))
  rw [((W8_of m ρ c main_v6 (by decide)).trans ((W7_of m ρ c main_v6 (by decide)).trans ((Wexit1_of_ne m ρ c main_v6 (by decide)).trans (W5_of m ρ c main_v6 (by decide))))), v6_4 m ρ c src dst] at h
  exact (congrArg cur2 h).trans (cur2_unc _)
omit hsrc hdst in
theorem v75_11 : cur2 (W11 m ρ c (Proc.devRef .tc main_v75) : S8192x512.Idx → EReal) = Cert.Spec.padRows (nsp := 8192) (Cert.Spec.kXd (kArgs m c src dst)) := by
  have h := pad_v75 (W10 m ρ c) (p1ops2_c21 (W9 m ρ c))
  rw [((W10_of m ρ c main_v11 (by decide)).trans ((W9_of m ρ c main_v11 (by decide)).trans ((W8_of m ρ c main_v11 (by decide)).trans (W7_of m ρ c main_v11 (by decide))))), v11_6 m ρ c src dst] at h
  exact (congrArg cur2 h).trans (cur2_unc _)

theorem v79_13 : cur2 (W13 m ρ c (Proc.devRef .tc main_v79) : S8000x512.Idx → EReal) = Cert.Spec.kHd (kArgs m c src dst) := by
  have h : (W13 m ρ c (Proc.devRef .tc main_v79) : S8000x512.Idx → EReal) = fun y => Cert.Spec.relu (Cert.Spec.sageK (Cert.Spec.meanK (cur2 (W12 m ρ c (Proc.devRef .tc main_v42) : S8000x20480.Idx → EReal)) (cur2 (W12 m ρ c (Proc.devRef .tc main_v74) : S20480x512.Idx → EReal))) (cur2 (W12 m ρ c (Proc.devRef .tc main_v11) : S8000x512.Idx → EReal)) (cur2 (W12 m ρ c (Proc.devRef .tc main_v76) : S512x512.Idx → EReal)) (cur2 (W12 m ρ c (Proc.devRef .tc main_v77) : S512x512.Idx → EReal)) (row (W12 m ρ c (Proc.devRef .tc main_v78) : S1x512.Idx → EReal))) (y 0) (y 1) :=
    (Wexit2_arr m ρ c 6).trans (arr2_out (Ventry2 m ρ) c)
  rw [((W12_of m ρ c main_v42 (by decide)).trans ((W11_of m ρ c main_v42 (by decide)).trans ((W10_of m ρ c main_v42 (by decide)).trans ((W9_of m ρ c main_v42 (by decide)).trans (W8_of m ρ c main_v42 (by decide)))))), v42_7 m ρ c src dst hsrc hdst,
    ((W12_of m ρ c main_v74 (by decide)).trans ((W11_of m ρ c main_v74 (by decide)).trans (W10_of m ρ c main_v74 (by decide)))), v74_9 m ρ c src dst,
    ((W12_of m ρ c main_v11 (by decide)).trans ((W11_of m ρ c main_v11 (by decide)).trans ((W10_of m ρ c main_v11 (by decide)).trans ((W9_of m ρ c main_v11 (by decide)).trans ((W8_of m ρ c main_v11 (by decide)).trans (W7_of m ρ c main_v11 (by decide))))))), v11_6 m ρ c src dst,
    v76_12 m ρ c,
    v77_12 m ρ c,
    v78_12 m ρ c] at h
  refine (congrArg cur2 h).trans ((cur2_unc _).trans ?_)
  simp only [Cert.Spec.kHd, kArgs_W1mdl, kArgs_W1mdr, kArgs_b1md]

theorem v83_15 : cur2 (W15 m ρ c (Proc.devRef .tc main_v83) : S20000x512.Idx → EReal) = Cert.Spec.kHm (kArgs m c src dst) := by
  have h : (W15 m ρ c (Proc.devRef .tc main_v83) : S20000x512.Idx → EReal) = fun y => Cert.Spec.relu (Cert.Spec.sageK (Cert.Spec.meanK (cur2 (W14 m ρ c (Proc.devRef .tc main_v73) : S20000x8192.Idx → EReal)) (cur2 (W14 m ρ c (Proc.devRef .tc main_v75) : S8192x512.Idx → EReal))) (cur2 (W14 m ρ c (Proc.devRef .tc main_v6) : S20000x512.Idx → EReal)) (cur2 (W14 m ρ c (Proc.devRef .tc main_v80) : S512x512.Idx → EReal)) (cur2 (W14 m ρ c (Proc.devRef .tc main_v81) : S512x512.Idx → EReal)) (row (W14 m ρ c (Proc.devRef .tc main_v82) : S1x512.Idx → EReal))) (y 0) (y 1) :=
    (Wexit3_arr m ρ c 6).trans (arr3_out (Ventry3 m ρ) c)
  rw [((W14_of m ρ c main_v73 (by decide)).trans ((Wexit2_of_ne m ρ c main_v73 (by decide)).trans ((W12_of m ρ c main_v73 (by decide)).trans ((W11_of m ρ c main_v73 (by decide)).trans ((W10_of m ρ c main_v73 (by decide)).trans (W9_of m ρ c main_v73 (by decide))))))), v73_8 m ρ c src dst hsrc hdst,
    ((W14_of m ρ c main_v75 (by decide)).trans ((Wexit2_of_ne m ρ c main_v75 (by decide)).trans (W12_of m ρ c main_v75 (by decide)))), v75_11 m ρ c src dst,
    ((W14_of m ρ c main_v6 (by decide)).trans ((Wexit2_of_ne m ρ c main_v6 (by decide)).trans ((W12_of m ρ c main_v6 (by decide)).trans ((W11_of m ρ c main_v6 (by decide)).trans ((W10_of m ρ c main_v6 (by decide)).trans ((W9_of m ρ c main_v6 (by decide)).trans ((W8_of m ρ c main_v6 (by decide)).trans ((W7_of m ρ c main_v6 (by decide)).trans ((Wexit1_of_ne m ρ c main_v6 (by decide)).trans (W5_of m ρ c main_v6 (by decide))))))))))), v6_4 m ρ c src dst,
    v80_14 m ρ c,
    v81_14 m ρ c,
    v82_14 m ρ c] at h
  refine (congrArg cur2 h).trans ((cur2_unc _).trans ?_)
  simp only [Cert.Spec.kHm, kArgs_W1dml, kArgs_W1dmr, kArgs_b1dm]

end Edges
end Layer1

end Cert.KernelIdeal.HandValue

end
-- ==== Proof.KI.Reg4Val.lean ====
import proofs.«401578_j53953379173285_3_alg».proof.Proof.KI.Reg4
import proofs.«401578_j53953379173285_3_alg».proof.Proof.KI.ValShared
import proofs.«401578_j53953379173285_3_alg».proof.Proof.Spec
import proofs.«401578_j53953379173285_3_alg».proof.Proof.Cur
import Idealize.ShloMosaic.Lib.ValueIdx
import Idealize.ShloMosaic.PureOps.Ideal.Laws
import Idealize.ShloMosaic.Lib.Pipeline.Value
import Idealize.ShloMosaic.Lib.ValueLayout
import Mathlib.Algebra.BigOperators.Fin
import Mathlib.Logic.Equiv.Fin.Basic

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

namespace R4

open L2

theorem accStep_apply (acc : FVec Ideal S400x512 .f32) (r : FVec Ideal S400x2048 .bf16) (x : FVec Ideal S2048x512 .bf16)
    (p : Fin 400) (q : Fin 512) :
    k4_pay2 (F := Ideal) acc r x (ix2 p q) = acc (ix2 p q) + ∑ s : Fin 2048, r (ix2 p s) * x (ix2 s q) := by
  unfold k4_pay2
  simp only [shapeCast_self]
  refine congrArg (acc (ix2 p q) + ·) ?_
  exact (Ideal.matmul_constant_zero_apply DA none r x (ix2 p q)).trans (mmA r x p q)

theorem acc0_apply (p : Fin 400) (q : Fin 512) : (k4_pay1 (F := Ideal)) (ix2 p q) = 0 := by
  unfold k4_pay1
  simp only [shapeCast_self]
  exact Ideal.ofBits_zero_f32

theorem epi_apply (acc : FVec Ideal S400x512 .f32) (wl : FVec Ideal S512x256 .bf16) (xd : FVec Ideal S400x512 .bf16)
    (wr : FVec Ideal S512x256 .bf16) (b : FVec Ideal S1x256 .f32) (p : Fin 400) (q : Fin 256) :
    k4_pay3 (F := Ideal) acc wl xd wr b (ix2 p q)
      = (∑ f : Fin 512, acc (ix2 p f) * wl (ix2 f q)) + (∑ f : Fin 512, xd (ix2 p f) * wr (ix2 f q)) + b (ix2 (0 : Fin 1) q) := by
  unfold k4_pay3
  simp only [shapeCast_self]
  refine congrArg₂ (· + ·) (congrArg₂ (· + ·) ?_ ?_) ?_
  · exact (Ideal.matmul_constant_zero_apply DB none (truncf .bf16 acc bitsLt_bf16_f32) wl (ix2 p q)).trans
      (mmB (truncf .bf16 acc bitsLt_bf16_f32) wl p q)
  · exact (Ideal.matmul_constant_zero_apply DB none xd wr (ix2 p q)).trans (mmB xd wr p q)
  · exact broadcastTo_1b_ab_apply b broadcasts_S1x256_S400x256 p q

section Region4
variable (V : (c : Dev nD) → (b : Ref sig .tc) → Buf (Elt Ideal) ((c : Thread nD τ).loc b))

abbrev rblk (c : Dev nD) (t : Fin cfg4.N) : FVec Ideal S400x2048 .bf16 := iblk4 V c 0 t
abbrev xblk (c : Dev nD) (t : Fin cfg4.N) : FVec Ideal S2048x512 .bf16 := iblk4 V c 1 t
abbrev dblk (c : Dev nD) (t : Fin cfg4.N) : FVec Ideal S400x512 .bf16 := iblk4 V c 2 t
abbrev wlblk (c : Dev nD) (t : Fin cfg4.N) : FVec Ideal S512x256 .bf16 := iblk4 V c 3 t
abbrev wrblk (c : Dev nD) (t : Fin cfg4.N) : FVec Ideal S512x256 .bf16 := iblk4 V c 4 t
abbrev bblk (c : Dev nD) (t : Fin cfg4.N) : FVec Ideal S1x256 .f32 := iblk4 V c 5 t
abbrev Rarr (c : Dev nD) : FVec Ideal S8000x20480 .bf16 := V c main_v42
abbrev Xarr (c : Dev nD) : FVec Ideal S20480x512 .bf16 := V c main_v84
abbrev Darr (c : Dev nD) : FVec Ideal S8000x512 .bf16 := V c main_v79
abbrev WLarr (c : Dev nD) : FVec Ideal S512x256 .bf16 := V c main_v86
abbrev WRarr (c : Dev nD) : FVec Ideal S512x256 .bf16 := V c main_v87
abbrev Barr (c : Dev nD) : FVec Ideal S1x256 .f32 := V c main_v88

theorem idx_facts : ∀ t : Fin cfg4.N,
    (win4_0.index t 0 = t.val / 10 ∧ win4_0.index t 1 = t.val % 10)
    ∧ (win4_1.index t 0 = t.val % 10 ∧ win4_1.index t 1 = 0)
    ∧ (win4_2.index t 0 = t.val / 10 ∧ win4_2.index t 1 = 0)
    ∧ (win4_3.index t 0 = 0 ∧ win4_3.index t 1 = 0)
    ∧ (win4_4.index t 0 = 0 ∧ win4_4.index t 1 = 0)
    ∧ (win4_5.index t 0 = 0 ∧ win4_5.index t 1 = 0)
    ∧ (win4_6.index t 0 = t.val / 10 ∧ win4_6.index t 1 = 0) :=
  (by decide +kernel : ∀ t : Fin grid4.N, _)

theorem lt_N (t : Fin cfg4.N) : t.val < 200 := N_4 ▸ t.isLt

theorem rblk_apply (c : Dev nD) (t : Fin cfg4.N) (i k : ℕ) (hi : t.val / 10 = i) (hk : t.val % 10 = k) (p : Fin 400) (s : Fin 2048) :
    rblk V c t (ix2 p s) = natRd (Rarr V c) (400 * i + p.val) (2048 * k + s.val) := by
  have hf := (idx_facts t).1
  have hN := lt_N t
  subst hi hk
  refine Eq.trans ?_ (natRd_of_lt (Rarr V c) ⟨400 * (t.val / 10) + p.val, by omega⟩ ⟨2048 * (t.val % 10) + s.val, by omega⟩).symm
  unfold rblk iblk4
  rw [View.read_apply]
  exact congrArg (V c main_v42) (ix2_ext (by show win4_0.index t 0 * 400 + 1 * p.val = 400 * (t.val / 10) + p.val; rw [hf.1]; omega) (by show win4_0.index t 1 * 2048 + 1 * s.val = 2048 * (t.val % 10) + s.val; rw [hf.2]; omega))

theorem xblk_apply (c : Dev nD) (t : Fin cfg4.N) (k : ℕ) (hk : t.val % 10 = k) (s : Fin 2048) (q : Fin 512) :
    xblk V c t (ix2 s q) = natRd (Xarr V c) (2048 * k + s.val) q.val := by
  have hf := (idx_facts t).2.1
  have hN := lt_N t
  subst hk
  refine Eq.trans ?_ (natRd_of_lt (Xarr V c) ⟨2048 * (t.val % 10) + s.val, by omega⟩ q).symm
  unfold xblk iblk4
  rw [View.read_apply]
  exact congrArg (V c main_v84) (ix2_ext (by show win4_1.index t 0 * 2048 + 1 * s.val = 2048 * (t.val % 10) + s.val; rw [hf.1]; omega) (by show win4_1.index t 1 * 512 + 1 * q.val = q.val; rw [hf.2]; omega))

theorem dblk_apply (c : Dev nD) (t : Fin cfg4.N) (p : Fin 400) (f : Fin 512) (r : Fin 8000) (hr : r.val = 400 * (t.val / 10) + p.val) :
    dblk V c t (ix2 p f) = Darr V c (ix2 r f) := by
  have hf := (idx_facts t).2.2.1
  unfold dblk iblk4
  rw [View.read_apply]
  exact congrArg (V c main_v79) (ix2_ext (by show win4_2.index t 0 * 400 + 1 * p.val = r.val; rw [hf.1, hr]; omega) (by show win4_2.index t 1 * 512 + 1 * f.val = f.val; rw [hf.2]; omega))

theorem wlblk_apply (c : Dev nD) (t : Fin cfg4.N) (f : Fin 512) (q : Fin 256) : wlblk V c t (ix2 f q) = WLarr V c (ix2 f q) := by
  have hf := (idx_facts t).2.2.2.1
  unfold wlblk iblk4
  rw [View.read_apply]
  exact congrArg (V c main_v86) (ix2_ext (by show win4_3.index t 0 * 512 + 1 * f.val = f.val; rw [hf.1]; omega) (by show win4_3.index t 1 * 256 + 1 * q.val = q.val; rw [hf.2]; omega))

theorem wrblk_apply (c : Dev nD) (t : Fin cfg4.N) (f : Fin 512) (q : Fin 256) : wrblk V c t (ix2 f q) = WRarr V c (ix2 f q) := by
  have hf := (idx_facts t).2.2.2.2.1
  unfold wrblk iblk4
  rw [View.read_apply]
  exact congrArg (V c main_v87) (ix2_ext (by show win4_4.index t 0 * 512 + 1 * f.val = f.val; rw [hf.1]; omega) (by show win4_4.index t 1 * 256 + 1 * q.val = q.val; rw [hf.2]; omega))

theorem bblk_apply (c : Dev nD) (t : Fin cfg4.N) (q : Fin 256) : bblk V c t (ix2 (0 : Fin 1) q) = Barr V c (ix2 (0 : Fin 1) q) := by
  have hf := (idx_facts t).2.2.2.2.2.1
  unfold bblk iblk4
  rw [View.read_apply]
  exact congrArg (V c main_v88) (ix2_ext (by show win4_5.index t 0 * 1 + 1 * 0 = 0; rw [hf.1]) (by show win4_5.index t 1 * 256 + 1 * q.val = q.val; rw [hf.2]; omega))

theorem sAt_apply (c : Dev nD) : ∀ (k : ℕ) (t : Fin cfg4.N) (i : ℕ), t.val / 10 = i → t.val % 10 = k → ∀ (p : Fin 400) (q : Fin 512),
    (sAt4 V c t.val t.isLt : FVec Ideal S400x512 .f32) (ix2 p q)
      = ∑ k' ∈ Finset.range (k + 1), ∑ s : Fin 2048,
          natRd (Rarr V c) (400 * i + p.val) (2048 * k' + s.val) * natRd (Xarr V c) (2048 * k' + s.val) q.val := by
  intro k
  induction k with
  | zero =>
    intro t i hi hk p q
    rw [sAt4_first V c t hk]
    refine (accStep_apply (acc0_4 (F := Ideal)) (rblk V c t) (xblk V c t) p q).trans ?_
    rw [show (acc0_4 (F := Ideal)) (ix2 p q) = 0 from acc0_apply p q, zero_add, Finset.sum_range_one]
    refine Finset.sum_congr rfl fun s _ => ?_
    rw [rblk_apply V c t i 0 hi hk p s, xblk_apply V c t 0 hk s q]
  | succ k ih =>
    intro t i hi hk p q
    have hN := lt_N t
    have hlt : t.val - 1 < cfg4.N := Nat.lt_of_le_of_lt (Nat.sub_le _ _) t.isLt
    rw [sAt4_next V c t (by omega)]
    refine (accStep_apply (sAt4 V c (t.val - 1) hlt) (rblk V c t) (xblk V c t) p q).trans ?_
    rw [Finset.sum_range_succ]
    refine congrArg₂ (· + ·) ?_ ?_
    · exact ih ⟨t.val - 1, hlt⟩ i (by show (t.val - 1) / 10 = i; omega) (by show (t.val - 1) % 10 = k; omega) p q
    · refine Finset.sum_congr rfl fun s _ => ?_
      rw [rblk_apply V c t i (k + 1) hi hk p s, xblk_apply V c t (k + 1) hk s q]

abbrev G4 (c : Dev nD) : FVec Ideal S8000x256 .f32 := fun y =>
  Cert.Spec.sageK (Cert.Spec.meanK (Cert.Cur.cur2 (V c main_v42)) (Cert.Cur.cur2 (V c main_v84)))
    (Cert.Cur.cur2 (V c main_v79)) (Cert.Cur.cur2 (V c main_v86)) (Cert.Cur.cur2 (V c main_v87)) (Cert.Cur.row (V c main_v88)) (y 0) (y 1)

theorem oAt_apply (c : Dev nD) (t : Fin cfg4.N) (h9 : t.val % 10 = 9) (p : Fin 400) (q : Fin 256) (r : Fin 8000)
    (hr : r.val = 400 * (t.val / 10) + p.val) :
    (oAt4 V c t : FVec Ideal S400x256 .f32) (ix2 p q) = G4 V c (ix2 r q) := by
  unfold oAt4
  refine (epi_apply (sAt4 V c t.val t.isLt) (wlblk V c t) (dblk V c t) (wrblk V c t) (bblk V c t) p q).trans ?_
  show _ = Cert.Spec.mm (Cert.Spec.mm (Cert.Cur.cur2 (Rarr V c)) (Cert.Cur.cur2 (Xarr V c))) (Cert.Cur.cur2 (WLarr V c)) r q
      + Cert.Spec.mm (Cert.Cur.cur2 (Darr V c)) (Cert.Cur.cur2 (WRarr V c)) r q + Cert.Cur.row (Barr V c) q
  refine congrArg₂ (· + ·) (congrArg₂ (· + ·) ?_ ?_) ?_
  · refine Finset.sum_congr rfl fun f _ => ?_
    rw [wlblk_apply V c t f q]
    refine congrArg (· * WLarr V c (ix2 f q)) ?_
    rw [sAt_apply V c 9 t (t.val / 10) rfl h9 p f]
    refine (sum_tiles (fun n => natRd (Rarr V c) (400 * (t.val / 10) + p.val) n * natRd (Xarr V c) n f.val) 10 2048 20480 rfl).trans ?_
    refine Finset.sum_congr rfl fun s' _ => ?_
    show natRd (Rarr V c) (400 * (t.val / 10) + p.val) s'.val * natRd (Xarr V c) s'.val f.val = Rarr V c (ix2 r s') * Xarr V c (ix2 s' f)
    rw [← hr, natRd_of_lt (Rarr V c) r s', natRd_of_lt (Xarr V c) s' f]
  · refine Finset.sum_congr rfl fun f _ => ?_
    rw [dblk_apply V c t p f r hr, wrblk_apply V c t f q]
    rfl
  · exact bblk_apply V c t q

theorem flushed_eq (c : Dev nD) (t : Fin cfg4.N) (hf : (cfg4.win 6).flush t = true) :
    (dat4 V c).flushed 6 t = ((cfg4.win 6).blk t).view.read (Elt Ideal) (G4 V c) := by
  have h9 : t.val % 10 = 9 := (flush4_6 t).mp hf
  have hi := (idx_facts t).2.2.2.2.2.2
  have hN := lt_N t
  show (cfg4.win 6).cut (grid4.coords t) ((dat4 V c).after 6 t) = _
  rw [after4_6]
  funext j
  obtain ⟨p, q, rfl⟩ : ∃ (p : Fin 400) (q : Fin 256), j = ix2 p q := ⟨j 0, j 1, eq_ix2 j⟩
  rw [View.read_apply]
  show (oAt4 V c t : FVec Ideal S400x256 .f32) (ix2 p q) = G4 V c (((cfg4.win 6).blk t).view.emb (ix2 p q))
  refine (oAt_apply V c t h9 p q ⟨400 * (t.val / 10) + p.val, by omega⟩ rfl).trans ?_
  exact congrArg (G4 V c) (ix2_ext (by show 400 * (t.val / 10) + p.val = win4_6.index t 0 * 400 + 1 * p.val; rw [hi.1]; omega) (by show q.val = win4_6.index t 1 * 256 + 1 * q.val; rw [hi.2]; omega))

theorem cover (i : S8000x256.Idx) : ∃ t : Fin cfg4.N, (cfg4.win 6).flush t = true ∧ i ∈ ((cfg4.win 6).blk t).view.set := by
  have h0 : (i 0).val < 8000 := (i 0).isLt
  have h1 : (i 1).val < 256 := (i 1).isLt
  obtain ⟨t, ht⟩ : ∃ t : Fin cfg4.N, t.val = 10 * ((i 0).val / 400) + 9 :=
    ⟨⟨10 * ((i 0).val / 400) + 9, by rw [show cfg4.N = 200 from N_4]; omega⟩, rfl⟩
  have hi := (idx_facts t).2.2.2.2.2.2
  refine ⟨t, (flush4_6 t).mpr (by omega), ?_⟩
  show i ∈ ((View.whole main_v89).slice (win4_6.rect t)).set
  rw [View.set_slice_whole, Rect.mem_set_unit]
  intro a
  match a with
  | ⟨0, _⟩ => show win4_6.index t 0 * 400 ≤ (i 0).val ∧ (i 0).val < win4_6.index t 0 * 400 + 400
              rw [hi.1]; omega
  | ⟨1, _⟩ => show win4_6.index t 1 * 256 ≤ (i 1).val ∧ (i 1).val < win4_6.index t 1 * 256 + 256
              rw [hi.2]; omega

end Region4

end R4

theorem arr4_out (V : (c : Dev nD) → (b : Ref sig .tc) → Buf (Elt Ideal) ((c : Thread nD τ).loc b)) (c : Dev nD) :
    (dat4 (F := Ideal) V c).arrAt 6 cfg4.N = fun y =>
      Cert.Spec.sageK (Cert.Spec.meanK (Cert.Cur.cur2 (V c main_v42)) (Cert.Cur.cur2 (V c main_v84)))
        (Cert.Cur.cur2 (V c main_v79)) (Cert.Cur.cur2 (V c main_v86)) (Cert.Cur.cur2 (V c main_v87)) (Cert.Cur.row (V c main_v88)) (y 0) (y 1) :=
  (dat4 V c).arrAt_eq_of_cover 6 (R4.G4 V c) (R4.flushed_eq V c) R4.cover

end Cert.KernelIdeal.HandValue

end
-- ==== Proof.KI.Reg5Val.lean ====
import proofs.«401578_j53953379173285_3_alg».proof.Proof.KI.Reg5
import proofs.«401578_j53953379173285_3_alg».proof.Proof.KI.ValShared
import proofs.«401578_j53953379173285_3_alg».proof.Proof.Spec
import proofs.«401578_j53953379173285_3_alg».proof.Proof.Cur
import Idealize.ShloMosaic.Lib.ValueIdx
import Idealize.ShloMosaic.PureOps.Ideal.Laws
import Idealize.ShloMosaic.Lib.Pipeline.Value
import Idealize.ShloMosaic.Lib.ValueLayout
import Mathlib.Algebra.BigOperators.Fin
import Mathlib.Logic.Equiv.Fin.Basic

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

namespace R5

open L2

theorem accStep_apply (acc : FVec Ideal S400x512 .f32) (r : FVec Ideal S400x2048 .bf16) (x : FVec Ideal S2048x512 .bf16)
    (p : Fin 400) (q : Fin 512) :
    k5_pay2 (F := Ideal) acc r x (ix2 p q) = acc (ix2 p q) + ∑ s : Fin 2048, r (ix2 p s) * x (ix2 s q) := by
  unfold k5_pay2
  simp only [shapeCast_self]
  refine congrArg (acc (ix2 p q) + ·) ?_
  exact (Ideal.matmul_constant_zero_apply DA none r x (ix2 p q)).trans (mmA r x p q)

theorem acc0_apply (p : Fin 400) (q : Fin 512) : (k5_pay1 (F := Ideal)) (ix2 p q) = 0 := by
  unfold k5_pay1
  simp only [shapeCast_self]
  exact Ideal.ofBits_zero_f32

theorem epi_apply (acc : FVec Ideal S400x512 .f32) (wl : FVec Ideal S512x256 .bf16) (xd : FVec Ideal S400x512 .bf16)
    (wr : FVec Ideal S512x256 .bf16) (b : FVec Ideal S1x256 .f32) (p : Fin 400) (q : Fin 256) :
    k5_pay3 (F := Ideal) acc wl xd wr b (ix2 p q)
      = (∑ f : Fin 512, acc (ix2 p f) * wl (ix2 f q)) + (∑ f : Fin 512, xd (ix2 p f) * wr (ix2 f q)) + b (ix2 (0 : Fin 1) q) := by
  unfold k5_pay3
  simp only [shapeCast_self]
  refine congrArg₂ (· + ·) (congrArg₂ (· + ·) ?_ ?_) ?_
  · exact (Ideal.matmul_constant_zero_apply DB none (truncf .bf16 acc bitsLt_bf16_f32) wl (ix2 p q)).trans
      (mmB (truncf .bf16 acc bitsLt_bf16_f32) wl p q)
  · exact (Ideal.matmul_constant_zero_apply DB none xd wr (ix2 p q)).trans (mmB xd wr p q)
  · exact broadcastTo_1b_ab_apply b broadcasts_S1x256_S400x256 p q

section Region5
variable (V : (c : Dev nD) → (b : Ref sig .tc) → Buf (Elt Ideal) ((c : Thread nD τ).loc b))

abbrev rblk (c : Dev nD) (t : Fin cfg5.N) : FVec Ideal S400x2048 .bf16 := iblk5 V c 0 t
abbrev xblk (c : Dev nD) (t : Fin cfg5.N) : FVec Ideal S2048x512 .bf16 := iblk5 V c 1 t
abbrev dblk (c : Dev nD) (t : Fin cfg5.N) : FVec Ideal S400x512 .bf16 := iblk5 V c 2 t
abbrev wlblk (c : Dev nD) (t : Fin cfg5.N) : FVec Ideal S512x256 .bf16 := iblk5 V c 3 t
abbrev wrblk (c : Dev nD) (t : Fin cfg5.N) : FVec Ideal S512x256 .bf16 := iblk5 V c 4 t
abbrev bblk (c : Dev nD) (t : Fin cfg5.N) : FVec Ideal S1x256 .f32 := iblk5 V c 5 t
abbrev Rarr (c : Dev nD) : FVec Ideal S20000x8192 .bf16 := V c main_v73
abbrev Xarr (c : Dev nD) : FVec Ideal S8192x512 .bf16 := V c main_v85
abbrev Darr (c : Dev nD) : FVec Ideal S20000x512 .bf16 := V c main_v83
abbrev WLarr (c : Dev nD) : FVec Ideal S512x256 .bf16 := V c main_v90
abbrev WRarr (c : Dev nD) : FVec Ideal S512x256 .bf16 := V c main_v91
abbrev Barr (c : Dev nD) : FVec Ideal S1x256 .f32 := V c main_v92

theorem idx_facts : ∀ t : Fin cfg5.N,
    (win5_0.index t 0 = t.val / 4 ∧ win5_0.index t 1 = t.val % 4)
    ∧ (win5_1.index t 0 = t.val % 4 ∧ win5_1.index t 1 = 0)
    ∧ (win5_2.index t 0 = t.val / 4 ∧ win5_2.index t 1 = 0)
    ∧ (win5_3.index t 0 = 0 ∧ win5_3.index t 1 = 0)
    ∧ (win5_4.index t 0 = 0 ∧ win5_4.index t 1 = 0)
    ∧ (win5_5.index t 0 = 0 ∧ win5_5.index t 1 = 0)
    ∧ (win5_6.index t 0 = t.val / 4 ∧ win5_6.index t 1 = 0) :=
  (by decide +kernel : ∀ t : Fin grid5.N, _)

theorem lt_N (t : Fin cfg5.N) : t.val < 200 := N_5 ▸ t.isLt

theorem rblk_apply (c : Dev nD) (t : Fin cfg5.N) (i k : ℕ) (hi : t.val / 4 = i) (hk : t.val % 4 = k) (p : Fin 400) (s : Fin 2048) :
    rblk V c t (ix2 p s) = natRd (Rarr V c) (400 * i + p.val) (2048 * k + s.val) := by
  have hf := (idx_facts t).1
  have hN := lt_N t
  subst hi hk
  refine Eq.trans ?_ (natRd_of_lt (Rarr V c) ⟨400 * (t.val / 4) + p.val, by omega⟩ ⟨2048 * (t.val % 4) + s.val, by omega⟩).symm
  unfold rblk iblk5
  rw [View.read_apply]
  exact congrArg (V c main_v73) (ix2_ext (by show win5_0.index t 0 * 400 + 1 * p.val = 400 * (t.val / 4) + p.val; rw [hf.1]; omega) (by show win5_0.index t 1 * 2048 + 1 * s.val = 2048 * (t.val % 4) + s.val; rw [hf.2]; omega))

theorem xblk_apply (c : Dev nD) (t : Fin cfg5.N) (k : ℕ) (hk : t.val % 4 = k) (s : Fin 2048) (q : Fin 512) :
    xblk V c t (ix2 s q) = natRd (Xarr V c) (2048 * k + s.val) q.val := by
  have hf := (idx_facts t).2.1
  have hN := lt_N t
  subst hk
  refine Eq.trans ?_ (natRd_of_lt (Xarr V c) ⟨2048 * (t.val % 4) + s.val, by omega⟩ q).symm
  unfold xblk iblk5
  rw [View.read_apply]
  exact congrArg (V c main_v85) (ix2_ext (by show win5_1.index t 0 * 2048 + 1 * s.val = 2048 * (t.val % 4) + s.val; rw [hf.1]; omega) (by show win5_1.index t 1 * 512 + 1 * q.val = q.val; rw [hf.2]; omega))

theorem dblk_apply (c : Dev nD) (t : Fin cfg5.N) (p : Fin 400) (f : Fin 512) (r : Fin 20000) (hr : r.val = 400 * (t.val / 4) + p.val) :
    dblk V c t (ix2 p f) = Darr V c (ix2 r f) := by
  have hf := (idx_facts t).2.2.1
  unfold dblk iblk5
  rw [View.read_apply]
  exact congrArg (V c main_v83) (ix2_ext (by show win5_2.index t 0 * 400 + 1 * p.val = r.val; rw [hf.1, hr]; omega) (by show win5_2.index t 1 * 512 + 1 * f.val = f.val; rw [hf.2]; omega))

theorem wlblk_apply (c : Dev nD) (t : Fin cfg5.N) (f : Fin 512) (q : Fin 256) : wlblk V c t (ix2 f q) = WLarr V c (ix2 f q) := by
  have hf := (idx_facts t).2.2.2.1
  unfold wlblk iblk5
  rw [View.read_apply]
  exact congrArg (V c main_v90) (ix2_ext (by show win5_3.index t 0 * 512 + 1 * f.val = f.val; rw [hf.1]; omega) (by show win5_3.index t 1 * 256 + 1 * q.val = q.val; rw [hf.2]; omega))

theorem wrblk_apply (c : Dev nD) (t : Fin cfg5.N) (f : Fin 512) (q : Fin 256) : wrblk V c t (ix2 f q) = WRarr V c (ix2 f q) := by
  have hf := (idx_facts t).2.2.2.2.1
  unfold wrblk iblk5
  rw [View.read_apply]
  exact congrArg (V c main_v91) (ix2_ext (by show win5_4.index t 0 * 512 + 1 * f.val = f.val; rw [hf.1]; omega) (by show win5_4.index t 1 * 256 + 1 * q.val = q.val; rw [hf.2]; omega))

theorem bblk_apply (c : Dev nD) (t : Fin cfg5.N) (q : Fin 256) : bblk V c t (ix2 (0 : Fin 1) q) = Barr V c (ix2 (0 : Fin 1) q) := by
  have hf := (idx_facts t).2.2.2.2.2.1
  unfold bblk iblk5
  rw [View.read_apply]
  exact congrArg (V c main_v92) (ix2_ext (by show win5_5.index t 0 * 1 + 1 * 0 = 0; rw [hf.1]) (by show win5_5.index t 1 * 256 + 1 * q.val = q.val; rw [hf.2]; omega))

theorem sAt_apply (c : Dev nD) : ∀ (k : ℕ) (t : Fin cfg5.N) (i : ℕ), t.val / 4 = i → t.val % 4 = k → ∀ (p : Fin 400) (q : Fin 512),
    (sAt5 V c t.val t.isLt : FVec Ideal S400x512 .f32) (ix2 p q)
      = ∑ k' ∈ Finset.range (k + 1), ∑ s : Fin 2048,
          natRd (Rarr V c) (400 * i + p.val) (2048 * k' + s.val) * natRd (Xarr V c) (2048 * k' + s.val) q.val := by
  intro k
  induction k with
  | zero =>
    intro t i hi hk p q
    rw [sAt5_first V c t hk]
    refine (accStep_apply (acc0_5 (F := Ideal)) (rblk V c t) (xblk V c t) p q).trans ?_
    rw [show (acc0_5 (F := Ideal)) (ix2 p q) = 0 from acc0_apply p q, zero_add, Finset.sum_range_one]
    refine Finset.sum_congr rfl fun s _ => ?_
    rw [rblk_apply V c t i 0 hi hk p s, xblk_apply V c t 0 hk s q]
  | succ k ih =>
    intro t i hi hk p q
    have hN := lt_N t
    have hlt : t.val - 1 < cfg5.N := Nat.lt_of_le_of_lt (Nat.sub_le _ _) t.isLt
    rw [sAt5_next V c t (by omega)]
    refine (accStep_apply (sAt5 V c (t.val - 1) hlt) (rblk V c t) (xblk V c t) p q).trans ?_
    rw [Finset.sum_range_succ]
    refine congrArg₂ (· + ·) ?_ ?_
    · exact ih ⟨t.val - 1, hlt⟩ i (by show (t.val - 1) / 4 = i; omega) (by show (t.val - 1) % 4 = k; omega) p q
    · refine Finset.sum_congr rfl fun s _ => ?_
      rw [rblk_apply V c t i (k + 1) hi hk p s, xblk_apply V c t (k + 1) hk s q]

abbrev G5 (c : Dev nD) : FVec Ideal S20000x256 .f32 := fun y =>
  Cert.Spec.sageK (Cert.Spec.meanK (Cert.Cur.cur2 (V c main_v73)) (Cert.Cur.cur2 (V c main_v85)))
    (Cert.Cur.cur2 (V c main_v83)) (Cert.Cur.cur2 (V c main_v90)) (Cert.Cur.cur2 (V c main_v91)) (Cert.Cur.row (V c main_v92)) (y 0) (y 1)

theorem oAt_apply (c : Dev nD) (t : Fin cfg5.N) (h9 : t.val % 4 = 3) (p : Fin 400) (q : Fin 256) (r : Fin 20000)
    (hr : r.val = 400 * (t.val / 4) + p.val) :
    (oAt5 V c t : FVec Ideal S400x256 .f32) (ix2 p q) = G5 V c (ix2 r q) := by
  unfold oAt5
  refine (epi_apply (sAt5 V c t.val t.isLt) (wlblk V c t) (dblk V c t) (wrblk V c t) (bblk V c t) p q).trans ?_
  show _ = Cert.Spec.mm (Cert.Spec.mm (Cert.Cur.cur2 (Rarr V c)) (Cert.Cur.cur2 (Xarr V c))) (Cert.Cur.cur2 (WLarr V c)) r q
      + Cert.Spec.mm (Cert.Cur.cur2 (Darr V c)) (Cert.Cur.cur2 (WRarr V c)) r q + Cert.Cur.row (Barr V c) q
  refine congrArg₂ (· + ·) (congrArg₂ (· + ·) ?_ ?_) ?_
  · refine Finset.sum_congr rfl fun f _ => ?_
    rw [wlblk_apply V c t f q]
    refine congrArg (· * WLarr V c (ix2 f q)) ?_
    rw [sAt_apply V c 3 t (t.val / 4) rfl h9 p f]
    refine (sum_tiles (fun n => natRd (Rarr V c) (400 * (t.val / 4) + p.val) n * natRd (Xarr V c) n f.val) 4 2048 8192 rfl).trans ?_
    refine Finset.sum_congr rfl fun s' _ => ?_
    show natRd (Rarr V c) (400 * (t.val / 4) + p.val) s'.val * natRd (Xarr V c) s'.val f.val = Rarr V c (ix2 r s') * Xarr V c (ix2 s' f)
    rw [← hr, natRd_of_lt (Rarr V c) r s', natRd_of_lt (Xarr V c) s' f]
  · refine Finset.sum_congr rfl fun f _ => ?_
    rw [dblk_apply V c t p f r hr, wrblk_apply V c t f q]
    rfl
  · exact bblk_apply V c t q

theorem flushed_eq (c : Dev nD) (t : Fin cfg5.N) (hf : (cfg5.win 6).flush t = true) :
    (dat5 V c).flushed 6 t = ((cfg5.win 6).blk t).view.read (Elt Ideal) (G5 V c) := by
  have h9 : t.val % 4 = 3 := (flush5_6 t).mp hf
  have hi := (idx_facts t).2.2.2.2.2.2
  have hN := lt_N t
  show (cfg5.win 6).cut (grid5.coords t) ((dat5 V c).after 6 t) = _
  rw [after5_6]
  funext j
  obtain ⟨p, q, rfl⟩ : ∃ (p : Fin 400) (q : Fin 256), j = ix2 p q := ⟨j 0, j 1, eq_ix2 j⟩
  rw [View.read_apply]
  show (oAt5 V c t : FVec Ideal S400x256 .f32) (ix2 p q) = G5 V c (((cfg5.win 6).blk t).view.emb (ix2 p q))
  refine (oAt_apply V c t h9 p q ⟨400 * (t.val / 4) + p.val, by omega⟩ rfl).trans ?_
  exact congrArg (G5 V c) (ix2_ext (by show 400 * (t.val / 4) + p.val = win5_6.index t 0 * 400 + 1 * p.val; rw [hi.1]; omega) (by show q.val = win5_6.index t 1 * 256 + 1 * q.val; rw [hi.2]; omega))

theorem cover (i : S20000x256.Idx) : ∃ t : Fin cfg5.N, (cfg5.win 6).flush t = true ∧ i ∈ ((cfg5.win 6).blk t).view.set := by
  have h0 : (i 0).val < 20000 := (i 0).isLt
  have h1 : (i 1).val < 256 := (i 1).isLt
  obtain ⟨t, ht⟩ : ∃ t : Fin cfg5.N, t.val = 4 * ((i 0).val / 400) + 3 :=
    ⟨⟨4 * ((i 0).val / 400) + 3, by rw [show cfg5.N = 200 from N_5]; omega⟩, rfl⟩
  have hi := (idx_facts t).2.2.2.2.2.2
  refine ⟨t, (flush5_6 t).mpr (by omega), ?_⟩
  show i ∈ ((View.whole main_v93).slice (win5_6.rect t)).set
  rw [View.set_slice_whole, Rect.mem_set_unit]
  intro a
  match a with
  | ⟨0, _⟩ => show win5_6.index t 0 * 400 ≤ (i 0).val ∧ (i 0).val < win5_6.index t 0 * 400 + 400
              rw [hi.1]; omega
  | ⟨1, _⟩ => show win5_6.index t 1 * 256 ≤ (i 1).val ∧ (i 1).val < win5_6.index t 1 * 256 + 256
              rw [hi.2]; omega

end Region5

end R5

theorem arr5_out (V : (c : Dev nD) → (b : Ref sig .tc) → Buf (Elt Ideal) ((c : Thread nD τ).loc b)) (c : Dev nD) :
    (dat5 (F := Ideal) V c).arrAt 6 cfg5.N = fun y =>
      Cert.Spec.sageK (Cert.Spec.meanK (Cert.Cur.cur2 (V c main_v73)) (Cert.Cur.cur2 (V c main_v85)))
        (Cert.Cur.cur2 (V c main_v83)) (Cert.Cur.cur2 (V c main_v90)) (Cert.Cur.cur2 (V c main_v91)) (Cert.Cur.row (V c main_v92)) (y 0) (y 1) :=
  (dat5 V c).arrAt_eq_of_cover 6 (R5.G5 V c) (R5.flushed_eq V c) R5.cover

end Cert.KernelIdeal.HandValue

end
-- ==== Proof.KI.Value.lean ====
import proofs.«401578_j53953379173285_3_alg».proof.Proof.KI.ValueL1
import proofs.«401578_j53953379173285_3_alg».proof.Proof.KI.Reg4Val
import proofs.«401578_j53953379173285_3_alg».proof.Proof.KI.Reg5Val

set_option maxRecDepth 16384

noncomputable section

namespace Cert.KernelIdeal.HandValue

open Cert.KernelIdeal Cert.KernelIdeal.Gen Cert.KernelIdeal.Hand Cert.Cur
open Idealize.ShloMosaic Idealize.ShloMosaic.TcCoe Idealize.ShloMosaic.ValueIdx
open Idealize.SL Idealize.SL.Sem

section Layer2
variable (m : (ℓ : Loc nD τ sig) → Buf (Elt Ideal) ℓ) (ρ : Dev nD → PrngReg) (c : Dev nD)
  (src : Fin 200000 → Fin 20000) (dst : Fin 200000 → Fin 8000)

theorem keepIn_v42_13 : W13 m ρ c (Proc.devRef .tc main_v42) = W12 m ρ c (Proc.devRef .tc main_v42) :=
  (Wexit2_arr m ρ c 0).trans (((dat2 (Ventry2 m ρ) c).arrAt_in 0 rfl cfg2.N).trans (A_eq2 (Ventry2 m ρ) c 0))

theorem keepIn_v73_15 : W15 m ρ c (Proc.devRef .tc main_v73) = W14 m ρ c (Proc.devRef .tc main_v73) :=
  (Wexit3_arr m ρ c 0).trans (((dat3 (Ventry3 m ρ) c).arrAt_in 0 rfl cfg3.N).trans (A_eq3 (Ventry3 m ρ) c 0))

theorem v86_20 : (W20 m ρ c (Proc.devRef .tc main_v86) : S512x256.Idx → EReal) = (m ((c.tc : Thread nD τ).loc main_arg18)) :=
  (p1ops10_v86 (W19 m ρ c)).trans (args_19 m ρ c main_arg18 (by decide))
theorem v87_20 : (W20 m ρ c (Proc.devRef .tc main_v87) : S512x256.Idx → EReal) = (m ((c.tc : Thread nD τ).loc main_arg20)) :=
  (p1ops10_v87 (W19 m ρ c)).trans (args_19 m ρ c main_arg20 (by decide))
theorem v88_20 : row (W20 m ρ c (Proc.devRef .tc main_v88) : S1x256.Idx → EReal) = cur1 (m ((c.tc : Thread nD τ).loc main_arg19)) := by
  have h := p1ops10_v88 (W19 m ρ c)
  rw [(args_19 m ρ c main_arg19 (by decide))] at h
  exact h

theorem v90_22 : (W22 m ρ c (Proc.devRef .tc main_v90) : S512x256.Idx → EReal) = (m ((c.tc : Thread nD τ).loc main_arg21)) :=
  (p1ops11_v90 (W21 m ρ c)).trans (args_21 m ρ c main_arg21 (by decide))
theorem v91_22 : (W22 m ρ c (Proc.devRef .tc main_v91) : S512x256.Idx → EReal) = (m ((c.tc : Thread nD τ).loc main_arg23)) :=
  (p1ops11_v91 (W21 m ρ c)).trans (args_21 m ρ c main_arg23 (by decide))
theorem v92_22 : row (W22 m ρ c (Proc.devRef .tc main_v92) : S1x256.Idx → EReal) = cur1 (m ((c.tc : Thread nD τ).loc main_arg22)) := by
  have h := p1ops11_v92 (W21 m ρ c)
  rw [(args_21 m ρ c main_arg22 (by decide))] at h
  exact h

section Edges
variable (hsrc : ∀ e, ((m ((c.tc : Thread nD τ).loc main_arg4)) (ix1 e)).toInt = ((src e).val : ℤ))
  (hdst : ∀ e, ((m ((c.tc : Thread nD τ).loc main_arg5)) (ix1 e)).toInt = ((dst e).val : ℤ))
include hsrc hdst

theorem v84_17 : cur2 (W17 m ρ c (Proc.devRef .tc main_v84) : S20480x512.Idx → EReal) = Cert.Spec.padRows (nsp := 20480) (Cert.Spec.kHm (kArgs m c src dst)) := by
  have h := pad_v84 (W16 m ρ c) (p1ops6_c22 (W15 m ρ c))
  rw [(W16_of m ρ c main_v83 (by decide)), v83_15 m ρ c src dst hsrc hdst] at h
  exact (congrArg cur2 h).trans (cur2_unc _)

theorem v85_19 : cur2 (W19 m ρ c (Proc.devRef .tc main_v85) : S8192x512.Idx → EReal) = Cert.Spec.padRows (nsp := 8192) (Cert.Spec.kHd (kArgs m c src dst)) := by
  have h := pad_v85 (W18 m ρ c) (p1ops8_c23 (W17 m ρ c))
  rw [((W18_of m ρ c main_v79 (by decide)).trans ((W17_of m ρ c main_v79 (by decide)).trans ((W16_of m ρ c main_v79 (by decide)).trans ((Wexit3_of_ne m ρ c main_v79 (by decide)).trans (W14_of m ρ c main_v79 (by decide)))))), v79_13 m ρ c src dst hsrc hdst] at h
  exact (congrArg cur2 h).trans (cur2_unc _)

theorem v89_21 : cur2 (W21 m ρ c (Proc.devRef .tc main_v89) : S8000x256.Idx → EReal) = Cert.Spec.kOd (kArgs m c src dst) := by
  have h : (W21 m ρ c (Proc.devRef .tc main_v89) : S8000x256.Idx → EReal) = fun y => Cert.Spec.sageK (Cert.Spec.meanK (cur2 (W20 m ρ c (Proc.devRef .tc main_v42) : S8000x20480.Idx → EReal)) (cur2 (W20 m ρ c (Proc.devRef .tc main_v84) : S20480x512.Idx → EReal))) (cur2 (W20 m ρ c (Proc.devRef .tc main_v79) : S8000x512.Idx → EReal)) (cur2 (W20 m ρ c (Proc.devRef .tc main_v86) : S512x256.Idx → EReal)) (cur2 (W20 m ρ c (Proc.devRef .tc main_v87) : S512x256.Idx → EReal)) (row (W20 m ρ c (Proc.devRef .tc main_v88) : S1x256.Idx → EReal)) (y 0) (y 1) :=
    (Wexit4_arr m ρ c 6).trans (arr4_out (Ventry4 m ρ) c)
  rw [((W20_of m ρ c main_v42 (by decide)).trans ((W19_of m ρ c main_v42 (by decide)).trans ((W18_of m ρ c main_v42 (by decide)).trans ((W17_of m ρ c main_v42 (by decide)).trans ((W16_of m ρ c main_v42 (by decide)).trans ((Wexit3_of_ne m ρ c main_v42 (by decide)).trans ((W14_of m ρ c main_v42 (by decide)).trans ((keepIn_v42_13 m ρ c).trans ((W12_of m ρ c main_v42 (by decide)).trans ((W11_of m ρ c main_v42 (by decide)).trans ((W10_of m ρ c main_v42 (by decide)).trans ((W9_of m ρ c main_v42 (by decide)).trans (W8_of m ρ c main_v42 (by decide)))))))))))))), v42_7 m ρ c src dst hsrc hdst,
    ((W20_of m ρ c main_v84 (by decide)).trans ((W19_of m ρ c main_v84 (by decide)).trans (W18_of m ρ c main_v84 (by decide)))), v84_17 m ρ c src dst hsrc hdst,
    ((W20_of m ρ c main_v79 (by decide)).trans ((W19_of m ρ c main_v79 (by decide)).trans ((W18_of m ρ c main_v79 (by decide)).trans ((W17_of m ρ c main_v79 (by decide)).trans ((W16_of m ρ c main_v79 (by decide)).trans ((Wexit3_of_ne m ρ c main_v79 (by decide)).trans (W14_of m ρ c main_v79 (by decide)))))))), v79_13 m ρ c src dst hsrc hdst,
    v86_20 m ρ c,
    v87_20 m ρ c,
    v88_20 m ρ c] at h
  refine (congrArg cur2 h).trans ((cur2_unc _).trans ?_)
  simp only [Cert.Spec.kOd, kArgs_W2mdl, kArgs_W2mdr, kArgs_b2md]

theorem v93_23 : cur2 (W23 m ρ c (Proc.devRef .tc main_v93) : S20000x256.Idx → EReal) = Cert.Spec.kOm (kArgs m c src dst) := by
  have h : (W23 m ρ c (Proc.devRef .tc main_v93) : S20000x256.Idx → EReal) = fun y => Cert.Spec.sageK (Cert.Spec.meanK (cur2 (W22 m ρ c (Proc.devRef .tc main_v73) : S20000x8192.Idx → EReal)) (cur2 (W22 m ρ c (Proc.devRef .tc main_v85) : S8192x512.Idx → EReal))) (cur2 (W22 m ρ c (Proc.devRef .tc main_v83) : S20000x512.Idx → EReal)) (cur2 (W22 m ρ c (Proc.devRef .tc main_v90) : S512x256.Idx → EReal)) (cur2 (W22 m ρ c (Proc.devRef .tc main_v91) : S512x256.Idx → EReal)) (row (W22 m ρ c (Proc.devRef .tc main_v92) : S1x256.Idx → EReal)) (y 0) (y 1) :=
    (Wexit5_arr m ρ c 6).trans (arr5_out (Ventry5 m ρ) c)
  rw [((W22_of m ρ c main_v73 (by decide)).trans ((Wexit4_of_ne m ρ c main_v73 (by decide)).trans ((W20_of m ρ c main_v73 (by decide)).trans ((W19_of m ρ c main_v73 (by decide)).trans ((W18_of m ρ c main_v73 (by decide)).trans ((W17_of m ρ c main_v73 (by decide)).trans ((W16_of m ρ c main_v73 (by decide)).trans ((keepIn_v73_15 m ρ c).trans ((W14_of m ρ c main_v73 (by decide)).trans ((Wexit2_of_ne m ρ c main_v73 (by decide)).trans ((W12_of m ρ c main_v73 (by decide)).trans ((W11_of m ρ c main_v73 (by decide)).trans ((W10_of m ρ c main_v73 (by decide)).trans (W9_of m ρ c main_v73 (by decide))))))))))))))), v73_8 m ρ c src dst hsrc hdst,
    ((W22_of m ρ c main_v85 (by decide)).trans ((Wexit4_of_ne m ρ c main_v85 (by decide)).trans (W20_of m ρ c main_v85 (by decide)))), v85_19 m ρ c src dst hsrc hdst,
    ((W22_of m ρ c main_v83 (by decide)).trans ((Wexit4_of_ne m ρ c main_v83 (by decide)).trans ((W20_of m ρ c main_v83 (by decide)).trans ((W19_of m ρ c main_v83 (by decide)).trans ((W18_of m ρ c main_v83 (by decide)).trans ((W17_of m ρ c main_v83 (by decide)).trans (W16_of m ρ c main_v83 (by decide)))))))), v83_15 m ρ c src dst hsrc hdst,
    v90_22 m ρ c,
    v91_22 m ρ c,
    v92_22 m ρ c] at h
  refine (congrArg cur2 h).trans ((cur2_unc _).trans ?_)
  simp only [Cert.Spec.kOm, kArgs_W2dml, kArgs_W2dmr, kArgs_b2dm]

theorem kval_v93 : (W23 m ρ c (Proc.devRef .tc main_v93) : S20000x256.Idx → EReal) = fun y => Cert.Spec.kOm (kArgs m c src dst) (y 0) (y 1) :=
  funext fun y => (cur2_apply _ y).trans (congrFun (congrFun (v93_23 m ρ c src dst hsrc hdst) (y 0)) (y 1))

theorem kval_v89 : (W23 m ρ c (Proc.devRef .tc main_v89) : S8000x256.Idx → EReal) = fun y => Cert.Spec.kOd (kArgs m c src dst) (y 0) (y 1) :=
  ((Wexit5_of_ne m ρ c main_v89 (by decide)).trans (W22_of m ρ c main_v89 (by decide))).trans
    (funext fun y => (cur2_apply _ y).trans (congrFun (congrFun (v89_21 m ρ c src dst hsrc hdst) (y 0)) (y 1)))

end Edges
end Layer2

end Cert.KernelIdeal.HandValue

end
-- ==== Proof.K.Writes.lean ====
import proofs.«401578_j53953379173285_3_alg».proof.Proof.Gen.Kernel.Launch
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- An operation whose one result is a reference of the list `W` writes inside `W`. -/
theorem writes_sub {op : HloOp τ sig (Elt F)} {W : List (Ref sig .tc)} {y : Ref sig .tc}
    (h : op.writes = {Proc.devRef .tc y}) (hy : y ∈ W) :
    op.writes ⊆ (W.map (Proc.devRef (τ := τ) .tc)).toFinset := by
  rw [h, Finset.singleton_subset_iff, List.mem_toFinset]; exact List.mem_map_of_mem hy

theorem main_part0_ops0_fresh : (main_part0_ops0 : List (HloOp τ sig (Elt F))).Forall fun op => op.fresh = ∅ := by
  simp only [List.Forall]; repeat' constructor
abbrev main_part0_ops0_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]
theorem main_part0_ops0_writes : (main_part0_ops0 : List (HloOp τ sig (Elt F))).Forall fun op => op.writes ⊆ (main_part0_ops0_W.map (Proc.devRef (τ := τ) .tc)).toFinset := by
  simp only [List.Forall]; repeat' apply And.intro
  all_goals exact writes_sub rfl (by decide)

theorem main_part0_ops1_fresh : (main_part0_ops1 : List (HloOp τ sig (Elt F))).Forall fun op => op.fresh = ∅ := by
  simp only [List.Forall]; repeat' constructor
abbrev main_part0_ops1_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v1]
theorem main_part0_ops1_writes : (main_part0_ops1 : List (HloOp τ sig (Elt F))).Forall fun op => op.writes ⊆ (main_part0_ops1_W.map (Proc.devRef (τ := τ) .tc)).toFinset := by
  simp only [List.Forall]; repeat' apply And.intro
  all_goals exact writes_sub rfl (by decide)

theorem main_part0_ops2_fresh : (main_part0_ops2 : List (HloOp τ sig (Elt F))).Forall fun op => op.fresh = ∅ := by
  simp only [List.Forall]; repeat' constructor
abbrev main_part0_ops2_W : List (Ref sig .tc) := [main_v2, main_v3, main_v4, main_v5]
theorem main_part0_ops2_writes : (main_part0_ops2 : List (HloOp τ sig (Elt F))).Forall fun op => op.writes ⊆ (main_part0_ops2_W.map (Proc.devRef (τ := τ) .tc)).toFinset := by
  simp only [List.Forall]; repeat' apply And.intro
  all_goals exact writes_sub rfl (by decide)

theorem main_part0_ops3_fresh : (main_part0_ops3 : List (HloOp τ sig (Elt F))).Forall fun op => op.fresh = ∅ := by
  simp only [List.Forall]; repeat' constructor
abbrev main_part0_ops3_W : List (Ref sig .tc) := [main_v7, main_v8, main_v9, main_v10]
theorem main_part0_ops3_writes : (main_part0_ops3 : List (HloOp τ sig (Elt F))).Forall fun op => op.writes ⊆ (main_part0_ops3_W.map (Proc.devRef (τ := τ) .tc)).toFinset := by
  simp only [List.Forall]; repeat' apply And.intro
  all_goals exact writes_sub rfl (by decide)

theorem main_part0_ops4_fresh : (main_part0_ops4 : List (HloOp τ sig (Elt F))).Forall fun op => op.fresh = ∅ := by
  simp only [List.Forall]; repeat' constructor
abbrev main_part0_ops4_W : List (Ref sig .tc) := [main_cst, main_v12, main_cst_0, main_v13, main_v14, main_v15, main_cst_1, main_v16, main_v17, main_c, main_v18, main_v19, main_c_2, main_v20, main_v21, main_v22, main_v23, main_v24, main_cst_3, main_v25, main_v26, main_cst_4, main_v27, main_c_5, main_v28, main_v29, main_c_6, main_v30, main_v31, main_v32, main_c_7, main_v33, main_v34, main_c_8, main_v35, main_v36, main_v37, main_v38, main_v39, main_v40, main_v41, main_v42, main_cst_9, main_v43, main_cst_10, main_v44, main_v45, main_v46]
theorem main_part0_ops4_writes : (main_part0_ops4 : List (HloOp τ sig (Elt F))).Forall fun op => op.writes ⊆ (main_part0_ops4_W.map (Proc.devRef (τ := τ) .tc)).toFinset := by
  simp only [List.Forall]; repeat' apply And.intro
  all_goals exact writes_sub rfl (by decide)

theorem main_part1_ops0_fresh : (main_part1_ops0 : List (HloOp τ sig (Elt F))).Forall fun op => op.fresh = ∅ := by
  simp only [List.Forall]; repeat' constructor
abbrev main_part1_ops0_W : List (Ref sig .tc) := [main_cst_11, main_v47, main_v48, main_c_12, main_v49, main_v50, main_c_13, main_v51, main_v52, main_v53, main_v54, main_v55, main_cst_14, main_v56, main_v57, main_cst_15, main_v58, main_c_16, main_v59, main_v60, main_c_17, main_v61, main_v62, main_v63, main_c_18, main_v64, main_v65, main_c_19, main_v66, main_v67, main_v68, main_v69, main_v70, main_v71, main_v72, main_v73, main_c_20]
theorem main_part1_ops0_writes : (main_part1_ops0 : List (HloOp τ sig (Elt F))).Forall fun op => op.writes ⊆ (main_part1_ops0_W.map (Proc.devRef (τ := τ) .tc)).toFinset := by
  simp only [List.Forall]; repeat' apply And.intro
  all_goals exact writes_sub rfl (by decide)

theorem main_part1_ops1_fresh : (main_part1_ops1 : List (HloOp τ sig (Elt F))).Forall fun op => op.fresh = ∅ := by
  simp only [List.Forall]; repeat' constructor
abbrev main_part1_ops1_W : List (Ref sig .tc) := [main_call2_v0, main_v74]
theorem main_part1_ops1_writes : (main_part1_ops1 : List (HloOp τ sig (Elt F))).Forall fun op => op.writes ⊆ (main_part1_ops1_W.map (Proc.devRef (τ := τ) .tc)).toFinset := by
  simp only [List.Forall]; repeat' apply And.intro
  all_goals exact writes_sub rfl (by decide)

theorem main_part1_ops2_fresh : (main_part1_ops2 : List (HloOp τ sig (Elt F))).Forall fun op => op.fresh = ∅ := by
  simp only [List.Forall]; repeat' constructor
abbrev main_part1_ops2_W : List (Ref sig .tc) := [main_c_21]
theorem main_part1_ops2_writes : (main_part1_ops2 : List (HloOp τ sig (Elt F))).Forall fun op => op.writes ⊆ (main_part1_ops2_W.map (Proc.devRef (τ := τ) .tc)).toFinset := by
  simp only [List.Forall]; repeat' apply And.intro
  all_goals exact writes_sub rfl (by decide)

theorem main_part1_ops3_fresh : (main_part1_ops3 : List (HloOp τ sig (Elt F))).Forall fun op => op.fresh = ∅ := by
  simp only [List.Forall]; repeat' constructor
abbrev main_part1_ops3_W : List (Ref sig .tc) := [main_call3_v0, main_v75]
theorem main_part1_ops3_writes : (main_part1_ops3 : List (HloOp τ sig (Elt F))).Forall fun op => op.writes ⊆ (main_part1_ops3_W.map (Proc.devRef (τ := τ) .tc)).toFinset := by
  simp only [List.Forall]; repeat' apply And.intro
  all_goals exact writes_sub rfl (by decide)

theorem main_part1_ops4_fresh : (main_part1_ops4 : List (HloOp τ sig (Elt F))).Forall fun op => op.fresh = ∅ := by
  simp only [List.Forall]; repeat' constructor
abbrev main_part1_ops4_W : List (Ref sig .tc) := [main_v76, main_v77, main_v78]
theorem main_part1_ops4_writes : (main_part1_ops4 : List (HloOp τ sig (Elt F))).Forall fun op => op.writes ⊆ (main_part1_ops4_W.map (Proc.devRef (τ := τ) .tc)).toFinset := by
  simp only [List.Forall]; repeat' apply And.intro
  all_goals exact writes_sub rfl (by decide)

theorem main_part1_ops5_fresh : (main_part1_ops5 : List (HloOp τ sig (Elt F))).Forall fun op => op.fresh = ∅ := by
  simp only [List.Forall]; repeat' constructor
abbrev main_part1_ops5_W : List (Ref sig .tc) := [main_v80, main_v81, main_v82]
theorem main_part1_ops5_writes : (main_part1_ops5 : List (HloOp τ sig (Elt F))).Forall fun op => op.writes ⊆ (main_part1_ops5_W.map (Proc.devRef (τ := τ) .tc)).toFinset := by
  simp only [List.Forall]; repeat' apply And.intro
  all_goals exact writes_sub rfl (by decide)

theorem main_part1_ops6_fresh : (main_part1_ops6 : List (HloOp τ sig (Elt F))).Forall fun op => op.fresh = ∅ := by
  simp only [List.Forall]; repeat' constructor
abbrev main_part1_ops6_W : List (Ref sig .tc) := [main_c_22]
theorem main_part1_ops6_writes : (main_part1_ops6 : List (HloOp τ sig (Elt F))).Forall fun op => op.writes ⊆ (main_part1_ops6_W.map (Proc.devRef (τ := τ) .tc)).toFinset := by
  simp only [List.Forall]; repeat' apply And.intro
  all_goals exact writes_sub rfl (by decide)

theorem main_part1_ops7_fresh : (main_part1_ops7 : List (HloOp τ sig (Elt F))).Forall fun op => op.fresh = ∅ := by
  simp only [List.Forall]; repeat' constructor
abbrev main_part1_ops7_W : List (Ref sig .tc) := [main_call4_v0, main_v84]
theorem main_part1_ops7_writes : (main_part1_ops7 : List (HloOp τ sig (Elt F))).Forall fun op => op.writes ⊆ (main_part1_ops7_W.map (Proc.devRef (τ := τ) .tc)).toFinset := by
  simp only [List.Forall]; repeat' apply And.intro
  all_goals exact writes_sub rfl (by decide)

theorem main_part1_ops8_fresh : (main_part1_ops8 : List (HloOp τ sig (Elt F))).Forall fun op => op.fresh = ∅ := by
  simp only [List.Forall]; repeat' constructor
abbrev main_part1_ops8_W : List (Ref sig .tc) := [main_c_23]
theorem main_part1_ops8_writes : (main_part1_ops8 : List (HloOp τ sig (Elt F))).Forall fun op => op.writes ⊆ (main_part1_ops8_W.map (Proc.devRef (τ := τ) .tc)).toFinset := by
  simp only [List.Forall]; repeat' apply And.intro
  all_goals exact writes_sub rfl (by decide)

theorem main_part1_ops9_fresh : (main_part1_ops9 : List (HloOp τ sig (Elt F))).Forall fun op => op.fresh = ∅ := by
  simp only [List.Forall]; repeat' constructor
abbrev main_part1_ops9_W : List (Ref sig .tc) := [main_call5_v0, main_v85]
theorem main_part1_ops9_writes : (main_part1_ops9 : List (HloOp τ sig (Elt F))).Forall fun op => op.writes ⊆ (main_part1_ops9_W.map (Proc.devRef (τ := τ) .tc)).toFinset := by
  simp only [List.Forall]; repeat' apply And.intro
  all_goals exact writes_sub rfl (by decide)

theorem main_part1_ops10_fresh : (main_part1_ops10 : List (HloOp τ sig (Elt F))).Forall fun op => op.fresh = ∅ := by
  simp only [List.Forall]; repeat' constructor
abbrev main_part1_ops10_W : List (Ref sig .tc) := [main_v86, main_v87, main_v88]
theorem main_part1_ops10_writes : (main_part1_ops10 : List (HloOp τ sig (Elt F))).Forall fun op => op.writes ⊆ (main_part1_ops10_W.map (Proc.devRef (τ := τ) .tc)).toFinset := by
  simp only [List.Forall]; repeat' apply And.intro
  all_goals exact writes_sub rfl (by decide)

theorem main_part1_ops11_fresh : (main_part1_ops11 : List (HloOp τ sig (Elt F))).Forall fun op => op.fresh = ∅ := by
  simp only [List.Forall]; repeat' constructor
abbrev main_part1_ops11_W : List (Ref sig .tc) := [main_v90, main_v91, main_v92]
theorem main_part1_ops11_writes : (main_part1_ops11 : List (HloOp τ sig (Elt F))).Forall fun op => op.writes ⊆ (main_part1_ops11_W.map (Proc.devRef (τ := τ) .tc)).toFinset := by
  simp only [List.Forall]; repeat' apply And.intro
  all_goals exact writes_sub rfl (by decide)

end Cert.Kernel.Hand

end
-- ==== Proof.K.Reg0.lean ====
import proofs.«401578_j53953379173285_3_alg».proof.Proof.Gen.Kernel.Launch
import proofs.«401578_j53953379173285_3_alg».proof.Proof.Gen.Kernel.Skeleton
import proofs.«401578_j53953379173285_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x384 := Rect.unit (s := S2000x384) ![0, 0] S2000x384.size inb_S2000x384_S2000x384_0_0
abbrev r0_1 : Rect S384x512 := Rect.unit (s := S384x512) ![0, 0] S384x512.size inb_S384x512_S384x512_0_0
abbrev r0_2 : Rect S2000x512 := Rect.unit (s := S2000x512) ![0, 0] S2000x512.size inb_S2000x512_S2000x512_0_0
abbrev r0_3 : Rect S1x512 := Rect.unit (s := S1x512) ![0, 0] S1x512.size inb_S1x512_S1x512_0_0

def out0_4 (x0 : Vec F S2000x384 .bf16) (x1 : Vec F S384x512 .bf16) (x2 : Vec F S2000x512 .bf16) (x3 : Vec F S1x512 .f32) :
    Vec F S2000x512 .bf16 :=
  View.canon [⟨r0_2, k0_pay1 (View.ld x0 r0_0) (View.ld x1 r0_1) (View.ld x2 r0_2) (View.ld x3 r0_3)⟩]

theorem cover0_4 (p0 : Vec F S2000x512 .bf16) (y : S2000x512.Idx) :
    ∃ pc ∈ ([⟨r0_2, p0⟩] : List (View.Piece (Elt F) S2000x512 .bf16)), y ∈ pc.1.set :=
  View.cover_of_tiled [⟨r0_2, p0⟩] S2000x512.size (by rfl) y

theorem sound_kernel0 (c : Dev nD) (E : Set ℕ) (i : grid0.Coords)
    (arg1 : Memref sig .tc .vmem S2000x384 .bf16) (harg1 : arg1.IsWhole) (arg2 : Memref sig .tc .vmem S384x512 .bf16) (harg2 : arg2.IsWhole)
    (arg3 : Memref sig .tc .vmem S2000x512 .bf16) (harg3 : arg3.IsWhole) (arg4 : Memref sig .tc .vmem S1x512 .f32) (harg4 : arg4.IsWhole)
    (arg5 : Memref sig .tc .vmem S2000x512 .bf16) (harg5 : arg5.IsWhole)
    (x0 : Vec F S2000x384 .bf16) (x1 : Vec F S384x512 .bf16) (x2 : Vec F S2000x512 .bf16) (x3 : Vec F S1x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__linear_bias_add_body i arg1 harg1 arg2 harg2 arg3 harg3 arg4 harg4 arg5 harg5) K := by
  simp only [cc0__linear_bias_add_body_eq_skeleton]; unfold cc0__linear_bias_add_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]; rotate_left; isplitl [H1]; rotate_left; isplitl [H2]; rotate_left; isplitl [H3]
  all_goals
    iexists _; isplitr; swap; · iassumption
    ipureintro
    first | with_reducible rfl | exact View.read_writes_eq_canon _ _ _ (cover0_4 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Region0

end Cert.Kernel.Hand

end
-- ==== Proof.K.Reg1.lean ====
import proofs.«401578_j53953379173285_3_alg».proof.Proof.Gen.Kernel.Launch
import proofs.«401578_j53953379173285_3_alg».proof.Proof.Gen.Kernel.Skeleton
import proofs.«401578_j53953379173285_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x384 := Rect.unit (s := S2000x384) ![0, 0] S2000x384.size inb_S2000x384_S2000x384_0_0
abbrev r1_1 : Rect S384x512 := Rect.unit (s := S384x512) ![0, 0] S384x512.size inb_S384x512_S384x512_0_0
abbrev r1_2 : Rect S2000x512 := Rect.unit (s := S2000x512) ![0, 0] S2000x512.size inb_S2000x512_S2000x512_0_0
abbrev r1_3 : Rect S1x512 := Rect.unit (s := S1x512) ![0, 0] S1x512.size inb_S1x512_S1x512_0_0

def out1_4 (x0 : Vec F S2000x384 .bf16) (x1 : Vec F S384x512 .bf16) (x2 : Vec F S2000x512 .bf16) (x3 : Vec F S1x512 .f32) :
    Vec F S2000x512 .bf16 :=
  View.canon [⟨r1_2, k1_pay1 (View.ld x0 r1_0) (View.ld x1 r1_1) (View.ld x2 r1_2) (View.ld x3 r1_3)⟩]

theorem cover1_4 (p0 : Vec F S2000x512 .bf16) (y : S2000x512.Idx) :
    ∃ pc ∈ ([⟨r1_2, p0⟩] : List (View.Piece (Elt F) S2000x512 .bf16)), y ∈ pc.1.set :=
  View.cover_of_tiled [⟨r1_2, p0⟩] S2000x512.size (by rfl) y

theorem sound_kernel1 (c : Dev nD) (E : Set ℕ) (i : grid1.Coords)
    (arg1 : Memref sig .tc .vmem S2000x384 .bf16) (harg1 : arg1.IsWhole) (arg2 : Memref sig .tc .vmem S384x512 .bf16) (harg2 : arg2.IsWhole)
    (arg3 : Memref sig .tc .vmem S2000x512 .bf16) (harg3 : arg3.IsWhole) (arg4 : Memref sig .tc .vmem S1x512 .f32) (harg4 : arg4.IsWhole)
    (arg5 : Memref sig .tc .vmem S2000x512 .bf16) (harg5 : arg5.IsWhole)
    (x0 : Vec F S2000x384 .bf16) (x1 : Vec F S384x512 .bf16) (x2 : Vec F S2000x512 .bf16) (x3 : Vec F S1x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__linear_bias_add_body i arg1 harg1 arg2 harg2 arg3 harg3 arg4 harg4 arg5 harg5) K := by
  simp only [cc1__linear_bias_add_body_eq_skeleton]; unfold cc1__linear_bias_add_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]; rotate_left; isplitl [H1]; rotate_left; isplitl [H2]; rotate_left; isplitl [H3]
  all_goals
    iexists _; isplitr; swap; · iassumption
    ipureintro
    first | with_reducible rfl | exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl
theorem hout1 (c : Dev nD) : (dat1 V c).Φ (Fin.last cfg1.N) ⊢ Pipeline.ΦA spec1 c := .rfl

end Region1

end Cert.Kernel.Hand

end
-- ==== Proof.K.Reg2.lean ====
import proofs.«401578_j53953379173285_3_alg».proof.Proof.Gen.Kernel.Launch
import proofs.«401578_j53953379173285_3_alg».proof.Proof.Gen.Kernel.Skeleton
import proofs.«401578_j53953379173285_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)

abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

theorem idleAt2_6 (i : grid2.Coords) (h : ¬cond2_1 i) : cfg2.idle 6 i = true := by
  show (!(k2_cond2 i == 1#1)) = true
  cases hb : (k2_cond2 i == 1#1)
  · rfl
  · exact absurd (eq_of_beq hb) h
theorem liveAt2_6 (i : grid2.Coords) (h : cond2_1 i) : cfg2.idle 6 i = false := by
  show (!(k2_cond2 i == 1#1)) = false
  rw [show k2_cond2 i = 1#1 from h]; rfl
theorem noFlush2_6 (t : Fin cfg2.N) (h : ¬cond2_1 (grid2.coords t)) : (cfg2.win 6).flush t = false :=
  Bool.eq_false_iff.mpr fun hf => h ((hcond2_1 t).mpr ((flush2_6 t).mp hf))

abbrev ms2_0 (t : Fin cfg2.N) : Memref sig .tc .vmem S400x2048 .bf16 := win2_0.stage (cfg2.slots t 0)
abbrev ms2_1 (t : Fin cfg2.N) : Memref sig .tc .vmem S2048x512 .bf16 := win2_1.stage (cfg2.slots t 1)
abbrev ms2_2 (t : Fin cfg2.N) : Memref sig .tc .vmem S400x512 .bf16 := win2_2.stage (cfg2.slots t 2)
abbrev ms2_3 (t : Fin cfg2.N) : Memref sig .tc .vmem S512x512 .bf16 := win2_3.stage (cfg2.slots t 3)
abbrev ms2_4 (t : Fin cfg2.N) : Memref sig .tc .vmem S512x512 .bf16 := win2_4.stage (cfg2.slots t 4)
abbrev ms2_5 (t : Fin cfg2.N) : Memref sig .tc .vmem S1x512 .f32 := win2_5.stage (cfg2.slots t 5)
abbrev ms2_6 (t : Fin cfg2.N) : Memref sig .tc .vmem S400x512 .bf16 := win2_6.stage (cfg2.slots t 6)
abbrev scM2 : Memref sig .tc .vmem S400x512 .f32 := Memref.whole cc2_scratch0

theorem PhiA2_eq (c : Dev nD) :
    (Pipeline.ΦA spec2 c : sProp 𝕄)
      = iprop(iprop(iprop((∃ d, owns (c : Thread nD τ) scM2 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

def accStep2 (acc : Vec F S400x512 .f32) (r : Vec F S400x2048 .bf16) (x : Vec F S2048x512 .bf16) : Vec F S400x512 .f32 := k2_pay2 acc r x
def acc0_2 : Vec F S400x512 .f32 := k2_pay1
def epi2 (acc : Vec F S400x512 .f32) (wl : Vec F S512x512 .bf16) (xdst : Vec F S400x512 .bf16) (wr : Vec F S512x512 .bf16) (b : Vec F S1x512 .f32) : Vec F S400x512 .bf16 := k2_pay3 acc wl xdst wr b

section Body
variable (c : Dev nD) (i : grid2.Coords)
  (a2 : Memref sig .tc .vmem S400x2048 .bf16) (a3 : Memref sig .tc .vmem S2048x512 .bf16) (a4 : Memref sig .tc .vmem S400x512 .bf16) (a5 : Memref sig .tc .vmem S512x512 .bf16)
  (a6 : Memref sig .tc .vmem S512x512 .bf16) (a7 : Memref sig .tc .vmem S1x512 .f32) (a8 : Memref sig .tc .vmem S400x512 .bf16) (a9 : Memref sig .tc .vmem S400x512 .f32)
  (x0 : Vec F S400x2048 .bf16) (x1 : Vec F S2048x512 .bf16) (x2 : Vec F S400x512 .bf16) (x3 : Vec F S512x512 .bf16) (x4 : Vec F S512x512 .bf16) (x5 : Vec F S1x512 .f32) (x6 : Vec F S400x512 .bf16) (xs : Vec F S400x512 .f32)

-- The body's eight memrefs, each owned at given contents.
def held2 : sProp 𝕄 :=
  iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare xs)

set_option maxHeartbeats 1000000 in
-- The body at any point: one accumulator step (from zero where the reduction restarts), and the epilogue stored where it ends.
theorem kernel2 (h01 : cond2_0 i → ¬cond2_1 i) (h2 : a2.IsWhole) (h3 : a3.IsWhole) (h4 : a4.IsWhole) (h5 : a5.IsWhole) (h6 : a6.IsWhole) (h7 : a7.IsWhole) (h8 : a8.IsWhole) (h9 : a9.IsWhole)
    (E : Set ℕ) (K : PUnit → sProp 𝕄) :
    iprop(held2 c a2 a3 a4 a5 a6 a7 a8 a9 x0 x1 x2 x3 x4 x5 x6 xs
        ∗ (held2 c a2 a3 a4 a5 a6 a7 a8 a9 x0 x1 x2 x3 x4 x5 (if cond2_1 i then epi2 (accStep2 (if cond2_0 i then acc0_2 else xs) x0 x1) x3 x2 x4 x5 else x6)
            (accStep2 (if cond2_0 i then acc0_2 else xs) x0 x1) -∗ K ⟨⟩))
      ⊢ wp frame (wpE (defs₀ (F := F)) Variants.none c none) E (cc2__fused_sage_body i a2 h2 a3 h3 a4 h4 a5 h5 a6 h6 a7 h7 a8 h8 a9 h9) K := by
  simp only [cc2__fused_sage_body_eq_skeleton]; unfold cc2__fused_sage_body_skel held2 owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%fs, %es, HS⟩⟩, Hk⟩
  subst e0 e1 e2 e3 e4 e5 e6 es
  by_cases hc0 : cond2_0 i <;> by_cases hc1 : cond2_1 i <;> first
  | exact absurd hc1 (h01 hc0)
  | ( sl_exec (disch := first | exact hc0 | exact hc1)
      sl_step
      iapply Hk
      isplitl [H0]; rotate_left; isplitl [H1]; rotate_left; isplitl [H2]; rotate_left; isplitl [H3]; rotate_left
      isplitl [H4]; rotate_left; isplitl [H5]; rotate_left; isplitl [H6]
      all_goals
        iexists _; isplitr; swap; · iassumption
        ipureintro
        first | rw [if_pos hc0] | rw [if_neg hc0] | skip
        all_goals first | rw [if_pos hc1] | rw [if_neg hc1] | skip
        all_goals first
          | with_reducible rfl
          | sl_unfold_words
            first
            | rw [View.read_writes_eq_canon _ _ _ (fun y => ⟨_, List.mem_cons_self, View.mem_set_unit_zero hz2 inb_S400x512_S400x512_0_0 y⟩), View.canon_cons_unit_zero hz2]
            simp only [View.readCov_unit_zero (S := S400x512) _ hz2, View.readAt_eq_ld, View.ld_unit_zero (S := S400x512) hz2, View.ld_unit_zero (S := S400x2048) hz2, View.ld_unit_zero (S := S2048x512) hz2, View.ld_unit_zero (S := S512x512) hz2, View.ld_unit_zero (S := S1x512) hz2]
            try rfl )

end Body

-- The invariant's body with the accumulator at contents `s`.
def inv2 (c : Dev nD) (s : Vec F S400x512 .f32) : sProp 𝕄 :=
  iprop(iprop(owns (c : Thread nD τ) scM2 fullShare s ∗ Pipeline.scopedRestBut (Ix := Unit) (Name := ℕ) (U := UR sig nD τ) (Lvl := ℕ) (Val := Elt F) spec2 c [cc2_scratch0]) ∗ (∃ r, prngReg c r))

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def sAt2 (c : Dev nD) : (n : ℕ) → n < cfg2.N → Vec F S400x512 .f32
  | 0, hn => accStep2 acc0_2 (iblk2 V c 0 ⟨0, hn⟩) (iblk2 V c 1 ⟨0, hn⟩)
  | n + 1, hn =>
    if (n + 1) % 10 = 0 then accStep2 acc0_2 (iblk2 V c 0 ⟨n + 1, hn⟩) (iblk2 V c 1 ⟨n + 1, hn⟩)
    else accStep2 (sAt2 c n (Nat.lt_of_succ_lt hn)) (iblk2 V c 0 ⟨n + 1, hn⟩) (iblk2 V c 1 ⟨n + 1, hn⟩)

theorem sAt2_first (c : Dev nD) (t : Fin cfg2.N) (h : t.val % 10 = 0) :
    sAt2 V c t.val t.isLt = accStep2 acc0_2 (iblk2 V c 0 t) (iblk2 V c 1 t) := by
  obtain ⟨n, hn⟩ := t
  cases n with
  | zero => rfl
  | succ n => exact if_pos h

theorem sAt2_next (c : Dev nD) (t : Fin cfg2.N) (h : ¬t.val % 10 = 0) :
    sAt2 V c t.val t.isLt = accStep2 (sAt2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h
  | succ n => exact if_neg h

def oAt2 (c : Dev nD) (t : Fin cfg2.N) : Vec F S400x512 .bf16 :=
  epi2 (sAt2 V c t.val t.isLt) (iblk2 V c 3 t) (iblk2 V c 2 t) (iblk2 V c 4 t) (iblk2 V c 5 t)

def PhiS2 (c : Dev nD) : (n : ℕ) → n ≤ cfg2.N → sProp 𝕄
  | 0, _ => Pipeline.ΦA spec2 c
  | n + 1, hn => iprop(iprop(owns (c : Thread nD τ) scM2 fullShare (sAt2 V c n hn) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) : PhiS2 V c (n + 1) hn = inv2 c (sAt2 V c n hn) := rfl

theorem PhiS2_pos (c : Dev nD) (n : ℕ) (h : n ≤ cfg2.N) (hz : n ≠ 0) : PhiS2 V c n h = inv2 c (sAt2 V c (n - 1) (by omega)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => oAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_6 (c : Dev nD) (t : Fin cfg2.N) : (dat2 V c).after 6 t = oAt2 V c t := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl

-- Before point `t` the invariant holds the accumulator at some contents: what the point before left, unless the reduction restarts.
theorem Phi_open2 (c : Dev nD) (t : Fin cfg2.N) :
    (dat2 V c).Φ t.castSucc ⊢ iprop(∃ s, ⌜t.val % 10 ≠ 0 → s = sAt2 V c (t.val - 1) (Nat.lt_of_le_of_lt (Nat.sub_le _ _) t.isLt)⌝ ∗ inv2 c s) := by
  rw [PhiS2_castSucc V c t]
  by_cases hz : t.val = 0
  · rw [PhiS2_zero V c _ _ hz, PhiA2_eq]; unfold inv2
    iintro ⟨⟨⟨%s, HS⟩, HR⟩, Hg⟩
    iexists s; isplitr; · ipureintro; exact fun h => absurd (by rw [hz]) h
    isplitl [HS HR]
    · isplitl [HS]; · iexact HS
      iexact HR
    iexact Hg
  · rw [PhiS2_pos V c _ _ hz]
    iintro H; iexists _; isplitr; · ipureintro; exact fun _ => rfl
    iexact H

-- One step of the accumulator, the restart and the continuation at once.
theorem sAt2_step (c : Dev nD) (t : Fin cfg2.N) (s : Vec F S400x512 .f32)
    (hs : t.val % 10 ≠ 0 → s = sAt2 V c (t.val - 1) (Nat.lt_of_le_of_lt (Nat.sub_le _ _) t.isLt)) :
    accStep2 (if cond2_0 (grid2.coords t) then acc0_2 else s) (iblk2 V c 0 t) (iblk2 V c 1 t) = sAt2 V c t.val t.isLt := by
  by_cases h : t.val % 10 = 0
  · rw [if_pos ((hcond2_0 t).mpr h), sAt2_first V c t h]
  · rw [if_neg fun hc => h ((hcond2_0 t).mp hc), sAt2_next V c t h, hs h]

-- The output buffer after the body: the epilogue's block where it ran, else what it held.
theorem leaves2_6 (c : Dev nD) (t : Fin cfg2.N) (d) :
    owns (c : Thread nD τ) (ms2_6 t) fullShare (if cond2_1 (grid2.coords t) then oAt2 V c t else (dat2 V c).before 6 t d) ⊢ (dat2 V c).leavesExact 6 t := by
  by_cases hc1 : cond2_1 (grid2.coords t)
  · rw [if_pos hc1, show (dat2 V c).leavesExact 6 t = owns (c : Thread nD τ) (ms2_6 t) fullShare ((dat2 V c).after 6 t) from by
      unfold Dat.leavesExact; rw [liveAt2_6 _ hc1], after2_6]
  · rw [if_neg hc1, Dat.leavesExact_idle (dat2 V c) 6 t (idleAt2_6 _ hc1) (noFlush2_6 t hc1)]
    iintro H; iexists d; iexact H

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

-- The body at any point: the invariant hands over the accumulator, the one body triple runs, and everything is handed back.
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  iintro ⟨HΦ, Ho, ⟨%d0, H0⟩, ⟨%d1, H1⟩, ⟨%d2, H2⟩, ⟨%d3, H3⟩, ⟨%d4, H4⟩, ⟨%d5, H5⟩, ⟨%d6, H6⟩⟩
  ihave HI := (Phi_open2 V c t) $$ HΦ
  icases HI with ⟨%s, %hs, HI⟩
  iapply (kernel2 c (grid2.coords t) _ _ _ _ _ _ _ _ (iblk2 V c 0 t) (iblk2 V c 1 t) (iblk2 V c 2 t) (iblk2 V c 3 t) (iblk2 V c 4 t) (iblk2 V c 5 t) ((dat2 V c).before 6 t d6) s
    (fun h0 h1 => by have a := (hcond2_0 t).mp h0; have b := (hcond2_1 t).mp h1; omega) _ _ _ _ _ _ _ _ Set.univ _)
  rw [sAt2_step V c t s hs]
  unfold held2 inv2
  icases HI with ⟨⟨HS, HR⟩, Hg⟩
  isplitl [H0 H1 H2 H3 H4 H5 H6 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  iintro ⟨H0, H1, H2, H3, H4, H5, H6, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves2_6 V c t d6); iexact H6

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]; unfold inv2
  iintro ⟨⟨HS, HR⟩, Hg⟩
  isplitl [HS HR]
  · isplitl [HS]
    · iexists _; iexact HS
    iexact HR
  iexact Hg

theorem hout2 (c : Dev nD) : (dat2 V c).Φ (Fin.last cfg2.N) ⊢ Pipeline.ΦA spec2 c :=
  Phi_out2 V c _ (by rw [Fin.val_last]; have : cfg2.N = 200 := N_2; omega)

end Region2

end Cert.Kernel.Hand

end
-- ==== Proof.K.Reg3.lean ====
import proofs.«401578_j53953379173285_3_alg».proof.Proof.Gen.Kernel.Launch
import proofs.«401578_j53953379173285_3_alg».proof.Proof.Gen.Kernel.Skeleton
import proofs.«401578_j53953379173285_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0] : Fin 2 → ℕ) = fun _ => 0 := by funext a; fin_cases a <;> rfl

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)

abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

theorem idleAt3_6 (i : grid3.Coords) (h : ¬cond3_1 i) : cfg3.idle 6 i = true := by
  show (!(k3_cond2 i == 1#1)) = true
  cases hb : (k3_cond2 i == 1#1)
  · rfl
  · exact absurd (eq_of_beq hb) h
theorem liveAt3_6 (i : grid3.Coords) (h : cond3_1 i) : cfg3.idle 6 i = false := by
  show (!(k3_cond2 i == 1#1)) = false
  rw [show k3_cond2 i = 1#1 from h]; rfl
theorem noFlush3_6 (t : Fin cfg3.N) (h : ¬cond3_1 (grid3.coords t)) : (cfg3.win 6).flush t = false :=
  Bool.eq_false_iff.mpr fun hf => h ((hcond3_1 t).mpr ((flush3_6 t).mp hf))

abbrev ms3_0 (t : Fin cfg3.N) : Memref sig .tc .vmem S400x2048 .bf16 := win3_0.stage (cfg3.slots t 0)
abbrev ms3_1 (t : Fin cfg3.N) : Memref sig .tc .vmem S2048x512 .bf16 := win3_1.stage (cfg3.slots t 1)
abbrev ms3_2 (t : Fin cfg3.N) : Memref sig .tc .vmem S400x512 .bf16 := win3_2.stage (cfg3.slots t 2)
abbrev ms3_3 (t : Fin cfg3.N) : Memref sig .tc .vmem S512x512 .bf16 := win3_3.stage (cfg3.slots t 3)
abbrev ms3_4 (t : Fin cfg3.N) : Memref sig .tc .vmem S512x512 .bf16 := win3_4.stage (cfg3.slots t 4)
abbrev ms3_5 (t : Fin cfg3.N) : Memref sig .tc .vmem S1x512 .f32 := win3_5.stage (cfg3.slots t 5)
abbrev ms3_6 (t : Fin cfg3.N) : Memref sig .tc .vmem S400x512 .bf16 := win3_6.stage (cfg3.slots t 6)
abbrev scM3 : Memref sig .tc .vmem S400x512 .f32 := Memref.whole cc3_scratch0

theorem PhiA3_eq (c : Dev nD) :
    (Pipeline.ΦA spec3 c : sProp 𝕄)
      = iprop(iprop(iprop((∃ d, owns (c : Thread nD τ) scM3 fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

def accStep3 (acc : Vec F S400x512 .f32) (r : Vec F S400x2048 .bf16) (x : Vec F S2048x512 .bf16) : Vec F S400x512 .f32 := k3_pay2 acc r x
def acc0_3 : Vec F S400x512 .f32 := k3_pay1
def epi3 (acc : Vec F S400x512 .f32) (wl : Vec F S512x512 .bf16) (xdst : Vec F S400x512 .bf16) (wr : Vec F S512x512 .bf16) (b : Vec F S1x512 .f32) : Vec F S400x512 .bf16 := k3_pay3 acc wl xdst wr b

section Body
variable (c : Dev nD) (i : grid3.Coords)
  (a2 : Memref sig .tc .vmem S400x2048 .bf16) (a3 : Memref sig .tc .vmem S2048x512 .bf16) (a4 : Memref sig .tc .vmem S400x512 .bf16) (a5 : Memref sig .tc .vmem S512x512 .bf16)
  (a6 : Memref sig .tc .vmem S512x512 .bf16) (a7 : Memref sig .tc .vmem S1x512 .f32) (a8 : Memref sig .tc .vmem S400x512 .bf16) (a9 : Memref sig .tc .vmem S400x512 .f32)
  (x0 : Vec F S400x2048 .bf16) (x1 : Vec F S2048x512 .bf16) (x2 : Vec F S400x512 .bf16) (x3 : Vec F S512x512 .bf16) (x4 : Vec F S512x512 .bf16) (x5 : Vec F S1x512 .f32) (x6 : Vec F S400x512 .bf16) (xs : Vec F S400x512 .f32)

-- The body's eight memrefs, each owned at given contents.
def held3 : sProp 𝕄 :=
  iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare xs)

set_option maxHeartbeats 1000000 in
-- The body at any point: one accumulator step (from zero where the reduction restarts), and the epilogue stored where it ends.
theorem kernel3 (h01 : cond3_0 i → ¬cond3_1 i) (h2 : a2.IsWhole) (h3 : a3.IsWhole) (h4 : a4.IsWhole) (h5 : a5.IsWhole) (h6 : a6.IsWhole) (h7 : a7.IsWhole) (h8 : a8.IsWhole) (h9 : a9.IsWhole)
    (E : Set ℕ) (K : PUnit → sProp 𝕄) :
    iprop(held3 c a2 a3 a4 a5 a6 a7 a8 a9 x0 x1 x2 x3 x4 x5 x6 xs
        ∗ (held3 c a2 a3 a4 a5 a6 a7 a8 a9 x0 x1 x2 x3 x4 x5 (if cond3_1 i then epi3 (accStep3 (if cond3_0 i then acc0_3 else xs) x0 x1) x3 x2 x4 x5 else x6)
            (accStep3 (if cond3_0 i then acc0_3 else xs) x0 x1) -∗ K ⟨⟩))
      ⊢ wp frame (wpE (defs₀ (F := F)) Variants.none c none) E (cc3__fused_sage_body i a2 h2 a3 h3 a4 h4 a5 h5 a6 h6 a7 h7 a8 h8 a9 h9) K := by
  simp only [cc3__fused_sage_body_eq_skeleton]; unfold cc3__fused_sage_body_skel held3 owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%fs, %es, HS⟩⟩, Hk⟩
  subst e0 e1 e2 e3 e4 e5 e6 es
  by_cases hc0 : cond3_0 i <;> by_cases hc1 : cond3_1 i <;> first
  | exact absurd hc1 (h01 hc0)
  | ( sl_exec (disch := first | exact hc0 | exact hc1)
      sl_step
      iapply Hk
      isplitl [H0]; rotate_left; isplitl [H1]; rotate_left; isplitl [H2]; rotate_left; isplitl [H3]; rotate_left
      isplitl [H4]; rotate_left; isplitl [H5]; rotate_left; isplitl [H6]
      all_goals
        iexists _; isplitr; swap; · iassumption
        ipureintro
        first | rw [if_pos hc0] | rw [if_neg hc0] | skip
        all_goals first | rw [if_pos hc1] | rw [if_neg hc1] | skip
        all_goals first
          | with_reducible rfl
          | sl_unfold_words
            first
            | rw [View.read_writes_eq_canon _ _ _ (fun y => ⟨_, List.mem_cons_self, View.mem_set_unit_zero hz3 inb_S400x512_S400x512_0_0 y⟩), View.canon_cons_unit_zero hz3]
            simp only [View.readCov_unit_zero (S := S400x512) _ hz3, View.readAt_eq_ld, View.ld_unit_zero (S := S400x512) hz3, View.ld_unit_zero (S := S400x2048) hz3, View.ld_unit_zero (S := S2048x512) hz3, View.ld_unit_zero (S := S512x512) hz3, View.ld_unit_zero (S := S1x512) hz3]
            try rfl )

end Body

-- The invariant's body with the accumulator at contents `s`.
def inv3 (c : Dev nD) (s : Vec F S400x512 .f32) : sProp 𝕄 :=
  iprop(iprop(owns (c : Thread nD τ) scM3 fullShare s ∗ Pipeline.scopedRestBut (Ix := Unit) (Name := ℕ) (U := UR sig nD τ) (Lvl := ℕ) (Val := Elt F) spec3 c [cc3_scratch0]) ∗ (∃ r, prngReg c r))

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def sAt3 (c : Dev nD) : (n : ℕ) → n < cfg3.N → Vec F S400x512 .f32
  | 0, hn => accStep3 acc0_3 (iblk3 V c 0 ⟨0, hn⟩) (iblk3 V c 1 ⟨0, hn⟩)
  | n + 1, hn =>
    if (n + 1) % 4 = 0 then accStep3 acc0_3 (iblk3 V c 0 ⟨n + 1, hn⟩) (iblk3 V c 1 ⟨n + 1, hn⟩)
    else accStep3 (sAt3 c n (Nat.lt_of_succ_lt hn)) (iblk3 V c 0 ⟨n + 1, hn⟩) (iblk3 V c 1 ⟨n + 1, hn⟩)

theorem sAt3_first (c : Dev nD) (t : Fin cfg3.N) (h : t.val % 4 = 0) :
    sAt3 V c t.val t.isLt = accStep3 acc0_3 (iblk3 V c 0 t) (iblk3 V c 1 t) := by
  obtain ⟨n, hn⟩ := t
  cases n with
  | zero => rfl
  | succ n => exact if_pos h

theorem sAt3_next (c : Dev nD) (t : Fin cfg3.N) (h : ¬t.val % 4 = 0) :
    sAt3 V c t.val t.isLt = accStep3 (sAt3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h
  | succ n => exact if_neg h

def oAt3 (c : Dev nD) (t : Fin cfg3.N) : Vec F S400x512 .bf16 :=
  epi3 (sAt3 V c t.val t.isLt) (iblk3 V c 3 t) (iblk3 V c 2 t) (iblk3 V c 4 t) (iblk3 V c 5 t)

def PhiS3 (c : Dev nD) : (n : ℕ) → n ≤ cfg3.N → sProp 𝕄
  | 0, _ => Pipeline.ΦA spec3 c
  | n + 1, hn => iprop(iprop(owns (c : Thread nD τ) scM3 fullShare (sAt3 V c n hn) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) : PhiS3 V c (n + 1) hn = inv3 c (sAt3 V c n hn) := rfl

theorem PhiS3_pos (c : Dev nD) (n : ℕ) (h : n ≤ cfg3.N) (hz : n ≠ 0) : PhiS3 V c n h = inv3 c (sAt3 V c (n - 1) (by omega)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => oAt3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_6 (c : Dev nD) (t : Fin cfg3.N) : (dat3 V c).after 6 t = oAt3 V c t := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl
theorem before3_5 (c : Dev nD) (t : Fin cfg3.N) (d) : (dat3 V c).before 5 t d = iblk3 V c 5 t :=
  ((dat3 V c).before_in_eq_fetched 5 rfl (fun _ => rfl) (fun _ _ _ => rfl) (fun _ => rfl) t d).trans rfl

-- Before point `t` the invariant holds the accumulator at some contents: what the point before left, unless the reduction restarts.
theorem Phi_open3 (c : Dev nD) (t : Fin cfg3.N) :
    (dat3 V c).Φ t.castSucc ⊢ iprop(∃ s, ⌜t.val % 4 ≠ 0 → s = sAt3 V c (t.val - 1) (Nat.lt_of_le_of_lt (Nat.sub_le _ _) t.isLt)⌝ ∗ inv3 c s) := by
  rw [PhiS3_castSucc V c t]
  by_cases hz : t.val = 0
  · rw [PhiS3_zero V c _ _ hz, PhiA3_eq]; unfold inv3
    iintro ⟨⟨⟨%s, HS⟩, HR⟩, Hg⟩
    iexists s; isplitr; · ipureintro; exact fun h => absurd (by rw [hz]) h
    isplitl [HS HR]
    · isplitl [HS]; · iexact HS
      iexact HR
    iexact Hg
  · rw [PhiS3_pos V c _ _ hz]
    iintro H; iexists _; isplitr; · ipureintro; exact fun _ => rfl
    iexact H

-- One step of the accumulator, the restart and the continuation at once.
theorem sAt3_step (c : Dev nD) (t : Fin cfg3.N) (s : Vec F S400x512 .f32)
    (hs : t.val % 4 ≠ 0 → s = sAt3 V c (t.val - 1) (Nat.lt_of_le_of_lt (Nat.sub_le _ _) t.isLt)) :
    accStep3 (if cond3_0 (grid3.coords t) then acc0_3 else s) (iblk3 V c 0 t) (iblk3 V c 1 t) = sAt3 V c t.val t.isLt := by
  by_cases h : t.val % 4 = 0
  · rw [if_pos ((hcond3_0 t).mpr h), sAt3_first V c t h]
  · rw [if_neg fun hc => h ((hcond3_0 t).mp hc), sAt3_next V c t h, hs h]

-- The output buffer after the body: the epilogue's block where it ran, else what it held.
theorem leaves3_6 (c : Dev nD) (t : Fin cfg3.N) (d) :
    owns (c : Thread nD τ) (ms3_6 t) fullShare (if cond3_1 (grid3.coords t) then oAt3 V c t else (dat3 V c).before 6 t d) ⊢ (dat3 V c).leavesExact 6 t := by
  by_cases hc1 : cond3_1 (grid3.coords t)
  · rw [if_pos hc1, show (dat3 V c).leavesExact 6 t = owns (c : Thread nD τ) (ms3_6 t) fullShare ((dat3 V c).after 6 t) from by
      unfold Dat.leavesExact; rw [liveAt3_6 _ hc1], after3_6]
  · rw [if_neg hc1, Dat.leavesExact_idle (dat3 V c) 6 t (idleAt3_6 _ hc1) (noFlush3_6 t hc1)]
    iintro H; iexists d; iexact H

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

-- The body at any point: the invariant hands over the accumulator, the one body triple runs, and everything is handed back.
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  iintro ⟨HΦ, Ho, ⟨%d0, H0⟩, ⟨%d1, H1⟩, ⟨%d2, H2⟩, ⟨%d3, H3⟩, ⟨%d4, H4⟩, ⟨%d5, H5⟩, ⟨%d6, H6⟩⟩
  ihave HI := (Phi_open3 V c t) $$ HΦ
  icases HI with ⟨%s, %hs, HI⟩
  iapply (kernel3 c (grid3.coords t) _ _ _ _ _ _ _ _ (iblk3 V c 0 t) (iblk3 V c 1 t) (iblk3 V c 2 t) (iblk3 V c 3 t) (iblk3 V c 4 t) (iblk3 V c 5 t) ((dat3 V c).before 6 t d6) s
    (fun h0 h1 => by have a := (hcond3_0 t).mp h0; have b := (hcond3_1 t).mp h1; omega) _ _ _ _ _ _ _ _ Set.univ _)
  rw [sAt3_step V c t s hs]
  unfold held3 inv3
  icases HI with ⟨⟨HS, HR⟩, Hg⟩
  isplitl [H0 H1 H2 H3 H4 H5 H6 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  iintro ⟨H0, H1, H2, H3, H4, H5, H6, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves3_6 V c t d6); iexact H6

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]; unfold inv3
  iintro ⟨⟨HS, HR⟩, Hg⟩
  isplitl [HS HR]
  · isplitl [HS]
    · iexists _; iexact HS
    iexact HR
  iexact Hg

theorem hout3 (c : Dev nD) : (dat3 V c).Φ (Fin.last cfg3.N) ⊢ Pipeline.ΦA spec3 c :=
  Phi_out3 V c _ (by rw [Fin.val_last]; have : cfg3.N = 200 := N_3; omega)

end Region3

end Cert.Kernel.Hand

end
-- ==== Proof.K.Reg4.lean ====
import proofs.«401578_j53953379173285_3_alg».proof.Proof.Gen.Kernel.Launch
import proofs.«401578_j53953379173285_3_alg».proof.Proof.Gen.Kernel.Skeleton
import proofs.«401578_j53953379173285_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 10 = 0 :=
  (by decide +kernel : ∀ t : Fin grid4.N, cond4_0 (grid4.coords t) ↔ t.val % 10 = 0)

abbrev cond4_1 (i : grid4.Coords) : Prop := k4_cond2 i = 1#1
theorem hcond4_1 : ∀ t : Fin cfg4.N, cond4_1 (grid4.coords t) ↔ t.val % 10 = 9 :=
  (by decide +kernel : ∀ t : Fin grid4.N, cond4_1 (grid4.coords t) ↔ t.val % 10 = 9)

theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
theorem liveAt4_6 : ∀ t : Fin cfg4.N, cond4_1 (grid4.coords t) → cfg4.idle 6 (grid4.coords t) = false := by decide +kernel

def accStep4 (acc : Vec F S400x512 .f32) (r : Vec F S400x2048 .bf16) (x : Vec F S2048x512 .bf16) : Vec F S400x512 .f32 :=
  k4_pay2 acc r x
def acc0_4 : Vec F S400x512 .f32 := k4_pay1 (F := F)
def epi4 (acc : Vec F S400x512 .f32) (wl : Vec F S512x256 .bf16) (xdst : Vec F S400x512 .bf16) (wr : Vec F S512x256 .bf16) (b : Vec F S1x256 .f32) : Vec F S400x256 .f32 :=
  k4_pay3 acc wl xdst wr b

theorem hz4 : (![0, 0] : Fin 2 → Nat) = fun _ => 0 := funext fun a => by fin_cases a <;> rfl

section Kernel
variable (c : Dev nD) (i : grid4.Coords)
  (a2 : Memref sig .tc .vmem S400x2048 .bf16) (a3 : Memref sig .tc .vmem S2048x512 .bf16) (a4 : Memref sig .tc .vmem S400x512 .bf16) (a5 : Memref sig .tc .vmem S512x256 .bf16)
  (a6 : Memref sig .tc .vmem S512x256 .bf16) (a7 : Memref sig .tc .vmem S1x256 .f32) (a8 : Memref sig .tc .vmem S400x256 .f32) (a9 : Memref sig .tc .vmem S400x512 .f32)
  (x0 : Vec F S400x2048 .bf16) (x1 : Vec F S2048x512 .bf16) (x2 : Vec F S400x512 .bf16) (x3 : Vec F S512x256 .bf16) (x4 : Vec F S512x256 .bf16) (x5 : Vec F S1x256 .f32) (x6 : Vec F S400x256 .f32) (xs : Vec F S400x512 .f32)

-- The body's eight memrefs, each owned at given contents.
def held4 : sProp 𝕄 :=
  iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare xs)

set_option maxHeartbeats 1000000 in
-- The body at any point: one accumulator step (from zero where the reduction restarts), and the epilogue stored where it ends.
theorem kernel4 (h01 : cond4_0 i → ¬cond4_1 i) (h2 : a2.IsWhole) (h3 : a3.IsWhole) (h4 : a4.IsWhole) (h5 : a5.IsWhole) (h6 : a6.IsWhole) (h7 : a7.IsWhole) (h8 : a8.IsWhole) (h9 : a9.IsWhole)
    (E : Set ℕ) (K : PUnit → sProp 𝕄) :
    iprop(held4 c a2 a3 a4 a5 a6 a7 a8 a9 x0 x1 x2 x3 x4 x5 x6 xs
        ∗ (held4 c a2 a3 a4 a5 a6 a7 a8 a9 x0 x1 x2 x3 x4 x5 (if cond4_1 i then epi4 (accStep4 (if cond4_0 i then acc0_4 else xs) x0 x1) x3 x2 x4 x5 else x6)
            (accStep4 (if cond4_0 i then acc0_4 else xs) x0 x1) -∗ K ⟨⟩))
      ⊢ wp frame (wpE (defs₀ (F := F)) Variants.none c none) E (cc4__fused_sage_body i a2 h2 a3 h3 a4 h4 a5 h5 a6 h6 a7 h7 a8 h8 a9 h9) K := by
  simp only [cc4__fused_sage_body_eq_skeleton]; unfold cc4__fused_sage_body_skel held4 owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%fs, %es, HS⟩⟩, Hk⟩
  subst e0 e1 e2 e3 e4 e5 e6 es
  by_cases hc0 : cond4_0 i <;> by_cases hc1 : cond4_1 i <;> first
  | exact absurd hc1 (h01 hc0)
  | ( sl_exec (disch := first | exact hc0 | exact hc1)
      sl_step
      iapply Hk
      isplitl [H0]; rotate_left; isplitl [H1]; rotate_left; isplitl [H2]; rotate_left; isplitl [H3]; rotate_left
      isplitl [H4]; rotate_left; isplitl [H5]; rotate_left; isplitl [H6]
      all_goals
        iexists _; isplitr; swap; · iassumption
        ipureintro
        first | rw [if_pos hc0] | rw [if_neg hc0] | skip
        all_goals first | rw [if_pos hc1] | rw [if_neg hc1] | skip
        all_goals first
          | with_reducible rfl
          | sl_unfold_words
            first
            | rw [View.read_writes_eq_canon _ _ _ (fun y => ⟨_, List.mem_cons_self, View.mem_set_unit_zero hz4 inb_S400x512_S400x512_0_0 y⟩), View.canon_cons_unit_zero hz4]
            | rw [View.read_writes_eq_canon _ _ _ (fun y => ⟨_, List.mem_cons_self, View.mem_set_unit_zero hz4 inb_S400x256_S400x256_0_0 y⟩), View.canon_cons_unit_zero hz4]
            simp only [View.readAt_eq_ld, View.ld_unit_zero (S := S400x2048) hz4, View.ld_unit_zero (S := S2048x512) hz4, View.ld_unit_zero (S := S400x512) hz4, View.ld_unit_zero (S := S512x256) hz4, View.ld_unit_zero (S := S1x256) hz4, View.readCov_unit_zero (S := S400x512) _ hz4]
            try rfl )

end Kernel

section Regions
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev ms4_0 (t : Fin cfg4.N) : Memref sig .tc .vmem S400x2048 .bf16 := win4_0.stage (cfg4.slots t 0)
abbrev ms4_1 (t : Fin cfg4.N) : Memref sig .tc .vmem S2048x512 .bf16 := win4_1.stage (cfg4.slots t 1)
abbrev ms4_2 (t : Fin cfg4.N) : Memref sig .tc .vmem S400x512 .bf16 := win4_2.stage (cfg4.slots t 2)
abbrev ms4_3 (t : Fin cfg4.N) : Memref sig .tc .vmem S512x256 .bf16 := win4_3.stage (cfg4.slots t 3)
abbrev ms4_4 (t : Fin cfg4.N) : Memref sig .tc .vmem S512x256 .bf16 := win4_4.stage (cfg4.slots t 4)
abbrev ms4_5 (t : Fin cfg4.N) : Memref sig .tc .vmem S1x256 .f32 := win4_5.stage (cfg4.slots t 5)
abbrev ms4_6 (t : Fin cfg4.N) : Memref sig .tc .vmem S400x256 .f32 := win4_6.stage (cfg4.slots t 6)
abbrev scM4 : Memref sig .tc .vmem S400x512 .f32 := Memref.whole cc4_scratch0

theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

-- The invariant's body with the accumulator at contents `s`.
def inv4 (c : Dev nD) (s : Vec F S400x512 .f32) : sProp 𝕄 :=
  iprop(iprop(owns (c : Thread nD τ) scM4 fullShare s ∗ Pipeline.scopedRestBut (Ix := Unit) (Name := ℕ) (U := UR sig nD τ) (Lvl := ℕ) (Val := Elt F) spec4 c [cc4_scratch0]) ∗ (∃ r, prngReg c r))

def sAt4 (c : Dev nD) : (n : ℕ) → n < cfg4.N → Vec F S400x512 .f32
  | 0, hn => accStep4 acc0_4 (iblk4 V c 0 ⟨0, hn⟩) (iblk4 V c 1 ⟨0, hn⟩)
  | n + 1, hn =>
    if (n + 1) % 10 = 0 then accStep4 acc0_4 (iblk4 V c 0 ⟨n + 1, hn⟩) (iblk4 V c 1 ⟨n + 1, hn⟩)
    else accStep4 (sAt4 c n (Nat.lt_of_succ_lt hn)) (iblk4 V c 0 ⟨n + 1, hn⟩) (iblk4 V c 1 ⟨n + 1, hn⟩)

theorem sAt4_first (c : Dev nD) (t : Fin cfg4.N) (h : t.val % 10 = 0) :
    sAt4 V c t.val t.isLt = accStep4 acc0_4 (iblk4 V c 0 t) (iblk4 V c 1 t) := by
  obtain ⟨n, hn⟩ := t
  cases n with
  | zero => rfl
  | succ n => exact if_pos h

theorem sAt4_next (c : Dev nD) (t : Fin cfg4.N) (h : ¬t.val % 10 = 0) :
    sAt4 V c t.val t.isLt = accStep4 (sAt4 V c (t.val - 1) (Nat.lt_of_le_of_lt (Nat.sub_le _ _) t.isLt)) (iblk4 V c 0 t) (iblk4 V c 1 t) := by
  obtain ⟨n, hn⟩ := t
  cases n with
  | zero => exact absurd (Nat.zero_mod _) h
  | succ n => exact if_neg h

def oAt4 (c : Dev nD) (t : Fin cfg4.N) : Vec F S400x256 .f32 :=
  epi4 (sAt4 V c t.val t.isLt) (iblk4 V c 3 t) (iblk4 V c 2 t) (iblk4 V c 4 t) (iblk4 V c 5 t)

def PhiS4 (c : Dev nD) : (n : ℕ) → n ≤ cfg4.N → sProp 𝕄
  | 0, _ => Pipeline.ΦA spec4 c
  | n + 1, hn => iprop(iprop(owns (c : Thread nD τ) scM4 fullShare (sAt4 V c n hn)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) : PhiS4 V c (n + 1) hn = inv4 c (sAt4 V c n hn) := rfl

theorem PhiS4_pos (c : Dev nD) (n : ℕ) (h : n ≤ cfg4.N) (hz : n ≠ 0) : PhiS4 V c n h = inv4 c (sAt4 V c (n - 1) (by omega)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => oAt4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_6 (c : Dev nD) (t : Fin cfg4.N) : (dat4 V c).after 6 t = oAt4 V c t := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl
theorem before4_4 (c : Dev nD) (t : Fin cfg4.N) (d) : (dat4 V c).before 4 t d = iblk4 V c 4 t :=
  ((dat4 V c).before_in_eq_fetched 4 rfl (fun _ => rfl) (fun _ _ _ => rfl) (fun _ => rfl) t d).trans rfl
theorem before4_5 (c : Dev nD) (t : Fin cfg4.N) (d) : (dat4 V c).before 5 t d = iblk4 V c 5 t :=
  ((dat4 V c).before_in_eq_fetched 5 rfl (fun _ => rfl) (fun _ _ _ => rfl) (fun _ => rfl) t d).trans rfl

-- Before point `t` the invariant holds the accumulator at some contents: what the point before left, unless the reduction restarts.
theorem Phi_open4 (c : Dev nD) (t : Fin cfg4.N) :
    (dat4 V c).Φ t.castSucc ⊢ iprop(∃ s, ⌜t.val % 10 ≠ 0 → s = sAt4 V c (t.val - 1) (Nat.lt_of_le_of_lt (Nat.sub_le _ _) t.isLt)⌝ ∗ inv4 c s) := by
  rw [PhiS4_castSucc V c t]
  by_cases hz : t.val = 0
  · rw [PhiS4_zero V c _ _ hz, PhiA4_eq]; unfold inv4
    iintro ⟨⟨⟨%s, HS⟩, HR⟩, Hg⟩
    iexists s; isplitr; · ipureintro; exact fun h => absurd (by rw [hz]) h
    isplitl [HS HR]
    · isplitl [HS]; · iexact HS
      iexact HR
    iexact Hg
  · rw [PhiS4_pos V c _ _ hz]
    iintro H; iexists _; isplitr; · ipureintro; exact fun _ => rfl
    iexact H

-- One step of the accumulator, the restart and the continuation at once.
theorem sAt4_step (c : Dev nD) (t : Fin cfg4.N) (s : Vec F S400x512 .f32)
    (hs : t.val % 10 ≠ 0 → s = sAt4 V c (t.val - 1) (Nat.lt_of_le_of_lt (Nat.sub_le _ _) t.isLt)) :
    accStep4 (if cond4_0 (grid4.coords t) then acc0_4 else s) (iblk4 V c 0 t) (iblk4 V c 1 t) = sAt4 V c t.val t.isLt := by
  by_cases h : t.val % 10 = 0
  · rw [if_pos ((hcond4_0 t).mpr h), sAt4_first V c t h]
  · rw [if_neg fun hc => h ((hcond4_0 t).mp hc), sAt4_next V c t h, hs h]

-- The output buffer after the body: the epilogue's block where it ran, else what it held.
theorem leaves4_6 (c : Dev nD) (t : Fin cfg4.N) (d) :
    owns (c : Thread nD τ) (ms4_6 t) fullShare (if cond4_1 (grid4.coords t) then oAt4 V c t else (dat4 V c).before 6 t d) ⊢ (dat4 V c).leavesExact 6 t := by
  by_cases hc1 : cond4_1 (grid4.coords t)
  · rw [if_pos hc1, show (dat4 V c).leavesExact 6 t = owns (c : Thread nD τ) (ms4_6 t) fullShare ((dat4 V c).after 6 t) from by
      unfold Dat.leavesExact; rw [liveAt4_6 t hc1], after4_6]
  · rw [if_neg hc1, Dat.leavesExact_idle (dat4 V c) 6 t (idleAt4_6 t hc1) (noFlush4_6 t hc1)]
    iintro H; iexists d; iexact H

end Regions

section Body
variable (V : (c : Dev nD) → (b : Ref sig .tc) → Buf (Elt F) ((c : Thread nD τ).loc b))

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

-- The body at any point: the invariant hands over the accumulator, the one body triple runs, and everything is handed back.
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  iintro ⟨HΦ, Ho, ⟨%d0, H0⟩, ⟨%d1, H1⟩, ⟨%d2, H2⟩, ⟨%d3, H3⟩, ⟨%d4, H4⟩, ⟨%d5, H5⟩, ⟨%d6, H6⟩⟩
  ihave HI := (Phi_open4 V c t) $$ HΦ
  icases HI with ⟨%s, %hs, HI⟩
  iapply (kernel4 c (grid4.coords t) _ _ _ _ _ _ _ _ (iblk4 V c 0 t) (iblk4 V c 1 t) (iblk4 V c 2 t) (iblk4 V c 3 t) (iblk4 V c 4 t) (iblk4 V c 5 t) ((dat4 V c).before 6 t d6) s
    (fun h0 h1 => by have a := (hcond4_0 t).mp h0; have b := (hcond4_1 t).mp h1; omega) _ _ _ _ _ _ _ _ Set.univ _)
  rw [sAt4_step V c t s hs]
  unfold held4 inv4
  icases HI with ⟨⟨HS, HR⟩, Hg⟩
  isplitl [H0 H1 H2 H3 H4 H5 H6 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  iintro ⟨H0, H1, H2, H3, H4, H5, H6, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves4_6 V c t d6); iexact H6

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ Pipeline.ΦA spec4 c := by
  have ht : (Fin.last cfg4.N).val ≠ 0 := by rw [Fin.val_last]; have : cfg4.N = 200 := N_4; omega
  rw [show (dat4 V c).Φ (Fin.last cfg4.N) = PhiS4 V c (Fin.last cfg4.N).val (Nat.le_of_lt_succ (Fin.last cfg4.N).isLt) from rfl, PhiS4_pos V c _ _ ht, PhiA4_eq]; unfold inv4
  iintro ⟨⟨HS, Hr⟩, Hg⟩
  isplitl [HS Hr]
  · isplitl [HS]
    · iexists _; iexact HS
    iexact Hr
  iexact Hg

end Body

end Cert.Kernel.Hand

end
-- ==== Proof.K.Reg5.lean ====
import proofs.«401578_j53953379173285_3_alg».proof.Proof.Gen.Kernel.Launch
import proofs.«401578_j53953379173285_3_alg».proof.Proof.Gen.Kernel.Skeleton
import proofs.«401578_j53953379173285_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 4 = 0 :=
  (by decide +kernel : ∀ t : Fin grid5.N, cond5_0 (grid5.coords t) ↔ t.val % 4 = 0)

abbrev cond5_1 (i : grid5.Coords) : Prop := k5_cond2 i = 1#1
theorem hcond5_1 : ∀ t : Fin cfg5.N, cond5_1 (grid5.coords t) ↔ t.val % 4 = 3 :=
  (by decide +kernel : ∀ t : Fin grid5.N, cond5_1 (grid5.coords t) ↔ t.val % 4 = 3)

theorem idleAt5_6 : ∀ t : Fin cfg5.N, ¬cond5_1 (grid5.coords t) → cfg5.idle 6 (grid5.coords t) = true := by decide +kernel
theorem noFlush5_6 : ∀ t : Fin cfg5.N, ¬cond5_1 (grid5.coords t) → (cfg5.win 6).flush t = false := by decide +kernel
theorem liveAt5_6 : ∀ t : Fin cfg5.N, cond5_1 (grid5.coords t) → cfg5.idle 6 (grid5.coords t) = false := by decide +kernel

def accStep5 (acc : Vec F S400x512 .f32) (r : Vec F S400x2048 .bf16) (x : Vec F S2048x512 .bf16) : Vec F S400x512 .f32 :=
  k5_pay2 acc r x
def acc0_5 : Vec F S400x512 .f32 := k5_pay1 (F := F)
def epi5 (acc : Vec F S400x512 .f32) (wl : Vec F S512x256 .bf16) (xdst : Vec F S400x512 .bf16) (wr : Vec F S512x256 .bf16) (b : Vec F S1x256 .f32) : Vec F S400x256 .f32 :=
  k5_pay3 acc wl xdst wr b

theorem hz5 : (![0, 0] : Fin 2 → Nat) = fun _ => 0 := funext fun a => by fin_cases a <;> rfl

section Kernel
variable (c : Dev nD) (i : grid5.Coords)
  (a2 : Memref sig .tc .vmem S400x2048 .bf16) (a3 : Memref sig .tc .vmem S2048x512 .bf16) (a4 : Memref sig .tc .vmem S400x512 .bf16) (a5 : Memref sig .tc .vmem S512x256 .bf16)
  (a6 : Memref sig .tc .vmem S512x256 .bf16) (a7 : Memref sig .tc .vmem S1x256 .f32) (a8 : Memref sig .tc .vmem S400x256 .f32) (a9 : Memref sig .tc .vmem S400x512 .f32)
  (x0 : Vec F S400x2048 .bf16) (x1 : Vec F S2048x512 .bf16) (x2 : Vec F S400x512 .bf16) (x3 : Vec F S512x256 .bf16) (x4 : Vec F S512x256 .bf16) (x5 : Vec F S1x256 .f32) (x6 : Vec F S400x256 .f32) (xs : Vec F S400x512 .f32)

-- The body's eight memrefs, each owned at given contents.
def held5 : sProp 𝕄 :=
  iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare xs)

set_option maxHeartbeats 1000000 in
-- The body at any point: one accumulator step (from zero where the reduction restarts), and the epilogue stored where it ends.
theorem kernel5 (h01 : cond5_0 i → ¬cond5_1 i) (h2 : a2.IsWhole) (h3 : a3.IsWhole) (h4 : a4.IsWhole) (h5 : a5.IsWhole) (h6 : a6.IsWhole) (h7 : a7.IsWhole) (h8 : a8.IsWhole) (h9 : a9.IsWhole)
    (E : Set ℕ) (K : PUnit → sProp 𝕄) :
    iprop(held5 c a2 a3 a4 a5 a6 a7 a8 a9 x0 x1 x2 x3 x4 x5 x6 xs
        ∗ (held5 c a2 a3 a4 a5 a6 a7 a8 a9 x0 x1 x2 x3 x4 x5 (if cond5_1 i then epi5 (accStep5 (if cond5_0 i then acc0_5 else xs) x0 x1) x3 x2 x4 x5 else x6)
            (accStep5 (if cond5_0 i then acc0_5 else xs) x0 x1) -∗ K ⟨⟩))
      ⊢ wp frame (wpE (defs₀ (F := F)) Variants.none c none) E (cc5__fused_sage_body i a2 h2 a3 h3 a4 h4 a5 h5 a6 h6 a7 h7 a8 h8 a9 h9) K := by
  simp only [cc5__fused_sage_body_eq_skeleton]; unfold cc5__fused_sage_body_skel held5 owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%fs, %es, HS⟩⟩, Hk⟩
  subst e0 e1 e2 e3 e4 e5 e6 es
  by_cases hc0 : cond5_0 i <;> by_cases hc1 : cond5_1 i <;> first
  | exact absurd hc1 (h01 hc0)
  | ( sl_exec (disch := first | exact hc0 | exact hc1)
      sl_step
      iapply Hk
      isplitl [H0]; rotate_left; isplitl [H1]; rotate_left; isplitl [H2]; rotate_left; isplitl [H3]; rotate_left
      isplitl [H4]; rotate_left; isplitl [H5]; rotate_left; isplitl [H6]
      all_goals
        iexists _; isplitr; swap; · iassumption
        ipureintro
        first | rw [if_pos hc0] | rw [if_neg hc0] | skip
        all_goals first | rw [if_pos hc1] | rw [if_neg hc1] | skip
        all_goals first
          | with_reducible rfl
          | sl_unfold_words
            first
            | rw [View.read_writes_eq_canon _ _ _ (fun y => ⟨_, List.mem_cons_self, View.mem_set_unit_zero hz5 inb_S400x512_S400x512_0_0 y⟩), View.canon_cons_unit_zero hz5]
            | rw [View.read_writes_eq_canon _ _ _ (fun y => ⟨_, List.mem_cons_self, View.mem_set_unit_zero hz5 inb_S400x256_S400x256_0_0 y⟩), View.canon_cons_unit_zero hz5]
            simp only [View.readAt_eq_ld, View.ld_unit_zero (S := S400x2048) hz5, View.ld_unit_zero (S := S2048x512) hz5, View.ld_unit_zero (S := S400x512) hz5, View.ld_unit_zero (S := S512x256) hz5, View.ld_unit_zero (S := S1x256) hz5, View.readCov_unit_zero (S := S400x512) _ hz5]
            try rfl )

end Kernel

section Regions
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev ms5_0 (t : Fin cfg5.N) : Memref sig .tc .vmem S400x2048 .bf16 := win5_0.stage (cfg5.slots t 0)
abbrev ms5_1 (t : Fin cfg5.N) : Memref sig .tc .vmem S2048x512 .bf16 := win5_1.stage (cfg5.slots t 1)
abbrev ms5_2 (t : Fin cfg5.N) : Memref sig .tc .vmem S400x512 .bf16 := win5_2.stage (cfg5.slots t 2)
abbrev ms5_3 (t : Fin cfg5.N) : Memref sig .tc .vmem S512x256 .bf16 := win5_3.stage (cfg5.slots t 3)
abbrev ms5_4 (t : Fin cfg5.N) : Memref sig .tc .vmem S512x256 .bf16 := win5_4.stage (cfg5.slots t 4)
abbrev ms5_5 (t : Fin cfg5.N) : Memref sig .tc .vmem S1x256 .f32 := win5_5.stage (cfg5.slots t 5)
abbrev ms5_6 (t : Fin cfg5.N) : Memref sig .tc .vmem S400x256 .f32 := win5_6.stage (cfg5.slots t 6)
abbrev scM5 : Memref sig .tc .vmem S400x512 .f32 := Memref.whole cc5_scratch0

theorem PhiA5_eq (c : Dev nD) :
    (Pipeline.ΦA spec5 c : sProp 𝕄)
      = iprop(iprop(iprop((∃ d, owns (c : Thread nD τ) scM5 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

-- The invariant's body with the accumulator at contents `s`.
def inv5 (c : Dev nD) (s : Vec F S400x512 .f32) : sProp 𝕄 :=
  iprop(iprop(owns (c : Thread nD τ) scM5 fullShare s ∗ Pipeline.scopedRestBut (Ix := Unit) (Name := ℕ) (U := UR sig nD τ) (Lvl := ℕ) (Val := Elt F) spec5 c [cc5_scratch0]) ∗ (∃ r, prngReg c r))

def sAt5 (c : Dev nD) : (n : ℕ) → n < cfg5.N → Vec F S400x512 .f32
  | 0, hn => accStep5 acc0_5 (iblk5 V c 0 ⟨0, hn⟩) (iblk5 V c 1 ⟨0, hn⟩)
  | n + 1, hn =>
    if (n + 1) % 4 = 0 then accStep5 acc0_5 (iblk5 V c 0 ⟨n + 1, hn⟩) (iblk5 V c 1 ⟨n + 1, hn⟩)
    else accStep5 (sAt5 c n (Nat.lt_of_succ_lt hn)) (iblk5 V c 0 ⟨n + 1, hn⟩) (iblk5 V c 1 ⟨n + 1, hn⟩)

theorem sAt5_first (c : Dev nD) (t : Fin cfg5.N) (h : t.val % 4 = 0) :
    sAt5 V c t.val t.isLt = accStep5 acc0_5 (iblk5 V c 0 t) (iblk5 V c 1 t) := by
  obtain ⟨n, hn⟩ := t
  cases n with
  | zero => rfl
  | succ n => exact if_pos h

theorem sAt5_next (c : Dev nD) (t : Fin cfg5.N) (h : ¬t.val % 4 = 0) :
    sAt5 V c t.val t.isLt = accStep5 (sAt5 V c (t.val - 1) (Nat.lt_of_le_of_lt (Nat.sub_le _ _) t.isLt)) (iblk5 V c 0 t) (iblk5 V c 1 t) := by
  obtain ⟨n, hn⟩ := t
  cases n with
  | zero => exact absurd (Nat.zero_mod _) h
  | succ n => exact if_neg h

def oAt5 (c : Dev nD) (t : Fin cfg5.N) : Vec F S400x256 .f32 :=
  epi5 (sAt5 V c t.val t.isLt) (iblk5 V c 3 t) (iblk5 V c 2 t) (iblk5 V c 4 t) (iblk5 V c 5 t)

def PhiS5 (c : Dev nD) : (n : ℕ) → n ≤ cfg5.N → sProp 𝕄
  | 0, _ => Pipeline.ΦA spec5 c
  | n + 1, hn => iprop(iprop(owns (c : Thread nD τ) scM5 fullShare (sAt5 V c n hn)
      ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) : PhiS5 V c (n + 1) hn = inv5 c (sAt5 V c n hn) := rfl

theorem PhiS5_pos (c : Dev nD) (n : ℕ) (h : n ≤ cfg5.N) (hz : n ≠ 0) : PhiS5 V c n h = inv5 c (sAt5 V c (n - 1) (by omega)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => oAt5 V c t
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_6 (c : Dev nD) (t : Fin cfg5.N) : (dat5 V c).after 6 t = oAt5 V c t := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl
theorem before5_4 (c : Dev nD) (t : Fin cfg5.N) (d) : (dat5 V c).before 4 t d = iblk5 V c 4 t :=
  ((dat5 V c).before_in_eq_fetched 4 rfl (fun _ => rfl) (fun _ _ _ => rfl) (fun _ => rfl) t d).trans rfl
theorem before5_5 (c : Dev nD) (t : Fin cfg5.N) (d) : (dat5 V c).before 5 t d = iblk5 V c 5 t :=
  ((dat5 V c).before_in_eq_fetched 5 rfl (fun _ => rfl) (fun _ _ _ => rfl) (fun _ => rfl) t d).trans rfl

-- Before point `t` the invariant holds the accumulator at some contents: what the point before left, unless the reduction restarts.
theorem Phi_open5 (c : Dev nD) (t : Fin cfg5.N) :
    (dat5 V c).Φ t.castSucc ⊢ iprop(∃ s, ⌜t.val % 4 ≠ 0 → s = sAt5 V c (t.val - 1) (Nat.lt_of_le_of_lt (Nat.sub_le _ _) t.isLt)⌝ ∗ inv5 c s) := by
  rw [PhiS5_castSucc V c t]
  by_cases hz : t.val = 0
  · rw [PhiS5_zero V c _ _ hz, PhiA5_eq]; unfold inv5
    iintro ⟨⟨⟨%s, HS⟩, HR⟩, Hg⟩
    iexists s; isplitr; · ipureintro; exact fun h => absurd (by rw [hz]) h
    isplitl [HS HR]
    · isplitl [HS]; · iexact HS
      iexact HR
    iexact Hg
  · rw [PhiS5_pos V c _ _ hz]
    iintro H; iexists _; isplitr; · ipureintro; exact fun _ => rfl
    iexact H

-- One step of the accumulator, the restart and the continuation at once.
theorem sAt5_step (c : Dev nD) (t : Fin cfg5.N) (s : Vec F S400x512 .f32)
    (hs : t.val % 4 ≠ 0 → s = sAt5 V c (t.val - 1) (Nat.lt_of_le_of_lt (Nat.sub_le _ _) t.isLt)) :
    accStep5 (if cond5_0 (grid5.coords t) then acc0_5 else s) (iblk5 V c 0 t) (iblk5 V c 1 t) = sAt5 V c t.val t.isLt := by
  by_cases h : t.val % 4 = 0
  · rw [if_pos ((hcond5_0 t).mpr h), sAt5_first V c t h]
  · rw [if_neg fun hc => h ((hcond5_0 t).mp hc), sAt5_next V c t h, hs h]

-- The output buffer after the body: the epilogue's block where it ran, else what it held.
theorem leaves5_6 (c : Dev nD) (t : Fin cfg5.N) (d) :
    owns (c : Thread nD τ) (ms5_6 t) fullShare (if cond5_1 (grid5.coords t) then oAt5 V c t else (dat5 V c).before 6 t d) ⊢ (dat5 V c).leavesExact 6 t := by
  by_cases hc1 : cond5_1 (grid5.coords t)
  · rw [if_pos hc1, show (dat5 V c).leavesExact 6 t = owns (c : Thread nD τ) (ms5_6 t) fullShare ((dat5 V c).after 6 t) from by
      unfold Dat.leavesExact; rw [liveAt5_6 t hc1], after5_6]
  · rw [if_neg hc1, Dat.leavesExact_idle (dat5 V c) 6 t (idleAt5_6 t hc1) (noFlush5_6 t hc1)]
    iintro H; iexists d; iexact H

end Regions

section Body
variable (V : (c : Dev nD) → (b : Ref sig .tc) → Buf (Elt F) ((c : Thread nD τ).loc b))

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t)

-- The body at any point: the invariant hands over the accumulator, the one body triple runs, and everything is handed back.
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).owesAt () t.succ = (dat5 V c).owesAt () t.castSucc from rfl]
  rw [show (dat5 V c).Φ t.succ = PhiS5 V c (t.val + 1) t.isLt from rfl, PhiS5_succ]
  iintro ⟨HΦ, Ho, ⟨%d0, H0⟩, ⟨%d1, H1⟩, ⟨%d2, H2⟩, ⟨%d3, H3⟩, ⟨%d4, H4⟩, ⟨%d5, H5⟩, ⟨%d6, H6⟩⟩
  ihave HI := (Phi_open5 V c t) $$ HΦ
  icases HI with ⟨%s, %hs, HI⟩
  iapply (kernel5 c (grid5.coords t) _ _ _ _ _ _ _ _ (iblk5 V c 0 t) (iblk5 V c 1 t) (iblk5 V c 2 t) (iblk5 V c 3 t) (iblk5 V c 4 t) (iblk5 V c 5 t) ((dat5 V c).before 6 t d6) s
    (fun h0 h1 => by have a := (hcond5_0 t).mp h0; have b := (hcond5_1 t).mp h1; omega) _ _ _ _ _ _ _ _ Set.univ _)
  rw [sAt5_step V c t s hs]
  unfold held5 inv5
  icases HI with ⟨⟨HS, HR⟩, Hg⟩
  isplitl [H0 H1 H2 H3 H4 H5 H6 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  iintro ⟨H0, H1, H2, H3, H4, H5, H6, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves5_6 V c t d6); iexact H6

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem hout5 (c : Dev nD) : (dat5 V c).Φ (Fin.last cfg5.N) ⊢ Pipeline.ΦA spec5 c := by
  have ht : (Fin.last cfg5.N).val ≠ 0 := by rw [Fin.val_last]; have : cfg5.N = 200 := N_5; omega
  rw [show (dat5 V c).Φ (Fin.last cfg5.N) = PhiS5 V c (Fin.last cfg5.N).val (Nat.le_of_lt_succ (Fin.last cfg5.N).isLt) from rfl, PhiS5_pos V c _ _ ht, PhiA5_eq]; unfold inv5
  iintro ⟨⟨HS, Hr⟩, Hg⟩
  isplitl [HS Hr]
  · isplitl [HS]
    · iexists _; iexact HS
    iexact Hr
  iexact Hg

end Body

end Cert.Kernel.Hand

end
-- ==== Proof.K.Bound.lean ====
import proofs.«401578_j53953379173285_3_alg».proof.Proof.K.Writes
import proofs.«401578_j53953379173285_3_alg».proof.Proof.K.Reg0
import proofs.«401578_j53953379173285_3_alg».proof.Proof.K.Reg1
import proofs.«401578_j53953379173285_3_alg».proof.Proof.K.Reg2
import proofs.«401578_j53953379173285_3_alg».proof.Proof.K.Reg3
import proofs.«401578_j53953379173285_3_alg».proof.Proof.K.Reg4
import proofs.«401578_j53953379173285_3_alg».proof.Proof.K.Reg5
import Idealize.ShloMosaic.Lib.Pipeline.FrameBody
import Idealize.ShloMosaic.Lib.Pipeline.RegionsLoop
import Idealize.ShloMosaic.Lib.Pipeline.FrameSuffix
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
abbrev W0 : Dev nD → Valuation τ sig (Elt F) := fun c b => (s₀ m ρ).mem ((c : Dev nD), b)
abbrev W1 : Dev nD → Valuation τ sig (Elt F) := fun c => StableHlo.after main_part0_ops0 (W0 m ρ c)
theorem W1_of (c : Dev nD) (r : Ref sig .tc) (h : r ∉ main_part0_ops0_W) : W1 m ρ c (Proc.devRef .tc r) = W0 m ρ c (Proc.devRef .tc r) :=
  StableHlo.after_of_writes_sub main_part0_ops0 _ main_part0_ops0_writes h
abbrev W2 : Dev nD → Valuation τ sig (Elt F) := fun c => StableHlo.after main_part0_ops1 (W1 m ρ c)
theorem W2_of (c : Dev nD) (r : Ref sig .tc) (h : r ∉ main_part0_ops1_W) : W2 m ρ c (Proc.devRef .tc r) = W1 m ρ c (Proc.devRef .tc r) :=
  StableHlo.after_of_writes_sub main_part0_ops1 _ main_part0_ops1_writes h
abbrev W3 : Dev nD → Valuation τ sig (Elt F) := fun c => StableHlo.after main_part0_ops2 (W2 m ρ c)
theorem W3_of (c : Dev nD) (r : Ref sig .tc) (h : r ∉ main_part0_ops2_W) : W3 m ρ c (Proc.devRef .tc r) = W2 m ρ c (Proc.devRef .tc r) :=
  StableHlo.after_of_writes_sub main_part0_ops2 _ main_part0_ops2_writes h
abbrev Ventry0 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (Ventry0 m ρ) c).arrAt w cfg0.N
theorem Wexit0_arr (c : Dev nD) (w : Fin cfg0.W) :
    W4 m ρ c (Proc.devRef .tc (Pipeline.arrRef spec0 w)) = (dat0 (Ventry0 m ρ) c).arrAt w cfg0.N := by
  unfold W4; exact Pipeline.withArrays_arr spec0 launch0.win.arr_inj c _ _ w
theorem Wexit0_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev Vexit0 : (c : Dev nD) → (b : Ref sig .tc) → Buf (Elt F) ((c : Thread nD τ).loc b) := fun c b => W4 m ρ c b
theorem hF0 (c : Dev nD) (w : Fin cfg0.W) : (dat0 (Ventry0 m ρ) c).arrAt w cfg0.N = Vexit0 m ρ c (Pipeline.arrRef spec0 w) :=
  (Wexit0_arr m ρ c w).symm
theorem hrest0 (c : Dev nD) : ∀ b, b ∉ Finset.univ.image (Pipeline.arrRef spec0) → Vexit0 m ρ c b = Ventry0 m ρ c b :=
  fun b hb => Wexit0_of_ne m ρ c b fun w e => hb (Finset.mem_image.mpr ⟨w, Finset.mem_univ _, e⟩)
abbrev W5 : Dev nD → Valuation τ sig (Elt F) := fun c => StableHlo.after main_part0_ops3 (W4 m ρ c)
theorem W5_of (c : Dev nD) (r : Ref sig .tc) (h : r ∉ main_part0_ops3_W) : W5 m ρ c (Proc.devRef .tc r) = W4 m ρ c (Proc.devRef .tc r) :=
  StableHlo.after_of_writes_sub main_part0_ops3 _ main_part0_ops3_writes h
abbrev Ventry1 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (Ventry1 m ρ) c).arrAt w cfg1.N
theorem Wexit1_arr (c : Dev nD) (w : Fin cfg1.W) :
    W6 m ρ c (Proc.devRef .tc (Pipeline.arrRef spec1 w)) = (dat1 (Ventry1 m ρ) c).arrAt w cfg1.N := by
  unfold W6; exact Pipeline.withArrays_arr spec1 launch1.win.arr_inj c _ _ w
theorem Wexit1_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev Vexit1 : (c : Dev nD) → (b : Ref sig .tc) → Buf (Elt F) ((c : Thread nD τ).loc b) := fun c b => W6 m ρ c b
theorem hF1 (c : Dev nD) (w : Fin cfg1.W) : (dat1 (Ventry1 m ρ) c).arrAt w cfg1.N = Vexit1 m ρ c (Pipeline.arrRef spec1 w) :=
  (Wexit1_arr m ρ c w).symm
theorem hrest1 (c : Dev nD) : ∀ b, b ∉ Finset.univ.image (Pipeline.arrRef spec1) → Vexit1 m ρ c b = Ventry1 m ρ c b :=
  fun b hb => Wexit1_of_ne m ρ c b fun w e => hb (Finset.mem_image.mpr ⟨w, Finset.mem_univ _, e⟩)
abbrev W7 : Dev nD → Valuation τ sig (Elt F) := fun c => StableHlo.after main_part0_ops4 (W6 m ρ c)
theorem W7_of (c : Dev nD) (r : Ref sig .tc) (h : r ∉ main_part0_ops4_W) : W7 m ρ c (Proc.devRef .tc r) = W6 m ρ c (Proc.devRef .tc r) :=
  StableHlo.after_of_writes_sub main_part0_ops4 _ main_part0_ops4_writes h
abbrev W8 : Dev nD → Valuation τ sig (Elt F) := fun c => StableHlo.after main_part1_ops0 (W7 m ρ c)
theorem W8_of (c : Dev nD) (r : Ref sig .tc) (h : r ∉ main_part1_ops0_W) : W8 m ρ c (Proc.devRef .tc r) = W7 m ρ c (Proc.devRef .tc r) :=
  StableHlo.after_of_writes_sub main_part1_ops0 _ main_part1_ops0_writes h
abbrev W9 : Dev nD → Valuation τ sig (Elt F) := fun c => StableHlo.after main_part1_ops1 (W8 m ρ c)
theorem W9_of (c : Dev nD) (r : Ref sig .tc) (h : r ∉ main_part1_ops1_W) : W9 m ρ c (Proc.devRef .tc r) = W8 m ρ c (Proc.devRef .tc r) :=
  StableHlo.after_of_writes_sub main_part1_ops1 _ main_part1_ops1_writes h
abbrev W10 : Dev nD → Valuation τ sig (Elt F) := fun c => StableHlo.after main_part1_ops2 (W9 m ρ c)
theorem W10_of (c : Dev nD) (r : Ref sig .tc) (h : r ∉ main_part1_ops2_W) : W10 m ρ c (Proc.devRef .tc r) = W9 m ρ c (Proc.devRef .tc r) :=
  StableHlo.after_of_writes_sub main_part1_ops2 _ main_part1_ops2_writes h
abbrev W11 : Dev nD → Valuation τ sig (Elt F) := fun c => StableHlo.after main_part1_ops3 (W10 m ρ c)
theorem W11_of (c : Dev nD) (r : Ref sig .tc) (h : r ∉ main_part1_ops3_W) : W11 m ρ c (Proc.devRef .tc r) = W10 m ρ c (Proc.devRef .tc r) :=
  StableHlo.after_of_writes_sub main_part1_ops3 _ main_part1_ops3_writes h
abbrev W12 : Dev nD → Valuation τ sig (Elt F) := fun c => StableHlo.after main_part1_ops4 (W11 m ρ c)
theorem W12_of (c : Dev nD) (r : Ref sig .tc) (h : r ∉ main_part1_ops4_W) : W12 m ρ c (Proc.devRef .tc r) = W11 m ρ c (Proc.devRef .tc r) :=
  StableHlo.after_of_writes_sub main_part1_ops4 _ main_part1_ops4_writes h
abbrev Ventry2 : (c : Dev nD) → (b : Ref sig .tc) → Buf (Elt F) ((c : Thread nD τ).loc b) := fun c b => W12 m ρ c b
def W13 (c : Dev nD) : Valuation τ sig (Elt F) :=
  Pipeline.withArrays spec2 c (W12 m ρ c) fun w => (dat2 (Ventry2 m ρ) c).arrAt w cfg2.N
theorem Wexit2_arr (c : Dev nD) (w : Fin cfg2.W) :
    W13 m ρ c (Proc.devRef .tc (Pipeline.arrRef spec2 w)) = (dat2 (Ventry2 m ρ) c).arrAt w cfg2.N := by
  unfold W13; exact Pipeline.withArrays_arr spec2 launch2.win.arr_inj c _ _ w
theorem Wexit2_of_ne (c : Dev nD) (b : Ref sig .tc) (hb : ∀ w, Pipeline.arrRef spec2 w ≠ b) :
    W13 m ρ c (Proc.devRef .tc b) = W12 m ρ c (Proc.devRef .tc b) := by
  unfold W13; exact Pipeline.withArrays_of_ne spec2 c _ _ b hb
abbrev Vexit2 : (c : Dev nD) → (b : Ref sig .tc) → Buf (Elt F) ((c : Thread nD τ).loc b) := fun c b => W13 m ρ c b
theorem hF2 (c : Dev nD) (w : Fin cfg2.W) : (dat2 (Ventry2 m ρ) c).arrAt w cfg2.N = Vexit2 m ρ c (Pipeline.arrRef spec2 w) :=
  (Wexit2_arr m ρ c w).symm
theorem hrest2 (c : Dev nD) : ∀ b, b ∉ Finset.univ.image (Pipeline.arrRef spec2) → Vexit2 m ρ c b = Ventry2 m ρ c b :=
  fun b hb => Wexit2_of_ne m ρ c b fun w e => hb (Finset.mem_image.mpr ⟨w, Finset.mem_univ _, e⟩)
abbrev W14 : Dev nD → Valuation τ sig (Elt F) := fun c => StableHlo.after main_part1_ops5 (W13 m ρ c)
theorem W14_of (c : Dev nD) (r : Ref sig .tc) (h : r ∉ main_part1_ops5_W) : W14 m ρ c (Proc.devRef .tc r) = W13 m ρ c (Proc.devRef .tc r) :=
  StableHlo.after_of_writes_sub main_part1_ops5 _ main_part1_ops5_writes h
abbrev Ventry3 : (c : Dev nD) → (b : Ref sig .tc) → Buf (Elt F) ((c : Thread nD τ).loc b) := fun c b => W14 m ρ c b
def W15 (c : Dev nD) : Valuation τ sig (Elt F) :=
  Pipeline.withArrays spec3 c (W14 m ρ c) fun w => (dat3 (Ventry3 m ρ) c).arrAt w cfg3.N
theorem Wexit3_arr (c : Dev nD) (w : Fin cfg3.W) :
    W15 m ρ c (Proc.devRef .tc (Pipeline.arrRef spec3 w)) = (dat3 (Ventry3 m ρ) c).arrAt w cfg3.N := by
  unfold W15; exact Pipeline.withArrays_arr spec3 launch3.win.arr_inj c _ _ w
theorem Wexit3_of_ne (c : Dev nD) (b : Ref sig .tc) (hb : ∀ w, Pipeline.arrRef spec3 w ≠ b) :
    W15 m ρ c (Proc.devRef .tc b) = W14 m ρ c (Proc.devRef .tc b) := by
  unfold W15; exact Pipeline.withArrays_of_ne spec3 c _ _ b hb
abbrev Vexit3 : (c : Dev nD) → (b : Ref sig .tc) → Buf (Elt F) ((c : Thread nD τ).loc b) := fun c b => W15 m ρ c b
theorem hF3 (c : Dev nD) (w : Fin cfg3.W) : (dat3 (Ventry3 m ρ) c).arrAt w cfg3.N = Vexit3 m ρ c (Pipeline.arrRef spec3 w) :=
  (Wexit3_arr m ρ c w).symm
theorem hrest3 (c : Dev nD) : ∀ b, b ∉ Finset.univ.image (Pipeline.arrRef spec3) → Vexit3 m ρ c b = Ventry3 m ρ c b :=
  fun b hb => Wexit3_of_ne m ρ c b fun w e => hb (Finset.mem_image.mpr ⟨w, Finset.mem_univ _, e⟩)
abbrev W16 : Dev nD → Valuation τ sig (Elt F) := fun c => StableHlo.after main_part1_ops6 (W15 m ρ c)
theorem W16_of (c : Dev nD) (r : Ref sig .tc) (h : r ∉ main_part1_ops6_W) : W16 m ρ c (Proc.devRef .tc r) = W15 m ρ c (Proc.devRef .tc r) :=
  StableHlo.after_of_writes_sub main_part1_ops6 _ main_part1_ops6_writes h
abbrev W17 : Dev nD → Valuation τ sig (Elt F) := fun c => StableHlo.after main_part1_ops7 (W16 m ρ c)
theorem W17_of (c : Dev nD) (r : Ref sig .tc) (h : r ∉ main_part1_ops7_W) : W17 m ρ c (Proc.devRef .tc r) = W16 m ρ c (Proc.devRef .tc r) :=
  StableHlo.after_of_writes_sub main_part1_ops7 _ main_part1_ops7_writes h
abbrev W18 : Dev nD → Valuation τ sig (Elt F) := fun c => StableHlo.after main_part1_ops8 (W17 m ρ c)
theorem W18_of (c : Dev nD) (r : Ref sig .tc) (h : r ∉ main_part1_ops8_W) : W18 m ρ c (Proc.devRef .tc r) = W17 m ρ c (Proc.devRef .tc r) :=
  StableHlo.after_of_writes_sub main_part1_ops8 _ main_part1_ops8_writes h
abbrev W19 : Dev nD → Valuation τ sig (Elt F) := fun c => StableHlo.after main_part1_ops9 (W18 m ρ c)
theorem W19_of (c : Dev nD) (r : Ref sig .tc) (h : r ∉ main_part1_ops9_W) : W19 m ρ c (Proc.devRef .tc r) = W18 m ρ c (Proc.devRef .tc r) :=
  StableHlo.after_of_writes_sub main_part1_ops9 _ main_part1_ops9_writes h
abbrev W20 : Dev nD → Valuation τ sig (Elt F) := fun c => StableHlo.after main_part1_ops10 (W19 m ρ c)
theorem W20_of (c : Dev nD) (r : Ref sig .tc) (h : r ∉ main_part1_ops10_W) : W20 m ρ c (Proc.devRef .tc r) = W19 m ρ c (Proc.devRef .tc r) :=
  StableHlo.after_of_writes_sub main_part1_ops10 _ main_part1_ops10_writes h
abbrev Ventry4 : (c : Dev nD) → (b : Ref sig .tc) → Buf (Elt F) ((c : Thread nD τ).loc b) := fun c b => W20 m ρ c b
def W21 (c : Dev nD) : Valuation τ sig (Elt F) :=
  Pipeline.withArrays spec4 c (W20 m ρ c) fun w => (dat4 (Ventry4 m ρ) c).arrAt w cfg4.N
theorem Wexit4_arr (c : Dev nD) (w : Fin cfg4.W) :
    W21 m ρ c (Proc.devRef .tc (Pipeline.arrRef spec4 w)) = (dat4 (Ventry4 m ρ) c).arrAt w cfg4.N := by
  unfold W21; exact Pipeline.withArrays_arr spec4 launch4.win.arr_inj c _ _ w
theorem Wexit4_of_ne (c : Dev nD) (b : Ref sig .tc) (hb : ∀ w, Pipeline.arrRef spec4 w ≠ b) :
    W21 m ρ c (Proc.devRef .tc b) = W20 m ρ c (Proc.devRef .tc b) := by
  unfold W21; exact Pipeline.withArrays_of_ne spec4 c _ _ b hb
abbrev Vexit4 : (c : Dev nD) → (b : Ref sig .tc) → Buf (Elt F) ((c : Thread nD τ).loc b) := fun c b => W21 m ρ c b
theorem hF4 (c : Dev nD) (w : Fin cfg4.W) : (dat4 (Ventry4 m ρ) c).arrAt w cfg4.N = Vexit4 m ρ c (Pipeline.arrRef spec4 w) :=
  (Wexit4_arr m ρ c w).symm
theorem hrest4 (c : Dev nD) : ∀ b, b ∉ Finset.univ.image (Pipeline.arrRef spec4) → Vexit4 m ρ c b = Ventry4 m ρ c b :=
  fun b hb => Wexit4_of_ne m ρ c b fun w e => hb (Finset.mem_image.mpr ⟨w, Finset.mem_univ _, e⟩)
abbrev W22 : Dev nD → Valuation τ sig (Elt F) := fun c => StableHlo.after main_part1_ops11 (W21 m ρ c)
theorem W22_of (c : Dev nD) (r : Ref sig .tc) (h : r ∉ main_part1_ops11_W) : W22 m ρ c (Proc.devRef .tc r) = W21 m ρ c (Proc.devRef .tc r) :=
  StableHlo.after_of_writes_sub main_part1_ops11 _ main_part1_ops11_writes h
abbrev Ventry5 : (c : Dev nD) → (b : Ref sig .tc) → Buf (Elt F) ((c : Thread nD τ).loc b) := fun c b => W22 m ρ c b
def W23 (c : Dev nD) : Valuation τ sig (Elt F) :=
  Pipeline.withArrays spec5 c (W22 m ρ c) fun w => (dat5 (Ventry5 m ρ) c).arrAt w cfg5.N
theorem Wexit5_arr (c : Dev nD) (w : Fin cfg5.W) :
    W23 m ρ c (Proc.devRef .tc (Pipeline.arrRef spec5 w)) = (dat5 (Ventry5 m ρ) c).arrAt w cfg5.N := by
  unfold W23; exact Pipeline.withArrays_arr spec5 launch5.win.arr_inj c _ _ w
theorem Wexit5_of_ne (c : Dev nD) (b : Ref sig .tc) (hb : ∀ w, Pipeline.arrRef spec5 w ≠ b) :
    W23 m ρ c (Proc.devRef .tc b) = W22 m ρ c (Proc.devRef .tc b) := by
  unfold W23; exact Pipeline.withArrays_of_ne spec5 c _ _ b hb
abbrev Vexit5 : (c : Dev nD) → (b : Ref sig .tc) → Buf (Elt F) ((c : Thread nD τ).loc b) := fun c b => W23 m ρ c b
theorem hF5 (c : Dev nD) (w : Fin cfg5.W) : (dat5 (Ventry5 m ρ) c).arrAt w cfg5.N = Vexit5 m ρ c (Pipeline.arrRef spec5 w) :=
  (Wexit5_arr m ρ c w).symm
theorem hrest5 (c : Dev nD) : ∀ b, b ∉ Finset.univ.image (Pipeline.arrRef spec5) → Vexit5 m ρ c b = Ventry5 m ρ c b :=
  fun b hb => Wexit5_of_ne m ρ c b fun w e => hb (Finset.mem_image.mpr ⟨w, Finset.mem_univ _, e⟩)
abbrev Wlast : Dev nD → Valuation τ sig (Elt F) := W23 m ρ
/-- No host stretch writes `r` and no region's window holds it. -/
abbrev Untouched (r : Ref sig .tc) : Prop :=
  (∀ w, Pipeline.arrRef spec5 w ≠ r) ∧ r ∉ main_part1_ops11_W ∧ (∀ w, Pipeline.arrRef spec4 w ≠ r) ∧ r ∉ main_part1_ops10_W ∧ r ∉ main_part1_ops9_W ∧ r ∉ main_part1_ops8_W ∧ r ∉ main_part1_ops7_W ∧ r ∉ main_part1_ops6_W ∧ (∀ w, Pipeline.arrRef spec3 w ≠ r) ∧ r ∉ main_part1_ops5_W ∧ (∀ w, Pipeline.arrRef spec2 w ≠ r) ∧ r ∉ main_part1_ops4_W ∧ r ∉ main_part1_ops3_W ∧ r ∉ main_part1_ops2_W ∧ r ∉ main_part1_ops1_W ∧ r ∉ main_part1_ops0_W ∧ r ∉ main_part0_ops4_W ∧ (∀ w, Pipeline.arrRef spec1 w ≠ r) ∧ r ∉ main_part0_ops3_W ∧ (∀ w, Pipeline.arrRef spec0 w ≠ r) ∧ r ∉ main_part0_ops2_W ∧ r ∉ main_part0_ops1_W ∧ r ∉ main_part0_ops0_W

/-- Such a reference keeps its launch contents to the end. -/
theorem Wlast_keep (c : Dev nD) (r : Ref sig .tc) (h : Untouched r) :
    Wlast m ρ c (Proc.devRef .tc r) = m ((c : Thread nD τ).loc r) := by
  obtain ⟨h0, h1, h2, h3, h4, h5, h6, h7, h8, h9, h10, h11, h12, h13, h14, h15, h16, h17, h18, h19, h20, h21, h22⟩ := h
  exact (Wexit5_of_ne m ρ c r h0).trans <| (W22_of m ρ c r h1).trans <| (Wexit4_of_ne m ρ c r h2).trans <| (W20_of m ρ c r h3).trans <| (W19_of m ρ c r h4).trans <| (W18_of m ρ c r h5).trans <| (W17_of m ρ c r h6).trans <| (W16_of m ρ c r h7).trans <| (Wexit3_of_ne m ρ c r h8).trans <| (W14_of m ρ c r h9).trans <| (Wexit2_of_ne m ρ c r h10).trans <| (W12_of m ρ c r h11).trans <| (W11_of m ρ c r h12).trans <| (W10_of m ρ c r h13).trans <| (W9_of m ρ c r h14).trans <| (W8_of m ρ c r h15).trans <| (W7_of m ρ c r h16).trans <| (Wexit1_of_ne m ρ c r h17).trans <| (W5_of m ρ c r h18).trans <| (Wexit0_of_ne m ρ c r h19).trans <| (W3_of m ρ c r h20).trans <| (W2_of m ρ c r h21).trans <| (W1_of m ρ c r h22).trans rfl
end Cert.Kernel.Hand
end
-- ==== Proof.K.Segs.lean ====
import proofs.«401578_j53953379173285_3_alg».proof.Proof.K.Bound

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

abbrev adm : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) adm p) c
  | ⟨0, _⟩ => fun c => dat0 (Ventry0 m ρ) c
  | ⟨1, _⟩ => fun c => dat1 (Ventry1 m ρ) c
  | ⟨2, _⟩ => fun c => dat2 (Ventry2 m ρ) c
  | ⟨3, _⟩ => fun c => dat3 (Ventry3 m ρ) c
  | ⟨4, _⟩ => fun c => dat4 (Ventry4 m ρ) c
  | ⟨5, _⟩ => fun c => dat5 (Ventry5 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (Wlast m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ventry0 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (Ventry0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ventry0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec0 c : sProp 𝕄) ⊢ (pdats m ρ 0 c).Φ 0 := hin0 (Ventry0 m ρ) c
    refine .trans ?_ h
    unfold Pipeline.ΦA
    iintro ⟨Hp, -, Hr⟩
    isplitl [Hr]; · iexact Hr
    iexact Hp
  hout c := by
    rw [Pipeline.ownSems0_none]
    have h : (pdats m ρ 0 c).Φ (Fin.last _) ⊢ (Pipeline.ΦA spec0 c : sProp 𝕄) := hout0 (Ventry0 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ventry0 m ρ c) (Vexit0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ventry1 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (Ventry1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ventry1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m ρ 1 c).Φ 0 := hin1 (Ventry1 m ρ) c
    refine .trans ?_ h
    unfold Pipeline.ΦA
    iintro ⟨Hp, -, Hr⟩
    isplitl [Hr]; · iexact Hr
    iexact Hp
  hout c := by
    rw [Pipeline.ownSems0_none]
    have h : (pdats m ρ 1 c).Φ (Fin.last _) ⊢ (Pipeline.ΦA spec1 c : sProp 𝕄) := hout1 (Ventry1 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ventry1 m ρ c) (Vexit1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ventry2 m ρ) c).loose
  hwaits := Pipeline.hwaits_of_owed_zero _ _ _ _ L lv 2 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec2 c (Ventry2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Ventry2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec2 c : sProp 𝕄) ⊢ (pdats m ρ 2 c).Φ 0 := hin2 (Ventry2 m ρ) c
    refine .trans ?_ h
    unfold Pipeline.ΦA
    iintro ⟨Hp, -, Hr⟩
    isplitl [Hr]; · iexact Hr
    iexact Hp
  hout c := by
    rw [Pipeline.ownSems0_none]
    have h : (pdats m ρ 2 c).Φ (Fin.last _) ⊢ (Pipeline.ΦA spec2 c : sProp 𝕄) := hout2 (Ventry2 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Ventry2 m ρ c) (Vexit2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Ventry3 m ρ) c).loose
  hwaits := Pipeline.hwaits_of_owed_zero _ _ _ _ L lv 3 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec3 c (Ventry3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Ventry3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec3 c : sProp 𝕄) ⊢ (pdats m ρ 3 c).Φ 0 := hin3 (Ventry3 m ρ) c
    refine .trans ?_ h
    unfold Pipeline.ΦA
    iintro ⟨Hp, -, Hr⟩
    isplitl [Hr]; · iexact Hr
    iexact Hp
  hout c := by
    rw [Pipeline.ownSems0_none]
    have h : (pdats m ρ 3 c).Φ (Fin.last _) ⊢ (Pipeline.ΦA spec3 c : sProp 𝕄) := hout3 (Ventry3 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Ventry3 m ρ c) (Vexit3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Ventry4 m ρ) c).loose
  hwaits := Pipeline.hwaits_of_owed_zero _ _ _ _ L lv 4 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec4 c (Ventry4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Ventry4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec4 c : sProp 𝕄) ⊢ (pdats m ρ 4 c).Φ 0 := hin4 (Ventry4 m ρ) c
    refine .trans ?_ h
    unfold Pipeline.ΦA
    iintro ⟨Hp, -, Hr⟩
    isplitl [Hr]; · iexact Hr
    iexact Hp
  hout c := by
    rw [Pipeline.ownSems0_none]
    have h : (pdats m ρ 4 c).Φ (Fin.last _) ⊢ (Pipeline.ΦA spec4 c : sProp 𝕄) := hout4 (Ventry4 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Ventry4 m ρ c) (Vexit4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Ventry5 m ρ) c).loose
  hwaits := Pipeline.hwaits_of_owed_zero _ _ _ _ L lv 5 fun _ _ => rfl
  pre c := iprop(StableHlo.held (c : Thread nD τ) (Pipeline.ucRefs τ sig) (W22 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (Ventry5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Ventry5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec5 c : sProp 𝕄) ⊢ (pdats m ρ 5 c).Φ 0 := hin5 (Ventry5 m ρ) c
    refine .trans ?_ h
    unfold Pipeline.ΦA
    iintro ⟨Hp, -, Hr⟩
    isplitl [Hr]; · iexact Hr
    iexact Hp
  hout c := by
    rw [Pipeline.ownSems0_none]
    have h : (pdats m ρ 5 c).Φ (Fin.last _) ⊢ (Pipeline.ΦA spec5 c : sProp 𝕄) := hout5 (Ventry5 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Ventry5 m ρ c) (Vexit5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.K.Run.lean ====
import proofs.«401578_j53953379173285_3_alg».proof.Proof.K.Segs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .region (reg0 m ρ),
    .host (hseg main_part0_ops3 main_part0_ops3_sub main_part0_ops3_fresh (W4 m ρ)),
    .region (reg1 m ρ),
    .host (hseg main_part0_ops4 main_part0_ops4_sub main_part0_ops4_fresh (W6 m ρ)),
    .host (hseg main_part1_ops0 main_part1_ops0_sub main_part1_ops0_fresh (W7 m ρ)),
    .host (hseg main_part1_ops1 main_part1_ops1_sub main_part1_ops1_fresh (W8 m ρ)),
    .host (hseg main_part1_ops2 main_part1_ops2_sub main_part1_ops2_fresh (W9 m ρ)),
    .host (hseg main_part1_ops3 main_part1_ops3_sub main_part1_ops3_fresh (W10 m ρ)),
    .host (hseg main_part1_ops4 main_part1_ops4_sub main_part1_ops4_fresh (W11 m ρ)),
    .region (reg2 m ρ),
    .host (hseg main_part1_ops5 main_part1_ops5_sub main_part1_ops5_fresh (W13 m ρ)),
    .region (reg3 m ρ),
    .host (hseg main_part1_ops6 main_part1_ops6_sub main_part1_ops6_fresh (W15 m ρ)),
    .host (hseg main_part1_ops7 main_part1_ops7_sub main_part1_ops7_fresh (W16 m ρ)),
    .host (hseg main_part1_ops8 main_part1_ops8_sub main_part1_ops8_fresh (W17 m ρ)),
    .host (hseg main_part1_ops9 main_part1_ops9_sub main_part1_ops9_fresh (W18 m ρ)),
    .host (hseg main_part1_ops10 main_part1_ops10_sub main_part1_ops10_fresh (W19 m ρ)),
    .region (reg4 m ρ),
    .host (hseg main_part1_ops11 main_part1_ops11_sub main_part1_ops11_fresh (W21 m ρ)),
    .region (reg5 m ρ) ]

theorem main_run (c : Dev nD) : main (F := F) c = Pipeline.Seg.run (segs m ρ) := (main_chain_windows c).trans (by chain_rfl)

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem ((c : Thread nD τ).1, b) = Wlast m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wlast m ρ c b)
    (hfin := fun c s' => by
      iintro ⟨⟨Hh, -⟩, HSI⟩
      unfold StableHlo.held
      imodintro
      iapply (pointsTo_read_all (Pipeline.ucRefs τ sig) (fun b => (((c : Thread nD τ)).1, b)) (Wlast m ρ c) s')
      isplitl [Hh] <;> iassumption)
    (hQ := fun s h => h)

/-- After the run, an unscoped reference that no host stretch writes and no region's window holds is as launched. -/
theorem kept (c : Dev nD) {mem : (ℓ : Loc nD τ sig) → Buf (Elt F) ℓ}
    (hs : ∀ b ∈ Pipeline.ucRefs τ sig, mem ((c : Thread nD τ).1, b) = Wlast m ρ c b)
    (r : Ref sig .tc) (hr : ¬ (Proc.devRef .tc r : DevRef τ sig).isScoped) (h : Untouched r) :
    mem ((c.tc : Thread nD τ).loc r) = m ((c.tc : Thread nD τ).loc r) :=
  (hs _ (mem_uc r hr)).trans (Wlast_keep m ρ c r h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs (onTc (τ := τ) (main (F := F))) ⟨m, fun _ => 0, ρ⟩).mono (fun r h c => by
    repeat' apply And.intro
    all_goals exact kept m ρ c (h c) _ (by decide) (by decide)) (run m ρ)

end Cert.Kernel.Hand

end
-- ==== Proof.Assemble.lean ====
import proofs.«401578_j53953379173285_3_alg».proof.Defs
import proofs.«401578_j53953379173285_3_alg».proof.Proof.Gen.Kernel
import proofs.«401578_j53953379173285_3_alg».proof.Proof.Gen.KernelIdeal
import proofs.«401578_j53953379173285_3_alg».proof.Proof.Gen.ReferenceIdeal
import proofs.«401578_j53953379173285_3_alg».proof.Proof.Gen.Pre_finite_inputs
import proofs.«401578_j53953379173285_3_alg».proof.Proof.Spec
import proofs.«401578_j53953379173285_3_alg».proof.Proof.Cur
import proofs.«401578_j53953379173285_3_alg».proof.Proof.EdgeMaps
import proofs.«401578_j53953379173285_3_alg».proof.Proof.Algebra
import proofs.«401578_j53953379173285_3_alg».proof.Proof.Ref.Run
import proofs.«401578_j53953379173285_3_alg».proof.Proof.Ref.Value
import proofs.«401578_j53953379173285_3_alg».proof.Proof.KI.Run
import proofs.«401578_j53953379173285_3_alg».proof.Proof.KI.KArgs
import proofs.«401578_j53953379173285_3_alg».proof.Proof.KI.Value
import proofs.«401578_j53953379173285_3_alg».proof.Proof.K.Run

noncomputable section

namespace Cert.Proof.Parts

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ => Cert.ReferenceIdeal.Hand.frame (F := Ideal) m ρ

theorem algebraic : Cert.algebraic_KernelIdeal_ReferenceIdeal := by
  intro m g m' g' hpre hag
  refine ⟨fun c => fun y => Cert.Spec.kOm (Cert.KernelIdeal.HandValue.kArgs m c (Cert.EdgeMaps.srcOf m hpre c) (Cert.EdgeMaps.dstOf m hpre c)) (y 0) (y 1),
    fun c => fun y => Cert.Spec.kOd (Cert.KernelIdeal.HandValue.kArgs m c (Cert.EdgeMaps.srcOf m hpre c) (Cert.EdgeMaps.dstOf m hpre c)) (y 0) (y 1), ?_, ?_⟩
  · refine (θ_run _ _ _).mono (fun r h c => ?_) (Cert.KernelIdeal.Hand.run (F := Ideal) m g)
    refine ⟨(h c _ (Cert.KernelIdeal.Hand.mem_uc Cert.KernelIdeal.main_v93 (by decide))).trans
        (Cert.KernelIdeal.HandValue.kval_v93 m g c _ _ (Cert.EdgeMaps.srcOf_spec m hpre c) (Cert.EdgeMaps.dstOf_spec m hpre c)),
      (h c _ (Cert.KernelIdeal.Hand.mem_uc Cert.KernelIdeal.main_v89 (by decide))).trans
        (Cert.KernelIdeal.HandValue.kval_v89 m g c _ _ (Cert.EdgeMaps.srcOf_spec m hpre c) (Cert.EdgeMaps.dstOf_spec m hpre c)),
      ?_⟩
    repeat' apply And.intro
    all_goals exact Cert.KernelIdeal.Hand.kept m g c (h c) _ (by decide) (by decide)
  · refine (θ_run _ _ _).mono (fun r h c => ?_) (Cert.ReferenceIdeal.Hand.run (F := Ideal) m' g')
    obtain ⟨h89, h70, hargs⟩ := h c
    have hs := Cert.EdgeMaps.srcOf_spec_ref m hpre c m' (hag c).2.2.2.2.1
    have hd := Cert.EdgeMaps.dstOf_spec_ref m hpre c m' (hag c).2.2.2.2.2.1
    have ha : Cert.ReferenceIdeal.HandValue.refArgs m' c (Cert.EdgeMaps.srcOf m hpre c) (Cert.EdgeMaps.dstOf m hpre c)
        = Cert.KernelIdeal.HandValue.kArgs m c (Cert.EdgeMaps.srcOf m hpre c) (Cert.EdgeMaps.dstOf m hpre c) := by
      obtain ⟨h0, h1, h2, h3, h4, h5, h6, h7, h8, h9, h10, h11, h12, h13, h14, h15, h16, h17, h18, h19, h20, h21, h22, h23⟩ := hag c
      unfold Cert.ReferenceIdeal.HandValue.refArgs Cert.KernelIdeal.HandValue.kArgs
      rw [h0, h1, h2, h3, h6, h7, h8, h9, h10, h11, h12, h13, h14, h15, h16, h17, h18, h19, h20, h21, h22, h23]
    have em : Cert.Spec.rOm (Cert.ReferenceIdeal.HandValue.refArgs m' c (Cert.EdgeMaps.srcOf m hpre c) (Cert.EdgeMaps.dstOf m hpre c))
        = Cert.Spec.kOm (Cert.KernelIdeal.HandValue.kArgs m c (Cert.EdgeMaps.srcOf m hpre c) (Cert.EdgeMaps.dstOf m hpre c)) := by
      rw [ha, Cert.Spec.kOm_eq_rOm]
    have ed : Cert.Spec.rOd (Cert.ReferenceIdeal.HandValue.refArgs m' c (Cert.EdgeMaps.srcOf m hpre c) (Cert.EdgeMaps.dstOf m hpre c))
        = Cert.Spec.kOd (Cert.KernelIdeal.HandValue.kArgs m c (Cert.EdgeMaps.srcOf m hpre c) (Cert.EdgeMaps.dstOf m hpre c)) := by
      rw [ha, Cert.Spec.kOd_eq_rOd]
    exact ⟨h89.trans ((Cert.ReferenceIdeal.HandValue.res_v89 m' c _ _ hs hd).trans
        (congrArg (fun (f : Fin 20000 → Fin 256 → EReal) => fun (y : Cert.ReferenceIdeal.S20000x256.Idx) => f (y 0) (y 1)) em)),
      h70.trans ((Cert.ReferenceIdeal.HandValue.res_v70 m' c _ _ hs hd).trans
        (congrArg (fun (f : Fin 8000 → Fin 256 → EReal) => fun (y : Cert.ReferenceIdeal.S8000x256.Idx) => f (y 0) (y 1)) ed)), hargs⟩

end Cert.Proof.Parts

end
-- ==== Proof.lean ====
import proofs.«401578_j53953379173285_3_alg».proof.Defs
import proofs.«401578_j53953379173285_3_alg».proof.Proof.Gen.Kernel
import proofs.«401578_j53953379173285_3_alg».proof.Proof.Gen.KernelIdeal
import proofs.«401578_j53953379173285_3_alg».proof.Proof.Gen.ReferenceIdeal
import proofs.«401578_j53953379173285_3_alg».proof.Proof.Gen.Pre_finite_inputs
import proofs.«401578_j53953379173285_3_alg».proof.Proof.Assemble

noncomputable section

namespace Cert.Proof

theorem claim : Cert.Claim := ⟨Cert.Kernel.Gen.facts, Cert.KernelIdeal.Gen.facts, Cert.ReferenceIdeal.Gen.facts, Cert.Pre_finite_inputs.Gen.facts,
  Parts.frame_k, Parts.frame_ki, Parts.frame_ri, trivial, Parts.algebraic⟩

end Cert.Proof

end
